-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S320x64 : Shape := ⟨2, ![320, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S320x64 : S_.BroadcastsInDim S320x64 (![] : Fin 0 → Fin S320x64.rank)
  reducesTo_S320x64_S_d0_1 : S320x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg15 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg15
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg11 : FVec F S4x64 .f32) (main_arg12 : FVec F S320x64 .f32) (main_arg13 : FVec F S64 .f32) (main_arg14 : FVec F S64x32 .f32) (main_arg15 : FVec F S32 .f32) (main_v33 : IVec S_ 1) : IVec S_ 1 :=
  let main_v34 : FVec F S4x64 .f32 := Host.absf main_arg11
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S320x64 .f32 := Host.absf main_arg12
  let main_cst_14 : FVec F S_ .f32 := constant S_ .f32 0x7F800000#32
  let main_v40 : FVec F S320x64 .f32 := broadcastInDim S320x64 ![] bcast_S_S320x64 main_cst_14
  let main_v41 : IVec S320x64 1 := cmpf .olt main_v39 main_v40
  let main_c_15 : IVec S_ 1 := constantI S_ 1 1#1
  let main_v42 : IVec S_ 1 := (fun x v => Host.reduce IntOp.andi x v reducesTo_S320x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg14
  let main_cst_18 : FVec F S_ .f32 := constant S_ .f32 0x7F800000#32
  let main_v50 : FVec F S64x32 .f32 := broadcastInDim S64x32 ![] bcast_S_S64x32 main_cst_18
  fn_part3 (F := F) main_arg15 main_v48 main_v49 main_v50

def fn_part1 {F : FTy → Type} [FloatOps F] (main_arg8 : FVec F S4x64x64 .f32) (main_arg9 : FVec F S4x64 .f32) (main_arg10 : FVec F S4x64x64 .f32) (main_arg11 : FVec F S4x64 .f32) (main_arg12 : FVec F S320x64 .f32) (main_arg13 : FVec F S64 .f32) (main_arg14 : FVec F S64x32 .f32) (main_arg15 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg8
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg9
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x64 .f32 := Host.absf main_arg10
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S100000x32 .f32) (main_arg1 : IVec S2x1600000 32) (main_arg2 : IVec S100000 32) (main_arg3 : FVec F S100000x32 .f32) (main_arg4 : IVec S2x1600000 32) (main_arg5 : IVec S100000 32) (main_arg6 : FVec F S32x64 .f32) (main_arg7 : FVec F S64 .f32) (main_arg8 : FVec F S4x64x64 .f32) (main_arg9 : FVec F S4x64 .f32) (main_arg10 : FVec F S4x64x64 .f32) (main_arg11 : FVec F S4x64 .f32) (main_arg12 : FVec F S320x64 .f32) (main_arg13 : FVec F S64 .f32) (main_arg14 : FVec F S64x32 .f32) (main_arg15 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x64 .f32 := Host.absf main_arg6
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S320x64 : Shape := ⟨2, ![320, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S100000x320 : Shape := ⟨2, ![100000, 320]⟩
abbrev S128x320 : Shape := ⟨2, ![128, 320]⟩
abbrev S100000x1 : Shape := ⟨2, ![100000, 1]⟩
abbrev S1x32 : Shape := ⟨2, ![1, 32]⟩
abbrev S128x32 : Shape := ⟨2, ![128, 32]⟩
abbrev S128x64 : Shape := ⟨2, ![128, 64]⟩
abbrev S128 : Shape := ⟨1, ![128]⟩

abbrev nBuf : Space → Nat
  | .hbm => 263
  | .vmem => 136
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S100000x32, .f32⟩
  | 4 => ⟨S2x1600000, .i32⟩
  | 5 => ⟨S100000, .i32⟩
  | 6 => ⟨S32x64, .f32⟩
  | 7 => ⟨S64, .f32⟩
  | 8 => ⟨S4x64x64, .f32⟩
  | 9 => ⟨S4x64, .f32⟩
  | 10 => ⟨S4x64x64, .f32⟩
  | 11 => ⟨S4x64, .f32⟩
  | 12 => ⟨S320x64, .f32⟩
  | 13 => ⟨S64, .f32⟩
  | 14 => ⟨S64x32, .f32⟩
  | 15 => ⟨S32, .f32⟩
  | 16 => ⟨S1x1600000, .i32⟩
  | 17 => ⟨S1600000, .i32⟩
  | 18 => ⟨S1x1600000, .i32⟩
  | 19 => ⟨S1600000, .i32⟩
  | 20 => ⟨S1x64, .f32⟩
  | 21 => ⟨S100000x64, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S1x64x64, .f32⟩
  | 36 => ⟨S64x64, .f32⟩
  | 37 => ⟨S1x64, .f32⟩
  | 38 => ⟨S64, .f32⟩
  | 39 => ⟨S1x64x64, .f32⟩
  | 40 => ⟨S64x64, .f32⟩
  | 41 => ⟨S1x64, .f32⟩
  | 42 => ⟨S64, .f32⟩
  | 43 => ⟨S1x64, .f32⟩
  | 44 => ⟨S1x64, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1x64x64, .f32⟩
  | 61 => ⟨S64x64, .f32⟩
  | 62 => ⟨S1x64, .f32⟩
  | 63 => ⟨S64, .f32⟩
  | 64 => ⟨S1x64x64, .f32⟩
  | 65 => ⟨S64x64, .f32⟩
  | 66 => ⟨S1x64, .f32⟩
  | 67 => ⟨S64, .f32⟩
  | 68 => ⟨S1x64, .f32⟩
  | 69 => ⟨S1x64, .f32⟩
  | 70 => ⟨S100000x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S1x64x64, .f32⟩
  | 86 => ⟨S64x64, .f32⟩
  | 87 => ⟨S1x64, .f32⟩
  | 88 => ⟨S64, .f32⟩
  | 89 => ⟨S1x64x64, .f32⟩
  | 90 => ⟨S64x64, .f32⟩
  | 91 => ⟨S1x64, .f32⟩
  | 92 => ⟨S64, .f32⟩
  | 93 => ⟨S1x64, .f32⟩
  | 94 => ⟨S1x64, .f32⟩
  | 95 => ⟨S100000x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S1x64x64, .f32⟩
  | 111 => ⟨S64x64, .f32⟩
  | 112 => ⟨S1x64, .f32⟩
  | 113 => ⟨S64, .f32⟩
  | 114 => ⟨S1x64x64, .f32⟩
  | 115 => ⟨S64x64, .f32⟩
  | 116 => ⟨S1x64, .f32⟩
  | 117 => ⟨S64, .f32⟩
  | 118 => ⟨S1x64, .f32⟩
  | 119 => ⟨S1x64, .f32⟩
  | 120 => ⟨S100000x64, .f32⟩
  | 121 => ⟨S100000x64, .f32⟩
  | 122 => ⟨S100000x320, .f32⟩
  | 123 => ⟨S_, .f32⟩
  | 124 => ⟨S128x320, .f32⟩
  | 125 => ⟨S100000x1, .i32⟩
  | 126 => ⟨S128x320, .f32⟩
  | 127 => ⟨S1x64, .f32⟩
  | _ => ⟨S100000x32, .f32⟩

abbrev hbmTy0_1 (i : Nat) : BufTy := match i % 128 with
  | 0 => ⟨S1x32, .f32⟩
  | 1 => ⟨S128x32, .f32⟩
  | 2 => ⟨S1x1600000, .i32⟩
  | 3 => ⟨S1600000, .i32⟩
  | 4 => ⟨S1x1600000, .i32⟩
  | 5 => ⟨S1600000, .i32⟩
  | 6 => ⟨S1x64, .f32⟩
  | 7 => ⟨S100000x64, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S1x64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S1x64, .f32⟩
  | 31 => ⟨S100000x64, .f32⟩
  | 32 => ⟨S100000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S1x64x64, .f32⟩
  | 47 => ⟨S64x64, .f32⟩
  | 48 => ⟨S1x64, .f32⟩
  | 49 => ⟨S64, .f32⟩
  | 50 => ⟨S1x64x64, .f32⟩
  | 51 => ⟨S64x64, .f32⟩
  | 52 => ⟨S1x64, .f32⟩
  | 53 => ⟨S64, .f32⟩
  | 54 => ⟨S1x64, .f32⟩
  | 55 => ⟨S1x64, .f32⟩
  | 56 => ⟨S100000x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S1x64x64, .f32⟩
  | 72 => ⟨S64x64, .f32⟩
  | 73 => ⟨S1x64, .f32⟩
  | 74 => ⟨S64, .f32⟩
  | 75 => ⟨S1x64x64, .f32⟩
  | 76 => ⟨S64x64, .f32⟩
  | 77 => ⟨S1x64, .f32⟩
  | 78 => ⟨S64, .f32⟩
  | 79 => ⟨S1x64, .f32⟩
  | 80 => ⟨S1x64, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S1x64x64, .f32⟩
  | 97 => ⟨S64x64, .f32⟩
  | 98 => ⟨S1x64, .f32⟩
  | 99 => ⟨S64, .f32⟩
  | 100 => ⟨S1x64x64, .f32⟩
  | 101 => ⟨S64x64, .f32⟩
  | 102 => ⟨S1x64, .f32⟩
  | 103 => ⟨S64, .f32⟩
  | 104 => ⟨S1x64, .f32⟩
  | 105 => ⟨S1x64, .f32⟩
  | 106 => ⟨S100000x64, .f32⟩
  | 107 => ⟨S100000x64, .f32⟩
  | 108 => ⟨S100000x320, .f32⟩
  | 109 => ⟨S_, .f32⟩
  | 110 => ⟨S128x320, .f32⟩
  | 111 => ⟨S100000x1, .i32⟩
  | 112 => ⟨S128x320, .f32⟩
  | 113 => ⟨S1x64, .f32⟩
  | 114 => ⟨S1x32, .f32⟩
  | 115 => ⟨S128x32, .f32⟩
  | 116 => ⟨S128x32, .f32⟩
  | 117 => ⟨S_, .f32⟩
  | 118 => ⟨S128x32, .f32⟩
  | 119 => ⟨S128x32, .f32⟩
  | 120 => ⟨S_, .f32⟩
  | 121 => ⟨S128x32, .f32⟩
  | 122 => ⟨S128x32, .f32⟩
  | 123 => ⟨S_, .f32⟩
  | 124 => ⟨S128, .f32⟩
  | 125 => ⟨S128x32, .f32⟩
  | 126 => ⟨S_, .f32⟩
  | 127 => ⟨S128x32, .f32⟩
  | _ => ⟨S100000x32, .f32⟩

abbrev hbmTy0_2 (i : Nat) : BufTy := match i % 128 with
  | 0 => ⟨S128x32, .f32⟩
  | 1 => ⟨S_, .f32⟩
  | 2 => ⟨S128x32, .f32⟩
  | 3 => ⟨S128x32, .f32⟩
  | 4 => ⟨S_, .f32⟩
  | 5 => ⟨S128, .f32⟩
  | 6 => ⟨S128, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev vmemTy0_0 (i : Nat) : BufTy := match i % 128 with
  | 0 => ⟨S5000x32, .f32⟩
  | 1 => ⟨S5000x32, .f32⟩
  | 2 => ⟨S32x64, .f32⟩
  | 3 => ⟨S1x64, .f32⟩
  | 4 => ⟨S5000x64, .f32⟩
  | 5 => ⟨S5000x64, .f32⟩
  | 6 => ⟨S5000x64, .f32⟩
  | 7 => ⟨S5000x64, .f32⟩
  | 8 => ⟨S5000x64, .f32⟩
  | 9 => ⟨S5000x64, .f32⟩
  | 10 => ⟨S5000x64, .f32⟩
  | 11 => ⟨S5000x64, .f32⟩
  | 12 => ⟨S64x64, .f32⟩
  | 13 => ⟨S1x64, .f32⟩
  | 14 => ⟨S64x64, .f32⟩
  | 15 => ⟨S1x64, .f32⟩
  | 16 => ⟨S5000x64, .f32⟩
  | 17 => ⟨S5000x64, .f32⟩
  | 18 => ⟨S5000x64, .f32⟩
  | 19 => ⟨S5000x64, .f32⟩
  | 20 => ⟨S5000x64, .f32⟩
  | 21 => ⟨S5000x64, .f32⟩
  | 22 => ⟨S5000x64, .f32⟩
  | 23 => ⟨S5000x64, .f32⟩
  | 24 => ⟨S5000x64, .f32⟩
  | 25 => ⟨S5000x64, .f32⟩
  | 26 => ⟨S64x64, .f32⟩
  | 27 => ⟨S1x64, .f32⟩
  | 28 => ⟨S64x64, .f32⟩
  | 29 => ⟨S1x64, .f32⟩
  | 30 => ⟨S5000x64, .f32⟩
  | 31 => ⟨S5000x64, .f32⟩
  | 32 => ⟨S5000x64, .f32⟩
  | 33 => ⟨S5000x64, .f32⟩
  | 34 => ⟨S5000x64, .f32⟩
  | 35 => ⟨S5000x64, .f32⟩
  | 36 => ⟨S5000x64, .f32⟩
  | 37 => ⟨S5000x64, .f32⟩
  | 38 => ⟨S5000x64, .f32⟩
  | 39 => ⟨S5000x64, .f32⟩
  | 40 => ⟨S64x64, .f32⟩
  | 41 => ⟨S1x64, .f32⟩
  | 42 => ⟨S64x64, .f32⟩
  | 43 => ⟨S1x64, .f32⟩
  | 44 => ⟨S5000x64, .f32⟩
  | 45 => ⟨S5000x64, .f32⟩
  | 46 => ⟨S5000x64, .f32⟩
  | 47 => ⟨S5000x64, .f32⟩
  | 48 => ⟨S5000x64, .f32⟩
  | 49 => ⟨S5000x64, .f32⟩
  | 50 => ⟨S5000x64, .f32⟩
  | 51 => ⟨S5000x64, .f32⟩
  | 52 => ⟨S5000x64, .f32⟩
  | 53 => ⟨S5000x64, .f32⟩
  | 54 => ⟨S64x64, .f32⟩
  | 55 => ⟨S1x64, .f32⟩
  | 56 => ⟨S64x64, .f32⟩
  | 57 => ⟨S1x64, .f32⟩
  | 58 => ⟨S5000x64, .f32⟩
  | 59 => ⟨S5000x64, .f32⟩
  | 60 => ⟨S5000x64, .f32⟩
  | 61 => ⟨S5000x64, .f32⟩
  | 62 => ⟨S128x320, .f32⟩
  | 63 => ⟨S320x64, .f32⟩
  | 64 => ⟨S1x64, .f32⟩
  | 65 => ⟨S64x32, .f32⟩
  | 66 => ⟨S1x32, .f32⟩
  | 67 => ⟨S128x32, .f32⟩
  | 68 => ⟨S5000x32, .f32⟩
  | 69 => ⟨S5000x32, .f32⟩
  | 70 => ⟨S32x64, .f32⟩
  | 71 => ⟨S1x64, .f32⟩
  | 72 => ⟨S5000x64, .f32⟩
  | 73 => ⟨S5000x64, .f32⟩
  | 74 => ⟨S5000x64, .f32⟩
  | 75 => ⟨S5000x64, .f32⟩
  | 76 => ⟨S5000x64, .f32⟩
  | 77 => ⟨S5000x64, .f32⟩
  | 78 => ⟨S5000x64, .f32⟩
  | 79 => ⟨S5000x64, .f32⟩
  | 80 => ⟨S64x64, .f32⟩
  | 81 => ⟨S1x64, .f32⟩
  | 82 => ⟨S64x64, .f32⟩
  | 83 => ⟨S1x64, .f32⟩
  | 84 => ⟨S5000x64, .f32⟩
  | 85 => ⟨S5000x64, .f32⟩
  | 86 => ⟨S5000x64, .f32⟩
  | 87 => ⟨S5000x64, .f32⟩
  | 88 => ⟨S5000x64, .f32⟩
  | 89 => ⟨S5000x64, .f32⟩
  | 90 => ⟨S5000x64, .f32⟩
  | 91 => ⟨S5000x64, .f32⟩
  | 92 => ⟨S5000x64, .f32⟩
  | 93 => ⟨S5000x64, .f32⟩
  | 94 => ⟨S64x64, .f32⟩
  | 95 => ⟨S1x64, .f32⟩
  | 96 => ⟨S64x64, .f32⟩
  | 97 => ⟨S1x64, .f32⟩
  | 98 => ⟨S5000x64, .f32⟩
  | 99 => ⟨S5000x64, .f32⟩
  | 100 => ⟨S5000x64, .f32⟩
  | 101 => ⟨S5000x64, .f32⟩
  | 102 => ⟨S5000x64, .f32⟩
  | 103 => ⟨S5000x64, .f32⟩
  | 104 => ⟨S5000x64, .f32⟩
  | 105 => ⟨S5000x64, .f32⟩
  | 106 => ⟨S5000x64, .f32⟩
  | 107 => ⟨S5000x64, .f32⟩
  | 108 => ⟨S64x64, .f32⟩
  | 109 => ⟨S1x64, .f32⟩
  | 110 => ⟨S64x64, .f32⟩
  | 111 => ⟨S1x64, .f32⟩
  | 112 => ⟨S5000x64, .f32⟩
  | 113 => ⟨S5000x64, .f32⟩
  | 114 => ⟨S5000x64, .f32⟩
  | 115 => ⟨S5000x64, .f32⟩
  | 116 => ⟨S5000x64, .f32⟩
  | 117 => ⟨S5000x64, .f32⟩
  | 118 => ⟨S5000x64, .f32⟩
  | 119 => ⟨S5000x64, .f32⟩
  | 120 => ⟨S5000x64, .f32⟩
  | 121 => ⟨S5000x64, .f32⟩
  | 122 => ⟨S64x64, .f32⟩
  | 123 => ⟨S1x64, .f32⟩
  | 124 => ⟨S64x64, .f32⟩
  | 125 => ⟨S1x64, .f32⟩
  | 126 => ⟨S5000x64, .f32⟩
  | 127 => ⟨S5000x64, .f32⟩
  | _ => ⟨S100000x32, .f32⟩

abbrev vmemTy0_1 (i : Nat) : BufTy := match i % 128 with
  | 0 => ⟨S5000x64, .f32⟩
  | 1 => ⟨S5000x64, .f32⟩
  | 2 => ⟨S128x320, .f32⟩
  | 3 => ⟨S320x64, .f32⟩
  | 4 => ⟨S1x64, .f32⟩
  | 5 => ⟨S64x32, .f32⟩
  | 6 => ⟨S1x32, .f32⟩
  | 7 => ⟨S128x32, .f32⟩
  | _ => ⟨S100000x32, .f32⟩

abbrev vmemTy (i : Nat) : BufTy := match i / 128 with
  | 0 => vmemTy0_0 i
  | 1 => vmemTy0_1 i
  | _ => ⟨S100000x32, .f32⟩

abbrev bufTy : (tb : Table) → Fin (tcTables nBuf tb) → BufTy
  | .hbm, ⟨i, _⟩ => hbmTy i
  | .local _ .vmem, ⟨i, _⟩ => vmemTy i
  | _, _ => ⟨S100000x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_c_1 : Ref sig .tc := ⟨.hbm, 47, rfl⟩
abbrev main_v27 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47_0 : Ref sig .tc := ⟨.hbm, 70, rfl⟩
abbrev main_v47_1 : Ref sig .tc := ⟨.hbm, 71, rfl⟩
abbrev main_c_4 : Ref sig .tc := ⟨.hbm, 72, rfl⟩
abbrev main_v48 : Ref sig .tc := ⟨.hbm, 73, rfl⟩
abbrev main_v49 : Ref sig .tc := ⟨.hbm, 74, rfl⟩
abbrev main_c_5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68_0 : Ref sig .tc := ⟨.hbm, 95, rfl⟩
abbrev main_v68_1 : Ref sig .tc := ⟨.hbm, 96, rfl⟩
abbrev main_c_7 : Ref sig .tc := ⟨.hbm, 97, rfl⟩
abbrev main_v69 : Ref sig .tc := ⟨.hbm, 98, rfl⟩
abbrev main_v70 : Ref sig .tc := ⟨.hbm, 99, rfl⟩
abbrev main_c_8 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_9 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89_0 : Ref sig .tc := ⟨.hbm, 120, rfl⟩
abbrev main_v89_1 : Ref sig .tc := ⟨.hbm, 121, rfl⟩
abbrev main_v90 : Ref sig .tc := ⟨.hbm, 122, rfl⟩
abbrev main_cst_10 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_11 : Ref sig .tc := ⟨.hbm, 136, rfl⟩
abbrev main_v103 : Ref sig .tc := ⟨.hbm, 137, rfl⟩
abbrev main_v104 : Ref sig .tc := ⟨.hbm, 138, rfl⟩
abbrev main_c_12 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_13 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123_0 : Ref sig .tc := ⟨.hbm, 159, rfl⟩
abbrev main_v123_1 : Ref sig .tc := ⟨.hbm, 160, rfl⟩
abbrev main_c_14 : Ref sig .tc := ⟨.hbm, 161, rfl⟩
abbrev main_v124 : Ref sig .tc := ⟨.hbm, 162, rfl⟩
abbrev main_v125 : Ref sig .tc := ⟨.hbm, 163, rfl⟩
abbrev main_c_15 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_16 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144_0 : Ref sig .tc := ⟨.hbm, 184, rfl⟩
abbrev main_v144_1 : Ref sig .tc := ⟨.hbm, 185, rfl⟩
abbrev main_c_17 : Ref sig .tc := ⟨.hbm, 186, rfl⟩
abbrev main_v145 : Ref sig .tc := ⟨.hbm, 187, rfl⟩
abbrev main_v146 : Ref sig .tc := ⟨.hbm, 188, rfl⟩
abbrev main_c_18 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_19 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165_0 : Ref sig .tc := ⟨.hbm, 209, rfl⟩
abbrev main_v165_1 : Ref sig .tc := ⟨.hbm, 210, rfl⟩
abbrev main_c_20 : Ref sig .tc := ⟨.hbm, 211, rfl⟩
abbrev main_v166 : Ref sig .tc := ⟨.hbm, 212, rfl⟩
abbrev main_v167 : Ref sig .tc := ⟨.hbm, 213, rfl⟩
abbrev main_c_21 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_22 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186_0 : Ref sig .tc := ⟨.hbm, 234, rfl⟩
abbrev main_v186_1 : Ref sig .tc := ⟨.hbm, 235, rfl⟩
abbrev main_v187 : Ref sig .tc := ⟨.hbm, 236, rfl⟩
abbrev main_cst_23 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_call0_cst : Ref sig .tc := ⟨.hbm, 245, rfl⟩
abbrev main_call0_v0 : Ref sig .tc := ⟨.hbm, 246, rfl⟩
abbrev main_v195 : Ref sig .tc := ⟨.hbm, 247, rfl⟩
abbrev main_cst_24 : Ref sig .tc := ⟨.hbm, 248, rfl⟩
abbrev main_v196 : Ref sig .tc := ⟨.hbm, 249, rfl⟩
abbrev main_v197 : Ref sig .tc := ⟨.hbm, 250, rfl⟩
abbrev main_cst_25 : Ref sig .tc := ⟨.hbm, 251, rfl⟩
abbrev main_v198 : Ref sig .tc := ⟨.hbm, 252, rfl⟩
abbrev main_v199 : Ref sig .tc := ⟨.hbm, 253, rfl⟩
abbrev main_call1_cst : Ref sig .tc := ⟨.hbm, 254, rfl⟩
abbrev main_call1_v0 : Ref sig .tc := ⟨.hbm, 255, rfl⟩
abbrev main_v200 : Ref sig .tc := ⟨.hbm, 256, rfl⟩
abbrev main_cst_26 : Ref sig .tc := ⟨.hbm, 257, rfl⟩
abbrev main_v201 : Ref sig .tc := ⟨.hbm, 258, rfl⟩
abbrev main_v202 : Ref sig .tc := ⟨.hbm, 259, rfl⟩
abbrev main_cst_27 : Ref sig .tc := ⟨.hbm, 260, rfl⟩
abbrev main_v203 : Ref sig .tc := ⟨.hbm, 261, rfl⟩
abbrev main_v204 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg7_1 : Ref sig .tc := ⟨.vmem, 59, rfl⟩
abbrev cc4_stg8_0 : Ref sig .tc := ⟨.vmem, 60, rfl⟩
abbrev cc4_stg8_1 : Ref sig .tc := ⟨.vmem, 61, rfl⟩
abbrev cc5_stg0_0 : Ref sig .tc := ⟨.vmem, 62, rfl⟩
abbrev cc5_stg1_0 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg5_0 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg2_0 : Ref sig .tc := ⟨.vmem, 71, rfl⟩
abbrev cc6_stg3_0 : Ref sig .tc := ⟨.vmem, 72, rfl⟩
abbrev cc6_stg3_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg2_1 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg6_0 : Ref sig .tc := ⟨.vmem, 83, rfl⟩
abbrev cc7_stg7_0 : Ref sig .tc := ⟨.vmem, 84, rfl⟩
abbrev cc7_stg7_1 : Ref sig .tc := ⟨.vmem, 85, rfl⟩
abbrev cc7_stg8_0 : Ref sig .tc := ⟨.vmem, 86, rfl⟩
abbrev cc7_stg8_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg2_1 : Ref sig .tc := ⟨.vmem, 93, rfl⟩
abbrev cc8_stg3_0 : Ref sig .tc := ⟨.vmem, 94, rfl⟩
abbrev cc8_stg4_0 : Ref sig .tc := ⟨.vmem, 95, rfl⟩
abbrev cc8_stg5_0 : Ref sig .tc := ⟨.vmem, 96, rfl⟩
abbrev cc8_stg6_0 : Ref sig .tc := ⟨.vmem, 97, rfl⟩
abbrev cc8_stg7_0 : Ref sig .tc := ⟨.vmem, 98, rfl⟩
abbrev cc8_stg7_1 : Ref sig .tc := ⟨.vmem, 99, rfl⟩
abbrev cc8_stg8_0 : Ref sig .tc := ⟨.vmem, 100, rfl⟩
abbrev cc8_stg8_1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg1_1 : Ref sig .tc := ⟨.vmem, 105, rfl⟩
abbrev cc9_stg2_0 : Ref sig .tc := ⟨.vmem, 106, rfl⟩
abbrev cc9_stg2_1 : Ref sig .tc := ⟨.vmem, 107, rfl⟩
abbrev cc9_stg3_0 : Ref sig .tc := ⟨.vmem, 108, rfl⟩
abbrev cc9_stg4_0 : Ref sig .tc := ⟨.vmem, 109, rfl⟩
abbrev cc9_stg5_0 : Ref sig .tc := ⟨.vmem, 110, rfl⟩
abbrev cc9_stg6_0 : Ref sig .tc := ⟨.vmem, 111, rfl⟩
abbrev cc9_stg7_0 : Ref sig .tc := ⟨.vmem, 112, rfl⟩
abbrev cc9_stg7_1 : Ref sig .tc := ⟨.vmem, 113, rfl⟩
abbrev cc9_stg8_0 : Ref sig .tc := ⟨.vmem, 114, rfl⟩
abbrev cc9_stg8_1 : Ref sig .tc := ⟨.vmem, 115, rfl⟩
abbrev cc10_stg0_0 : Ref sig .tc := ⟨.vmem, 116, rfl⟩
abbrev cc10_stg0_1 : Ref sig .tc := ⟨.vmem, 117, rfl⟩
abbrev cc10_stg1_0 : Ref sig .tc := ⟨.vmem, 118, rfl⟩
abbrev cc10_stg1_1 : Ref sig .tc := ⟨.vmem, 119, rfl⟩
abbrev cc10_stg2_0 : Ref sig .tc := ⟨.vmem, 120, rfl⟩
abbrev cc10_stg2_1 : Ref sig .tc := ⟨.vmem, 121, rfl⟩
abbrev cc10_stg3_0 : Ref sig .tc := ⟨.vmem, 122, rfl⟩
abbrev cc10_stg4_0 : Ref sig .tc := ⟨.vmem, 123, rfl⟩
abbrev cc10_stg5_0 : Ref sig .tc := ⟨.vmem, 124, rfl⟩
abbrev cc10_stg6_0 : Ref sig .tc := ⟨.vmem, 125, rfl⟩
abbrev cc10_stg7_0 : Ref sig .tc := ⟨.vmem, 126, rfl⟩
abbrev cc10_stg7_1 : Ref sig .tc := ⟨.vmem, 127, rfl⟩
abbrev cc10_stg8_0 : Ref sig .tc := ⟨.vmem, 128, rfl⟩
abbrev cc10_stg8_1 : Ref sig .tc := ⟨.vmem, 129, rfl⟩
abbrev cc11_stg0_0 : Ref sig .tc := ⟨.vmem, 130, rfl⟩
abbrev cc11_stg1_0 : Ref sig .tc := ⟨.vmem, 131, rfl⟩
abbrev cc11_stg2_0 : Ref sig .tc := ⟨.vmem, 132, rfl⟩
abbrev cc11_stg3_0 : Ref sig .tc := ⟨.vmem, 133, rfl⟩
abbrev cc11_stg4_0 : Ref sig .tc := ⟨.vmem, 134, rfl⟩
abbrev cc11_stg5_0 : Ref sig .tc := ⟨.vmem, 135, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem7_1 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem7_1 : DmaSem sig := 59
abbrev cc4_sem8_0 : DmaSem sig := 60
abbrev cc4_sem8_1 : DmaSem sig := 61
abbrev cc5_sem0_0 : DmaSem sig := 62
abbrev cc5_sem1_0 : DmaSem sig := 63
abbrev cc5_sem2_0 : DmaSem sig := 64
abbrev cc5_sem3_0 : DmaSem sig := 65
abbrev cc5_sem4_0 : DmaSem sig := 66
abbrev cc5_sem5_0 : DmaSem sig := 67
abbrev cc6_sem0_0 : DmaSem sig := 68
abbrev cc6_sem0_1 : DmaSem sig := 69
abbrev cc6_sem1_0 : DmaSem sig := 70
abbrev cc6_sem2_0 : DmaSem sig := 71
abbrev cc6_sem3_0 : DmaSem sig := 72
abbrev cc6_sem3_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc7_sem3_0 : DmaSem sig := 80
abbrev cc7_sem4_0 : DmaSem sig := 81
abbrev cc7_sem5_0 : DmaSem sig := 82
abbrev cc7_sem6_0 : DmaSem sig := 83
abbrev cc7_sem7_0 : DmaSem sig := 84
abbrev cc7_sem7_1 : DmaSem sig := 85
abbrev cc7_sem8_0 : DmaSem sig := 86
abbrev cc7_sem8_1 : DmaSem sig := 87
abbrev cc8_sem0_0 : DmaSem sig := 88
abbrev cc8_sem0_1 : DmaSem sig := 89
abbrev cc8_sem1_0 : DmaSem sig := 90
abbrev cc8_sem1_1 : DmaSem sig := 91
abbrev cc8_sem2_0 : DmaSem sig := 92
abbrev cc8_sem2_1 : DmaSem sig := 93
abbrev cc8_sem3_0 : DmaSem sig := 94
abbrev cc8_sem4_0 : DmaSem sig := 95
abbrev cc8_sem5_0 : DmaSem sig := 96
abbrev cc8_sem6_0 : DmaSem sig := 97
abbrev cc8_sem7_0 : DmaSem sig := 98
abbrev cc8_sem7_1 : DmaSem sig := 99
abbrev cc8_sem8_0 : DmaSem sig := 100
abbrev cc8_sem8_1 : DmaSem sig := 101
abbrev cc9_sem0_0 : DmaSem sig := 102
abbrev cc9_sem0_1 : DmaSem sig := 103
abbrev cc9_sem1_0 : DmaSem sig := 104
abbrev cc9_sem1_1 : DmaSem sig := 105
abbrev cc9_sem2_0 : DmaSem sig := 106
abbrev cc9_sem2_1 : DmaSem sig := 107
abbrev cc9_sem3_0 : DmaSem sig := 108
abbrev cc9_sem4_0 : DmaSem sig := 109
abbrev cc9_sem5_0 : DmaSem sig := 110
abbrev cc9_sem6_0 : DmaSem sig := 111
abbrev cc9_sem7_0 : DmaSem sig := 112
abbrev cc9_sem7_1 : DmaSem sig := 113
abbrev cc9_sem8_0 : DmaSem sig := 114
abbrev cc9_sem8_1 : DmaSem sig := 115
abbrev cc10_sem0_0 : DmaSem sig := 116
abbrev cc10_sem0_1 : DmaSem sig := 117
abbrev cc10_sem1_0 : DmaSem sig := 118
abbrev cc10_sem1_1 : DmaSem sig := 119
abbrev cc10_sem2_0 : DmaSem sig := 120
abbrev cc10_sem2_1 : DmaSem sig := 121
abbrev cc10_sem3_0 : DmaSem sig := 122
abbrev cc10_sem4_0 : DmaSem sig := 123
abbrev cc10_sem5_0 : DmaSem sig := 124
abbrev cc10_sem6_0 : DmaSem sig := 125
abbrev cc10_sem7_0 : DmaSem sig := 126
abbrev cc10_sem7_1 : DmaSem sig := 127
abbrev cc10_sem8_0 : DmaSem sig := 128
abbrev cc10_sem8_1 : DmaSem sig := 129
abbrev cc11_sem0_0 : DmaSem sig := 130
abbrev cc11_sem1_0 : DmaSem sig := 131
abbrev cc11_sem2_0 : DmaSem sig := 132
abbrev cc11_sem3_0 : DmaSem sig := 133
abbrev cc11_sem4_0 : DmaSem sig := 134
abbrev cc11_sem5_0 : DmaSem sig := 135

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x320 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S320x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S5000x64 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S5000x64 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S5000x64 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S5000x64 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S128x320 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S320x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x32 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  concatenates_S100000x64_S100000x64_S100000x64_S100000x64_S100000x64_S100000x320_d1 : Shape.Concatenates [S100000x64, S100000x64, S100000x64, S100000x64, S100000x64] S100000x320 1
  bcast_S_S128x320 : S_.BroadcastsInDim S128x320 (![] : Fin 0 → Fin S128x320.rank)
  bcast_S100000_S100000x1_0 : S100000.BroadcastsInDim S100000x1 (![0] : Fin 1 → Fin S100000x1.rank)
  shapeCasts_S32_S1x32 : S32.ShapeCasts S1x32
  inb_S128x320_S128x320_0_0 : ∀ a, (![0, 0] : Fin 2 → Nat) a + S128x320.size a ≤ S128x320.size a
  h_S128x320 : 0 < S128x320.numel
  shapeCasts_S128x320_S128x320 : S128x320.ShapeCasts S128x320
  inb_S320x64_S320x64_0_0 : ∀ a, (![0, 0] : Fin 2 → Nat) a + S320x64.size a ≤ S320x64.size a
  h_S320x64 : 0 < S320x64.numel
  broadcasts_S1x64_S128x64 : S1x64.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  bcast_S_S128x32 : S_.BroadcastsInDim S128x32 (![] : Fin 0 → Fin S128x32.rank)
  reducesTo_S128x32_S128_d1 : S128x32.ReducesTo [1] S128
  h_S_ : 0 < S_.numel
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S128x320_S100000x1_S100000x320_1_0_0_1_wf : ScatterDims.WF S128x320 S100000x1 S100000x320 [1] [0] [0] 1
  dot_S128x320_S320x64_S128x64_1_0_0_1_n_n_wf : DotDims.WF S128x320 S320x64 S128x64 [1] [0] [0] [1] [] []
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S100000x64.size a
  hwx3_8 : ∀ i : grid3.Coords, EltTy.bits .f32 = 32 ∨ (Rect.block (s := S100000x64) S5000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S100000x64.size a
  hwx4_7 : ∀ i : grid4.Coords, EltTy.bits .f32 = 32 ∨ (Rect.block (s := S100000x64) S5000x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x64.size a ≤ S100000x64.size a
  hwx4_8 : ∀ i : grid4.Coords, EltTy.bits .f32 = 32 ∨ (Rect.block (s := S100000x64) S5000x64.size (cc4_transform_8 i) (hinb4_8 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x320.size a ≤ S128x320.size a
  hwx5_0 : ∀ i : grid5.Coords, EltTy.bits .f32 = 32 ∨ (Rect.block (s := S128x320) S128x320.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S320x64.size a ≤ S320x64.size a
  hwx5_1 : ∀ i : grid5.Coords, EltTy.bits .f32 = 32 ∨ (Rect.block (s := S320x64) S320x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x32.size a ≤ S64x32.size a
  hwx5_3 : ∀ i : grid5.Coords, EltTy.bits .f32 = 32 ∨ (Rect.block (s := S64x32) S64x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x32.size a ≤ S128x32.size a
  hwx5_5 : ∀ i : grid5.Coords, EltTy.bits .f32 = 32 ∨ (Rect.block (s := S128x32) S128x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x64.size a ≤ S100000x64.size a
  hwx7_7 : ∀ i : grid7.Coords, EltTy.bits .f32 = 32 ∨ (Rect.block (s := S100000x64) S5000x64.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x64.size a ≤ S100000x64.size a
  hwx7_8 : ∀ i : grid7.Coords, EltTy.bits .f32 = 32 ∨ (Rect.block (s := S100000x64) S5000x64.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x64.size a ≤ S100000x64.size a
  hwx8_7 : ∀ i : grid8.Coords, EltTy.bits .f32 = 32 ∨ (Rect.block (s := S100000x64) S5000x64.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S5000x64.size a ≤ S100000x64.size a
  hwx8_8 : ∀ i : grid8.Coords, EltTy.bits .f32 = 32 ∨ (Rect.block (s := S100000x64) S5000x64.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S100000x64.size a
  hwx9_2 : ∀ i : grid9.Coords, EltTy.bits .f32 = 32 ∨ (Rect.block (s := S100000x64) S5000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x64.size a ≤ S100000x64.size a
  hwx9_7 : ∀ i : grid9.Coords, EltTy.bits .f32 = 32 ∨ (Rect.block (s := S100000x64) S5000x64.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S5000x64.size a ≤ S100000x64.size a
  hwx9_8 : ∀ i : grid9.Coords, EltTy.bits .f32 = 32 ∨ (Rect.block (s := S100000x64) S5000x64.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S100000x64.size a
  hwx10_1 : ∀ i : grid10.Coords, EltTy.bits .f32 = 32 ∨ (Rect.block (s := S100000x64) S5000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x64.size a ≤ S100000x64.size a
  hwx10_7 : ∀ i : grid10.Coords, EltTy.bits .f32 = 32 ∨ (Rect.block (s := S100000x64) S5000x64.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S5000x64.size a ≤ S100000x64.size a
  hwx10_8 : ∀ i : grid10.Coords, EltTy.bits .f32 = 32 ∨ (Rect.block (s := S100000x64) S5000x64.size (cc10_transform_8 i) (hinb10_8 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S128x320.size a ≤ S128x320.size a
  hwx11_0 : ∀ i : grid11.Coords, EltTy.bits .f32 = 32 ∨ (Rect.block (s := S128x320) S128x320.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S320x64.size a ≤ S320x64.size a
  hwx11_1 : ∀ i : grid11.Coords, EltTy.bits .f32 = 32 ∨ (Rect.block (s := S320x64) S320x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x32.size a ≤ S64x32.size a
  hwx11_3 : ∀ i : grid11.Coords, EltTy.bits .f32 = 32 ∨ (Rect.block (s := S64x32) S64x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x32.size a ≤ S1x32.size a
  hwx11_4 : ∀ i : grid11.Coords, EltTy.bits .f32 = 32 ∨ (Rect.block (s := S1x32) S1x32.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x32.size a ≤ S128x32.size a
  hwx11_5 : ∀ i : grid11.Coords, EltTy.bits .f32 = 32 ∨ (Rect.block (s := S128x32) S128x32.size (cc11_transform_5 i) (hinb11_5 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x320_S100000x1_S100000x320_1_0_0_1 : ScatterDims S128x320 S100000x1 S100000x320 where
  updateWindowDims := [1]
  insertedWindowDims := [0]
  scatterDimsToOperandDims := [0]
  indexVectorDim := 1
  wf := scatter_S128x320_S100000x1_S100000x320_1_0_0_1_wf
def dot_S128x320_S320x64_S128x64_1_0_0_1_n_n : DotDims S128x320 S320x64 S128x64 where
  lhsContracting := [1]
  rhsContracting := [0]
  lhsNonContracting := [0]
  rhsNonContracting := [1]
  lhsBatch := []
  rhsBatch := []
  wf := dot_S128x320_S320x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v26_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v26_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47_0) S5000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v47_1) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v47_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v68_0) S5000x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v68_1) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v68_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68_1) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v80) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v88) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v89_0) S5000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v89_1) S5000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v93) S128x320.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S320x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S64x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S128x32.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg3) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v102) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v112) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v102) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v114) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v121) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v118) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v122) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v123_0) S5000x64.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v123_1) S5000x64.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v123_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v123_1) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v135) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v142) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v139) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v143) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v144_0) S5000x64.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v144_1) S5000x64.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v144_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v154) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v144_1) S5000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v156) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v163) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v160) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v164) S1x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v165_0) S5000x64.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v165_1) S5000x64.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win10_0 : Pipeline.Window sig grid10 :=
  Pipeline.Window.ofSpec (Memref.whole main_v165_0) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v175) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v165_1) S5000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v177) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v184) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v181) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v185) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v186_0) S5000x64.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v186_1) S5000x64.size cc10_transform_8 reads10_8 true false 2 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v190) S128x320.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg12) S320x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v191) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg14) S64x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v192) S1x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v193) S128x32.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S320x64 : Shape := ⟨2, ![320, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S100000x320 : Shape := ⟨2, ![100000, 320]⟩
abbrev S128x320 : Shape := ⟨2, ![128, 320]⟩
abbrev S100000x1 : Shape := ⟨2, ![100000, 1]⟩
abbrev S128x64 : Shape := ⟨2, ![128, 64]⟩
abbrev S128x32 : Shape := ⟨2, ![128, 32]⟩
abbrev S1x32 : Shape := ⟨2, ![1, 32]⟩
abbrev S128 : Shape := ⟨1, ![128]⟩

abbrev nBuf : Space → Nat
  | .hbm => 375
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S100000x32, .f32⟩
  | 4 => ⟨S2x1600000, .i32⟩
  | 5 => ⟨S100000, .i32⟩
  | 6 => ⟨S32x64, .f32⟩
  | 7 => ⟨S64, .f32⟩
  | 8 => ⟨S4x64x64, .f32⟩
  | 9 => ⟨S4x64, .f32⟩
  | 10 => ⟨S4x64x64, .f32⟩
  | 11 => ⟨S4x64, .f32⟩
  | 12 => ⟨S320x64, .f32⟩
  | 13 => ⟨S64, .f32⟩
  | 14 => ⟨S64x32, .f32⟩
  | 15 => ⟨S32, .f32⟩
  | 16 => ⟨S1x1600000, .i32⟩
  | 17 => ⟨S1600000, .i32⟩
  | 18 => ⟨S1x1600000, .i32⟩
  | 19 => ⟨S1600000, .i32⟩
  | 20 => ⟨S100000x64, .f32⟩
  | 21 => ⟨S1x64, .f32⟩
  | 22 => ⟨S100000x64, .f32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S100000x64, .f32⟩
  | 38 => ⟨S1x64x64, .f32⟩
  | 39 => ⟨S64x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S1x64x64, .f32⟩
  | 50 => ⟨S64x64, .f32⟩
  | 51 => ⟨S100000x64, .f32⟩
  | 52 => ⟨S1x64, .f32⟩
  | 53 => ⟨S64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S100000x64, .f32⟩
  | 74 => ⟨S1x64x64, .f32⟩
  | 75 => ⟨S64x64, .f32⟩
  | 76 => ⟨S100000x64, .f32⟩
  | 77 => ⟨S1x64, .f32⟩
  | 78 => ⟨S64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S1x64x64, .f32⟩
  | 86 => ⟨S64x64, .f32⟩
  | 87 => ⟨S100000x64, .f32⟩
  | 88 => ⟨S1x64, .f32⟩
  | 89 => ⟨S64, .f32⟩
  | 90 => ⟨S1x64, .f32⟩
  | 91 => ⟨S100000x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000x64, .f32⟩
  | 111 => ⟨S1x64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S1x64, .f32⟩
  | 126 => ⟨S64, .f32⟩
  | 127 => ⟨S1x64, .f32⟩
  | _ => ⟨S100000x32, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S100000x64, .f32⟩
  | 19 => ⟨S1x64x64, .f32⟩
  | 20 => ⟨S64x64, .f32⟩
  | 21 => ⟨S100000x64, .f32⟩
  | 22 => ⟨S1x64, .f32⟩
  | 23 => ⟨S64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S1x64x64, .f32⟩
  | 31 => ⟨S64x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S100000x320, .f32⟩
  | 43 => ⟨S_, .f32⟩
  | 44 => ⟨S128x320, .f32⟩
  | 45 => ⟨S100000x1, .i32⟩
  | 46 => ⟨S128x320, .f32⟩
  | 47 => ⟨S128x64, .f32⟩
  | 48 => ⟨S1x64, .f32⟩
  | 49 => ⟨S128x64, .f32⟩
  | 50 => ⟨S128x64, .f32⟩
  | 51 => ⟨S_, .f32⟩
  | 52 => ⟨S128x64, .f32⟩
  | 53 => ⟨S128x64, .f32⟩
  | 54 => ⟨S128x32, .f32⟩
  | 55 => ⟨S1x32, .f32⟩
  | 56 => ⟨S128x32, .f32⟩
  | 57 => ⟨S128x32, .f32⟩
  | 58 => ⟨S1x1600000, .i32⟩
  | 59 => ⟨S1600000, .i32⟩
  | 60 => ⟨S1x1600000, .i32⟩
  | 61 => ⟨S1600000, .i32⟩
  | 62 => ⟨S100000x64, .f32⟩
  | 63 => ⟨S1x64, .f32⟩
  | 64 => ⟨S100000x64, .f32⟩
  | 65 => ⟨S100000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S100000x64, .f32⟩
  | 80 => ⟨S1x64x64, .f32⟩
  | 81 => ⟨S64x64, .f32⟩
  | 82 => ⟨S100000x64, .f32⟩
  | 83 => ⟨S1x64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S1x64x64, .f32⟩
  | 92 => ⟨S64x64, .f32⟩
  | 93 => ⟨S100000x64, .f32⟩
  | 94 => ⟨S1x64, .f32⟩
  | 95 => ⟨S64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000x64, .f32⟩
  | 116 => ⟨S1x64x64, .f32⟩
  | 117 => ⟨S64x64, .f32⟩
  | 118 => ⟨S100000x64, .f32⟩
  | 119 => ⟨S1x64, .f32⟩
  | 120 => ⟨S64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S1x64x64, .f32⟩
  | _ => ⟨S100000x32, .f32⟩

abbrev hbmTy0_2 (i : Nat) : BufTy := match i % 128 with
  | 0 => ⟨S64x64, .f32⟩
  | 1 => ⟨S100000x64, .f32⟩
  | 2 => ⟨S1x64, .f32⟩
  | 3 => ⟨S64, .f32⟩
  | 4 => ⟨S1x64, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S100000x64, .f32⟩
  | 25 => ⟨S1x64x64, .f32⟩
  | 26 => ⟨S64x64, .f32⟩
  | 27 => ⟨S100000x64, .f32⟩
  | 28 => ⟨S1x64, .f32⟩
  | 29 => ⟨S64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S1x64x64, .f32⟩
  | 37 => ⟨S64x64, .f32⟩
  | 38 => ⟨S100000x64, .f32⟩
  | 39 => ⟨S1x64, .f32⟩
  | 40 => ⟨S64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x64, .f32⟩
  | 61 => ⟨S1x64x64, .f32⟩
  | 62 => ⟨S64x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x320, .f32⟩
  | 85 => ⟨S_, .f32⟩
  | 86 => ⟨S128x320, .f32⟩
  | 87 => ⟨S100000x1, .i32⟩
  | 88 => ⟨S128x320, .f32⟩
  | 89 => ⟨S128x64, .f32⟩
  | 90 => ⟨S1x64, .f32⟩
  | 91 => ⟨S128x64, .f32⟩
  | 92 => ⟨S128x64, .f32⟩
  | 93 => ⟨S_, .f32⟩
  | 94 => ⟨S128x64, .f32⟩
  | 95 => ⟨S128x64, .f32⟩
  | 96 => ⟨S128x32, .f32⟩
  | 97 => ⟨S1x32, .f32⟩
  | 98 => ⟨S128x32, .f32⟩
  | 99 => ⟨S128x32, .f32⟩
  | 100 => ⟨S128x32, .f32⟩
  | 101 => ⟨S_, .f32⟩
  | 102 => ⟨S128x32, .f32⟩
  | 103 => ⟨S128x32, .f32⟩
  | 104 => ⟨S_, .f32⟩
  | 105 => ⟨S128x32, .f32⟩
  | 106 => ⟨S128x32, .f32⟩
  | 107 => ⟨S_, .f32⟩
  | 108 => ⟨S128, .f32⟩
  | 109 => ⟨S128x32, .f32⟩
  | 110 => ⟨S_, .f32⟩
  | 111 => ⟨S128x32, .f32⟩
  | 112 => ⟨S128x32, .f32⟩
  | 113 => ⟨S_, .f32⟩
  | 114 => ⟨S128x32, .f32⟩
  | 115 => ⟨S128x32, .f32⟩
  | 116 => ⟨S_, .f32⟩
  | 117 => ⟨S128, .f32⟩
  | 118 => ⟨S128, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_c_1 : Ref sig .tc := ⟨.hbm, 60, rfl⟩
abbrev main_v37 : Ref sig .tc := ⟨.hbm, 61, rfl⟩
abbrev main_v38 : Ref sig .tc := ⟨.hbm, 62, rfl⟩
abbrev main_c_2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call2_cst : Ref sig .tc := ⟨.hbm, 82, rfl⟩
abbrev main_call2_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call3_cst : Ref sig .tc := ⟨.hbm, 94, rfl⟩
abbrev main_call3_v0 : Ref sig .tc := ⟨.hbm, 95, rfl⟩
abbrev main_v66 : Ref sig .tc := ⟨.hbm, 96, rfl⟩
abbrev main_c_4 : Ref sig .tc := ⟨.hbm, 97, rfl⟩
abbrev main_v67 : Ref sig .tc := ⟨.hbm, 98, rfl⟩
abbrev main_v68 : Ref sig .tc := ⟨.hbm, 99, rfl⟩
abbrev main_c_5 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_6 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call4_cst : Ref sig .tc := ⟨.hbm, 119, rfl⟩
abbrev main_call4_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call5_cst : Ref sig .tc := ⟨.hbm, 130, rfl⟩
abbrev main_call5_v0 : Ref sig .tc := ⟨.hbm, 131, rfl⟩
abbrev main_v95 : Ref sig .tc := ⟨.hbm, 132, rfl⟩
abbrev main_c_7 : Ref sig .tc := ⟨.hbm, 133, rfl⟩
abbrev main_v96 : Ref sig .tc := ⟨.hbm, 134, rfl⟩
abbrev main_v97 : Ref sig .tc := ⟨.hbm, 135, rfl⟩
abbrev main_c_8 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_9 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call6_cst : Ref sig .tc := ⟨.hbm, 155, rfl⟩
abbrev main_call6_v0 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_call7_cst : Ref sig .tc := ⟨.hbm, 167, rfl⟩
abbrev main_call7_v0 : Ref sig .tc := ⟨.hbm, 168, rfl⟩
abbrev main_v125 : Ref sig .tc := ⟨.hbm, 169, rfl⟩
abbrev main_v126 : Ref sig .tc := ⟨.hbm, 170, rfl⟩
abbrev main_cst_10 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_call8_cst : Ref sig .tc := ⟨.hbm, 179, rfl⟩
abbrev main_call8_v0 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_11 : Ref sig .tc := ⟨.hbm, 194, rfl⟩
abbrev main_v147 : Ref sig .tc := ⟨.hbm, 195, rfl⟩
abbrev main_v148 : Ref sig .tc := ⟨.hbm, 196, rfl⟩
abbrev main_c_12 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_13 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_call9_cst : Ref sig .tc := ⟨.hbm, 216, rfl⟩
abbrev main_call9_v0 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_call10_cst : Ref sig .tc := ⟨.hbm, 227, rfl⟩
abbrev main_call10_v0 : Ref sig .tc := ⟨.hbm, 228, rfl⟩
abbrev main_v175 : Ref sig .tc := ⟨.hbm, 229, rfl⟩
abbrev main_c_14 : Ref sig .tc := ⟨.hbm, 230, rfl⟩
abbrev main_v176 : Ref sig .tc := ⟨.hbm, 231, rfl⟩
abbrev main_v177 : Ref sig .tc := ⟨.hbm, 232, rfl⟩
abbrev main_c_15 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_16 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_call11_cst : Ref sig .tc := ⟨.hbm, 252, rfl⟩
abbrev main_call11_v0 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_call12_cst : Ref sig .tc := ⟨.hbm, 264, rfl⟩
abbrev main_call12_v0 : Ref sig .tc := ⟨.hbm, 265, rfl⟩
abbrev main_v205 : Ref sig .tc := ⟨.hbm, 266, rfl⟩
abbrev main_c_17 : Ref sig .tc := ⟨.hbm, 267, rfl⟩
abbrev main_v206 : Ref sig .tc := ⟨.hbm, 268, rfl⟩
abbrev main_v207 : Ref sig .tc := ⟨.hbm, 269, rfl⟩
abbrev main_c_18 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_cst_19 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_call13_cst : Ref sig .tc := ⟨.hbm, 289, rfl⟩
abbrev main_call13_v0 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_call14_cst : Ref sig .tc := ⟨.hbm, 300, rfl⟩
abbrev main_call14_v0 : Ref sig .tc := ⟨.hbm, 301, rfl⟩
abbrev main_v234 : Ref sig .tc := ⟨.hbm, 302, rfl⟩
abbrev main_c_20 : Ref sig .tc := ⟨.hbm, 303, rfl⟩
abbrev main_v235 : Ref sig .tc := ⟨.hbm, 304, rfl⟩
abbrev main_v236 : Ref sig .tc := ⟨.hbm, 305, rfl⟩
abbrev main_c_21 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_cst_22 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_call15_cst : Ref sig .tc := ⟨.hbm, 325, rfl⟩
abbrev main_call15_v0 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_call16_cst : Ref sig .tc := ⟨.hbm, 337, rfl⟩
abbrev main_call16_v0 : Ref sig .tc := ⟨.hbm, 338, rfl⟩
abbrev main_v264 : Ref sig .tc := ⟨.hbm, 339, rfl⟩
abbrev main_v265 : Ref sig .tc := ⟨.hbm, 340, rfl⟩
abbrev main_cst_23 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_call17_cst : Ref sig .tc := ⟨.hbm, 349, rfl⟩
abbrev main_call17_v0 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_call18_cst : Ref sig .tc := ⟨.hbm, 357, rfl⟩
abbrev main_call18_v0 : Ref sig .tc := ⟨.hbm, 358, rfl⟩
abbrev main_v279 : Ref sig .tc := ⟨.hbm, 359, rfl⟩
abbrev main_cst_24 : Ref sig .tc := ⟨.hbm, 360, rfl⟩
abbrev main_v280 : Ref sig .tc := ⟨.hbm, 361, rfl⟩
abbrev main_v281 : Ref sig .tc := ⟨.hbm, 362, rfl⟩
abbrev main_cst_25 : Ref sig .tc := ⟨.hbm, 363, rfl⟩
abbrev main_v282 : Ref sig .tc := ⟨.hbm, 364, rfl⟩
abbrev main_v283 : Ref sig .tc := ⟨.hbm, 365, rfl⟩
abbrev main_call19_cst : Ref sig .tc := ⟨.hbm, 366, rfl⟩
abbrev main_call19_v0 : Ref sig .tc := ⟨.hbm, 367, rfl⟩
abbrev main_v284 : Ref sig .tc := ⟨.hbm, 368, rfl⟩
abbrev main_cst_26 : Ref sig .tc := ⟨.hbm, 369, rfl⟩
abbrev main_v285 : Ref sig .tc := ⟨.hbm, 370, rfl⟩
abbrev main_v286 : Ref sig .tc := ⟨.hbm, 371, rfl⟩
abbrev main_cst_27 : Ref sig .tc := ⟨.hbm, 372, rfl⟩
abbrev main_v287 : Ref sig .tc := ⟨.hbm, 373, rfl⟩
abbrev main_v288 : Ref sig .tc := ⟨.hbm, 374, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  concatenates_S100000x64_S100000x64_S100000x64_S100000x64_S100000x64_S100000x320_d1 : Shape.Concatenates [S100000x64, S100000x64, S100000x64, S100000x64, S100000x64] S100000x320 1
  bcast_S_S128x320 : S_.BroadcastsInDim S128x320 (![] : Fin 0 → Fin S128x320.rank)
  bcast_S100000_S100000x1_0 : S100000.BroadcastsInDim S100000x1 (![0] : Fin 1 → Fin S100000x1.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  reducesTo_S128x32_S128_d1 : S128x32.ReducesTo [1] S128
  h_S_ : 0 < S_.numel
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x320_S100000x1_S100000x320_1_0_0_1_wf : ScatterDims.WF S128x320 S100000x1 S100000x320 [1] [0] [0] 1
  dot_S128x320_S320x64_S128x64_1_0_0_1_n_n_wf : DotDims.WF S128x320 S320x64 S128x64 [1] [0] [0] [1] [] []
  dot_S128x64_S64x32_S128x32_1_0_0_1_n_n_wf : DotDims.WF S128x64 S64x32 S128x32 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x320_S100000x1_S100000x320_1_0_0_1 : ScatterDims S128x320 S100000x1 S100000x320 where
  updateWindowDims := [1]
  insertedWindowDims := [0]
  scatterDimsToOperandDims := [0]
  indexVectorDim := 1
  wf := scatter_S128x320_S100000x1_S100000x320_1_0_0_1_wf
def dot_S128x320_S320x64_S128x64_1_0_0_1_n_n : DotDims S128x320 S320x64 S128x64 where
  lhsContracting := [1]
  rhsContracting := [0]
  lhsNonContracting := [0]
  rhsNonContracting := [1]
  lhsBatch := []
  rhsBatch := []
  wf := dot_S128x320_S320x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.Kernel.Reg0.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg0.W → PosShare TreeShare)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect0_a : Rect S5000x32 := Rect.unit (s := S5000x32) ![0, 0] S5000x32.size inb_S5000x32_S5000x32_0_0
abbrev rect0_b : Rect S32x64 := Rect.unit (s := S32x64) ![0, 0] S32x64.size inb_S32x64_S32x64_0_0
abbrev rect0_c : Rect S1x64 := Rect.unit (s := S1x64) ![0, 0] S1x64.size inb_S1x64_S1x64_0_0
abbrev rect0_d : Rect S5000x64 := Rect.unit (s := S5000x64) ![0, 0] S5000x64.size inb_S5000x64_S5000x64_0_0

def out0_3 (x : Vec F S5000x32 .f32) (w : Vec F S32x64 .f32) (b : Vec F S1x64 .f32) : Vec F S5000x64 .f32 :=
  View.canon [⟨rect0_d, k0_pay1 (View.ld x rect0_a) (View.ld w rect0_b) (View.ld b rect0_c)⟩]

set_option maxHeartbeats 1000000 in
/-- The body only reads the inputs and stores the output whole once, so the output reads back as that store's closed form. -/
theorem sound_kernel0 (c : Dev nD) (E : Set ℕ) (i : grid0.Coords)
    (arg1 : Memref sig .tc .vmem S5000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S5000x64 .f32) (harg4 : arg4.IsWhole)
    (x : Vec F S5000x32 .f32) (w : Vec F S32x64 .f32) (b : Vec F S1x64 .f32) (K : PUnit → sProp 𝕄) :
    iprop(owns c arg1 fullShare x ∗ owns c arg2 fullShare w ∗ owns c arg3 fullShare b
        ∗ (∃ d, owns c arg4 fullShare d)
        ∗ (iprop(owns c arg1 fullShare x ∗ owns c arg2 fullShare w ∗ owns c arg3 fullShare b
            ∗ owns c arg4 fullShare (out0_3 x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S5000x64.size rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

theorem A_eq0 (c : Dev nD) (w : Fin cfg0.W) : (dat0 V q c).A w = V c (Pipeline.arrRef spec0 w) := by
  dsimp only [dat0]

theorem after0_3 (c : Dev nD) (t : Fin cfg0.N) :
    (dat0 V q c).after 3 t = out0_3 (iblk0 V c 0 t) (iblk0 V c 1 t) (iblk0 V c 2 t) := by dsimp only [dat0]

/-- At each input window the hypotheses of `Dat.before_in_eq_fetched` hold by evaluation. -/
theorem before0 (c : Dev nD) : ∀ w : Fin cfg0.W, w.val < 3 → ∀ t d, (dat0 V q c).before w t d = (dat0 V q c).fetched w t d
  | ⟨0, _⟩, _, t, d | ⟨1, _⟩, _, t, d | ⟨2, _⟩, _, t, d =>
    (dat0 V q c).before_in_eq_fetched _ rfl (fun _ => rfl) (fun _ _ _ => rfl) (fun _ => rfl) t d
  | ⟨n + 3, _⟩, h, _, _ => absurd h (Nat.not_lt.mpr (Nat.le_add_left 3 n))

/-- The windows' buffers are the kernel triple's memrefs; the invariant and the debts are framed. -/
theorem body_obligation0 (c : Dev nD) : BodyObligation (dat0 (F := F) V q c) (defs₀ (F := F)) Variants.none () Set.univ := fun t => by
  show iprop(_ ∗ _ ∗ bigSep Finset.univ fun w => iprop(∃ d, owns (c : Thread nD τ) _ fullShare ((dat0 V q c).before w t d)))
    ⊢ wp _ _ _ (bodyAt0 t) fun _ => iprop(_ ∗ _ ∗ bigSep Finset.univ fun w => owns (c : Thread nD τ) _ fullShare ((dat0 V q c).after w t))
  rw [bigSep_W0, bigSep_W0]
  simp (disch := decide) only [before0]
  rw [show (dat0 V q c).Φ t.succ = (dat0 V q c).Φ t.castSucc from rfl, after0_3]
  iintro ⟨HΦ, Hd, ⟨%dx, Hx⟩, ⟨%dw, Hw⟩, ⟨%db, Hb⟩, ⟨%dy, Hy⟩⟩
  iapply (sound_kernel0 c Set.univ _ _ _ _ _ _ _ _ _ (iblk0 V c 0 t) (iblk0 V c 1 t) (iblk0 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hd]; · iexact Hd
  isplitl [Hx]; · iexact Hx
  isplitl [Hw]; · iexact Hw
  isplitl [Hb]; · iexact Hb
  iexact Hy

end Cert.Kernel.Hand

end
-- ==== Proof.Kernel.Reg1.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg1.W → PosShare TreeShare)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1_a : Rect S5000x64 := Rect.unit (s := S5000x64) ![0, 0] S5000x64.size inb_S5000x64_S5000x64_0_0
abbrev rect1_b : Rect S64x64 := Rect.unit (s := S64x64) ![0, 0] S64x64.size inb_S64x64_S64x64_0_0
abbrev rect1_c : Rect S1x64 := Rect.unit (s := S1x64) ![0, 0] S1x64.size inb_S1x64_S1x64_0_0

def out1_7 (x agg : Vec F S5000x64 .f32) (wa : Vec F S64x64 .f32) (ba : Vec F S1x64 .f32) (wb : Vec F S64x64 .f32) (bb : Vec F S1x64 .f32) : Vec F S5000x64 .f32 :=
  View.canon [⟨rect1_a, k1_pay2 (View.ld x rect1_a) (View.ld agg rect1_a) (View.ld wa rect1_b) (View.ld ba rect1_c) (View.ld wb rect1_b) (View.ld bb rect1_c)⟩]

def out1_8 (xres : Vec F S5000x64 .f32) : Vec F S5000x64 .f32 :=
  View.canon [⟨rect1_a, k1_pay1 (View.ld xres rect1_a)⟩]

set_option maxHeartbeats 4000000 in
/-- The body only reads the inputs and stores each output whole once, so each output reads back as that store's closed form. -/
theorem sound_kernel1 (c : Dev nD) (E : Set ℕ) (i : grid1.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out1_7 x0 x1 x3 x4 x5 x6) ∗ owns c m8 fullShare (out1_8 x2)) -∗ K ⟨⟩))
      ⊢ wp frame (wpE (defs₀ (F := F)) Variants.none c none) E (cc1_kernel i m0 hm0 m1 hm1 m2 hm2 m3 hm3 m4 hm4 m5 hm5 m6 hm6 m7 hm7 m8 hm8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t) (iblk1 V c 5 t) (iblk1 V c 6 t)
    | ⟨8, _⟩ => out1_8 (iblk1 V c 2 t)
  Φ _ := Pipeline.ΦA spec1 c
  q := q
  owed _ := 0

theorem A_eq1 (c : Dev nD) (w : Fin cfg1.W) : (dat1 V q c).A w = V c (Pipeline.arrRef spec1 w) := by
  dsimp only [dat1]

theorem after1_7 (c : Dev nD) (t : Fin cfg1.N) : (dat1 V q c).after 7 t = out1_7 (iblk1 V c 0 t) (iblk1 V c 1 t) (iblk1 V c 3 t) (iblk1 V c 4 t) (iblk1 V c 5 t) (iblk1 V c 6 t) := by dsimp only [dat1]
theorem after1_8 (c : Dev nD) (t : Fin cfg1.N) : (dat1 V q c).after 8 t = out1_8 (iblk1 V c 2 t) := by dsimp only [dat1]

/-- At each input window the hypotheses of `Dat.before_in_eq_fetched` hold by evaluation. -/
theorem before1 (c : Dev nD) : ∀ w : Fin cfg1.W, w.val < 7 → ∀ t d, (dat1 V q c).before w t d = (dat1 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat1 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation1 (c : Dev nD) : BodyObligation (dat1 (F := F) V q c) (defs₀ (F := F)) Variants.none () Set.univ := fun t => by
  show iprop(_ ∗ _ ∗ bigSep Finset.univ fun w => iprop(∃ d, owns (c : Thread nD τ) _ fullShare ((dat1 V q c).before w t d)))
    ⊢ wp _ _ _ (bodyAt1 t) fun _ => iprop(_ ∗ _ ∗ bigSep Finset.univ fun w => owns (c : Thread nD τ) _ fullShare ((dat1 V q c).after w t))
  rw [bigSep_W1, bigSep_W1]
  simp (disch := decide) only [before1]
  rw [show (dat1 V q c).Φ t.succ = (dat1 V q c).Φ t.castSucc from rfl, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg2.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg2.W → PosShare TreeShare)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_a : Rect S5000x64 := Rect.unit (s := S5000x64) ![0, 0] S5000x64.size inb_S5000x64_S5000x64_0_0
abbrev rect2_b : Rect S64x64 := Rect.unit (s := S64x64) ![0, 0] S64x64.size inb_S64x64_S64x64_0_0
abbrev rect2_c : Rect S1x64 := Rect.unit (s := S1x64) ![0, 0] S1x64.size inb_S1x64_S1x64_0_0

def out2_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect2_a, k2_pay2 (View.ld x rect2_a) (View.ld agg rect2_a) (View.ld w1 rect2_b) (View.ld b1 rect2_c) (View.ld w2 rect2_b) (View.ld b2 rect2_c) (View.ld xres rect2_a)⟩]

def out2_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect2_a, k2_pay1 (View.ld x rect2_a) (View.ld agg rect2_a) (View.ld w1 rect2_b) (View.ld b1 rect2_c) (View.ld w2 rect2_b) (View.ld b2 rect2_c) (View.ld xres rect2_a)⟩]

set_option maxHeartbeats 4000000 in
/-- The body only reads the inputs and stores each output whole once, so each output reads back as that store's closed form. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out2_7 x agg w1 b1 w2 b2 xres) ∗ owns c arg9 fullShare (out2_8 x agg w1 b1 w2 b2 xres)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 3 t) (iblk2 V c 4 t) (iblk2 V c 5 t) (iblk2 V c 6 t) (iblk2 V c 2 t)
    | ⟨8, _⟩ => out2_8 (iblk2 V c 0 t) (iblk2 V c 1 t) (iblk2 V c 3 t) (iblk2 V c 4 t) (iblk2 V c 5 t) (iblk2 V c 6 t) (iblk2 V c 2 t)
  Φ _ := Pipeline.ΦA spec2 c
  q := q
  owed _ := 0

theorem A_eq2 (c : Dev nD) (w : Fin cfg2.W) : (dat2 V q c).A w = V c (Pipeline.arrRef spec2 w) := by
  dsimp only [dat2]

theorem after2_7 (c : Dev nD) (t : Fin cfg2.N) : (dat2 V q c).after 7 t = out2_7 (iblk2 V c 0 t) (iblk2 V c 1 t) (iblk2 V c 3 t) (iblk2 V c 4 t) (iblk2 V c 5 t) (iblk2 V c 6 t) (iblk2 V c 2 t) := by dsimp only [dat2]
theorem after2_8 (c : Dev nD) (t : Fin cfg2.N) : (dat2 V q c).after 8 t = out2_8 (iblk2 V c 0 t) (iblk2 V c 1 t) (iblk2 V c 3 t) (iblk2 V c 4 t) (iblk2 V c 5 t) (iblk2 V c 6 t) (iblk2 V c 2 t) := by dsimp only [dat2]

/-- At each input window the hypotheses of `Dat.before_in_eq_fetched` hold by evaluation. -/
theorem before2 (c : Dev nD) : ∀ w : Fin cfg2.W, w.val < 7 → ∀ t d, (dat2 V q c).before w t d = (dat2 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat2 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation2 (c : Dev nD) : BodyObligation (dat2 (F := F) V q c) (defs₀ (F := F)) Variants.none () Set.univ := fun t => by
  show iprop(_ ∗ _ ∗ bigSep Finset.univ fun w => iprop(∃ d, owns (c : Thread nD τ) _ fullShare ((dat2 V q c).before w t d)))
    ⊢ wp _ _ _ (bodyAt2 t) fun _ => iprop(_ ∗ _ ∗ bigSep Finset.univ fun w => owns (c : Thread nD τ) _ fullShare ((dat2 V q c).after w t))
  rw [bigSep_W2, bigSep_W2]
  simp (disch := decide) only [before2]
  rw [show (dat2 V q c).Φ t.succ = (dat2 V q c).Φ t.castSucc from rfl, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg3.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg3.W → PosShare TreeShare)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rect3_a : Rect S5000x64 := Rect.unit (s := S5000x64) ![0, 0] S5000x64.size inb_S5000x64_S5000x64_0_0
abbrev rect3_b : Rect S64x64 := Rect.unit (s := S64x64) ![0, 0] S64x64.size inb_S64x64_S64x64_0_0
abbrev rect3_c : Rect S1x64 := Rect.unit (s := S1x64) ![0, 0] S1x64.size inb_S1x64_S1x64_0_0

def out3_7 (x agg : Vec F S5000x64 .f32) (wa : Vec F S64x64 .f32) (ba : Vec F S1x64 .f32) (wb : Vec F S64x64 .f32) (bb : Vec F S1x64 .f32) : Vec F S5000x64 .f32 :=
  View.canon [⟨rect3_a, k3_pay2 (View.ld x rect3_a) (View.ld agg rect3_a) (View.ld wa rect3_b) (View.ld ba rect3_c) (View.ld wb rect3_b) (View.ld bb rect3_c)⟩]

def out3_8 (xres : Vec F S5000x64 .f32) : Vec F S5000x64 .f32 :=
  View.canon [⟨rect3_a, k3_pay1 (View.ld xres rect3_a)⟩]

set_option maxHeartbeats 4000000 in
/-- The body only reads the inputs and stores each output whole once, so each output reads back as that store's closed form. -/
theorem sound_kernel3 (c : Dev nD) (E : Set ℕ) (i : grid3.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out3_7 x0 x1 x3 x4 x5 x6) ∗ owns c m8 fullShare (out3_8 x2)) -∗ K ⟨⟩))
      ⊢ wp frame (wpE (defs₀ (F := F)) Variants.none c none) E (cc3_kernel i m0 hm0 m1 hm1 m2 hm2 m3 hm3 m4 hm4 m5 hm5 m6 hm6 m7 hm7 m8 hm8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 3 t) (iblk3 V c 4 t) (iblk3 V c 5 t) (iblk3 V c 6 t)
    | ⟨8, _⟩ => out3_8 (iblk3 V c 2 t)
  Φ _ := Pipeline.ΦA spec3 c
  q := q
  owed _ := 0

theorem A_eq3 (c : Dev nD) (w : Fin cfg3.W) : (dat3 V q c).A w = V c (Pipeline.arrRef spec3 w) := by
  dsimp only [dat3]

theorem after3_7 (c : Dev nD) (t : Fin cfg3.N) : (dat3 V q c).after 7 t = out3_7 (iblk3 V c 0 t) (iblk3 V c 1 t) (iblk3 V c 3 t) (iblk3 V c 4 t) (iblk3 V c 5 t) (iblk3 V c 6 t) := by dsimp only [dat3]
theorem after3_8 (c : Dev nD) (t : Fin cfg3.N) : (dat3 V q c).after 8 t = out3_8 (iblk3 V c 2 t) := by dsimp only [dat3]

/-- At each input window the hypotheses of `Dat.before_in_eq_fetched` hold by evaluation. -/
theorem before3 (c : Dev nD) : ∀ w : Fin cfg3.W, w.val < 7 → ∀ t d, (dat3 V q c).before w t d = (dat3 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat3 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation3 (c : Dev nD) : BodyObligation (dat3 (F := F) V q c) (defs₀ (F := F)) Variants.none () Set.univ := fun t => by
  show iprop(_ ∗ _ ∗ bigSep Finset.univ fun w => iprop(∃ d, owns (c : Thread nD τ) _ fullShare ((dat3 V q c).before w t d)))
    ⊢ wp _ _ _ (bodyAt3 t) fun _ => iprop(_ ∗ _ ∗ bigSep Finset.univ fun w => owns (c : Thread nD τ) _ fullShare ((dat3 V q c).after w t))
  rw [bigSep_W3, bigSep_W3]
  simp (disch := decide) only [before3]
  rw [show (dat3 V q c).Φ t.succ = (dat3 V q c).Φ t.castSucc from rfl, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg4.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg4.W → PosShare TreeShare)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rect4_a : Rect S5000x64 := Rect.unit (s := S5000x64) ![0, 0] S5000x64.size inb_S5000x64_S5000x64_0_0
abbrev rect4_b : Rect S64x64 := Rect.unit (s := S64x64) ![0, 0] S64x64.size inb_S64x64_S64x64_0_0
abbrev rect4_c : Rect S1x64 := Rect.unit (s := S1x64) ![0, 0] S1x64.size inb_S1x64_S1x64_0_0

def out4_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect4_a, k4_pay2 (View.ld x rect4_a) (View.ld agg rect4_a) (View.ld w1 rect4_b) (View.ld b1 rect4_c) (View.ld w2 rect4_b) (View.ld b2 rect4_c) (View.ld xres rect4_a)⟩]

def out4_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect4_a, k4_pay1 (View.ld x rect4_a) (View.ld agg rect4_a) (View.ld w1 rect4_b) (View.ld b1 rect4_c) (View.ld w2 rect4_b) (View.ld b2 rect4_c) (View.ld xres rect4_a)⟩]

set_option maxHeartbeats 4000000 in
/-- The body only reads the inputs and stores each output whole once, so each output reads back as that store's closed form. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out4_7 x agg w1 b1 w2 b2 xres) ∗ owns c arg9 fullShare (out4_8 x agg w1 b1 w2 b2 xres)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 3 t) (iblk4 V c 4 t) (iblk4 V c 5 t) (iblk4 V c 6 t) (iblk4 V c 2 t)
    | ⟨8, _⟩ => out4_8 (iblk4 V c 0 t) (iblk4 V c 1 t) (iblk4 V c 3 t) (iblk4 V c 4 t) (iblk4 V c 5 t) (iblk4 V c 6 t) (iblk4 V c 2 t)
  Φ _ := Pipeline.ΦA spec4 c
  q := q
  owed _ := 0

theorem A_eq4 (c : Dev nD) (w : Fin cfg4.W) : (dat4 V q c).A w = V c (Pipeline.arrRef spec4 w) := by
  dsimp only [dat4]

theorem after4_7 (c : Dev nD) (t : Fin cfg4.N) : (dat4 V q c).after 7 t = out4_7 (iblk4 V c 0 t) (iblk4 V c 1 t) (iblk4 V c 3 t) (iblk4 V c 4 t) (iblk4 V c 5 t) (iblk4 V c 6 t) (iblk4 V c 2 t) := by dsimp only [dat4]
theorem after4_8 (c : Dev nD) (t : Fin cfg4.N) : (dat4 V q c).after 8 t = out4_8 (iblk4 V c 0 t) (iblk4 V c 1 t) (iblk4 V c 3 t) (iblk4 V c 4 t) (iblk4 V c 5 t) (iblk4 V c 6 t) (iblk4 V c 2 t) := by dsimp only [dat4]

/-- At each input window the hypotheses of `Dat.before_in_eq_fetched` hold by evaluation. -/
theorem before4 (c : Dev nD) : ∀ w : Fin cfg4.W, w.val < 7 → ∀ t d, (dat4 V q c).before w t d = (dat4 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat4 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation4 (c : Dev nD) : BodyObligation (dat4 (F := F) V q c) (defs₀ (F := F)) Variants.none () Set.univ := fun t => by
  show iprop(_ ∗ _ ∗ bigSep Finset.univ fun w => iprop(∃ d, owns (c : Thread nD τ) _ fullShare ((dat4 V q c).before w t d)))
    ⊢ wp _ _ _ (bodyAt4 t) fun _ => iprop(_ ∗ _ ∗ bigSep Finset.univ fun w => owns (c : Thread nD τ) _ fullShare ((dat4 V q c).after w t))
  rw [bigSep_W4, bigSep_W4]
  simp (disch := decide) only [before4]
  rw [show (dat4 V q c).Φ t.succ = (dat4 V q c).Φ t.castSucc from rfl, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg5.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg5.W → PosShare TreeShare)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rect5_a : Rect S128x320 := Rect.unit (s := S128x320) ![0, 0] S128x320.size inb_S128x320_S128x320_0_0
abbrev rect5_b : Rect S320x64 := Rect.unit (s := S320x64) ![0, 0] S320x64.size inb_S320x64_S320x64_0_0
abbrev rect5_c : Rect S1x64 := Rect.unit (s := S1x64) ![0, 0] S1x64.size inb_S1x64_S1x64_0_0
abbrev rect5_d : Rect S64x32 := Rect.unit (s := S64x32) ![0, 0] S64x32.size inb_S64x32_S64x32_0_0
abbrev rect5_e : Rect S1x32 := Rect.unit (s := S1x32) ![0, 0] S1x32.size inb_S1x32_S1x32_0_0
abbrev rect5_f : Rect S128x32 := Rect.unit (s := S128x32) ![0, 0] S128x32.size inb_S128x32_S128x32_0_0

def out5_5 (g : Vec F S128x320 .f32) (w1 : Vec F S320x64 .f32) (b1 : Vec F S1x64 .f32) (w2 : Vec F S64x32 .f32) (b2 : Vec F S1x32 .f32) : Vec F S128x32 .f32 :=
  View.canon [⟨rect5_f, k5_pay1 (View.ld g rect5_a) (View.ld w1 rect5_b) (View.ld b1 rect5_c) (View.ld w2 rect5_d) (View.ld b2 rect5_e)⟩]

set_option maxHeartbeats 1000000 in
/-- The body only reads the inputs and stores the output whole once, so the output reads back as that store's closed form. -/
theorem sound_kernel5 (c : Dev nD) (E : Set ℕ) (i : grid5.Coords)
    (mg : Memref sig .tc .vmem S128x320 .f32) (hmg : mg.IsWhole) (mw1 : Memref sig .tc .vmem S320x64 .f32) (hmw1 : mw1.IsWhole)
    (mb1 : Memref sig .tc .vmem S1x64 .f32) (hmb1 : mb1.IsWhole) (mw2 : Memref sig .tc .vmem S64x32 .f32) (hmw2 : mw2.IsWhole)
    (mb2 : Memref sig .tc .vmem S1x32 .f32) (hmb2 : mb2.IsWhole) (mo : Memref sig .tc .vmem S128x32 .f32) (hmo : mo.IsWhole)
    (xg : Vec F S128x320 .f32) (xw1 : Vec F S320x64 .f32) (xb1 : Vec F S1x64 .f32) (xw2 : Vec F S64x32 .f32) (xb2 : Vec F S1x32 .f32)
    (K : PUnit → sProp 𝕄) :
    iprop(owns c mg fullShare xg ∗ owns c mw1 fullShare xw1 ∗ owns c mb1 fullShare xb1
        ∗ owns c mw2 fullShare xw2 ∗ owns c mb2 fullShare xb2 ∗ (∃ d, owns c mo fullShare d)
        ∗ (iprop(owns c mg fullShare xg ∗ owns c mw1 fullShare xw1 ∗ owns c mb1 fullShare xb1
            ∗ owns c mw2 fullShare xw2 ∗ owns c mb2 fullShare xb2
            ∗ owns c mo fullShare (out5_5 xg xw1 xb1 xw2 xb2)) -∗ K ⟨⟩))
      ⊢ wp frame (wpE (defs₀ (F := F)) Variants.none c none) E (cc5__post_kernel i mg hmg mw1 hmw1 mb1 hmb1 mw2 hmw2 mb2 hmb2 mo hmo) K := by
  simp only [cc5__post_kernel_eq_skeleton]; unfold cc5__post_kernel_skel
  unfold owns
  iintro ⟨⟨%fg, %hfg, Hg⟩, ⟨%fw1, %hfw1, Hw1⟩, ⟨%fb1, %hfb1, Hb1⟩, ⟨%fw2, %hfw2, Hw2⟩, ⟨%fb2, %hfb2, Hb2⟩, ⟨%dO, %fO, -, Ho⟩, Hk⟩
  subst hfg; subst hfw1; subst hfb1; subst hfw2; subst hfb2
  sl_exec
  sl_step
  iapply Hk
  isplitl [Hg]
  · iexists fg; isplitr; · ipureintro; rfl
    iexact Hg
  isplitl [Hw1]
  · iexists fw1; isplitr; · ipureintro; rfl
    iexact Hw1
  isplitl [Hb1]
  · iexists fb1; isplitr; · ipureintro; rfl
    iexact Hb1
  isplitl [Hw2]
  · iexists fw2; isplitr; · ipureintro; rfl
    iexact Hw2
  isplitl [Hb2]
  · iexists fb2; isplitr; · ipureintro; rfl
    iexact Hb2
  iexists _; isplitr
  swap; · iexact Ho
  ipureintro
  exact View.read_writes_eq_canon _ _ _ (View.cover_of_tiled _ S128x32.size rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q := q
  owed _ := 0

theorem A_eq5 (c : Dev nD) (w : Fin cfg5.W) : (dat5 V q c).A w = V c (Pipeline.arrRef spec5 w) := by
  dsimp only [dat5]

theorem after5_5 (c : Dev nD) (t : Fin cfg5.N) : (dat5 V q c).after 5 t = out5_5 (iblk5 V c 0 t) (iblk5 V c 1 t) (iblk5 V c 2 t) (iblk5 V c 3 t) (iblk5 V c 4 t) := by dsimp only [dat5]

/-- At each input window the hypotheses of `Dat.before_in_eq_fetched` hold by evaluation. -/
theorem before5 (c : Dev nD) : ∀ w : Fin cfg5.W, w.val < 5 → ∀ t d, (dat5 V q c).before w t d = (dat5 V q c).fetched w t d
  | ⟨0, _⟩, _, t, d | ⟨1, _⟩, _, t, d | ⟨2, _⟩, _, t, d | ⟨3, _⟩, _, t, d | ⟨4, _⟩, _, t, d =>
    (dat5 V q c).before_in_eq_fetched _ rfl (fun _ => rfl) (fun _ _ _ => rfl) (fun _ => rfl) t d
  | ⟨n + 5, _⟩, h, _, _ => absurd h (Nat.not_lt.mpr (Nat.le_add_left 5 n))

/-- The windows' buffers are the kernel triple's memrefs; the invariant and the debts are framed. -/
theorem body_obligation5 (c : Dev nD) : BodyObligation (dat5 (F := F) V q c) (defs₀ (F := F)) Variants.none () Set.univ := fun t => by
  show iprop(_ ∗ _ ∗ bigSep Finset.univ fun w => iprop(∃ d, owns (c : Thread nD τ) _ fullShare ((dat5 V q c).before w t d)))
    ⊢ wp _ _ _ (bodyAt5 t) fun _ => iprop(_ ∗ _ ∗ bigSep Finset.univ fun w => owns (c : Thread nD τ) _ fullShare ((dat5 V q c).after w t))
  rw [bigSep_W5, bigSep_W5]
  simp (disch := decide) only [before5]
  rw [show (dat5 V q c).Φ t.succ = (dat5 V q c).Φ t.castSucc from rfl, after5_5]
  iintro ⟨HΦ, Hown, ⟨%dg, Hg⟩, ⟨%dw1, Hw1⟩, ⟨%db1, Hb1⟩, ⟨%dw2, Hw2⟩, ⟨%db2, Hb2⟩, ⟨%dO, Ho⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [Hg]; · iexact Hg
  isplitl [Hw1]; · iexact Hw1
  isplitl [Hb1]; · iexact Hb1
  isplitl [Hw2]; · iexact Hw2
  isplitl [Hb2]; · iexact Hb2
  isplitl [Ho]; · iexists _; iexact Ho
  iintro ⟨Hg, Hw1, Hb1, Hw2, Hb2, Ho⟩
  isplitl [HΦ]; · iexact HΦ
  isplitl [Hown]; · iexact Hown
  isplitl [Hg]; · iexact Hg
  isplitl [Hw1]; · iexact Hw1
  isplitl [Hb1]; · iexact Hb1
  isplitl [Hw2]; · iexact Hw2
  isplitl [Hb2]; · iexact Hb2
  iexact Ho

end Cert.Kernel.Hand

end
-- ==== Proof.Kernel.Reg6.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg6.W → PosShare TreeShare)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rect6_a : Rect S5000x32 := Rect.unit (s := S5000x32) ![0, 0] S5000x32.size inb_S5000x32_S5000x32_0_0
abbrev rect6_b : Rect S32x64 := Rect.unit (s := S32x64) ![0, 0] S32x64.size inb_S32x64_S32x64_0_0
abbrev rect6_c : Rect S1x64 := Rect.unit (s := S1x64) ![0, 0] S1x64.size inb_S1x64_S1x64_0_0
abbrev rect6_d : Rect S5000x64 := Rect.unit (s := S5000x64) ![0, 0] S5000x64.size inb_S5000x64_S5000x64_0_0

def out6_3 (x : Vec F S5000x32 .f32) (w : Vec F S32x64 .f32) (b : Vec F S1x64 .f32) : Vec F S5000x64 .f32 :=
  View.canon [⟨rect6_d, k6_pay1 (View.ld x rect6_a) (View.ld w rect6_b) (View.ld b rect6_c)⟩]

set_option maxHeartbeats 1000000 in
/-- The body only reads the inputs and stores the output whole once, so the output reads back as that store's closed form. -/
theorem sound_kernel6 (c : Dev nD) (E : Set ℕ) (i : grid6.Coords)
    (arg1 : Memref sig .tc .vmem S5000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S5000x64 .f32) (harg4 : arg4.IsWhole)
    (x : Vec F S5000x32 .f32) (w : Vec F S32x64 .f32) (b : Vec F S1x64 .f32) (K : PUnit → sProp 𝕄) :
    iprop(owns c arg1 fullShare x ∗ owns c arg2 fullShare w ∗ owns c arg3 fullShare b
        ∗ (∃ d, owns c arg4 fullShare d)
        ∗ (iprop(owns c arg1 fullShare x ∗ owns c arg2 fullShare w ∗ owns c arg3 fullShare b
            ∗ owns c arg4 fullShare (out6_3 x w b)) -∗ K ⟨⟩))
      ⊢ wp frame (wpE (defs₀ (F := F)) Variants.none c none) E (cc6__proj_kernel i arg1 harg1 arg2 harg2 arg3 harg3 arg4 harg4) K := by
  simp only [cc6__proj_kernel_eq_skeleton]; unfold cc6__proj_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S5000x64.size rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q := q
  owed _ := 0

theorem A_eq6 (c : Dev nD) (w : Fin cfg6.W) : (dat6 V q c).A w = V c (Pipeline.arrRef spec6 w) := by
  dsimp only [dat6]

theorem after6_3 (c : Dev nD) (t : Fin cfg6.N) :
    (dat6 V q c).after 3 t = out6_3 (iblk6 V c 0 t) (iblk6 V c 1 t) (iblk6 V c 2 t) := by dsimp only [dat6]

/-- At each input window the hypotheses of `Dat.before_in_eq_fetched` hold by evaluation. -/
theorem before6 (c : Dev nD) : ∀ w : Fin cfg6.W, w.val < 3 → ∀ t d, (dat6 V q c).before w t d = (dat6 V q c).fetched w t d
  | ⟨0, _⟩, _, t, d | ⟨1, _⟩, _, t, d | ⟨2, _⟩, _, t, d =>
    (dat6 V q c).before_in_eq_fetched _ rfl (fun _ => rfl) (fun _ _ _ => rfl) (fun _ => rfl) t d
  | ⟨n + 3, _⟩, h, _, _ => absurd h (Nat.not_lt.mpr (Nat.le_add_left 3 n))

/-- The windows' buffers are the kernel triple's memrefs; the invariant and the debts are framed. -/
theorem body_obligation6 (c : Dev nD) : BodyObligation (dat6 (F := F) V q c) (defs₀ (F := F)) Variants.none () Set.univ := fun t => by
  show iprop(_ ∗ _ ∗ bigSep Finset.univ fun w => iprop(∃ d, owns (c : Thread nD τ) _ fullShare ((dat6 V q c).before w t d)))
    ⊢ wp _ _ _ (bodyAt6 t) fun _ => iprop(_ ∗ _ ∗ bigSep Finset.univ fun w => owns (c : Thread nD τ) _ fullShare ((dat6 V q c).after w t))
  rw [bigSep_W6, bigSep_W6]
  simp (disch := decide) only [before6]
  rw [show (dat6 V q c).Φ t.succ = (dat6 V q c).Φ t.castSucc from rfl, after6_3]
  iintro ⟨HΦ, Hd, ⟨%dx, Hx⟩, ⟨%dw, Hw⟩, ⟨%db, Hb⟩, ⟨%dy, Hy⟩⟩
  iapply (sound_kernel6 c Set.univ _ _ _ _ _ _ _ _ _ (iblk6 V c 0 t) (iblk6 V c 1 t) (iblk6 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hd]; · iexact Hd
  isplitl [Hx]; · iexact Hx
  isplitl [Hw]; · iexact Hw
  isplitl [Hb]; · iexact Hb
  iexact Hy

end Cert.Kernel.Hand

end
-- ==== Proof.Kernel.Reg7.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg7.W → PosShare TreeShare)

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rect7_a : Rect S5000x64 := Rect.unit (s := S5000x64) ![0, 0] S5000x64.size inb_S5000x64_S5000x64_0_0
abbrev rect7_b : Rect S64x64 := Rect.unit (s := S64x64) ![0, 0] S64x64.size inb_S64x64_S64x64_0_0
abbrev rect7_c : Rect S1x64 := Rect.unit (s := S1x64) ![0, 0] S1x64.size inb_S1x64_S1x64_0_0

def out7_7 (x agg : Vec F S5000x64 .f32) (wa : Vec F S64x64 .f32) (ba : Vec F S1x64 .f32) (wb : Vec F S64x64 .f32) (bb : Vec F S1x64 .f32) : Vec F S5000x64 .f32 :=
  View.canon [⟨rect7_a, k7_pay2 (View.ld x rect7_a) (View.ld agg rect7_a) (View.ld wa rect7_b) (View.ld ba rect7_c) (View.ld wb rect7_b) (View.ld bb rect7_c)⟩]

def out7_8 (xres : Vec F S5000x64 .f32) : Vec F S5000x64 .f32 :=
  View.canon [⟨rect7_a, k7_pay1 (View.ld xres rect7_a)⟩]

set_option maxHeartbeats 4000000 in
/-- The body only reads the inputs and stores each output whole once, so each output reads back as that store's closed form. -/
theorem sound_kernel7 (c : Dev nD) (E : Set ℕ) (i : grid7.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out7_7 x0 x1 x3 x4 x5 x6) ∗ owns c m8 fullShare (out7_8 x2)) -∗ K ⟨⟩))
      ⊢ wp frame (wpE (defs₀ (F := F)) Variants.none c none) E (cc7_kernel i m0 hm0 m1 hm1 m2 hm2 m3 hm3 m4 hm4 m5 hm5 m6 hm6 m7 hm7 m8 hm8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 3 t) (iblk7 V c 4 t) (iblk7 V c 5 t) (iblk7 V c 6 t)
    | ⟨8, _⟩ => out7_8 (iblk7 V c 2 t)
  Φ _ := Pipeline.ΦA spec7 c
  q := q
  owed _ := 0

theorem A_eq7 (c : Dev nD) (w : Fin cfg7.W) : (dat7 V q c).A w = V c (Pipeline.arrRef spec7 w) := by
  dsimp only [dat7]

theorem after7_7 (c : Dev nD) (t : Fin cfg7.N) : (dat7 V q c).after 7 t = out7_7 (iblk7 V c 0 t) (iblk7 V c 1 t) (iblk7 V c 3 t) (iblk7 V c 4 t) (iblk7 V c 5 t) (iblk7 V c 6 t) := by dsimp only [dat7]
theorem after7_8 (c : Dev nD) (t : Fin cfg7.N) : (dat7 V q c).after 8 t = out7_8 (iblk7 V c 2 t) := by dsimp only [dat7]

/-- At each input window the hypotheses of `Dat.before_in_eq_fetched` hold by evaluation. -/
theorem before7 (c : Dev nD) : ∀ w : Fin cfg7.W, w.val < 7 → ∀ t d, (dat7 V q c).before w t d = (dat7 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat7 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation7 (c : Dev nD) : BodyObligation (dat7 (F := F) V q c) (defs₀ (F := F)) Variants.none () Set.univ := fun t => by
  show iprop(_ ∗ _ ∗ bigSep Finset.univ fun w => iprop(∃ d, owns (c : Thread nD τ) _ fullShare ((dat7 V q c).before w t d)))
    ⊢ wp _ _ _ (bodyAt7 t) fun _ => iprop(_ ∗ _ ∗ bigSep Finset.univ fun w => owns (c : Thread nD τ) _ fullShare ((dat7 V q c).after w t))
  rw [bigSep_W7, bigSep_W7]
  simp (disch := decide) only [before7]
  rw [show (dat7 V q c).Φ t.succ = (dat7 V q c).Φ t.castSucc from rfl, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg8.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg8.W → PosShare TreeShare)

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev rect8_a : Rect S5000x64 := Rect.unit (s := S5000x64) ![0, 0] S5000x64.size inb_S5000x64_S5000x64_0_0
abbrev rect8_b : Rect S64x64 := Rect.unit (s := S64x64) ![0, 0] S64x64.size inb_S64x64_S64x64_0_0
abbrev rect8_c : Rect S1x64 := Rect.unit (s := S1x64) ![0, 0] S1x64.size inb_S1x64_S1x64_0_0

def out8_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect8_a, k8_pay2 (View.ld x rect8_a) (View.ld agg rect8_a) (View.ld w1 rect8_b) (View.ld b1 rect8_c) (View.ld w2 rect8_b) (View.ld b2 rect8_c) (View.ld xres rect8_a)⟩]

def out8_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect8_a, k8_pay1 (View.ld x rect8_a) (View.ld agg rect8_a) (View.ld w1 rect8_b) (View.ld b1 rect8_c) (View.ld w2 rect8_b) (View.ld b2 rect8_c) (View.ld xres rect8_a)⟩]

set_option maxHeartbeats 4000000 in
/-- The body only reads the inputs and stores each output whole once, so each output reads back as that store's closed form. -/
theorem sound_kernel8 (c : Dev nD) (E : Set ℕ) (i : grid8.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out8_7 x agg w1 b1 w2 b2 xres) ∗ owns c arg9 fullShare (out8_8 x agg w1 b1 w2 b2 xres)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9) K := by
  simp only [cc8_kernel_eq_skeleton]; unfold cc8_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 3 t) (iblk8 V c 4 t) (iblk8 V c 5 t) (iblk8 V c 6 t) (iblk8 V c 2 t)
    | ⟨8, _⟩ => out8_8 (iblk8 V c 0 t) (iblk8 V c 1 t) (iblk8 V c 3 t) (iblk8 V c 4 t) (iblk8 V c 5 t) (iblk8 V c 6 t) (iblk8 V c 2 t)
  Φ _ := Pipeline.ΦA spec8 c
  q := q
  owed _ := 0

theorem A_eq8 (c : Dev nD) (w : Fin cfg8.W) : (dat8 V q c).A w = V c (Pipeline.arrRef spec8 w) := by
  dsimp only [dat8]

theorem after8_7 (c : Dev nD) (t : Fin cfg8.N) : (dat8 V q c).after 7 t = out8_7 (iblk8 V c 0 t) (iblk8 V c 1 t) (iblk8 V c 3 t) (iblk8 V c 4 t) (iblk8 V c 5 t) (iblk8 V c 6 t) (iblk8 V c 2 t) := by dsimp only [dat8]
theorem after8_8 (c : Dev nD) (t : Fin cfg8.N) : (dat8 V q c).after 8 t = out8_8 (iblk8 V c 0 t) (iblk8 V c 1 t) (iblk8 V c 3 t) (iblk8 V c 4 t) (iblk8 V c 5 t) (iblk8 V c 6 t) (iblk8 V c 2 t) := by dsimp only [dat8]

/-- At each input window the hypotheses of `Dat.before_in_eq_fetched` hold by evaluation. -/
theorem before8 (c : Dev nD) : ∀ w : Fin cfg8.W, w.val < 7 → ∀ t d, (dat8 V q c).before w t d = (dat8 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat8 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation8 (c : Dev nD) : BodyObligation (dat8 (F := F) V q c) (defs₀ (F := F)) Variants.none () Set.univ := fun t => by
  show iprop(_ ∗ _ ∗ bigSep Finset.univ fun w => iprop(∃ d, owns (c : Thread nD τ) _ fullShare ((dat8 V q c).before w t d)))
    ⊢ wp _ _ _ (bodyAt8 t) fun _ => iprop(_ ∗ _ ∗ bigSep Finset.univ fun w => owns (c : Thread nD τ) _ fullShare ((dat8 V q c).after w t))
  rw [bigSep_W8, bigSep_W8]
  simp (disch := decide) only [before8]
  rw [show (dat8 V q c).Φ t.succ = (dat8 V q c).Φ t.castSucc from rfl, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg9.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg9.W → PosShare TreeShare)

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rect9_a : Rect S5000x64 := Rect.unit (s := S5000x64) ![0, 0] S5000x64.size inb_S5000x64_S5000x64_0_0
abbrev rect9_b : Rect S64x64 := Rect.unit (s := S64x64) ![0, 0] S64x64.size inb_S64x64_S64x64_0_0
abbrev rect9_c : Rect S1x64 := Rect.unit (s := S1x64) ![0, 0] S1x64.size inb_S1x64_S1x64_0_0

def out9_7 (x agg : Vec F S5000x64 .f32) (wa : Vec F S64x64 .f32) (ba : Vec F S1x64 .f32) (wb : Vec F S64x64 .f32) (bb : Vec F S1x64 .f32) : Vec F S5000x64 .f32 :=
  View.canon [⟨rect9_a, k9_pay2 (View.ld x rect9_a) (View.ld agg rect9_a) (View.ld wa rect9_b) (View.ld ba rect9_c) (View.ld wb rect9_b) (View.ld bb rect9_c)⟩]

def out9_8 (xres : Vec F S5000x64 .f32) : Vec F S5000x64 .f32 :=
  View.canon [⟨rect9_a, k9_pay1 (View.ld xres rect9_a)⟩]

set_option maxHeartbeats 4000000 in
/-- The body only reads the inputs and stores each output whole once, so each output reads back as that store's closed form. -/
theorem sound_kernel9 (c : Dev nD) (E : Set ℕ) (i : grid9.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out9_7 x0 x1 x3 x4 x5 x6) ∗ owns c m8 fullShare (out9_8 x2)) -∗ K ⟨⟩))
      ⊢ wp frame (wpE (defs₀ (F := F)) Variants.none c none) E (cc9_kernel i m0 hm0 m1 hm1 m2 hm2 m3 hm3 m4 hm4 m5 hm5 m6 hm6 m7 hm7 m8 hm8) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 3 t) (iblk9 V c 4 t) (iblk9 V c 5 t) (iblk9 V c 6 t)
    | ⟨8, _⟩ => out9_8 (iblk9 V c 2 t)
  Φ _ := Pipeline.ΦA spec9 c
  q := q
  owed _ := 0

theorem A_eq9 (c : Dev nD) (w : Fin cfg9.W) : (dat9 V q c).A w = V c (Pipeline.arrRef spec9 w) := by
  dsimp only [dat9]

theorem after9_7 (c : Dev nD) (t : Fin cfg9.N) : (dat9 V q c).after 7 t = out9_7 (iblk9 V c 0 t) (iblk9 V c 1 t) (iblk9 V c 3 t) (iblk9 V c 4 t) (iblk9 V c 5 t) (iblk9 V c 6 t) := by dsimp only [dat9]
theorem after9_8 (c : Dev nD) (t : Fin cfg9.N) : (dat9 V q c).after 8 t = out9_8 (iblk9 V c 2 t) := by dsimp only [dat9]

/-- At each input window the hypotheses of `Dat.before_in_eq_fetched` hold by evaluation. -/
theorem before9 (c : Dev nD) : ∀ w : Fin cfg9.W, w.val < 7 → ∀ t d, (dat9 V q c).before w t d = (dat9 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat9 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation9 (c : Dev nD) : BodyObligation (dat9 (F := F) V q c) (defs₀ (F := F)) Variants.none () Set.univ := fun t => by
  show iprop(_ ∗ _ ∗ bigSep Finset.univ fun w => iprop(∃ d, owns (c : Thread nD τ) _ fullShare ((dat9 V q c).before w t d)))
    ⊢ wp _ _ _ (bodyAt9 t) fun _ => iprop(_ ∗ _ ∗ bigSep Finset.univ fun w => owns (c : Thread nD τ) _ fullShare ((dat9 V q c).after w t))
  rw [bigSep_W9, bigSep_W9]
  simp (disch := decide) only [before9]
  rw [show (dat9 V q c).Φ t.succ = (dat9 V q c).Φ t.castSucc from rfl, after9_7, after9_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel9 c Set.univ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg10.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg10.W → PosShare TreeShare)

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rect10_a : Rect S5000x64 := Rect.unit (s := S5000x64) ![0, 0] S5000x64.size inb_S5000x64_S5000x64_0_0
abbrev rect10_b : Rect S64x64 := Rect.unit (s := S64x64) ![0, 0] S64x64.size inb_S64x64_S64x64_0_0
abbrev rect10_c : Rect S1x64 := Rect.unit (s := S1x64) ![0, 0] S1x64.size inb_S1x64_S1x64_0_0

def out10_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect10_a, k10_pay2 (View.ld x rect10_a) (View.ld agg rect10_a) (View.ld w1 rect10_b) (View.ld b1 rect10_c) (View.ld w2 rect10_b) (View.ld b2 rect10_c) (View.ld xres rect10_a)⟩]

def out10_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect10_a, k10_pay1 (View.ld x rect10_a) (View.ld agg rect10_a) (View.ld w1 rect10_b) (View.ld b1 rect10_c) (View.ld w2 rect10_b) (View.ld b2 rect10_c) (View.ld xres rect10_a)⟩]

set_option maxHeartbeats 4000000 in
/-- The body only reads the inputs and stores each output whole once, so each output reads back as that store's closed form. -/
theorem sound_kernel10 (c : Dev nD) (E : Set ℕ) (i : grid10.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out10_7 x agg w1 b1 w2 b2 xres) ∗ owns c arg9 fullShare (out10_8 x agg w1 b1 w2 b2 xres)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9) K := by
  simp only [cc10_kernel_eq_skeleton]; unfold cc10_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 3 t) (iblk10 V c 4 t) (iblk10 V c 5 t) (iblk10 V c 6 t) (iblk10 V c 2 t)
    | ⟨8, _⟩ => out10_8 (iblk10 V c 0 t) (iblk10 V c 1 t) (iblk10 V c 3 t) (iblk10 V c 4 t) (iblk10 V c 5 t) (iblk10 V c 6 t) (iblk10 V c 2 t)
  Φ _ := Pipeline.ΦA spec10 c
  q := q
  owed _ := 0

theorem A_eq10 (c : Dev nD) (w : Fin cfg10.W) : (dat10 V q c).A w = V c (Pipeline.arrRef spec10 w) := by
  dsimp only [dat10]

theorem after10_7 (c : Dev nD) (t : Fin cfg10.N) : (dat10 V q c).after 7 t = out10_7 (iblk10 V c 0 t) (iblk10 V c 1 t) (iblk10 V c 3 t) (iblk10 V c 4 t) (iblk10 V c 5 t) (iblk10 V c 6 t) (iblk10 V c 2 t) := by dsimp only [dat10]
theorem after10_8 (c : Dev nD) (t : Fin cfg10.N) : (dat10 V q c).after 8 t = out10_8 (iblk10 V c 0 t) (iblk10 V c 1 t) (iblk10 V c 3 t) (iblk10 V c 4 t) (iblk10 V c 5 t) (iblk10 V c 6 t) (iblk10 V c 2 t) := by dsimp only [dat10]

/-- At each input window the hypotheses of `Dat.before_in_eq_fetched` hold by evaluation. -/
theorem before10 (c : Dev nD) : ∀ w : Fin cfg10.W, w.val < 7 → ∀ t d, (dat10 V q c).before w t d = (dat10 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat10 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation10 (c : Dev nD) : BodyObligation (dat10 (F := F) V q c) (defs₀ (F := F)) Variants.none () Set.univ := fun t => by
  show iprop(_ ∗ _ ∗ bigSep Finset.univ fun w => iprop(∃ d, owns (c : Thread nD τ) _ fullShare ((dat10 V q c).before w t d)))
    ⊢ wp _ _ _ (bodyAt10 t) fun _ => iprop(_ ∗ _ ∗ bigSep Finset.univ fun w => owns (c : Thread nD τ) _ fullShare ((dat10 V q c).after w t))
  rw [bigSep_W10, bigSep_W10]
  simp (disch := decide) only [before10]
  rw [show (dat10 V q c).Φ t.succ = (dat10 V q c).Φ t.castSucc from rfl, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.Kernel.Reg11.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg11.W → PosShare TreeShare)

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev rect11_a : Rect S128x320 := Rect.unit (s := S128x320) ![0, 0] S128x320.size inb_S128x320_S128x320_0_0
abbrev rect11_b : Rect S320x64 := Rect.unit (s := S320x64) ![0, 0] S320x64.size inb_S320x64_S320x64_0_0
abbrev rect11_c : Rect S1x64 := Rect.unit (s := S1x64) ![0, 0] S1x64.size inb_S1x64_S1x64_0_0
abbrev rect11_d : Rect S64x32 := Rect.unit (s := S64x32) ![0, 0] S64x32.size inb_S64x32_S64x32_0_0
abbrev rect11_e : Rect S1x32 := Rect.unit (s := S1x32) ![0, 0] S1x32.size inb_S1x32_S1x32_0_0
abbrev rect11_f : Rect S128x32 := Rect.unit (s := S128x32) ![0, 0] S128x32.size inb_S128x32_S128x32_0_0

def out11_5 (g : Vec F S128x320 .f32) (w1 : Vec F S320x64 .f32) (b1 : Vec F S1x64 .f32) (w2 : Vec F S64x32 .f32) (b2 : Vec F S1x32 .f32) : Vec F S128x32 .f32 :=
  View.canon [⟨rect11_f, k11_pay1 (View.ld g rect11_a) (View.ld w1 rect11_b) (View.ld b1 rect11_c) (View.ld w2 rect11_d) (View.ld b2 rect11_e)⟩]

set_option maxHeartbeats 1000000 in
/-- The body only reads the inputs and stores the output whole once, so the output reads back as that store's closed form. -/
theorem sound_kernel11 (c : Dev nD) (E : Set ℕ) (i : grid11.Coords)
    (mg : Memref sig .tc .vmem S128x320 .f32) (hmg : mg.IsWhole) (mw1 : Memref sig .tc .vmem S320x64 .f32) (hmw1 : mw1.IsWhole)
    (mb1 : Memref sig .tc .vmem S1x64 .f32) (hmb1 : mb1.IsWhole) (mw2 : Memref sig .tc .vmem S64x32 .f32) (hmw2 : mw2.IsWhole)
    (mb2 : Memref sig .tc .vmem S1x32 .f32) (hmb2 : mb2.IsWhole) (mo : Memref sig .tc .vmem S128x32 .f32) (hmo : mo.IsWhole)
    (xg : Vec F S128x320 .f32) (xw1 : Vec F S320x64 .f32) (xb1 : Vec F S1x64 .f32) (xw2 : Vec F S64x32 .f32) (xb2 : Vec F S1x32 .f32)
    (K : PUnit → sProp 𝕄) :
    iprop(owns c mg fullShare xg ∗ owns c mw1 fullShare xw1 ∗ owns c mb1 fullShare xb1
        ∗ owns c mw2 fullShare xw2 ∗ owns c mb2 fullShare xb2 ∗ (∃ d, owns c mo fullShare d)
        ∗ (iprop(owns c mg fullShare xg ∗ owns c mw1 fullShare xw1 ∗ owns c mb1 fullShare xb1
            ∗ owns c mw2 fullShare xw2 ∗ owns c mb2 fullShare xb2
            ∗ owns c mo fullShare (out11_5 xg xw1 xb1 xw2 xb2)) -∗ K ⟨⟩))
      ⊢ wp frame (wpE (defs₀ (F := F)) Variants.none c none) E (cc11__post_kernel i mg hmg mw1 hmw1 mb1 hmb1 mw2 hmw2 mb2 hmb2 mo hmo) K := by
  simp only [cc11__post_kernel_eq_skeleton]; unfold cc11__post_kernel_skel
  unfold owns
  iintro ⟨⟨%fg, %hfg, Hg⟩, ⟨%fw1, %hfw1, Hw1⟩, ⟨%fb1, %hfb1, Hb1⟩, ⟨%fw2, %hfw2, Hw2⟩, ⟨%fb2, %hfb2, Hb2⟩, ⟨%dO, %fO, -, Ho⟩, Hk⟩
  subst hfg; subst hfw1; subst hfb1; subst hfw2; subst hfb2
  sl_exec
  sl_step
  iapply Hk
  isplitl [Hg]
  · iexists fg; isplitr; · ipureintro; rfl
    iexact Hg
  isplitl [Hw1]
  · iexists fw1; isplitr; · ipureintro; rfl
    iexact Hw1
  isplitl [Hb1]
  · iexists fb1; isplitr; · ipureintro; rfl
    iexact Hb1
  isplitl [Hw2]
  · iexists fw2; isplitr; · ipureintro; rfl
    iexact Hw2
  isplitl [Hb2]
  · iexists fb2; isplitr; · ipureintro; rfl
    iexact Hb2
  iexists _; isplitr
  swap; · iexact Ho
  ipureintro
  exact View.read_writes_eq_canon _ _ _ (View.cover_of_tiled _ S128x32.size rfl)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q := q
  owed _ := 0

theorem A_eq11 (c : Dev nD) (w : Fin cfg11.W) : (dat11 V q c).A w = V c (Pipeline.arrRef spec11 w) := by
  dsimp only [dat11]

theorem after11_5 (c : Dev nD) (t : Fin cfg11.N) : (dat11 V q c).after 5 t = out11_5 (iblk11 V c 0 t) (iblk11 V c 1 t) (iblk11 V c 2 t) (iblk11 V c 3 t) (iblk11 V c 4 t) := by dsimp only [dat11]

/-- At each input window the hypotheses of `Dat.before_in_eq_fetched` hold by evaluation. -/
theorem before11 (c : Dev nD) : ∀ w : Fin cfg11.W, w.val < 5 → ∀ t d, (dat11 V q c).before w t d = (dat11 V q c).fetched w t d
  | ⟨0, _⟩, _, t, d | ⟨1, _⟩, _, t, d | ⟨2, _⟩, _, t, d | ⟨3, _⟩, _, t, d | ⟨4, _⟩, _, t, d =>
    (dat11 V q c).before_in_eq_fetched _ rfl (fun _ => rfl) (fun _ _ _ => rfl) (fun _ => rfl) t d
  | ⟨n + 5, _⟩, h, _, _ => absurd h (Nat.not_lt.mpr (Nat.le_add_left 5 n))

/-- The windows' buffers are the kernel triple's memrefs; the invariant and the debts are framed. -/
theorem body_obligation11 (c : Dev nD) : BodyObligation (dat11 (F := F) V q c) (defs₀ (F := F)) Variants.none () Set.univ := fun t => by
  show iprop(_ ∗ _ ∗ bigSep Finset.univ fun w => iprop(∃ d, owns (c : Thread nD τ) _ fullShare ((dat11 V q c).before w t d)))
    ⊢ wp _ _ _ (bodyAt11 t) fun _ => iprop(_ ∗ _ ∗ bigSep Finset.univ fun w => owns (c : Thread nD τ) _ fullShare ((dat11 V q c).after w t))
  rw [bigSep_W11, bigSep_W11]
  simp (disch := decide) only [before11]
  rw [show (dat11 V q c).Φ t.succ = (dat11 V q c).Φ t.castSucc from rfl, after11_5]
  iintro ⟨HΦ, Hown, ⟨%dg, Hg⟩, ⟨%dw1, Hw1⟩, ⟨%db1, Hb1⟩, ⟨%dw2, Hw2⟩, ⟨%db2, Hb2⟩, ⟨%dO, Ho⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [Hg]; · iexact Hg
  isplitl [Hw1]; · iexact Hw1
  isplitl [Hb1]; · iexact Hb1
  isplitl [Hw2]; · iexact Hw2
  isplitl [Hb2]; · iexact Hb2
  isplitl [Ho]; · iexists _; iexact Ho
  iintro ⟨Hg, Hw1, Hb1, Hw2, Hb2, Ho⟩
  isplitl [HΦ]; · iexact HΦ
  isplitl [Hown]; · iexact Hown
  isplitl [Hg]; · iexact Hg
  isplitl [Hw1]; · iexact Hw1
  isplitl [Hb1]; · iexact Hb1
  isplitl [Hw2]; · iexact Hw2
  isplitl [Hb2]; · iexact Hb2
  iexact Ho

end Cert.Kernel.Hand

end
-- ==== Proof.Kernel.Shared1.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q1 : Fin cfg1.W → PosShare TreeShare
  | ⟨0, _⟩ => (fullShare : PosShare TreeShare).left
  | ⟨1, _⟩ => fullShare
  | ⟨2, _⟩ => (fullShare : PosShare TreeShare).right
  | ⟨3, _⟩ => fullShare
  | ⟨4, _⟩ => fullShare
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

theorem q1_rest : ∀ w : Fin cfg1.W, w ≠ 0 → w ≠ 2 → q1 w = fullShare
  | ⟨0, _⟩, h, _ => absurd rfl h
  | ⟨1, _⟩, _, _ => rfl
  | ⟨2, _⟩, _, h => absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨_ + 9, h⟩, _, _ => absurd h (Nat.not_lt.2 (Nat.le_add_left _ _))

theorem shared_entry1_image :
    (Finset.univ : Finset (Fin cfg1.W)).image (Pipeline.arrRef spec1)
      = ((Finset.univ : Finset (Fin cfg1.W)).erase 2).image (Pipeline.arrRef spec1) := by decide

theorem shared_entry1_distinct : ∀ w ∈ (Finset.univ : Finset (Fin cfg1.W)).erase 2, ∀ w' ∈ (Finset.univ : Finset (Fin cfg1.W)).erase 2,
    Pipeline.arrRef spec1 w = Pipeline.arrRef spec1 w' → w = w' := by decide

theorem shared_entry1_arrays (c : Dev nD) (dat : Dat τ (Elt F) Unit ℕ (UR sig nD τ) ℕ cfg1 c) (hq : dat.q = q1)
    (V : (b : Ref sig .tc) → Buf (Elt F) ((c : Thread nD τ).loc b))
    (Fw : (w : Fin cfg1.W) → Buf (Elt F) (((cfg1.win w).arr.view.loc (c : Thread nD τ))))
    (hF : ∀ w, Fw w = V (Pipeline.arrRef spec1 w)) :
    (Pipeline.arrBufs (Ix := Unit) (Name := ℕ) (U := UR sig nD τ) (Lvl := ℕ) spec1 c V : sProp 𝕄) ⊣⊢ dat.arrays Fw := by
  classical

  have hrest : ∀ w ∈ ((Finset.univ : Finset (Fin cfg1.W)).erase 2).erase 0,
      (((c : Thread nD τ).loc (Pipeline.arrRef spec1 w)) ↦{fullShare} V (Pipeline.arrRef spec1 w) : sProp 𝕄)
        = ((cfg1.win w).arr.view.loc (c : Thread nD τ) ↦[(cfg1.win w).arr.view.set]{dat.share w} Fw w) := by
    intro w hw
    have hw0 : w ≠ 0 := (Finset.mem_erase.mp hw).1
    have hw2 : w ≠ 2 := (Finset.mem_erase.mp (Finset.mem_erase.mp hw).2).1
    have hs : (cfg1.win w).arr.view.set = Finset.univ := (arr_whole1 w).set_eq_univ
    have hsh : dat.share w = fullShare := by unfold Dat.share; rw [hq, q1_rest w hw0 hw2]; exact ite_self _
    rw [hs, hsh, hF w]

  have h0 : ((cfg1.win 0).arr.view.loc (c : Thread nD τ) ↦[(cfg1.win 0).arr.view.set]{dat.share 0} Fw 0 : sProp 𝕄)
      = (((c : Thread nD τ).loc (Pipeline.arrRef spec1 0)) ↦{(fullShare : PosShare TreeShare).left} V (Pipeline.arrRef spec1 0)) := by
    have hs : (cfg1.win 0).arr.view.set = Finset.univ := (arr_whole1 0).set_eq_univ
    have hsh : dat.share 0 = (fullShare : PosShare TreeShare).left := by unfold Dat.share; rw [hq]; rfl
    rw [hs, hsh, hF 0]

  have h2 : ((cfg1.win 2).arr.view.loc (c : Thread nD τ) ↦[(cfg1.win 2).arr.view.set]{dat.share 2} Fw 2 : sProp 𝕄)
      = (((c : Thread nD τ).loc (Pipeline.arrRef spec1 0)) ↦{(fullShare : PosShare TreeShare).right} V (Pipeline.arrRef spec1 0)) := by
    have hs : (cfg1.win 2).arr.view.set = Finset.univ := (arr_whole1 2).set_eq_univ
    have hsh : dat.share 2 = (fullShare : PosShare TreeShare).right := by unfold Dat.share; rw [hq]; rfl
    rw [hs, hsh, hF 2]

  have hhalves : (((c : Thread nD τ).loc (Pipeline.arrRef spec1 0)) ↦{fullShare} V (Pipeline.arrRef spec1 0) : sProp 𝕄)
      ⊣⊢ iprop((((c : Thread nD τ).loc (Pipeline.arrRef spec1 0)) ↦{(fullShare : PosShare TreeShare).left} V (Pipeline.arrRef spec1 0))
        ∗ (((c : Thread nD τ).loc (Pipeline.arrRef spec1 0)) ↦{(fullShare : PosShare TreeShare).right} V (Pipeline.arrRef spec1 0))) :=
    pointsTo_share (PosShare.mem_left_op_right fullShare)
  unfold Pipeline.arrBufs Dat.arrays
  rw [shared_entry1_image,
    bigSep_image_of_injOn (fun a ha b hb => shared_entry1_distinct a (Finset.mem_coe.mp ha) b (Finset.mem_coe.mp hb)),
    bigSep_univ_split (2 : Fin cfg1.W),
    bigSep_erase (i := (0 : Fin cfg1.W)) (s := (Finset.univ : Finset (Fin cfg1.W)).erase 2) (by decide),
    bigSep_erase (i := (0 : Fin cfg1.W)) (s := (Finset.univ : Finset (Fin cfg1.W)).erase 2) (by decide),
    bigSep_congr hrest, h0, h2]
  constructor
  · refine (show iprop(_ ∗ _) ⊢ iprop(_ ∗ _ ∗ _) from ?_)
    iintro ⟨H0, HR⟩
    ihave H := hhalves.1 $$ H0
    icases H with ⟨Hl, Hr⟩
    isplitl [Hr]; · iexact Hr
    isplitl [Hl]; · iexact Hl
    iexact HR
  · refine (show iprop(_ ∗ _ ∗ _) ⊢ iprop(_ ∗ _) from ?_)
    iintro ⟨Hr, Hl, HR⟩
    isplitr [HR]
    · iapply hhalves.2
      isplitl [Hl]; · iexact Hl
      iexact Hr
    · iexact HR

theorem shared_entry1_unscoped [DecidableEq (Ref sig .tc)] :
    (Finset.univ : Finset (Fin cfg1.W)).image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

theorem shared_entry1_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V
      ∗ Pipeline.unscopedRest (Ix := Unit) (Name := ℕ) (U := UR sig nD τ) (Lvl := ℕ) spec1 c V) := by
  classical
  unfold unscopedBufs Pipeline.unscopedRest Pipeline.arrBufs
  rw [bigSep_sdiff_split shared_entry1_unscoped]
  rfl

theorem shared_entry1 (c : Dev nD) (dat : Dat τ (Elt F) Unit ℕ (UR sig nD τ) ℕ cfg1 c) (hq : dat.q = q1)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest (Ix := Unit) (Name := ℕ) (U := UR sig nD τ) (Lvl := ℕ) spec1 c V) := by
  rw [shared_entry1_split c V]
  exact sep_mono (shared_entry1_arrays c dat hq V dat.A hA).1 .rfl

theorem shared_exit1 (c : Dev nD) (dat : Dat τ (Elt F) Unit ℕ (UR sig nD τ) ℕ cfg1 c) (hq : dat.q = q1)
    (V V' : (b : Ref sig .tc) → Buf (Elt F) ((c : Thread nD τ).loc b))
    (Fw : (w : Fin cfg1.W) → Buf (Elt F) (((cfg1.win w).arr.view.loc (c : Thread nD τ))))
    (hF : ∀ w, Fw w = V' (Pipeline.arrRef spec1 w))
    (hrest : ∀ b, b ∉ Finset.univ.image (Pipeline.arrRef spec1) → V' b = V b) :
    iprop(dat.arrays Fw ∗ Pipeline.unscopedRest (Ix := Unit) (Name := ℕ) (U := UR sig nD τ) (Lvl := ℕ) spec1 c V) ⊢ (unscopedBufs c V' : sProp 𝕄) := by
  rw [shared_entry1_split c V']
  refine sep_mono (shared_entry1_arrays c dat hq V' Fw hF).2 (Entails.of_eq ?_)
  unfold Pipeline.unscopedRest
  exact bigSep_congr fun b hb => by rw [hrest b (Finset.mem_sdiff.mp hb).2]

end Cert.Kernel.Hand

end
-- ==== Proof.Kernel.Shared7.lean ====
import proofs.«101247_j38388417692531_1_alg».proof.Proof.Gen.Kernel.Launch
import proofs.«101247_j38388417692531_1_alg».proof.Proof.Gen.Kernel.Skeleton
import proofs.«101247_j38388417692531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q7 : Fin cfg7.W → PosShare TreeShare
  | ⟨0, _⟩ => (fullShare : PosShare TreeShare).left
  | ⟨1, _⟩ => fullShare
  | ⟨2, _⟩ => (fullShare : PosShare TreeShare).right
  | ⟨3, _⟩ => fullShare
  | ⟨4, _⟩ => fullShare
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

theorem q7_rest : ∀ w : Fin cfg7.W, w ≠ 0 → w ≠ 2 → q7 w = fullShare
  | ⟨0, _⟩, h, _ => absurd rfl h
  | ⟨1, _⟩, _, _ => rfl
  | ⟨2, _⟩, _, h => absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨_ + 9, h⟩, _, _ => absurd h (Nat.not_lt.2 (Nat.le_add_left _ _))

theorem shared_entry7_image :
    (Finset.univ : Finset (Fin cfg7.W)).image (Pipeline.arrRef spec7)
      = ((Finset.univ : Finset (Fin cfg7.W)).erase 2).image (Pipeline.arrRef spec7) := by decide

theorem shared_entry7_distinct : ∀ w ∈ (Finset.univ : Finset (Fin cfg7.W)).erase 2, ∀ w' ∈ (Finset.univ : Finset (Fin cfg7.W)).erase 2,
    Pipeline.arrRef spec7 w = Pipeline.arrRef spec7 w' → w = w' := by decide

theorem shared_entry7_arrays (c : Dev nD) (dat : Dat τ (Elt F) Unit ℕ (UR sig nD τ) ℕ cfg7 c) (hq : dat.q = q7)
    (V : (b : Ref sig .tc) → Buf (Elt F) ((c : Thread nD τ).loc b))
    (Fw : (w : Fin cfg7.W) → Buf (Elt F) (((cfg7.win w).arr.view.loc (c : Thread nD τ))))
    (hF : ∀ w, Fw w = V (Pipeline.arrRef spec7 w)) :
    (Pipeline.arrBufs (Ix := Unit) (Name := ℕ) (U := UR sig nD τ) (Lvl := ℕ) spec7 c V : sProp 𝕄) ⊣⊢ dat.arrays Fw := by
  classical

  have hrest : ∀ w ∈ ((Finset.univ : Finset (Fin cfg7.W)).erase 2).erase 0,
      (((c : Thread nD τ).loc (Pipeline.arrRef spec7 w)) ↦{fullShare} V (Pipeline.arrRef spec7 w) : sProp 𝕄)
        = ((cfg7.win w).arr.view.loc (c : Thread nD τ) ↦[(cfg7.win w).arr.view.set]{dat.share w} Fw w) := by
    intro w hw
    have hw0 : w ≠ 0 := (Finset.mem_erase.mp hw).1
    have hw2 : w ≠ 2 := (Finset.mem_erase.mp (Finset.mem_erase.mp hw).2).1
    have hs : (cfg7.win w).arr.view.set = Finset.univ := (arr_whole7 w).set_eq_univ
    have hsh : dat.share w = fullShare := by unfold Dat.share; rw [hq, q7_rest w hw0 hw2]; exact ite_self _
    rw [hs, hsh, hF w]

  have h0 : ((cfg7.win 0).arr.view.loc (c : Thread nD τ) ↦[(cfg7.win 0).arr.view.set]{dat.share 0} Fw 0 : sProp 𝕄)
      = (((c : Thread nD τ).loc (Pipeline.arrRef spec7 0)) ↦{(fullShare : PosShare TreeShare).left} V (Pipeline.arrRef spec7 0)) := by
    have hs : (cfg7.win 0).arr.view.set = Finset.univ := (arr_whole7 0).set_eq_univ
    have hsh : dat.share 0 = (fullShare : PosShare TreeShare).left := by unfold Dat.share; rw [hq]; rfl
    rw [hs, hsh, hF 0]

  have h2 : ((cfg7.win 2).arr.view.loc (c : Thread nD τ) ↦[(cfg7.win 2).arr.view.set]{dat.share 2} Fw 2 : sProp 𝕄)
      = (((c : Thread nD τ).loc (Pipeline.arrRef spec7 0)) ↦{(fullShare : PosShare TreeShare).right} V (Pipeline.arrRef spec7 0)) := by
    have hs : (cfg7.win 2).arr.view.set = Finset.univ := (arr_whole7 2).set_eq_univ
    have hsh : dat.share 2 = (fullShare : PosShare TreeShare).right := by unfold Dat.share; rw [hq]; rfl
    rw [hs, hsh, hF 2]

  have hhalves : (((c : Thread nD τ).loc (Pipeline.arrRef spec7 0)) ↦{fullShare} V (Pipeline.arrRef spec7 0) : sProp 𝕄)
      ⊣⊢ iprop((((c : Thread nD τ).loc (Pipeline.arrRef spec7 0)) ↦{(fullShare : PosShare TreeShare).left} V (Pipeline.arrRef spec7 0))
        ∗ (((c : Thread nD τ).loc (Pipeline.arrRef spec7 0)) ↦{(fullShare : PosShare TreeShare).right} V (Pipeline.arrRef spec7 0))) :=
    pointsTo_share (PosShare.mem_left_op_right fullShare)
  unfold Pipeline.arrBufs Dat.arrays
  rw [shared_entry7_image,
    bigSep_image_of_injOn (fun a ha b hb => shared_entry7_distinct a (Finset.mem_coe.mp ha) b (Finset.mem_coe.mp hb)),
    bigSep_univ_split (2 : Fin cfg7.W),
    bigSep_erase (i := (0 : Fin cfg7.W)) (s := (Finset.univ : Finset (Fin cfg7.W)).erase 2) (by decide),
    bigSep_erase (i := (0 : Fin cfg7.W)) (s := (Finset.univ : Finset (Fin cfg7.W)).erase 2) (by decide),
    bigSep_congr hrest, h0, h2]
  constructor
  · refine (show iprop(_ ∗ _) ⊢ iprop(_ ∗ _ ∗ _) from ?_)
    iintro ⟨H0, HR⟩
    ihave H := hhalves.1 $$ H0
    icases H with ⟨Hl, Hr⟩
    isplitl [Hr]; · iexact Hr
    isplitl [Hl]; · iexact Hl
    iexact HR
  · refine (show iprop(_ ∗ _ ∗ _) ⊢ iprop(_ ∗ _) from ?_)
    iintro ⟨Hr, Hl, HR⟩
    isplitr [HR]
    · iapply hhalves.2
      isplitl [Hl]; · iexact Hl
      iexact Hr
    · iexact HR

theorem shared_entry7_unscoped [DecidableEq (Ref sig .tc)] :
    (Finset.univ : Finset (Fin cfg7.W)).image (Pipeline.arrRef spec7) ⊆ Finset.univ.filter fun b : Ref sig .tc => ¬ b.isScoped := fun b hb => by
  obtain ⟨w, -, rfl⟩ := Finset.mem_image.mp hb
  exact Finset.mem_filter.mpr ⟨Finset.mem_univ _, by simp [winFacts₀7.arr_unscoped w]⟩

theorem shared_entry7_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec7 c V
      ∗ Pipeline.unscopedRest (Ix := Unit) (Name := ℕ) (U := UR sig nD τ) (Lvl := ℕ) spec7 c V) := by
  classical
  unfold unscopedBufs Pipeline.unscopedRest Pipeline.arrBufs
  rw [bigSep_sdiff_split shared_entry7_unscoped]
  rfl

theorem shared_entry7 (c : Dev nD) (dat : Dat τ (Elt F) Unit ℕ (UR sig nD τ) ℕ cfg7 c) (hq : dat.q = q7)
    (V : (b : Ref sig .tc) → Buf (Elt F) ((c : Thread nD τ).loc b)) (hA : ∀ w, dat.A w = V (Pipeline.arrRef spec7 w)) :
    (unscopedBufs c V : sProp 𝕄) ⊢ iprop(dat.arrays dat.A ∗ Pipeline.unscopedRest (Ix := Unit) (Name := ℕ) (U := UR sig nD τ) (Lvl := ℕ) spec7 c V) := by
  rw [shared_entry7_split c V]
  exact sep_mono (shared_entry7_arrays c dat hq V dat.A hA).1 .rfl

theorem shared_exit7 (c : Dev nD) (dat : Dat τ (Elt F) Unit ℕ (UR sig nD τ) ℕ cfg7 c) (hq : dat.q = q7)
    (V V' : (b : Ref sig .tc) → Buf (Elt F) ((c : Thread nD τ).loc b))
    (Fw : (w : Fin cfg7.W) → Buf (Elt F) (((cfg7.win w).arr.view.loc (c : Thread nD τ))))
    (hF : ∀ w, Fw w = V' (Pipeline.arrRef spec7 w))
    (hrest : ∀ b, b ∉ Finset.univ.image (Pipeline.arrRef spec7) → V' b = V b) :
    iprop(dat.arrays Fw ∗ Pipeline.unscopedRest (Ix := Unit) (Name := ℕ) (U := UR sig nD τ) (Lvl := ℕ) spec7 c V) ⊢ (unscopedBufs c V' : sProp 𝕄) := by
  rw [shared_entry7_split c V']
  refine sep_mono (shared_entry7_arrays c dat hq V' Fw hF).2 (Entails.of_eq ?_)
  unfold Pipeline.unscopedRest
  exact bigSep_congr fun b hb => by rw [hrest b (Finset.mem_sdiff.mp hb).2]

end Cert.Kernel.Hand

end
-- ==== Proof.Kernel.Data.lean ====
import proofs.«101247_j38388417692531_1_alg».proof.Proof.Gen.Kernel.Regions
import proofs.«101247_j38388417692531_1_alg».proof.Proof.Kernel.Reg0
import proofs.«101247_j38388417692531_1_alg».proof.Proof.Kernel.Reg1
import proofs.«101247_j38388417692531_1_alg».proof.Proof.Kernel.Reg2
import proofs.«101247_j38388417692531_1_alg».proof.Proof.Kernel.Reg3
import proofs.«101247_j38388417692531_1_alg».proof.Proof.Kernel.Reg4
import proofs.«101247_j38388417692531_1_alg».proof.Proof.Kernel.Reg5
import proofs.«101247_j38388417692531_1_alg».proof.Proof.Kernel.Reg6
import proofs.«101247_j38388417692531_1_alg».proof.Proof.Kernel.Reg7
import proofs.«101247_j38388417692531_1_alg».proof.Proof.Kernel.Reg8
import proofs.«101247_j38388417692531_1_alg».proof.Proof.Kernel.Reg9
import proofs.«101247_j38388417692531_1_alg».proof.Proof.Kernel.Reg10
import proofs.«101247_j38388417692531_1_alg».proof.Proof.Kernel.Reg11
import proofs.«101247_j38388417692531_1_alg».proof.Proof.Kernel.Shared1
import proofs.«101247_j38388417692531_1_alg».proof.Proof.Kernel.Shared7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of the twelve kernel regions, each taken at the buffer contents its region is entered from.
    Between two items of the program every unscoped buffer of a core is held whole at the contents the generated
    conditional frame names (the launch contents, then each host stretch applied, then what a region may change at
    unknowns). Here those unknowns are tied to what the regions really leave: each output array after the last grid
    point's write-back. -/

variable (m : (ℓ : Loc nD τ sig) → Buf (Elt F) ℓ) (outs : Outs (F := F))

/-- Every input array is held at the full share, except where one array enters a region through two windows. -/
abbrev qfull {W : Nat} : Fin W → PosShare TreeShare := fun _ => fullShare

/-- Core `c`'s buffers as region 0 finds them, read at the TensorCore's references. -/
abbrev En1 : (c : Dev nD) → (b : Ref sig .tc) → Buf (Elt F) ((c : Thread nD τ).loc b) := fun c b => V1 m c b
/-- Core `c`'s buffers as region 1 finds them, read at the TensorCore's references. -/
abbrev En3 : (c : Dev nD) → (b : Ref sig .tc) → Buf (Elt F) ((c : Thread nD τ).loc b) := fun c b => V3 m outs c b
/-- Core `c`'s buffers as region 2 finds them, read at the TensorCore's references. -/
abbrev En5 : (c : Dev nD) → (b : Ref sig .tc) → Buf (Elt F) ((c : Thread nD τ).loc b) := fun c b => V5 m outs c b
/-- Core `c`'s buffers as region 3 finds them, read at the TensorCore's references. -/
abbrev En7 : (c : Dev nD) → (b : Ref sig .tc) → Buf (Elt F) ((c : Thread nD τ).loc b) := fun c b => V7 m outs c b
/-- Core `c`'s buffers as region 4 finds them, read at the TensorCore's references. -/
abbrev En9 : (c : Dev nD) → (b : Ref sig .tc) → Buf (Elt F) ((c : Thread nD τ).loc b) := fun c b => V9 m outs c b
/-- Core `c`'s buffers as region 5 finds them, read at the TensorCore's references. -/
abbrev En11 : (c : Dev nD) → (b : Ref sig .tc) → Buf (Elt F) ((c : Thread nD τ).loc b) := fun c b => V11 m outs c b
/-- Core `c`'s buffers as region 6 finds them, read at the TensorCore's references. -/
abbrev En13 : (c : Dev nD) → (b : Ref sig .tc) → Buf (Elt F) ((c : Thread nD τ).loc b) := fun c b => V13 m outs c b
/-- Core `c`'s buffers as region 7 finds them, read at the TensorCore's references. -/
abbrev En15 : (c : Dev nD) → (b : Ref sig .tc) → Buf (Elt F) ((c : Thread nD τ).loc b) := fun c b => V15 m outs c b
/-- Core `c`'s buffers as region 8 finds them, read at the TensorCore's references. -/
abbrev En17 : (c : Dev nD) → (b : Ref sig .tc) → Buf (Elt F) ((c : Thread nD τ).loc b) := fun c b => V17 m outs c b
/-- Core `c`'s buffers as region 9 finds them, read at the TensorCore's references. -/
abbrev En19 : (c : Dev nD) → (b : Ref sig .tc) → Buf (Elt F) ((c : Thread nD τ).loc b) := fun c b => V19 m outs c b
/-- Core `c`'s buffers as region 10 finds them, read at the TensorCore's references. -/
abbrev En21 : (c : Dev nD) → (b : Ref sig .tc) → Buf (Elt F) ((c : Thread nD τ).loc b) := fun c b => V21 m outs c b
/-- Core `c`'s buffers as region 11 finds them, read at the TensorCore's references. -/
abbrev En23 : (c : Dev nD) → (b : Ref sig .tc) → Buf (Elt F) ((c : Thread nD τ).loc b) := fun c b => V23 m outs c b

/-- The unknown contents after each region ARE what the region's pipeline leaves in its output arrays: the array's
    entry contents overwritten by every grid point's write-back. -/
structure OutsOk : Prop where
  o_main_v5 : ∀ c : Dev nD, outs 2 main_v5 c = (dat0 (En1 m) qfull c).arrAt 3 cfg0.N
  o_main_v26_0 : ∀ c : Dev nD, outs 4 main_v26_0 c = (dat1 (En3 m outs) q1 c).arrAt 7 cfg1.N
  o_main_v26_1 : ∀ c : Dev nD, outs 4 main_v26_1 c = (dat1 (En3 m outs) q1 c).arrAt 8 cfg1.N
  o_main_v47_0 : ∀ c : Dev nD, outs 6 main_v47_0 c = (dat2 (En5 m outs) qfull c).arrAt 7 cfg2.N
  o_main_v47_1 : ∀ c : Dev nD, outs 6 main_v47_1 c = (dat2 (En5 m outs) qfull c).arrAt 8 cfg2.N
  o_main_v68_0 : ∀ c : Dev nD, outs 8 main_v68_0 c = (dat3 (En7 m outs) qfull c).arrAt 7 cfg3.N
  o_main_v68_1 : ∀ c : Dev nD, outs 8 main_v68_1 c = (dat3 (En7 m outs) qfull c).arrAt 8 cfg3.N
  o_main_v89_0 : ∀ c : Dev nD, outs 10 main_v89_0 c = (dat4 (En9 m outs) qfull c).arrAt 7 cfg4.N
  o_main_v89_1 : ∀ c : Dev nD, outs 10 main_v89_1 c = (dat4 (En9 m outs) qfull c).arrAt 8 cfg4.N
  o_main_v96 : ∀ c : Dev nD, outs 12 main_v96 c = (dat5 (En11 m outs) qfull c).arrAt 5 cfg5.N
  o_main_v102 : ∀ c : Dev nD, outs 14 main_v102 c = (dat6 (En13 m outs) qfull c).arrAt 3 cfg6.N
  o_main_v123_0 : ∀ c : Dev nD, outs 16 main_v123_0 c = (dat7 (En15 m outs) q7 c).arrAt 7 cfg7.N
  o_main_v123_1 : ∀ c : Dev nD, outs 16 main_v123_1 c = (dat7 (En15 m outs) q7 c).arrAt 8 cfg7.N
  o_main_v144_0 : ∀ c : Dev nD, outs 18 main_v144_0 c = (dat8 (En17 m outs) qfull c).arrAt 7 cfg8.N
  o_main_v144_1 : ∀ c : Dev nD, outs 18 main_v144_1 c = (dat8 (En17 m outs) qfull c).arrAt 8 cfg8.N
  o_main_v165_0 : ∀ c : Dev nD, outs 20 main_v165_0 c = (dat9 (En19 m outs) qfull c).arrAt 7 cfg9.N
  o_main_v165_1 : ∀ c : Dev nD, outs 20 main_v165_1 c = (dat9 (En19 m outs) qfull c).arrAt 8 cfg9.N
  o_main_v186_0 : ∀ c : Dev nD, outs 22 main_v186_0 c = (dat10 (En21 m outs) qfull c).arrAt 7 cfg10.N
  o_main_v186_1 : ∀ c : Dev nD, outs 22 main_v186_1 c = (dat10 (En21 m outs) qfull c).arrAt 8 cfg10.N
  o_main_v193 : ∀ c : Dev nD, outs 24 main_v193 c = (dat11 (En23 m outs) qfull c).arrAt 5 cfg11.N

/-- Every pipeline's proof data, each at its region's entry contents: a literal match, so that the data at a
    numeral reduces to the region's own. -/
def pdats : (p : Fin 12) → (c : Dev nD) → Dat τ (Elt F) Unit ℕ (UR sig nD τ) ℕ (cfgs p) c
  | ⟨0, _⟩ => fun c => dat0 (En1 m) qfull c
  | ⟨1, _⟩ => fun c => dat1 (En3 m outs) q1 c
  | ⟨2, _⟩ => fun c => dat2 (En5 m outs) qfull c
  | ⟨3, _⟩ => fun c => dat3 (En7 m outs) qfull c
  | ⟨4, _⟩ => fun c => dat4 (En9 m outs) qfull c
  | ⟨5, _⟩ => fun c => dat5 (En11 m outs) qfull c
  | ⟨6, _⟩ => fun c => dat6 (En13 m outs) qfull c
  | ⟨7, _⟩ => fun c => dat7 (En15 m outs) q7 c
  | ⟨8, _⟩ => fun c => dat8 (En17 m outs) qfull c
  | ⟨9, _⟩ => fun c => dat9 (En19 m outs) qfull c
  | ⟨10, _⟩ => fun c => dat10 (En21 m outs) qfull c
  | ⟨11, _⟩ => fun c => dat11 (En23 m outs) qfull c

/-- What rides beside the buffers through every item: the core's generator register at some state and its dues, at
    nothing. -/
abbrev Rst (c : Dev nD) : sProp 𝕄 :=
  iprop((∃ r, prngReg c r) ∗ ∃ W, owes (c : Thread nD τ) (0 : CellTallies nD τ sig Unit) W)

/-- No core owes another anything: no level is assigned. -/
abbrev L0 : GSem nD τ sig → Finset Unit := fun _ => ∅
abbrev lv0 : GSem nD τ sig → Unit → ℕ := fun _ _ => 0

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Kernel.SegCommon.lean ====
import proofs.«101247_j38388417692531_1_alg».proof.Proof.Kernel.Data

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- With nothing owed and no bound on what is recorded, the loop's view of the core's dues is the bare one. -/
theorem owesAt_plain {cfg : Cfg sig Λ₀} {c : Dev nD} (dat : Dat τ (Elt F) Unit ℕ (UR sig nD τ) ℕ cfg c) (t : Fin (cfg.N + 1))
    (h0 : dat.owed t = 0) (hr : dat.recorded t = Set.univ) :
    (dat.owesAt () t : sProp 𝕄) ⊣⊢ iprop(∃ W, owes (c : Thread nD τ) (0 : CellTallies nD τ sig Unit) W) := by
  unfold Pipeline.Dat.owesAt Pipeline.owesWithin Pipeline.Dat.bound
  rw [h0, hr]
  constructor
  · iintro ⟨%W, -, H⟩; iexists W; iexact H
  · iintro ⟨%W, H⟩; iexists W; isplitr; · ipureintro; exact fun _ _ => Or.inl trivial
    iexact H

/-- Entering, the region's arrays are split out of the unscoped buffers (`hsplit`); leaving, they are put back (`hjoin`); the rest passes by. -/
def regOf (p : Fin 12) (Vin Vout : Dev nD → Valuation τ sig (Elt F))
    (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m outs p c) defs₀ Variants.none () Set.univ)
    (howed : ∀ c t, (pdats m outs p c).owed t = 0) (hrec : ∀ c t, (pdats m outs p c).recorded t = Set.univ)
    (hΦ : ∀ c t, (pdats m outs p c).Φ t = Pipeline.ΦA (cfgs p).spec c)
    (hsplit : ∀ c, (unscopedBufs c (fun b => Vin c b) : sProp 𝕄)
      ⊢ iprop((pdats m outs p c).arrays ((pdats m outs p c).arrAt · 0) ∗ Pipeline.unscopedRest (cfgs p).spec c fun b => Vin c b))
    (hjoin : ∀ c, iprop((pdats m outs p c).arrays ((pdats m outs p c).arrAt · (cfgs p).N) ∗ Pipeline.unscopedRest (cfgs p).spec c fun b => Vin c b)
      ⊢ (unscopedBufs c (fun b => Vout c b) : sProp 𝕄)) :
    Pipeline.RegionSeg (pcfgs (F := F)) adm (pdats m outs) () defs₀ Variants.none L0 lv0 p where
  win := win
  block_pos := block_pos
  stage_whole := stage_whole
  K := PEmpty
  osem k := k.elim
  ho := Pipeline.OwnSemFacts.none _
  hbody := hbody
  hwaits := Pipeline.hwaits_of_owed_zero _ _ _ _ L0 lv0 p howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    rw [Pipeline.ownSems0_none]
    have hsplit := hsplit c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_plain _ _ (howed c 0) (hrec c 0)).2; iexact HO
    isplitl [Hp]; · iexact Hp
    iexact Hrest
  hin c := by
    refine .trans ?_ (Entails.of_eq (hΦ c 0).symm); unfold Pipeline.ΦA
    iintro ⟨Hp, -, Hr⟩
    isplitl [Hr]; · iexact Hr
    iexact Hp
  hout c := by
    rw [Pipeline.ownSems0_none]; refine (Entails.of_eq (hΦ c _)).trans ?_; unfold Pipeline.ΦA
    iintro ⟨Hr, Hp⟩
    isplitl [Hp]; · iexact Hp
    isplitr; · iempintro
    iexact Hr
  hexit c := by
    have hjoin := hjoin c
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_plain _ _ (howed c _) (hrec c _)).1; iexact HO

/-- Distinct whole arrays, each at the full share: the split and the join are the library's. -/
def regPlain (p : Fin 12) (Vin Vout : Dev nD → Valuation τ sig (Elt F))
    (L : Pipeline.LaunchFacts (nD := nD) (τ := τ) cfgs p)
    (hbody : ∀ c, Pipeline.BodyObligationLoose (pdats m outs p c) defs₀ Variants.none () Set.univ)
    (howed : ∀ c t, (pdats m outs p c).owed t = 0) (hrec : ∀ c t, (pdats m outs p c).recorded t = Set.univ)
    (hΦ : ∀ c t, (pdats m outs p c).Φ t = Pipeline.ΦA (cfgs p).spec c)
    (hq : ∀ c w, (pdats m outs p c).q w = fullShare)
    (hA : ∀ c w, (pdats m outs p c).A w = Vin c (Pipeline.arrRef (cfgs p).spec w))
    (hF : ∀ c w, (pdats m outs p c).arrAt w (cfgs p).N = Vout c (Pipeline.arrRef (cfgs p).spec w))
    (hrest : ∀ c, ∀ b : Ref sig .tc, b ∉ Finset.univ.image (Pipeline.arrRef (cfgs p).spec) → Vout c b = Vin c b) :
    Pipeline.RegionSeg (pcfgs (F := F)) adm (pdats m outs) () defs₀ Variants.none L0 lv0 p :=
  regOf m outs p Vin Vout L.win.to₀ L.block_pos L.stage_whole hbody howed hrec hΦ
    (fun c => Pipeline.arrays_of_unscopedBufs (pcfgs (F := F)) adm (pdats m outs) L.win L.arr_whole c
      ((pdats m outs p c).share_full (hq c)) _ (hA c))
    (fun c => Pipeline.unscopedBufs_of_arrays (pcfgs (F := F)) adm L.win L.arr_whole c (pdats m outs)
      ((pdats m outs p c).share_full (hq c)) _ _ _ (hF c) (hrest c))

/-- A reference off every window's array is off the arrays of the listed windows. -/
theorem not_mem_arrs {W gr : Nat} (spec : Fin W → Pipeline.WinSpec sig gr) (ws : List (Fin W)) {b : Ref sig .tc}
    (hb : b ∉ Finset.univ.image (Pipeline.arrRef spec)) : b ∉ ws.map (Pipeline.arrRef spec) := fun h =>
  let ⟨w, _, hw⟩ := List.mem_map.1 h; hb (Finset.mem_image.2 ⟨w, Finset.mem_univ _, hw⟩)

theorem upd_self (V : Valuation τ sig (Elt F)) (r : Ref sig .tc) (x : (Proc.devRef .tc r : DevRef τ sig).ty.Contents (Elt F)) :
    Function.update V (Proc.devRef .tc r) x (Proc.devRef .tc r) = x := Function.update_self _ _ _

/-- Two updates at distinct references: the first is still read at its own reference. -/
theorem upd_fst (V : Valuation τ sig (Elt F)) {r r' : Ref sig .tc} (h : r ≠ r') (x : (Proc.devRef .tc r : DevRef τ sig).ty.Contents (Elt F))
    (y : (Proc.devRef .tc r' : DevRef τ sig).ty.Contents (Elt F)) :
    Function.update (Function.update V (Proc.devRef .tc r) x) (Proc.devRef .tc r') y (Proc.devRef .tc r) = x :=
  (Function.update_of_ne (StableHlo.devRef_ne_of_ne h) _ _).trans (Function.update_self _ _ _)

end Cert.Kernel.Hand

end
-- ==== Proof.Kernel.Seg0.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF0 (hO : OutsOk m outs) (c : Dev nD) (w : Fin cfg0.W) :
    (pdats m outs 0 c).arrAt w cfg0.N = (fun b : Ref sig .tc => V2 m outs c b) (Pipeline.arrRef spec0 w) := by
  rcases (by decide : ∀ w : Fin 4, (cfg0.win w).isOut = false ∧ Pipeline.arrRef spec0 w ∉ [main_v5] ∨ w = 3) w with h | rfl
  · exact ((pdats m outs 0 c).arrAt_in w h.1 _).trans ((A_eq0 (En1 m) qfull c w).trans (V2_of m outs c _ h.2).symm)
  · exact ((upd_self _ _ _).trans (hO.o_main_v5 c)).symm

theorem hrest0 (c : Dev nD) : ∀ b : Ref sig .tc, b ∉ Finset.univ.image (Pipeline.arrRef spec0) →
    (fun b : Ref sig .tc => V2 m outs c b) b = (fun b : Ref sig .tc => V1 m c b) b := fun b hb =>
  V2_of m outs c b (not_mem_arrs spec0 [3] hb)

def reg0 (hO : OutsOk m outs) : Pipeline.RegionSeg (pcfgs (F := F)) adm (pdats m outs) () defs₀ Variants.none L0 lv0 0 :=
  regPlain m outs 0 (V1 m) (V2 m outs) launch0 (fun c => (body_obligation0 (En1 m) qfull c).loose)
    (fun _ _ => rfl) (fun _ _ => rfl) (fun _ _ => rfl) (fun _ _ => rfl) (fun _ _ => rfl) (hF0 m outs hO) (hrest0 m outs)

end Cert.Kernel.Hand

end
-- ==== Proof.Kernel.Seg1.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF1 (hO : OutsOk m outs) (c : Dev nD) (w : Fin cfg1.W) :
    (pdats m outs 1 c).arrAt w cfg1.N = (fun b : Ref sig .tc => V4 m outs c b) (Pipeline.arrRef spec1 w) := by
  rcases (by decide : ∀ w : Fin 9, (cfg1.win w).isOut = false ∧ Pipeline.arrRef spec1 w ∉ [main_v26_0, main_v26_1] ∨ w = 7 ∨ w = 8) w with h | rfl | rfl
  · exact ((pdats m outs 1 c).arrAt_in w h.1 _).trans ((A_eq1 (En3 m outs) q1 c w).trans (V4_of m outs c _ h.2).symm)
  · exact ((upd_fst _ (by decide) _ _).trans (hO.o_main_v26_0 c)).symm
  · exact ((upd_self _ _ _).trans (hO.o_main_v26_1 c)).symm

theorem hrest1 (c : Dev nD) : ∀ b : Ref sig .tc, b ∉ Finset.univ.image (Pipeline.arrRef spec1) →
    (fun b : Ref sig .tc => V4 m outs c b) b = (fun b : Ref sig .tc => V3 m outs c b) b := fun b hb =>
  V4_of m outs c b (not_mem_arrs spec1 [7, 8] hb)

def reg1 (hO : OutsOk m outs) : Pipeline.RegionSeg (pcfgs (F := F)) adm (pdats m outs) () defs₀ Variants.none L0 lv0 1 :=
  regOf m outs 1 (V3 m outs) (V4 m outs) winFacts₀1 block_pos1 stage_whole1 (fun c => (body_obligation1 (En3 m outs) q1 c).loose)
    (fun _ _ => rfl) (fun _ _ => rfl) (fun _ _ => rfl)
    (fun c => shared_entry1 c (pdats m outs 1 c) rfl _ fun _ => rfl)
    (fun c => shared_exit1 c (pdats m outs 1 c) rfl _ _ _ (hF1 m outs hO c) (hrest1 m outs c))

end Cert.Kernel.Hand

end
-- ==== Proof.Kernel.Seg2.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF2 (hO : OutsOk m outs) (c : Dev nD) (w : Fin cfg2.W) :
    (pdats m outs 2 c).arrAt w cfg2.N = (fun b : Ref sig .tc => V6 m outs c b) (Pipeline.arrRef spec2 w) := by
  rcases (by decide : ∀ w : Fin 9, (cfg2.win w).isOut = false ∧ Pipeline.arrRef spec2 w ∉ [main_v47_0, main_v47_1] ∨ w = 7 ∨ w = 8) w with h | rfl | rfl
  · exact ((pdats m outs 2 c).arrAt_in w h.1 _).trans ((A_eq2 (En5 m outs) qfull c w).trans (V6_of m outs c _ h.2).symm)
  · exact ((upd_fst _ (by decide) _ _).trans (hO.o_main_v47_0 c)).symm
  · exact ((upd_self _ _ _).trans (hO.o_main_v47_1 c)).symm

theorem hrest2 (c : Dev nD) : ∀ b : Ref sig .tc, b ∉ Finset.univ.image (Pipeline.arrRef spec2) →
    (fun b : Ref sig .tc => V6 m outs c b) b = (fun b : Ref sig .tc => V5 m outs c b) b := fun b hb =>
  V6_of m outs c b (not_mem_arrs spec2 [7, 8] hb)

def reg2 (hO : OutsOk m outs) : Pipeline.RegionSeg (pcfgs (F := F)) adm (pdats m outs) () defs₀ Variants.none L0 lv0 2 :=
  regPlain m outs 2 (V5 m outs) (V6 m outs) launch2 (fun c => (body_obligation2 (En5 m outs) qfull c).loose)
    (fun _ _ => rfl) (fun _ _ => rfl) (fun _ _ => rfl) (fun _ _ => rfl) (fun _ _ => rfl) (hF2 m outs hO) (hrest2 m outs)

end Cert.Kernel.Hand

end
-- ==== Proof.Kernel.Seg3.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF3 (hO : OutsOk m outs) (c : Dev nD) (w : Fin cfg3.W) :
    (pdats m outs 3 c).arrAt w cfg3.N = (fun b : Ref sig .tc => V8 m outs c b) (Pipeline.arrRef spec3 w) := by
  rcases (by decide : ∀ w : Fin 9, (cfg3.win w).isOut = false ∧ Pipeline.arrRef spec3 w ∉ [main_v68_0, main_v68_1] ∨ w = 7 ∨ w = 8) w with h | rfl | rfl
  · exact ((pdats m outs 3 c).arrAt_in w h.1 _).trans ((A_eq3 (En7 m outs) qfull c w).trans (V8_of m outs c _ h.2).symm)
  · exact ((upd_fst _ (by decide) _ _).trans (hO.o_main_v68_0 c)).symm
  · exact ((upd_self _ _ _).trans (hO.o_main_v68_1 c)).symm

theorem hrest3 (c : Dev nD) : ∀ b : Ref sig .tc, b ∉ Finset.univ.image (Pipeline.arrRef spec3) →
    (fun b : Ref sig .tc => V8 m outs c b) b = (fun b : Ref sig .tc => V7 m outs c b) b := fun b hb =>
  V8_of m outs c b (not_mem_arrs spec3 [7, 8] hb)

def reg3 (hO : OutsOk m outs) : Pipeline.RegionSeg (pcfgs (F := F)) adm (pdats m outs) () defs₀ Variants.none L0 lv0 3 :=
  regPlain m outs 3 (V7 m outs) (V8 m outs) launch3 (fun c => (body_obligation3 (En7 m outs) qfull c).loose)
    (fun _ _ => rfl) (fun _ _ => rfl) (fun _ _ => rfl) (fun _ _ => rfl) (fun _ _ => rfl) (hF3 m outs hO) (hrest3 m outs)

end Cert.Kernel.Hand

end
-- ==== Proof.Kernel.Seg4.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF4 (hO : OutsOk m outs) (c : Dev nD) (w : Fin cfg4.W) :
    (pdats m outs 4 c).arrAt w cfg4.N = (fun b : Ref sig .tc => V10 m outs c b) (Pipeline.arrRef spec4 w) := by
  rcases (by decide : ∀ w : Fin 9, (cfg4.win w).isOut = false ∧ Pipeline.arrRef spec4 w ∉ [main_v89_0, main_v89_1] ∨ w = 7 ∨ w = 8) w with h | rfl | rfl
  · exact ((pdats m outs 4 c).arrAt_in w h.1 _).trans ((A_eq4 (En9 m outs) qfull c w).trans (V10_of m outs c _ h.2).symm)
  · exact ((upd_fst _ (by decide) _ _).trans (hO.o_main_v89_0 c)).symm
  · exact ((upd_self _ _ _).trans (hO.o_main_v89_1 c)).symm

theorem hrest4 (c : Dev nD) : ∀ b : Ref sig .tc, b ∉ Finset.univ.image (Pipeline.arrRef spec4) →
    (fun b : Ref sig .tc => V10 m outs c b) b = (fun b : Ref sig .tc => V9 m outs c b) b := fun b hb =>
  V10_of m outs c b (not_mem_arrs spec4 [7, 8] hb)

def reg4 (hO : OutsOk m outs) : Pipeline.RegionSeg (pcfgs (F := F)) adm (pdats m outs) () defs₀ Variants.none L0 lv0 4 :=
  regPlain m outs 4 (V9 m outs) (V10 m outs) launch4 (fun c => (body_obligation4 (En9 m outs) qfull c).loose)
    (fun _ _ => rfl) (fun _ _ => rfl) (fun _ _ => rfl) (fun _ _ => rfl) (fun _ _ => rfl) (hF4 m outs hO) (hrest4 m outs)

end Cert.Kernel.Hand

end
-- ==== Proof.Kernel.Seg5.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF5 (hO : OutsOk m outs) (c : Dev nD) (w : Fin cfg5.W) :
    (pdats m outs 5 c).arrAt w cfg5.N = (fun b : Ref sig .tc => V12 m outs c b) (Pipeline.arrRef spec5 w) := by
  rcases (by decide : ∀ w : Fin 6, (cfg5.win w).isOut = false ∧ Pipeline.arrRef spec5 w ∉ [main_v96] ∨ w = 5) w with h | rfl
  · exact ((pdats m outs 5 c).arrAt_in w h.1 _).trans ((A_eq5 (En11 m outs) qfull c w).trans (V12_of m outs c _ h.2).symm)
  · exact ((upd_self _ _ _).trans (hO.o_main_v96 c)).symm

theorem hrest5 (c : Dev nD) : ∀ b : Ref sig .tc, b ∉ Finset.univ.image (Pipeline.arrRef spec5) →
    (fun b : Ref sig .tc => V12 m outs c b) b = (fun b : Ref sig .tc => V11 m outs c b) b := fun b hb =>
  V12_of m outs c b (not_mem_arrs spec5 [5] hb)

def reg5 (hO : OutsOk m outs) : Pipeline.RegionSeg (pcfgs (F := F)) adm (pdats m outs) () defs₀ Variants.none L0 lv0 5 :=
  regPlain m outs 5 (V11 m outs) (V12 m outs) launch5 (fun c => (body_obligation5 (En11 m outs) qfull c).loose)
    (fun _ _ => rfl) (fun _ _ => rfl) (fun _ _ => rfl) (fun _ _ => rfl) (fun _ _ => rfl) (hF5 m outs hO) (hrest5 m outs)

end Cert.Kernel.Hand

end
-- ==== Proof.Kernel.Seg6.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF6 (hO : OutsOk m outs) (c : Dev nD) (w : Fin cfg6.W) :
    (pdats m outs 6 c).arrAt w cfg6.N = (fun b : Ref sig .tc => V14 m outs c b) (Pipeline.arrRef spec6 w) := by
  rcases (by decide : ∀ w : Fin 4, (cfg6.win w).isOut = false ∧ Pipeline.arrRef spec6 w ∉ [main_v102] ∨ w = 3) w with h | rfl
  · exact ((pdats m outs 6 c).arrAt_in w h.1 _).trans ((A_eq6 (En13 m outs) qfull c w).trans (V14_of m outs c _ h.2).symm)
  · exact ((upd_self _ _ _).trans (hO.o_main_v102 c)).symm

theorem hrest6 (c : Dev nD) : ∀ b : Ref sig .tc, b ∉ Finset.univ.image (Pipeline.arrRef spec6) →
    (fun b : Ref sig .tc => V14 m outs c b) b = (fun b : Ref sig .tc => V13 m outs c b) b := fun b hb =>
  V14_of m outs c b (not_mem_arrs spec6 [3] hb)

def reg6 (hO : OutsOk m outs) : Pipeline.RegionSeg (pcfgs (F := F)) adm (pdats m outs) () defs₀ Variants.none L0 lv0 6 :=
  regPlain m outs 6 (V13 m outs) (V14 m outs) launch6 (fun c => (body_obligation6 (En13 m outs) qfull c).loose)
    (fun _ _ => rfl) (fun _ _ => rfl) (fun _ _ => rfl) (fun _ _ => rfl) (fun _ _ => rfl) (hF6 m outs hO) (hrest6 m outs)

end Cert.Kernel.Hand

end
-- ==== Proof.Kernel.Seg7.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF7 (hO : OutsOk m outs) (c : Dev nD) (w : Fin cfg7.W) :
    (pdats m outs 7 c).arrAt w cfg7.N = (fun b : Ref sig .tc => V16 m outs c b) (Pipeline.arrRef spec7 w) := by
  rcases (by decide : ∀ w : Fin 9, (cfg7.win w).isOut = false ∧ Pipeline.arrRef spec7 w ∉ [main_v123_0, main_v123_1] ∨ w = 7 ∨ w = 8) w with h | rfl | rfl
  · exact ((pdats m outs 7 c).arrAt_in w h.1 _).trans ((A_eq7 (En15 m outs) q7 c w).trans (V16_of m outs c _ h.2).symm)
  · exact ((upd_fst _ (by decide) _ _).trans (hO.o_main_v123_0 c)).symm
  · exact ((upd_self _ _ _).trans (hO.o_main_v123_1 c)).symm

theorem hrest7 (c : Dev nD) : ∀ b : Ref sig .tc, b ∉ Finset.univ.image (Pipeline.arrRef spec7) →
    (fun b : Ref sig .tc => V16 m outs c b) b = (fun b : Ref sig .tc => V15 m outs c b) b := fun b hb =>
  V16_of m outs c b (not_mem_arrs spec7 [7, 8] hb)

def reg7 (hO : OutsOk m outs) : Pipeline.RegionSeg (pcfgs (F := F)) adm (pdats m outs) () defs₀ Variants.none L0 lv0 7 :=
  regOf m outs 7 (V15 m outs) (V16 m outs) winFacts₀7 block_pos7 stage_whole7 (fun c => (body_obligation7 (En15 m outs) q7 c).loose)
    (fun _ _ => rfl) (fun _ _ => rfl) (fun _ _ => rfl)
    (fun c => shared_entry7 c (pdats m outs 7 c) rfl _ fun _ => rfl)
    (fun c => shared_exit7 c (pdats m outs 7 c) rfl _ _ _ (hF7 m outs hO c) (hrest7 m outs c))

end Cert.Kernel.Hand

end
-- ==== Proof.Kernel.Seg8.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF8 (hO : OutsOk m outs) (c : Dev nD) (w : Fin cfg8.W) :
    (pdats m outs 8 c).arrAt w cfg8.N = (fun b : Ref sig .tc => V18 m outs c b) (Pipeline.arrRef spec8 w) := by
  rcases (by decide : ∀ w : Fin 9, (cfg8.win w).isOut = false ∧ Pipeline.arrRef spec8 w ∉ [main_v144_0, main_v144_1] ∨ w = 7 ∨ w = 8) w with h | rfl | rfl
  · exact ((pdats m outs 8 c).arrAt_in w h.1 _).trans ((A_eq8 (En17 m outs) qfull c w).trans (V18_of m outs c _ h.2).symm)
  · exact ((upd_fst _ (by decide) _ _).trans (hO.o_main_v144_0 c)).symm
  · exact ((upd_self _ _ _).trans (hO.o_main_v144_1 c)).symm

theorem hrest8 (c : Dev nD) : ∀ b : Ref sig .tc, b ∉ Finset.univ.image (Pipeline.arrRef spec8) →
    (fun b : Ref sig .tc => V18 m outs c b) b = (fun b : Ref sig .tc => V17 m outs c b) b := fun b hb =>
  V18_of m outs c b (not_mem_arrs spec8 [7, 8] hb)

def reg8 (hO : OutsOk m outs) : Pipeline.RegionSeg (pcfgs (F := F)) adm (pdats m outs) () defs₀ Variants.none L0 lv0 8 :=
  regPlain m outs 8 (V17 m outs) (V18 m outs) launch8 (fun c => (body_obligation8 (En17 m outs) qfull c).loose)
    (fun _ _ => rfl) (fun _ _ => rfl) (fun _ _ => rfl) (fun _ _ => rfl) (fun _ _ => rfl) (hF8 m outs hO) (hrest8 m outs)

end Cert.Kernel.Hand

end
-- ==== Proof.Kernel.Seg9.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF9 (hO : OutsOk m outs) (c : Dev nD) (w : Fin cfg9.W) :
    (pdats m outs 9 c).arrAt w cfg9.N = (fun b : Ref sig .tc => V20 m outs c b) (Pipeline.arrRef spec9 w) := by
  rcases (by decide : ∀ w : Fin 9, (cfg9.win w).isOut = false ∧ Pipeline.arrRef spec9 w ∉ [main_v165_0, main_v165_1] ∨ w = 7 ∨ w = 8) w with h | rfl | rfl
  · exact ((pdats m outs 9 c).arrAt_in w h.1 _).trans ((A_eq9 (En19 m outs) qfull c w).trans (V20_of m outs c _ h.2).symm)
  · exact ((upd_fst _ (by decide) _ _).trans (hO.o_main_v165_0 c)).symm
  · exact ((upd_self _ _ _).trans (hO.o_main_v165_1 c)).symm

theorem hrest9 (c : Dev nD) : ∀ b : Ref sig .tc, b ∉ Finset.univ.image (Pipeline.arrRef spec9) →
    (fun b : Ref sig .tc => V20 m outs c b) b = (fun b : Ref sig .tc => V19 m outs c b) b := fun b hb =>
  V20_of m outs c b (not_mem_arrs spec9 [7, 8] hb)

def reg9 (hO : OutsOk m outs) : Pipeline.RegionSeg (pcfgs (F := F)) adm (pdats m outs) () defs₀ Variants.none L0 lv0 9 :=
  regPlain m outs 9 (V19 m outs) (V20 m outs) launch9 (fun c => (body_obligation9 (En19 m outs) qfull c).loose)
    (fun _ _ => rfl) (fun _ _ => rfl) (fun _ _ => rfl) (fun _ _ => rfl) (fun _ _ => rfl) (hF9 m outs hO) (hrest9 m outs)

end Cert.Kernel.Hand

end
-- ==== Proof.Kernel.Seg10.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF10 (hO : OutsOk m outs) (c : Dev nD) (w : Fin cfg10.W) :
    (pdats m outs 10 c).arrAt w cfg10.N = (fun b : Ref sig .tc => V22 m outs c b) (Pipeline.arrRef spec10 w) := by
  rcases (by decide : ∀ w : Fin 9, (cfg10.win w).isOut = false ∧ Pipeline.arrRef spec10 w ∉ [main_v186_0, main_v186_1] ∨ w = 7 ∨ w = 8) w with h | rfl | rfl
  · exact ((pdats m outs 10 c).arrAt_in w h.1 _).trans ((A_eq10 (En21 m outs) qfull c w).trans (V22_of m outs c _ h.2).symm)
  · exact ((upd_fst _ (by decide) _ _).trans (hO.o_main_v186_0 c)).symm
  · exact ((upd_self _ _ _).trans (hO.o_main_v186_1 c)).symm

theorem hrest10 (c : Dev nD) : ∀ b : Ref sig .tc, b ∉ Finset.univ.image (Pipeline.arrRef spec10) →
    (fun b : Ref sig .tc => V22 m outs c b) b = (fun b : Ref sig .tc => V21 m outs c b) b := fun b hb =>
  V22_of m outs c b (not_mem_arrs spec10 [7, 8] hb)

def reg10 (hO : OutsOk m outs) : Pipeline.RegionSeg (pcfgs (F := F)) adm (pdats m outs) () defs₀ Variants.none L0 lv0 10 :=
  regPlain m outs 10 (V21 m outs) (V22 m outs) launch10 (fun c => (body_obligation10 (En21 m outs) qfull c).loose)
    (fun _ _ => rfl) (fun _ _ => rfl) (fun _ _ => rfl) (fun _ _ => rfl) (fun _ _ => rfl) (hF10 m outs hO) (hrest10 m outs)

end Cert.Kernel.Hand

end
-- ==== Proof.Kernel.Seg11.lean ====
import proofs.«101247_j38388417692531_1_alg».proof.Proof.Kernel.SegCommon

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (outs : Outs (F := F))

theorem hF11 (hO : OutsOk m outs) (c : Dev nD) (w : Fin cfg11.W) :
    (pdats m outs 11 c).arrAt w cfg11.N = (fun b : Ref sig .tc => V24 m outs c b) (Pipeline.arrRef spec11 w) := by
  rcases (by decide : ∀ w : Fin 6, (cfg11.win w).isOut = false ∧ Pipeline.arrRef spec11 w ∉ [main_v193] ∨ w = 5) w with h | rfl
  · exact ((pdats m outs 11 c).arrAt_in w h.1 _).trans ((A_eq11 (En23 m outs) qfull c w).trans (V24_of m outs c _ h.2).symm)
  · exact ((upd_self _ _ _).trans (hO.o_main_v193 c)).symm

theorem hrest11 (c : Dev nD) : ∀ b : Ref sig .tc, b ∉ Finset.univ.image (Pipeline.arrRef spec11) →
    (fun b : Ref sig .tc => V24 m outs c b) b = (fun b : Ref sig .tc => V23 m outs c b) b := fun b hb =>
  V24_of m outs c b (not_mem_arrs spec11 [5] hb)

def reg11 (hO : OutsOk m outs) : Pipeline.RegionSeg (pcfgs (F := F)) adm (pdats m outs) () defs₀ Variants.none L0 lv0 11 :=
  regPlain m outs 11 (V23 m outs) (V24 m outs) launch11 (fun c => (body_obligation11 (En23 m outs) qfull c).loose)
    (fun _ _ => rfl) (fun _ _ => rfl) (fun _ _ => rfl) (fun _ _ => rfl) (fun _ _ => rfl) (hF11 m outs hO) (hrest11 m outs)

end Cert.Kernel.Hand

end
-- ==== Proof.Kernel.Whole.lean ====
import proofs.«101247_j38388417692531_1_alg».proof.Proof.Kernel.Seg0
import proofs.«101247_j38388417692531_1_alg».proof.Proof.Kernel.Seg1
import proofs.«101247_j38388417692531_1_alg».proof.Proof.Kernel.Seg2
import proofs.«101247_j38388417692531_1_alg».proof.Proof.Kernel.Seg3
import proofs.«101247_j38388417692531_1_alg».proof.Proof.Kernel.Seg4
import proofs.«101247_j38388417692531_1_alg».proof.Proof.Kernel.Seg5
import proofs.«101247_j38388417692531_1_alg».proof.Proof.Kernel.Seg6
import proofs.«101247_j38388417692531_1_alg».proof.Proof.Kernel.Seg7
import proofs.«101247_j38388417692531_1_alg».proof.Proof.Kernel.Seg8
import proofs.«101247_j38388417692531_1_alg».proof.Proof.Kernel.Seg9
import proofs.«101247_j38388417692531_1_alg».proof.Proof.Kernel.Seg10
import proofs.«101247_j38388417692531_1_alg».proof.Proof.Kernel.Seg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

abbrev Erest : Fin 13 → Dev nD → sProp 𝕄 := fun _ c => Rst c

set_option backward.isDefEq.respectTransparency.types false in
set_option maxHeartbeats 4000000 in
theorem run_whole (hO : OutsOk m outs) :
    θ_run defs (onTc (τ := τ) (main (F := F))) ⟨m, fun _ => 0, ρ⟩ (fun r => ∀ c : Dev nD,
      ∀ b ∈ Pipeline.ucRefs τ sig, r.2.mem (((c : Thread nD τ)).1, b) = V29 m outs c b) :=
  Pipeline.θ_run_regions_kit_dev (pcfgs (F := F)) adm (pdats m outs) () cellOf_inj emb₁ defs₀ Variants.none L0 lv0 m ρ main
    (segs m outs Variants.none L0 lv0 Erest () (pdats m outs) (reg0 m outs hO) (reg1 m outs hO) (reg2 m outs hO) (reg3 m outs hO) (reg4 m outs hO) (reg5 m outs hO) (reg6 m outs hO) (reg7 m outs hO) (reg8 m outs hO) (reg9 m outs hO) (reg10 m outs hO) (reg11 m outs hO))
    (fun c Q => by
      rewrite [main_chain c, Seg.run_eq_chain,
        show (segs m outs Variants.none L0 lv0 Erest () (pdats m outs) (reg0 m outs hO) (reg1 m outs hO) (reg2 m outs hO) (reg3 m outs hO) (reg4 m outs hO) (reg5 m outs hO) (reg6 m outs hO) (reg7 m outs hO) (reg8 m outs hO) (reg9 m outs hO) (reg10 m outs hO) (reg11 m outs hO) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          StableHlo.seq hostOps12_1,
          StableHlo.seq hostOps12_2,
          StableHlo.seq hostOps12_3,
          StableHlo.seq hostOps12_4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V29 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (show Rst c ⊢ (iprop(∃ W, owes (c : Thread nD τ) (0 : CellTallies nD τ sig Unit) W) : sProp 𝕄) from by
        iintro ⟨-, HO⟩; iexact HO)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V29 m outs c b)
    (hfin := fun c s' => by
      iintro ⟨Hh, HSI⟩
      unfold StableHlo.held
      imodintro
      iapply (pointsTo_read_all (Pipeline.ucRefs τ sig) (fun b => (((c : Thread nD τ)).1, b)) (V29 m outs c) s')
      isplitl [Hh] <;> iassumption)
    (hQ := fun _ h => h)

theorem value_of (hO : OutsOk m outs) :
    θ_run defs (onTc (τ := τ) (main (F := F))) ⟨m, fun _ => 0, ρ⟩ (fun r => ∀ c : Dev nD,
      r.2.mem ((c.tc : Thread nD τ).loc main_v204) = V29 m outs c main_v204
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v204 (by decide)),
    (h c _ (mem_uc main_arg0 (by decide))).trans (V29_main_arg0 m outs c),
    (h c _ (mem_uc main_arg1 (by decide))).trans (V29_main_arg1 m outs c),
    (h c _ (mem_uc main_arg2 (by decide))).trans (V29_main_arg2 m outs c),
    (h c _ (mem_uc main_arg3 (by decide))).trans (V29_main_arg3 m outs c),
    (h c _ (mem_uc main_arg4 (by decide))).trans (V29_main_arg4 m outs c),
    (h c _ (mem_uc main_arg5 (by decide))).trans (V29_main_arg5 m outs c),
    (h c _ (mem_uc main_arg6 (by decide))).trans (V29_main_arg6 m outs c),
    (h c _ (mem_uc main_arg7 (by decide))).trans (V29_main_arg7 m outs c),
    (h c _ (mem_uc main_arg8 (by decide))).trans (V29_main_arg8 m outs c),
    (h c _ (mem_uc main_arg9 (by decide))).trans (V29_main_arg9 m outs c),
    (h c _ (mem_uc main_arg10 (by decide))).trans (V29_main_arg10 m outs c),
    (h c _ (mem_uc main_arg11 (by decide))).trans (V29_main_arg11 m outs c),
    (h c _ (mem_uc main_arg12 (by decide))).trans (V29_main_arg12 m outs c),
    (h c _ (mem_uc main_arg13 (by decide))).trans (V29_main_arg13 m outs c),
    (h c _ (mem_uc main_arg14 (by decide))).trans (V29_main_arg14 m outs c),
    (h c _ (mem_uc main_arg15 (by decide))).trans (V29_main_arg15 m outs c)⟩)
    (run_whole m ρ outs hO)

theorem frame_of (hO : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (value_of m ρ outs hO)

end Cert.Kernel.Hand

end
-- ==== Proof.Kernel.Outs.lean ====
import proofs.«101247_j38388417692531_1_alg».proof.Proof.Kernel.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents between the program's items, computed: after a host stretch the stretch applied to the contents
    before it; after a region the contents before it with each output array at what the region's pipeline leaves
    there (the entry contents overwritten by every grid point's write-back). Taken as the unknowns of the conditional
    frame they satisfy its side conditions. -/

variable (m : (ℓ : Loc nD τ sig) → Buf (Elt F) ℓ)

/-- Core `c`'s contents after the first host stretch. -/
def U1 (c : Dev nD) : Valuation τ sig (Elt F) := V1 m c
/-- What region 0 leaves in `main_v5`. -/
def o_main_v5 (c : Dev nD) : Buf (Elt F) ((c : Thread nD τ).loc main_v5) := (dat0 (fun c b => U1 m c b) qfull c).arrAt 3 cfg0.N
/-- Core `c`'s contents after region 0. -/
def U2 (c : Dev nD) : Valuation τ sig (Elt F) := Function.update (U1 m c) main_v5 (o_main_v5 m c)
/-- … and after the host stretch that follows it. -/
def U3 (c : Dev nD) : Valuation τ sig (Elt F) := StableHlo.after hostOps1 (U2 m c)
/-- What region 1 leaves in `main_v26_0`. -/
def o_main_v26_0 (c : Dev nD) : Buf (Elt F) ((c : Thread nD τ).loc main_v26_0) := (dat1 (fun c b => U3 m c b) q1 c).arrAt 7 cfg1.N
/-- What region 1 leaves in `main_v26_1`. -/
def o_main_v26_1 (c : Dev nD) : Buf (Elt F) ((c : Thread nD τ).loc main_v26_1) := (dat1 (fun c b => U3 m c b) q1 c).arrAt 8 cfg1.N
/-- Core `c`'s contents after region 1. -/
def U4 (c : Dev nD) : Valuation τ sig (Elt F) := Function.update (Function.update (U3 m c) main_v26_0 (o_main_v26_0 m c)) main_v26_1 (o_main_v26_1 m c)
/-- … and after the host stretch that follows it. -/
def U5 (c : Dev nD) : Valuation τ sig (Elt F) := StableHlo.after hostOps2 (U4 m c)
/-- What region 2 leaves in `main_v47_0`. -/
def o_main_v47_0 (c : Dev nD) : Buf (Elt F) ((c : Thread nD τ).loc main_v47_0) := (dat2 (fun c b => U5 m c b) qfull c).arrAt 7 cfg2.N
/-- What region 2 leaves in `main_v47_1`. -/
def o_main_v47_1 (c : Dev nD) : Buf (Elt F) ((c : Thread nD τ).loc main_v47_1) := (dat2 (fun c b => U5 m c b) qfull c).arrAt 8 cfg2.N
/-- Core `c`'s contents after region 2. -/
def U6 (c : Dev nD) : Valuation τ sig (Elt F) := Function.update (Function.update (U5 m c) main_v47_0 (o_main_v47_0 m c)) main_v47_1 (o_main_v47_1 m c)
/-- … and after the host stretch that follows it. -/
def U7 (c : Dev nD) : Valuation τ sig (Elt F) := StableHlo.after hostOps3 (U6 m c)
/-- What region 3 leaves in `main_v68_0`. -/
def o_main_v68_0 (c : Dev nD) : Buf (Elt F) ((c : Thread nD τ).loc main_v68_0) := (dat3 (fun c b => U7 m c b) qfull c).arrAt 7 cfg3.N
/-- What region 3 leaves in `main_v68_1`. -/
def o_main_v68_1 (c : Dev nD) : Buf (Elt F) ((c : Thread nD τ).loc main_v68_1) := (dat3 (fun c b => U7 m c b) qfull c).arrAt 8 cfg3.N
/-- Core `c`'s contents after region 3. -/
def U8 (c : Dev nD) : Valuation τ sig (Elt F) := Function.update (Function.update (U7 m c) main_v68_0 (o_main_v68_0 m c)) main_v68_1 (o_main_v68_1 m c)
/-- … and after the host stretch that follows it. -/
def U9 (c : Dev nD) : Valuation τ sig (Elt F) := StableHlo.after hostOps4 (U8 m c)
/-- What region 4 leaves in `main_v89_0`. -/
def o_main_v89_0 (c : Dev nD) : Buf (Elt F) ((c : Thread nD τ).loc main_v89_0) := (dat4 (fun c b => U9 m c b) qfull c).arrAt 7 cfg4.N
/-- What region 4 leaves in `main_v89_1`. -/
def o_main_v89_1 (c : Dev nD) : Buf (Elt F) ((c : Thread nD τ).loc main_v89_1) := (dat4 (fun c b => U9 m c b) qfull c).arrAt 8 cfg4.N
/-- Core `c`'s contents after region 4. -/
def U10 (c : Dev nD) : Valuation τ sig (Elt F) := Function.update (Function.update (U9 m c) main_v89_0 (o_main_v89_0 m c)) main_v89_1 (o_main_v89_1 m c)
/-- … and after the host stretch that follows it. -/
def U11 (c : Dev nD) : Valuation τ sig (Elt F) := StableHlo.after hostOps5 (U10 m c)
/-- What region 5 leaves in `main_v96`. -/
def o_main_v96 (c : Dev nD) : Buf (Elt F) ((c : Thread nD τ).loc main_v96) := (dat5 (fun c b => U11 m c b) qfull c).arrAt 5 cfg5.N
/-- Core `c`'s contents after region 5. -/
def U12 (c : Dev nD) : Valuation τ sig (Elt F) := Function.update (U11 m c) main_v96 (o_main_v96 m c)
/-- … and after the host stretch that follows it. -/
def U13 (c : Dev nD) : Valuation τ sig (Elt F) := StableHlo.after hostOps6 (U12 m c)
/-- What region 6 leaves in `main_v102`. -/
def o_main_v102 (c : Dev nD) : Buf (Elt F) ((c : Thread nD τ).loc main_v102) := (dat6 (fun c b => U13 m c b) qfull c).arrAt 3 cfg6.N
/-- Core `c`'s contents after region 6. -/
def U14 (c : Dev nD) : Valuation τ sig (Elt F) := Function.update (U13 m c) main_v102 (o_main_v102 m c)
/-- … and after the host stretch that follows it. -/
def U15 (c : Dev nD) : Valuation τ sig (Elt F) := StableHlo.after hostOps7 (U14 m c)
/-- What region 7 leaves in `main_v123_0`. -/
def o_main_v123_0 (c : Dev nD) : Buf (Elt F) ((c : Thread nD τ).loc main_v123_0) := (dat7 (fun c b => U15 m c b) q7 c).arrAt 7 cfg7.N
/-- What region 7 leaves in `main_v123_1`. -/
def o_main_v123_1 (c : Dev nD) : Buf (Elt F) ((c : Thread nD τ).loc main_v123_1) := (dat7 (fun c b => U15 m c b) q7 c).arrAt 8 cfg7.N
/-- Core `c`'s contents after region 7. -/
def U16 (c : Dev nD) : Valuation τ sig (Elt F) := Function.update (Function.update (U15 m c) main_v123_0 (o_main_v123_0 m c)) main_v123_1 (o_main_v123_1 m c)
/-- … and after the host stretch that follows it. -/
def U17 (c : Dev nD) : Valuation τ sig (Elt F) := StableHlo.after hostOps8 (U16 m c)
/-- What region 8 leaves in `main_v144_0`. -/
def o_main_v144_0 (c : Dev nD) : Buf (Elt F) ((c : Thread nD τ).loc main_v144_0) := (dat8 (fun c b => U17 m c b) qfull c).arrAt 7 cfg8.N
/-- What region 8 leaves in `main_v144_1`. -/
def o_main_v144_1 (c : Dev nD) : Buf (Elt F) ((c : Thread nD τ).loc main_v144_1) := (dat8 (fun c b => U17 m c b) qfull c).arrAt 8 cfg8.N
/-- Core `c`'s contents after region 8. -/
def U18 (c : Dev nD) : Valuation τ sig (Elt F) := Function.update (Function.update (U17 m c) main_v144_0 (o_main_v144_0 m c)) main_v144_1 (o_main_v144_1 m c)
/-- … and after the host stretch that follows it. -/
def U19 (c : Dev nD) : Valuation τ sig (Elt F) := StableHlo.after hostOps9 (U18 m c)
/-- What region 9 leaves in `main_v165_0`. -/
def o_main_v165_0 (c : Dev nD) : Buf (Elt F) ((c : Thread nD τ).loc main_v165_0) := (dat9 (fun c b => U19 m c b) qfull c).arrAt 7 cfg9.N
/-- What region 9 leaves in `main_v165_1`. -/
def o_main_v165_1 (c : Dev nD) : Buf (Elt F) ((c : Thread nD τ).loc main_v165_1) := (dat9 (fun c b => U19 m c b) qfull c).arrAt 8 cfg9.N
/-- Core `c`'s contents after region 9. -/
def U20 (c : Dev nD) : Valuation τ sig (Elt F) := Function.update (Function.update (U19 m c) main_v165_0 (o_main_v165_0 m c)) main_v165_1 (o_main_v165_1 m c)
/-- … and after the host stretch that follows it. -/
def U21 (c : Dev nD) : Valuation τ sig (Elt F) := StableHlo.after hostOps10 (U20 m c)
/-- What region 10 leaves in `main_v186_0`. -/
def o_main_v186_0 (c : Dev nD) : Buf (Elt F) ((c : Thread nD τ).loc main_v186_0) := (dat10 (fun c b => U21 m c b) qfull c).arrAt 7 cfg10.N
/-- What region 10 leaves in `main_v186_1`. -/
def o_main_v186_1 (c : Dev nD) : Buf (Elt F) ((c : Thread nD τ).loc main_v186_1) := (dat10 (fun c b => U21 m c b) qfull c).arrAt 8 cfg10.N
/-- Core `c`'s contents after region 10. -/
def U22 (c : Dev nD) : Valuation τ sig (Elt F) := Function.update (Function.update (U21 m c) main_v186_0 (o_main_v186_0 m c)) main_v186_1 (o_main_v186_1 m c)
/-- … and after the host stretch that follows it. -/
def U23 (c : Dev nD) : Valuation τ sig (Elt F) := StableHlo.after hostOps11 (U22 m c)
/-- What region 11 leaves in `main_v193`. -/
def o_main_v193 (c : Dev nD) : Buf (Elt F) ((c : Thread nD τ).loc main_v193) := (dat11 (fun c b => U23 m c b) qfull c).arrAt 5 cfg11.N
/-- Core `c`'s contents after region 11. -/
def U24 (c : Dev nD) : Valuation τ sig (Elt F) := Function.update (U23 m c) main_v193 (o_main_v193 m c)

/-- The unknowns: after each region, that region's exit contents. -/
def theOuts : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | _ => m ((c : Thread nD τ).loc r)

theorem V1_eq (c : Dev nD) : V1 m c = U1 m c := rfl
theorem theOuts_main_v5 (c : Dev nD) : theOuts m 2 main_v5 c = o_main_v5 m c :=
  show U2 m c main_v5 = _ from by unfold U2; exact (Function.update_self _ _ _)
theorem V2_eq (c : Dev nD) : V2 m (theOuts m) c = U2 m c := by
  unfold U2
  rw [← V1_eq m c, ← theOuts_main_v5 m c]
theorem V3_eq (c : Dev nD) : V3 m (theOuts m) c = U3 m c := by
  unfold U3
  rw [← V2_eq m c]
theorem theOuts_main_v26_0 (c : Dev nD) : theOuts m 4 main_v26_0 c = o_main_v26_0 m c :=
  show U4 m c main_v26_0 = _ from by unfold U4; exact ((Function.update_of_ne (StableHlo.devRef_ne_of_ne (by decide) : (Proc.devRef .tc main_v26_0 : DevRef τ sig) ≠ Proc.devRef .tc main_v26_1) _ _).trans (Function.update_self _ _ _))
theorem theOuts_main_v26_1 (c : Dev nD) : theOuts m 4 main_v26_1 c = o_main_v26_1 m c :=
  show U4 m c main_v26_1 = _ from by unfold U4; exact (Function.update_self _ _ _)
theorem V4_eq (c : Dev nD) : V4 m (theOuts m) c = U4 m c := by
  unfold U4
  rw [← V3_eq m c, ← theOuts_main_v26_0 m c, ← theOuts_main_v26_1 m c]
theorem V5_eq (c : Dev nD) : V5 m (theOuts m) c = U5 m c := by
  unfold U5
  rw [← V4_eq m c]
theorem theOuts_main_v47_0 (c : Dev nD) : theOuts m 6 main_v47_0 c = o_main_v47_0 m c :=
  show U6 m c main_v47_0 = _ from by unfold U6; exact ((Function.update_of_ne (StableHlo.devRef_ne_of_ne (by decide) : (Proc.devRef .tc main_v47_0 : DevRef τ sig) ≠ Proc.devRef .tc main_v47_1) _ _).trans (Function.update_self _ _ _))
theorem theOuts_main_v47_1 (c : Dev nD) : theOuts m 6 main_v47_1 c = o_main_v47_1 m c :=
  show U6 m c main_v47_1 = _ from by unfold U6; exact (Function.update_self _ _ _)
theorem V6_eq (c : Dev nD) : V6 m (theOuts m) c = U6 m c := by
  unfold U6
  rw [← V5_eq m c, ← theOuts_main_v47_0 m c, ← theOuts_main_v47_1 m c]
theorem V7_eq (c : Dev nD) : V7 m (theOuts m) c = U7 m c := by
  unfold U7
  rw [← V6_eq m c]
theorem theOuts_main_v68_0 (c : Dev nD) : theOuts m 8 main_v68_0 c = o_main_v68_0 m c :=
  show U8 m c main_v68_0 = _ from by unfold U8; exact ((Function.update_of_ne (StableHlo.devRef_ne_of_ne (by decide) : (Proc.devRef .tc main_v68_0 : DevRef τ sig) ≠ Proc.devRef .tc main_v68_1) _ _).trans (Function.update_self _ _ _))
theorem theOuts_main_v68_1 (c : Dev nD) : theOuts m 8 main_v68_1 c = o_main_v68_1 m c :=
  show U8 m c main_v68_1 = _ from by unfold U8; exact (Function.update_self _ _ _)
theorem V8_eq (c : Dev nD) : V8 m (theOuts m) c = U8 m c := by
  unfold U8
  rw [← V7_eq m c, ← theOuts_main_v68_0 m c, ← theOuts_main_v68_1 m c]
theorem V9_eq (c : Dev nD) : V9 m (theOuts m) c = U9 m c := by
  unfold U9
  rw [← V8_eq m c]
theorem theOuts_main_v89_0 (c : Dev nD) : theOuts m 10 main_v89_0 c = o_main_v89_0 m c :=
  show U10 m c main_v89_0 = _ from by unfold U10; exact ((Function.update_of_ne (StableHlo.devRef_ne_of_ne (by decide) : (Proc.devRef .tc main_v89_0 : DevRef τ sig) ≠ Proc.devRef .tc main_v89_1) _ _).trans (Function.update_self _ _ _))
theorem theOuts_main_v89_1 (c : Dev nD) : theOuts m 10 main_v89_1 c = o_main_v89_1 m c :=
  show U10 m c main_v89_1 = _ from by unfold U10; exact (Function.update_self _ _ _)
theorem V10_eq (c : Dev nD) : V10 m (theOuts m) c = U10 m c := by
  unfold U10
  rw [← V9_eq m c, ← theOuts_main_v89_0 m c, ← theOuts_main_v89_1 m c]
theorem V11_eq (c : Dev nD) : V11 m (theOuts m) c = U11 m c := by
  unfold U11
  rw [← V10_eq m c]
theorem theOuts_main_v96 (c : Dev nD) : theOuts m 12 main_v96 c = o_main_v96 m c :=
  show U12 m c main_v96 = _ from by unfold U12; exact (Function.update_self _ _ _)
theorem V12_eq (c : Dev nD) : V12 m (theOuts m) c = U12 m c := by
  unfold U12
  rw [← V11_eq m c, ← theOuts_main_v96 m c]
theorem V13_eq (c : Dev nD) : V13 m (theOuts m) c = U13 m c := by
  unfold U13
  rw [← V12_eq m c]
theorem theOuts_main_v102 (c : Dev nD) : theOuts m 14 main_v102 c = o_main_v102 m c :=
  show U14 m c main_v102 = _ from by unfold U14; exact (Function.update_self _ _ _)
theorem V14_eq (c : Dev nD) : V14 m (theOuts m) c = U14 m c := by
  unfold U14
  rw [← V13_eq m c, ← theOuts_main_v102 m c]
theorem V15_eq (c : Dev nD) : V15 m (theOuts m) c = U15 m c := by
  unfold U15
  rw [← V14_eq m c]
theorem theOuts_main_v123_0 (c : Dev nD) : theOuts m 16 main_v123_0 c = o_main_v123_0 m c :=
  show U16 m c main_v123_0 = _ from by unfold U16; exact ((Function.update_of_ne (StableHlo.devRef_ne_of_ne (by decide) : (Proc.devRef .tc main_v123_0 : DevRef τ sig) ≠ Proc.devRef .tc main_v123_1) _ _).trans (Function.update_self _ _ _))
theorem theOuts_main_v123_1 (c : Dev nD) : theOuts m 16 main_v123_1 c = o_main_v123_1 m c :=
  show U16 m c main_v123_1 = _ from by unfold U16; exact (Function.update_self _ _ _)
theorem V16_eq (c : Dev nD) : V16 m (theOuts m) c = U16 m c := by
  unfold U16
  rw [← V15_eq m c, ← theOuts_main_v123_0 m c, ← theOuts_main_v123_1 m c]
theorem V17_eq (c : Dev nD) : V17 m (theOuts m) c = U17 m c := by
  unfold U17
  rw [← V16_eq m c]
theorem theOuts_main_v144_0 (c : Dev nD) : theOuts m 18 main_v144_0 c = o_main_v144_0 m c :=
  show U18 m c main_v144_0 = _ from by unfold U18; exact ((Function.update_of_ne (StableHlo.devRef_ne_of_ne (by decide) : (Proc.devRef .tc main_v144_0 : DevRef τ sig) ≠ Proc.devRef .tc main_v144_1) _ _).trans (Function.update_self _ _ _))
theorem theOuts_main_v144_1 (c : Dev nD) : theOuts m 18 main_v144_1 c = o_main_v144_1 m c :=
  show U18 m c main_v144_1 = _ from by unfold U18; exact (Function.update_self _ _ _)
theorem V18_eq (c : Dev nD) : V18 m (theOuts m) c = U18 m c := by
  unfold U18
  rw [← V17_eq m c, ← theOuts_main_v144_0 m c, ← theOuts_main_v144_1 m c]
theorem V19_eq (c : Dev nD) : V19 m (theOuts m) c = U19 m c := by
  unfold U19
  rw [← V18_eq m c]
theorem theOuts_main_v165_0 (c : Dev nD) : theOuts m 20 main_v165_0 c = o_main_v165_0 m c :=
  show U20 m c main_v165_0 = _ from by unfold U20; exact ((Function.update_of_ne (StableHlo.devRef_ne_of_ne (by decide) : (Proc.devRef .tc main_v165_0 : DevRef τ sig) ≠ Proc.devRef .tc main_v165_1) _ _).trans (Function.update_self _ _ _))
theorem theOuts_main_v165_1 (c : Dev nD) : theOuts m 20 main_v165_1 c = o_main_v165_1 m c :=
  show U20 m c main_v165_1 = _ from by unfold U20; exact (Function.update_self _ _ _)
theorem V20_eq (c : Dev nD) : V20 m (theOuts m) c = U20 m c := by
  unfold U20
  rw [← V19_eq m c, ← theOuts_main_v165_0 m c, ← theOuts_main_v165_1 m c]
theorem V21_eq (c : Dev nD) : V21 m (theOuts m) c = U21 m c := by
  unfold U21
  rw [← V20_eq m c]
theorem theOuts_main_v186_0 (c : Dev nD) : theOuts m 22 main_v186_0 c = o_main_v186_0 m c :=
  show U22 m c main_v186_0 = _ from by unfold U22; exact ((Function.update_of_ne (StableHlo.devRef_ne_of_ne (by decide) : (Proc.devRef .tc main_v186_0 : DevRef τ sig) ≠ Proc.devRef .tc main_v186_1) _ _).trans (Function.update_self _ _ _))
theorem theOuts_main_v186_1 (c : Dev nD) : theOuts m 22 main_v186_1 c = o_main_v186_1 m c :=
  show U22 m c main_v186_1 = _ from by unfold U22; exact (Function.update_self _ _ _)
theorem V22_eq (c : Dev nD) : V22 m (theOuts m) c = U22 m c := by
  unfold U22
  rw [← V21_eq m c, ← theOuts_main_v186_0 m c, ← theOuts_main_v186_1 m c]
theorem V23_eq (c : Dev nD) : V23 m (theOuts m) c = U23 m c := by
  unfold U23
  rw [← V22_eq m c]
theorem theOuts_main_v193 (c : Dev nD) : theOuts m 24 main_v193 c = o_main_v193 m c :=
  show U24 m c main_v193 = _ from by unfold U24; exact (Function.update_self _ _ _)
theorem V24_eq (c : Dev nD) : V24 m (theOuts m) c = U24 m c := by
  unfold U24
  rw [← V23_eq m c, ← theOuts_main_v193 m c]

/-- The computed contents satisfy the side conditions. -/
theorem theOuts_ok : OutsOk m (theOuts m) where
  o_main_v5 c := (theOuts_main_v5 m c).trans (congrArg (fun V => (dat0 V qfull c).arrAt 3 cfg0.N)
    (show (fun (c : Dev nD) (b : Ref sig .tc) => U1 m c b) = (En1 m) from funext fun c => funext fun b => (congrFun (V1_eq m c) b).symm))
  o_main_v26_0 c := (theOuts_main_v26_0 m c).trans (congrArg (fun V => (dat1 V q1 c).arrAt 7 cfg1.N)
    (show (fun (c : Dev nD) (b : Ref sig .tc) => U3 m c b) = (En3 m (theOuts m)) from funext fun c => funext fun b => (congrFun (V3_eq m c) b).symm))
  o_main_v26_1 c := (theOuts_main_v26_1 m c).trans (congrArg (fun V => (dat1 V q1 c).arrAt 8 cfg1.N)
    (show (fun (c : Dev nD) (b : Ref sig .tc) => U3 m c b) = (En3 m (theOuts m)) from funext fun c => funext fun b => (congrFun (V3_eq m c) b).symm))
  o_main_v47_0 c := (theOuts_main_v47_0 m c).trans (congrArg (fun V => (dat2 V qfull c).arrAt 7 cfg2.N)
    (show (fun (c : Dev nD) (b : Ref sig .tc) => U5 m c b) = (En5 m (theOuts m)) from funext fun c => funext fun b => (congrFun (V5_eq m c) b).symm))
  o_main_v47_1 c := (theOuts_main_v47_1 m c).trans (congrArg (fun V => (dat2 V qfull c).arrAt 8 cfg2.N)
    (show (fun (c : Dev nD) (b : Ref sig .tc) => U5 m c b) = (En5 m (theOuts m)) from funext fun c => funext fun b => (congrFun (V5_eq m c) b).symm))
  o_main_v68_0 c := (theOuts_main_v68_0 m c).trans (congrArg (fun V => (dat3 V qfull c).arrAt 7 cfg3.N)
    (show (fun (c : Dev nD) (b : Ref sig .tc) => U7 m c b) = (En7 m (theOuts m)) from funext fun c => funext fun b => (congrFun (V7_eq m c) b).symm))
  o_main_v68_1 c := (theOuts_main_v68_1 m c).trans (congrArg (fun V => (dat3 V qfull c).arrAt 8 cfg3.N)
    (show (fun (c : Dev nD) (b : Ref sig .tc) => U7 m c b) = (En7 m (theOuts m)) from funext fun c => funext fun b => (congrFun (V7_eq m c) b).symm))
  o_main_v89_0 c := (theOuts_main_v89_0 m c).trans (congrArg (fun V => (dat4 V qfull c).arrAt 7 cfg4.N)
    (show (fun (c : Dev nD) (b : Ref sig .tc) => U9 m c b) = (En9 m (theOuts m)) from funext fun c => funext fun b => (congrFun (V9_eq m c) b).symm))
  o_main_v89_1 c := (theOuts_main_v89_1 m c).trans (congrArg (fun V => (dat4 V qfull c).arrAt 8 cfg4.N)
    (show (fun (c : Dev nD) (b : Ref sig .tc) => U9 m c b) = (En9 m (theOuts m)) from funext fun c => funext fun b => (congrFun (V9_eq m c) b).symm))
  o_main_v96 c := (theOuts_main_v96 m c).trans (congrArg (fun V => (dat5 V qfull c).arrAt 5 cfg5.N)
    (show (fun (c : Dev nD) (b : Ref sig .tc) => U11 m c b) = (En11 m (theOuts m)) from funext fun c => funext fun b => (congrFun (V11_eq m c) b).symm))
  o_main_v102 c := (theOuts_main_v102 m c).trans (congrArg (fun V => (dat6 V qfull c).arrAt 3 cfg6.N)
    (show (fun (c : Dev nD) (b : Ref sig .tc) => U13 m c b) = (En13 m (theOuts m)) from funext fun c => funext fun b => (congrFun (V13_eq m c) b).symm))
  o_main_v123_0 c := (theOuts_main_v123_0 m c).trans (congrArg (fun V => (dat7 V q7 c).arrAt 7 cfg7.N)
    (show (fun (c : Dev nD) (b : Ref sig .tc) => U15 m c b) = (En15 m (theOuts m)) from funext fun c => funext fun b => (congrFun (V15_eq m c) b).symm))
  o_main_v123_1 c := (theOuts_main_v123_1 m c).trans (congrArg (fun V => (dat7 V q7 c).arrAt 8 cfg7.N)
    (show (fun (c : Dev nD) (b : Ref sig .tc) => U15 m c b) = (En15 m (theOuts m)) from funext fun c => funext fun b => (congrFun (V15_eq m c) b).symm))
  o_main_v144_0 c := (theOuts_main_v144_0 m c).trans (congrArg (fun V => (dat8 V qfull c).arrAt 7 cfg8.N)
    (show (fun (c : Dev nD) (b : Ref sig .tc) => U17 m c b) = (En17 m (theOuts m)) from funext fun c => funext fun b => (congrFun (V17_eq m c) b).symm))
  o_main_v144_1 c := (theOuts_main_v144_1 m c).trans (congrArg (fun V => (dat8 V qfull c).arrAt 8 cfg8.N)
    (show (fun (c : Dev nD) (b : Ref sig .tc) => U17 m c b) = (En17 m (theOuts m)) from funext fun c => funext fun b => (congrFun (V17_eq m c) b).symm))
  o_main_v165_0 c := (theOuts_main_v165_0 m c).trans (congrArg (fun V => (dat9 V qfull c).arrAt 7 cfg9.N)
    (show (fun (c : Dev nD) (b : Ref sig .tc) => U19 m c b) = (En19 m (theOuts m)) from funext fun c => funext fun b => (congrFun (V19_eq m c) b).symm))
  o_main_v165_1 c := (theOuts_main_v165_1 m c).trans (congrArg (fun V => (dat9 V qfull c).arrAt 8 cfg9.N)
    (show (fun (c : Dev nD) (b : Ref sig .tc) => U19 m c b) = (En19 m (theOuts m)) from funext fun c => funext fun b => (congrFun (V19_eq m c) b).symm))
  o_main_v186_0 c := (theOuts_main_v186_0 m c).trans (congrArg (fun V => (dat10 V qfull c).arrAt 7 cfg10.N)
    (show (fun (c : Dev nD) (b : Ref sig .tc) => U21 m c b) = (En21 m (theOuts m)) from funext fun c => funext fun b => (congrFun (V21_eq m c) b).symm))
  o_main_v186_1 c := (theOuts_main_v186_1 m c).trans (congrArg (fun V => (dat10 V qfull c).arrAt 8 cfg10.N)
    (show (fun (c : Dev nD) (b : Ref sig .tc) => U21 m c b) = (En21 m (theOuts m)) from funext fun c => funext fun b => (congrFun (V21_eq m c) b).symm))
  o_main_v193 c := (theOuts_main_v193 m c).trans (congrArg (fun V => (dat11 V qfull c).arrAt 5 cfg11.N)
    (show (fun (c : Dev nD) (b : Ref sig .tc) => U23 m c b) = (En23 m (theOuts m)) from funext fun c => funext fun b => (congrFun (V23_eq m c) b).symm))

end Cert.Kernel.Hand

end
-- ==== Proof.KernelIdeal.Reg0.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg0.W → PosShare TreeShare)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect0_a : Rect S5000x32 := Rect.unit (s := S5000x32) ![0, 0] S5000x32.size inb_S5000x32_S5000x32_0_0
abbrev rect0_b : Rect S32x64 := Rect.unit (s := S32x64) ![0, 0] S32x64.size inb_S32x64_S32x64_0_0
abbrev rect0_c : Rect S1x64 := Rect.unit (s := S1x64) ![0, 0] S1x64.size inb_S1x64_S1x64_0_0
abbrev rect0_d : Rect S5000x64 := Rect.unit (s := S5000x64) ![0, 0] S5000x64.size inb_S5000x64_S5000x64_0_0

def out0_3 (x : Vec F S5000x32 .f32) (w : Vec F S32x64 .f32) (b : Vec F S1x64 .f32) : Vec F S5000x64 .f32 :=
  View.canon [⟨rect0_d, k0_pay1 (View.ld x rect0_a) (View.ld w rect0_b) (View.ld b rect0_c)⟩]

set_option maxHeartbeats 1000000 in
/-- The body only reads the inputs and stores the output whole once, so the output reads back as that store's closed form. -/
theorem sound_kernel0 (c : Dev nD) (E : Set ℕ) (i : grid0.Coords)
    (arg1 : Memref sig .tc .vmem S5000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S5000x64 .f32) (harg4 : arg4.IsWhole)
    (x : Vec F S5000x32 .f32) (w : Vec F S32x64 .f32) (b : Vec F S1x64 .f32) (K : PUnit → sProp 𝕄) :
    iprop(owns c arg1 fullShare x ∗ owns c arg2 fullShare w ∗ owns c arg3 fullShare b
        ∗ (∃ d, owns c arg4 fullShare d)
        ∗ (iprop(owns c arg1 fullShare x ∗ owns c arg2 fullShare w ∗ owns c arg3 fullShare b
            ∗ owns c arg4 fullShare (out0_3 x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S5000x64.size rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

theorem A_eq0 (c : Dev nD) (w : Fin cfg0.W) : (dat0 V q c).A w = V c (Pipeline.arrRef spec0 w) := by
  dsimp only [dat0]

theorem after0_3 (c : Dev nD) (t : Fin cfg0.N) :
    (dat0 V q c).after 3 t = out0_3 (iblk0 V c 0 t) (iblk0 V c 1 t) (iblk0 V c 2 t) := by dsimp only [dat0]

/-- At each input window the hypotheses of `Dat.before_in_eq_fetched` hold by evaluation. -/
theorem before0 (c : Dev nD) : ∀ w : Fin cfg0.W, w.val < 3 → ∀ t d, (dat0 V q c).before w t d = (dat0 V q c).fetched w t d
  | ⟨0, _⟩, _, t, d | ⟨1, _⟩, _, t, d | ⟨2, _⟩, _, t, d =>
    (dat0 V q c).before_in_eq_fetched _ rfl (fun _ => rfl) (fun _ _ _ => rfl) (fun _ => rfl) t d
  | ⟨n + 3, _⟩, h, _, _ => absurd h (Nat.not_lt.mpr (Nat.le_add_left 3 n))

/-- The windows' buffers are the kernel triple's memrefs; the invariant and the debts are framed. -/
theorem body_obligation0 (c : Dev nD) : BodyObligation (dat0 (F := F) V q c) (defs₀ (F := F)) Variants.none () Set.univ := fun t => by
  show iprop(_ ∗ _ ∗ bigSep Finset.univ fun w => iprop(∃ d, owns (c : Thread nD τ) _ fullShare ((dat0 V q c).before w t d)))
    ⊢ wp _ _ _ (bodyAt0 t) fun _ => iprop(_ ∗ _ ∗ bigSep Finset.univ fun w => owns (c : Thread nD τ) _ fullShare ((dat0 V q c).after w t))
  rw [bigSep_W0, bigSep_W0]
  simp (disch := decide) only [before0]
  rw [show (dat0 V q c).Φ t.succ = (dat0 V q c).Φ t.castSucc from rfl, after0_3]
  iintro ⟨HΦ, Hd, ⟨%dx, Hx⟩, ⟨%dw, Hw⟩, ⟨%db, Hb⟩, ⟨%dy, Hy⟩⟩
  iapply (sound_kernel0 c Set.univ _ _ _ _ _ _ _ _ _ (iblk0 V c 0 t) (iblk0 V c 1 t) (iblk0 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hd]; · iexact Hd
  isplitl [Hx]; · iexact Hx
  isplitl [Hw]; · iexact Hw
  isplitl [Hb]; · iexact Hb
  iexact Hy

end Cert.KernelIdeal.Hand

end
-- ==== Proof.KernelIdeal.Reg1.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg1.W → PosShare TreeShare)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1_a : Rect S5000x64 := Rect.unit (s := S5000x64) ![0, 0] S5000x64.size inb_S5000x64_S5000x64_0_0
abbrev rect1_b : Rect S64x64 := Rect.unit (s := S64x64) ![0, 0] S64x64.size inb_S64x64_S64x64_0_0
abbrev rect1_c : Rect S1x64 := Rect.unit (s := S1x64) ![0, 0] S1x64.size inb_S1x64_S1x64_0_0

def out1_7 (x agg : Vec F S5000x64 .f32) (wa : Vec F S64x64 .f32) (ba : Vec F S1x64 .f32) (wb : Vec F S64x64 .f32) (bb : Vec F S1x64 .f32) : Vec F S5000x64 .f32 :=
  View.canon [⟨rect1_a, k1_pay2 (View.ld x rect1_a) (View.ld agg rect1_a) (View.ld wa rect1_b) (View.ld ba rect1_c) (View.ld wb rect1_b) (View.ld bb rect1_c)⟩]

def out1_8 (xres : Vec F S5000x64 .f32) : Vec F S5000x64 .f32 :=
  View.canon [⟨rect1_a, k1_pay1 (View.ld xres rect1_a)⟩]

set_option maxHeartbeats 4000000 in
/-- The body only reads the inputs and stores each output whole once, so each output reads back as that store's closed form. -/
theorem sound_kernel1 (c : Dev nD) (E : Set ℕ) (i : grid1.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out1_7 x0 x1 x3 x4 x5 x6) ∗ owns c m8 fullShare (out1_8 x2)) -∗ K ⟨⟩))
      ⊢ wp frame (wpE (defs₀ (F := F)) Variants.none c none) E (cc1_kernel i m0 hm0 m1 hm1 m2 hm2 m3 hm3 m4 hm4 m5 hm5 m6 hm6 m7 hm7 m8 hm8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t) (iblk1 V c 5 t) (iblk1 V c 6 t)
    | ⟨8, _⟩ => out1_8 (iblk1 V c 2 t)
  Φ _ := Pipeline.ΦA spec1 c
  q := q
  owed _ := 0

theorem A_eq1 (c : Dev nD) (w : Fin cfg1.W) : (dat1 V q c).A w = V c (Pipeline.arrRef spec1 w) := by
  dsimp only [dat1]

theorem after1_7 (c : Dev nD) (t : Fin cfg1.N) : (dat1 V q c).after 7 t = out1_7 (iblk1 V c 0 t) (iblk1 V c 1 t) (iblk1 V c 3 t) (iblk1 V c 4 t) (iblk1 V c 5 t) (iblk1 V c 6 t) := by dsimp only [dat1]
theorem after1_8 (c : Dev nD) (t : Fin cfg1.N) : (dat1 V q c).after 8 t = out1_8 (iblk1 V c 2 t) := by dsimp only [dat1]

/-- At each input window the hypotheses of `Dat.before_in_eq_fetched` hold by evaluation. -/
theorem before1 (c : Dev nD) : ∀ w : Fin cfg1.W, w.val < 7 → ∀ t d, (dat1 V q c).before w t d = (dat1 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat1 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation1 (c : Dev nD) : BodyObligation (dat1 (F := F) V q c) (defs₀ (F := F)) Variants.none () Set.univ := fun t => by
  show iprop(_ ∗ _ ∗ bigSep Finset.univ fun w => iprop(∃ d, owns (c : Thread nD τ) _ fullShare ((dat1 V q c).before w t d)))
    ⊢ wp _ _ _ (bodyAt1 t) fun _ => iprop(_ ∗ _ ∗ bigSep Finset.univ fun w => owns (c : Thread nD τ) _ fullShare ((dat1 V q c).after w t))
  rw [bigSep_W1, bigSep_W1]
  simp (disch := decide) only [before1]
  rw [show (dat1 V q c).Φ t.succ = (dat1 V q c).Φ t.castSucc from rfl, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg2.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg2.W → PosShare TreeShare)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_a : Rect S5000x64 := Rect.unit (s := S5000x64) ![0, 0] S5000x64.size inb_S5000x64_S5000x64_0_0
abbrev rect2_b : Rect S64x64 := Rect.unit (s := S64x64) ![0, 0] S64x64.size inb_S64x64_S64x64_0_0
abbrev rect2_c : Rect S1x64 := Rect.unit (s := S1x64) ![0, 0] S1x64.size inb_S1x64_S1x64_0_0

def out2_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect2_a, k2_pay2 (View.ld x rect2_a) (View.ld agg rect2_a) (View.ld w1 rect2_b) (View.ld b1 rect2_c) (View.ld w2 rect2_b) (View.ld b2 rect2_c) (View.ld xres rect2_a)⟩]

def out2_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect2_a, k2_pay1 (View.ld x rect2_a) (View.ld agg rect2_a) (View.ld w1 rect2_b) (View.ld b1 rect2_c) (View.ld w2 rect2_b) (View.ld b2 rect2_c) (View.ld xres rect2_a)⟩]

set_option maxHeartbeats 4000000 in
/-- The body only reads the inputs and stores each output whole once, so each output reads back as that store's closed form. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out2_7 x agg w1 b1 w2 b2 xres) ∗ owns c arg9 fullShare (out2_8 x agg w1 b1 w2 b2 xres)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9) K := by
  simp only [cc2_kernel_eq_skeleton]; unfold cc2_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 3 t) (iblk2 V c 4 t) (iblk2 V c 5 t) (iblk2 V c 6 t) (iblk2 V c 2 t)
    | ⟨8, _⟩ => out2_8 (iblk2 V c 0 t) (iblk2 V c 1 t) (iblk2 V c 3 t) (iblk2 V c 4 t) (iblk2 V c 5 t) (iblk2 V c 6 t) (iblk2 V c 2 t)
  Φ _ := Pipeline.ΦA spec2 c
  q := q
  owed _ := 0

theorem A_eq2 (c : Dev nD) (w : Fin cfg2.W) : (dat2 V q c).A w = V c (Pipeline.arrRef spec2 w) := by
  dsimp only [dat2]

theorem after2_7 (c : Dev nD) (t : Fin cfg2.N) : (dat2 V q c).after 7 t = out2_7 (iblk2 V c 0 t) (iblk2 V c 1 t) (iblk2 V c 3 t) (iblk2 V c 4 t) (iblk2 V c 5 t) (iblk2 V c 6 t) (iblk2 V c 2 t) := by dsimp only [dat2]
theorem after2_8 (c : Dev nD) (t : Fin cfg2.N) : (dat2 V q c).after 8 t = out2_8 (iblk2 V c 0 t) (iblk2 V c 1 t) (iblk2 V c 3 t) (iblk2 V c 4 t) (iblk2 V c 5 t) (iblk2 V c 6 t) (iblk2 V c 2 t) := by dsimp only [dat2]

/-- At each input window the hypotheses of `Dat.before_in_eq_fetched` hold by evaluation. -/
theorem before2 (c : Dev nD) : ∀ w : Fin cfg2.W, w.val < 7 → ∀ t d, (dat2 V q c).before w t d = (dat2 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat2 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation2 (c : Dev nD) : BodyObligation (dat2 (F := F) V q c) (defs₀ (F := F)) Variants.none () Set.univ := fun t => by
  show iprop(_ ∗ _ ∗ bigSep Finset.univ fun w => iprop(∃ d, owns (c : Thread nD τ) _ fullShare ((dat2 V q c).before w t d)))
    ⊢ wp _ _ _ (bodyAt2 t) fun _ => iprop(_ ∗ _ ∗ bigSep Finset.univ fun w => owns (c : Thread nD τ) _ fullShare ((dat2 V q c).after w t))
  rw [bigSep_W2, bigSep_W2]
  simp (disch := decide) only [before2]
  rw [show (dat2 V q c).Φ t.succ = (dat2 V q c).Φ t.castSucc from rfl, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg3.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg3.W → PosShare TreeShare)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rect3_a : Rect S5000x64 := Rect.unit (s := S5000x64) ![0, 0] S5000x64.size inb_S5000x64_S5000x64_0_0
abbrev rect3_b : Rect S64x64 := Rect.unit (s := S64x64) ![0, 0] S64x64.size inb_S64x64_S64x64_0_0
abbrev rect3_c : Rect S1x64 := Rect.unit (s := S1x64) ![0, 0] S1x64.size inb_S1x64_S1x64_0_0

def out3_7 (x agg : Vec F S5000x64 .f32) (wa : Vec F S64x64 .f32) (ba : Vec F S1x64 .f32) (wb : Vec F S64x64 .f32) (bb : Vec F S1x64 .f32) : Vec F S5000x64 .f32 :=
  View.canon [⟨rect3_a, k3_pay2 (View.ld x rect3_a) (View.ld agg rect3_a) (View.ld wa rect3_b) (View.ld ba rect3_c) (View.ld wb rect3_b) (View.ld bb rect3_c)⟩]

def out3_8 (xres : Vec F S5000x64 .f32) : Vec F S5000x64 .f32 :=
  View.canon [⟨rect3_a, k3_pay1 (View.ld xres rect3_a)⟩]

set_option maxHeartbeats 4000000 in
/-- The body only reads the inputs and stores each output whole once, so each output reads back as that store's closed form. -/
theorem sound_kernel3 (c : Dev nD) (E : Set ℕ) (i : grid3.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out3_7 x0 x1 x3 x4 x5 x6) ∗ owns c m8 fullShare (out3_8 x2)) -∗ K ⟨⟩))
      ⊢ wp frame (wpE (defs₀ (F := F)) Variants.none c none) E (cc3_kernel i m0 hm0 m1 hm1 m2 hm2 m3 hm3 m4 hm4 m5 hm5 m6 hm6 m7 hm7 m8 hm8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 3 t) (iblk3 V c 4 t) (iblk3 V c 5 t) (iblk3 V c 6 t)
    | ⟨8, _⟩ => out3_8 (iblk3 V c 2 t)
  Φ _ := Pipeline.ΦA spec3 c
  q := q
  owed _ := 0

theorem A_eq3 (c : Dev nD) (w : Fin cfg3.W) : (dat3 V q c).A w = V c (Pipeline.arrRef spec3 w) := by
  dsimp only [dat3]

theorem after3_7 (c : Dev nD) (t : Fin cfg3.N) : (dat3 V q c).after 7 t = out3_7 (iblk3 V c 0 t) (iblk3 V c 1 t) (iblk3 V c 3 t) (iblk3 V c 4 t) (iblk3 V c 5 t) (iblk3 V c 6 t) := by dsimp only [dat3]
theorem after3_8 (c : Dev nD) (t : Fin cfg3.N) : (dat3 V q c).after 8 t = out3_8 (iblk3 V c 2 t) := by dsimp only [dat3]

/-- At each input window the hypotheses of `Dat.before_in_eq_fetched` hold by evaluation. -/
theorem before3 (c : Dev nD) : ∀ w : Fin cfg3.W, w.val < 7 → ∀ t d, (dat3 V q c).before w t d = (dat3 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat3 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation3 (c : Dev nD) : BodyObligation (dat3 (F := F) V q c) (defs₀ (F := F)) Variants.none () Set.univ := fun t => by
  show iprop(_ ∗ _ ∗ bigSep Finset.univ fun w => iprop(∃ d, owns (c : Thread nD τ) _ fullShare ((dat3 V q c).before w t d)))
    ⊢ wp _ _ _ (bodyAt3 t) fun _ => iprop(_ ∗ _ ∗ bigSep Finset.univ fun w => owns (c : Thread nD τ) _ fullShare ((dat3 V q c).after w t))
  rw [bigSep_W3, bigSep_W3]
  simp (disch := decide) only [before3]
  rw [show (dat3 V q c).Φ t.succ = (dat3 V q c).Φ t.castSucc from rfl, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg4.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg4.W → PosShare TreeShare)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rect4_a : Rect S5000x64 := Rect.unit (s := S5000x64) ![0, 0] S5000x64.size inb_S5000x64_S5000x64_0_0
abbrev rect4_b : Rect S64x64 := Rect.unit (s := S64x64) ![0, 0] S64x64.size inb_S64x64_S64x64_0_0
abbrev rect4_c : Rect S1x64 := Rect.unit (s := S1x64) ![0, 0] S1x64.size inb_S1x64_S1x64_0_0

def out4_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect4_a, k4_pay2 (View.ld x rect4_a) (View.ld agg rect4_a) (View.ld w1 rect4_b) (View.ld b1 rect4_c) (View.ld w2 rect4_b) (View.ld b2 rect4_c) (View.ld xres rect4_a)⟩]

def out4_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect4_a, k4_pay1 (View.ld x rect4_a) (View.ld agg rect4_a) (View.ld w1 rect4_b) (View.ld b1 rect4_c) (View.ld w2 rect4_b) (View.ld b2 rect4_c) (View.ld xres rect4_a)⟩]

set_option maxHeartbeats 4000000 in
/-- The body only reads the inputs and stores each output whole once, so each output reads back as that store's closed form. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out4_7 x agg w1 b1 w2 b2 xres) ∗ owns c arg9 fullShare (out4_8 x agg w1 b1 w2 b2 xres)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 3 t) (iblk4 V c 4 t) (iblk4 V c 5 t) (iblk4 V c 6 t) (iblk4 V c 2 t)
    | ⟨8, _⟩ => out4_8 (iblk4 V c 0 t) (iblk4 V c 1 t) (iblk4 V c 3 t) (iblk4 V c 4 t) (iblk4 V c 5 t) (iblk4 V c 6 t) (iblk4 V c 2 t)
  Φ _ := Pipeline.ΦA spec4 c
  q := q
  owed _ := 0

theorem A_eq4 (c : Dev nD) (w : Fin cfg4.W) : (dat4 V q c).A w = V c (Pipeline.arrRef spec4 w) := by
  dsimp only [dat4]

theorem after4_7 (c : Dev nD) (t : Fin cfg4.N) : (dat4 V q c).after 7 t = out4_7 (iblk4 V c 0 t) (iblk4 V c 1 t) (iblk4 V c 3 t) (iblk4 V c 4 t) (iblk4 V c 5 t) (iblk4 V c 6 t) (iblk4 V c 2 t) := by dsimp only [dat4]
theorem after4_8 (c : Dev nD) (t : Fin cfg4.N) : (dat4 V q c).after 8 t = out4_8 (iblk4 V c 0 t) (iblk4 V c 1 t) (iblk4 V c 3 t) (iblk4 V c 4 t) (iblk4 V c 5 t) (iblk4 V c 6 t) (iblk4 V c 2 t) := by dsimp only [dat4]

/-- At each input window the hypotheses of `Dat.before_in_eq_fetched` hold by evaluation. -/
theorem before4 (c : Dev nD) : ∀ w : Fin cfg4.W, w.val < 7 → ∀ t d, (dat4 V q c).before w t d = (dat4 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat4 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation4 (c : Dev nD) : BodyObligation (dat4 (F := F) V q c) (defs₀ (F := F)) Variants.none () Set.univ := fun t => by
  show iprop(_ ∗ _ ∗ bigSep Finset.univ fun w => iprop(∃ d, owns (c : Thread nD τ) _ fullShare ((dat4 V q c).before w t d)))
    ⊢ wp _ _ _ (bodyAt4 t) fun _ => iprop(_ ∗ _ ∗ bigSep Finset.univ fun w => owns (c : Thread nD τ) _ fullShare ((dat4 V q c).after w t))
  rw [bigSep_W4, bigSep_W4]
  simp (disch := decide) only [before4]
  rw [show (dat4 V q c).Φ t.succ = (dat4 V q c).Φ t.castSucc from rfl, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg5.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg5.W → PosShare TreeShare)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rect5_a : Rect S128x320 := Rect.unit (s := S128x320) ![0, 0] S128x320.size inb_S128x320_S128x320_0_0
abbrev rect5_b : Rect S320x64 := Rect.unit (s := S320x64) ![0, 0] S320x64.size inb_S320x64_S320x64_0_0
abbrev rect5_c : Rect S1x64 := Rect.unit (s := S1x64) ![0, 0] S1x64.size inb_S1x64_S1x64_0_0
abbrev rect5_d : Rect S64x32 := Rect.unit (s := S64x32) ![0, 0] S64x32.size inb_S64x32_S64x32_0_0
abbrev rect5_e : Rect S1x32 := Rect.unit (s := S1x32) ![0, 0] S1x32.size inb_S1x32_S1x32_0_0
abbrev rect5_f : Rect S128x32 := Rect.unit (s := S128x32) ![0, 0] S128x32.size inb_S128x32_S128x32_0_0

def out5_5 (g : Vec F S128x320 .f32) (w1 : Vec F S320x64 .f32) (b1 : Vec F S1x64 .f32) (w2 : Vec F S64x32 .f32) (b2 : Vec F S1x32 .f32) : Vec F S128x32 .f32 :=
  View.canon [⟨rect5_f, k5_pay1 (View.ld g rect5_a) (View.ld w1 rect5_b) (View.ld b1 rect5_c) (View.ld w2 rect5_d) (View.ld b2 rect5_e)⟩]

set_option maxHeartbeats 1000000 in
/-- The body only reads the inputs and stores the output whole once, so the output reads back as that store's closed form. -/
theorem sound_kernel5 (c : Dev nD) (E : Set ℕ) (i : grid5.Coords)
    (mg : Memref sig .tc .vmem S128x320 .f32) (hmg : mg.IsWhole) (mw1 : Memref sig .tc .vmem S320x64 .f32) (hmw1 : mw1.IsWhole)
    (mb1 : Memref sig .tc .vmem S1x64 .f32) (hmb1 : mb1.IsWhole) (mw2 : Memref sig .tc .vmem S64x32 .f32) (hmw2 : mw2.IsWhole)
    (mb2 : Memref sig .tc .vmem S1x32 .f32) (hmb2 : mb2.IsWhole) (mo : Memref sig .tc .vmem S128x32 .f32) (hmo : mo.IsWhole)
    (xg : Vec F S128x320 .f32) (xw1 : Vec F S320x64 .f32) (xb1 : Vec F S1x64 .f32) (xw2 : Vec F S64x32 .f32) (xb2 : Vec F S1x32 .f32)
    (K : PUnit → sProp 𝕄) :
    iprop(owns c mg fullShare xg ∗ owns c mw1 fullShare xw1 ∗ owns c mb1 fullShare xb1
        ∗ owns c mw2 fullShare xw2 ∗ owns c mb2 fullShare xb2 ∗ (∃ d, owns c mo fullShare d)
        ∗ (iprop(owns c mg fullShare xg ∗ owns c mw1 fullShare xw1 ∗ owns c mb1 fullShare xb1
            ∗ owns c mw2 fullShare xw2 ∗ owns c mb2 fullShare xb2
            ∗ owns c mo fullShare (out5_5 xg xw1 xb1 xw2 xb2)) -∗ K ⟨⟩))
      ⊢ wp frame (wpE (defs₀ (F := F)) Variants.none c none) E (cc5__post_kernel i mg hmg mw1 hmw1 mb1 hmb1 mw2 hmw2 mb2 hmb2 mo hmo) K := by
  simp only [cc5__post_kernel_eq_skeleton]; unfold cc5__post_kernel_skel
  unfold owns
  iintro ⟨⟨%fg, %hfg, Hg⟩, ⟨%fw1, %hfw1, Hw1⟩, ⟨%fb1, %hfb1, Hb1⟩, ⟨%fw2, %hfw2, Hw2⟩, ⟨%fb2, %hfb2, Hb2⟩, ⟨%dO, %fO, -, Ho⟩, Hk⟩
  subst hfg; subst hfw1; subst hfb1; subst hfw2; subst hfb2
  sl_exec
  sl_step
  iapply Hk
  isplitl [Hg]
  · iexists fg; isplitr; · ipureintro; rfl
    iexact Hg
  isplitl [Hw1]
  · iexists fw1; isplitr; · ipureintro; rfl
    iexact Hw1
  isplitl [Hb1]
  · iexists fb1; isplitr; · ipureintro; rfl
    iexact Hb1
  isplitl [Hw2]
  · iexists fw2; isplitr; · ipureintro; rfl
    iexact Hw2
  isplitl [Hb2]
  · iexists fb2; isplitr; · ipureintro; rfl
    iexact Hb2
  iexists _; isplitr
  swap; · iexact Ho
  ipureintro
  exact View.read_writes_eq_canon _ _ _ (View.cover_of_tiled _ S128x32.size rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q := q
  owed _ := 0

theorem A_eq5 (c : Dev nD) (w : Fin cfg5.W) : (dat5 V q c).A w = V c (Pipeline.arrRef spec5 w) := by
  dsimp only [dat5]

theorem after5_5 (c : Dev nD) (t : Fin cfg5.N) : (dat5 V q c).after 5 t = out5_5 (iblk5 V c 0 t) (iblk5 V c 1 t) (iblk5 V c 2 t) (iblk5 V c 3 t) (iblk5 V c 4 t) := by dsimp only [dat5]

/-- At each input window the hypotheses of `Dat.before_in_eq_fetched` hold by evaluation. -/
theorem before5 (c : Dev nD) : ∀ w : Fin cfg5.W, w.val < 5 → ∀ t d, (dat5 V q c).before w t d = (dat5 V q c).fetched w t d
  | ⟨0, _⟩, _, t, d | ⟨1, _⟩, _, t, d | ⟨2, _⟩, _, t, d | ⟨3, _⟩, _, t, d | ⟨4, _⟩, _, t, d =>
    (dat5 V q c).before_in_eq_fetched _ rfl (fun _ => rfl) (fun _ _ _ => rfl) (fun _ => rfl) t d
  | ⟨n + 5, _⟩, h, _, _ => absurd h (Nat.not_lt.mpr (Nat.le_add_left 5 n))

/-- The windows' buffers are the kernel triple's memrefs; the invariant and the debts are framed. -/
theorem body_obligation5 (c : Dev nD) : BodyObligation (dat5 (F := F) V q c) (defs₀ (F := F)) Variants.none () Set.univ := fun t => by
  show iprop(_ ∗ _ ∗ bigSep Finset.univ fun w => iprop(∃ d, owns (c : Thread nD τ) _ fullShare ((dat5 V q c).before w t d)))
    ⊢ wp _ _ _ (bodyAt5 t) fun _ => iprop(_ ∗ _ ∗ bigSep Finset.univ fun w => owns (c : Thread nD τ) _ fullShare ((dat5 V q c).after w t))
  rw [bigSep_W5, bigSep_W5]
  simp (disch := decide) only [before5]
  rw [show (dat5 V q c).Φ t.succ = (dat5 V q c).Φ t.castSucc from rfl, after5_5]
  iintro ⟨HΦ, Hown, ⟨%dg, Hg⟩, ⟨%dw1, Hw1⟩, ⟨%db1, Hb1⟩, ⟨%dw2, Hw2⟩, ⟨%db2, Hb2⟩, ⟨%dO, Ho⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [Hg]; · iexact Hg
  isplitl [Hw1]; · iexact Hw1
  isplitl [Hb1]; · iexact Hb1
  isplitl [Hw2]; · iexact Hw2
  isplitl [Hb2]; · iexact Hb2
  isplitl [Ho]; · iexists _; iexact Ho
  iintro ⟨Hg, Hw1, Hb1, Hw2, Hb2, Ho⟩
  isplitl [HΦ]; · iexact HΦ
  isplitl [Hown]; · iexact Hown
  isplitl [Hg]; · iexact Hg
  isplitl [Hw1]; · iexact Hw1
  isplitl [Hb1]; · iexact Hb1
  isplitl [Hw2]; · iexact Hw2
  isplitl [Hb2]; · iexact Hb2
  iexact Ho

end Cert.KernelIdeal.Hand

end
-- ==== Proof.KernelIdeal.Reg6.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg6.W → PosShare TreeShare)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rect6_a : Rect S5000x32 := Rect.unit (s := S5000x32) ![0, 0] S5000x32.size inb_S5000x32_S5000x32_0_0
abbrev rect6_b : Rect S32x64 := Rect.unit (s := S32x64) ![0, 0] S32x64.size inb_S32x64_S32x64_0_0
abbrev rect6_c : Rect S1x64 := Rect.unit (s := S1x64) ![0, 0] S1x64.size inb_S1x64_S1x64_0_0
abbrev rect6_d : Rect S5000x64 := Rect.unit (s := S5000x64) ![0, 0] S5000x64.size inb_S5000x64_S5000x64_0_0

def out6_3 (x : Vec F S5000x32 .f32) (w : Vec F S32x64 .f32) (b : Vec F S1x64 .f32) : Vec F S5000x64 .f32 :=
  View.canon [⟨rect6_d, k6_pay1 (View.ld x rect6_a) (View.ld w rect6_b) (View.ld b rect6_c)⟩]

set_option maxHeartbeats 1000000 in
/-- The body only reads the inputs and stores the output whole once, so the output reads back as that store's closed form. -/
theorem sound_kernel6 (c : Dev nD) (E : Set ℕ) (i : grid6.Coords)
    (arg1 : Memref sig .tc .vmem S5000x32 .f32) (harg1 : arg1.IsWhole) (arg2 : Memref sig .tc .vmem S32x64 .f32) (harg2 : arg2.IsWhole)
    (arg3 : Memref sig .tc .vmem S1x64 .f32) (harg3 : arg3.IsWhole) (arg4 : Memref sig .tc .vmem S5000x64 .f32) (harg4 : arg4.IsWhole)
    (x : Vec F S5000x32 .f32) (w : Vec F S32x64 .f32) (b : Vec F S1x64 .f32) (K : PUnit → sProp 𝕄) :
    iprop(owns c arg1 fullShare x ∗ owns c arg2 fullShare w ∗ owns c arg3 fullShare b
        ∗ (∃ d, owns c arg4 fullShare d)
        ∗ (iprop(owns c arg1 fullShare x ∗ owns c arg2 fullShare w ∗ owns c arg3 fullShare b
            ∗ owns c arg4 fullShare (out6_3 x w b)) -∗ K ⟨⟩))
      ⊢ wp frame (wpE (defs₀ (F := F)) Variants.none c none) E (cc6__proj_kernel i arg1 harg1 arg2 harg2 arg3 harg3 arg4 harg4) K := by
  simp only [cc6__proj_kernel_eq_skeleton]; unfold cc6__proj_kernel_skel
  unfold owns
  iintro ⟨⟨%fx, %hfx, Hx⟩, ⟨%fw, %hfw, Hw⟩, ⟨%fb, %hfb, Hb⟩, ⟨%d, %fo, -, Ho⟩, Hk⟩
  subst hfx; subst hfw; subst hfb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S5000x64.size rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q := q
  owed _ := 0

theorem A_eq6 (c : Dev nD) (w : Fin cfg6.W) : (dat6 V q c).A w = V c (Pipeline.arrRef spec6 w) := by
  dsimp only [dat6]

theorem after6_3 (c : Dev nD) (t : Fin cfg6.N) :
    (dat6 V q c).after 3 t = out6_3 (iblk6 V c 0 t) (iblk6 V c 1 t) (iblk6 V c 2 t) := by dsimp only [dat6]

/-- At each input window the hypotheses of `Dat.before_in_eq_fetched` hold by evaluation. -/
theorem before6 (c : Dev nD) : ∀ w : Fin cfg6.W, w.val < 3 → ∀ t d, (dat6 V q c).before w t d = (dat6 V q c).fetched w t d
  | ⟨0, _⟩, _, t, d | ⟨1, _⟩, _, t, d | ⟨2, _⟩, _, t, d =>
    (dat6 V q c).before_in_eq_fetched _ rfl (fun _ => rfl) (fun _ _ _ => rfl) (fun _ => rfl) t d
  | ⟨n + 3, _⟩, h, _, _ => absurd h (Nat.not_lt.mpr (Nat.le_add_left 3 n))

/-- The windows' buffers are the kernel triple's memrefs; the invariant and the debts are framed. -/
theorem body_obligation6 (c : Dev nD) : BodyObligation (dat6 (F := F) V q c) (defs₀ (F := F)) Variants.none () Set.univ := fun t => by
  show iprop(_ ∗ _ ∗ bigSep Finset.univ fun w => iprop(∃ d, owns (c : Thread nD τ) _ fullShare ((dat6 V q c).before w t d)))
    ⊢ wp _ _ _ (bodyAt6 t) fun _ => iprop(_ ∗ _ ∗ bigSep Finset.univ fun w => owns (c : Thread nD τ) _ fullShare ((dat6 V q c).after w t))
  rw [bigSep_W6, bigSep_W6]
  simp (disch := decide) only [before6]
  rw [show (dat6 V q c).Φ t.succ = (dat6 V q c).Φ t.castSucc from rfl, after6_3]
  iintro ⟨HΦ, Hd, ⟨%dx, Hx⟩, ⟨%dw, Hw⟩, ⟨%db, Hb⟩, ⟨%dy, Hy⟩⟩
  iapply (sound_kernel6 c Set.univ _ _ _ _ _ _ _ _ _ (iblk6 V c 0 t) (iblk6 V c 1 t) (iblk6 V c 2 t) _)
  isplitl [Hx]; · iexact Hx
  isplitl [Hw]; · iexact Hw
  isplitl [Hb]; · iexact Hb
  isplitl [Hy]; · iexists _; iexact Hy
  iintro ⟨Hx, Hw, Hb, Hy⟩
  isplitl [HΦ]; · iexact HΦ
  isplitl [Hd]; · iexact Hd
  isplitl [Hx]; · iexact Hx
  isplitl [Hw]; · iexact Hw
  isplitl [Hb]; · iexact Hb
  iexact Hy

end Cert.KernelIdeal.Hand

end
-- ==== Proof.KernelIdeal.Reg7.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg7.W → PosShare TreeShare)

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rect7_a : Rect S5000x64 := Rect.unit (s := S5000x64) ![0, 0] S5000x64.size inb_S5000x64_S5000x64_0_0
abbrev rect7_b : Rect S64x64 := Rect.unit (s := S64x64) ![0, 0] S64x64.size inb_S64x64_S64x64_0_0
abbrev rect7_c : Rect S1x64 := Rect.unit (s := S1x64) ![0, 0] S1x64.size inb_S1x64_S1x64_0_0

def out7_7 (x agg : Vec F S5000x64 .f32) (wa : Vec F S64x64 .f32) (ba : Vec F S1x64 .f32) (wb : Vec F S64x64 .f32) (bb : Vec F S1x64 .f32) : Vec F S5000x64 .f32 :=
  View.canon [⟨rect7_a, k7_pay2 (View.ld x rect7_a) (View.ld agg rect7_a) (View.ld wa rect7_b) (View.ld ba rect7_c) (View.ld wb rect7_b) (View.ld bb rect7_c)⟩]

def out7_8 (xres : Vec F S5000x64 .f32) : Vec F S5000x64 .f32 :=
  View.canon [⟨rect7_a, k7_pay1 (View.ld xres rect7_a)⟩]

set_option maxHeartbeats 4000000 in
/-- The body only reads the inputs and stores each output whole once, so each output reads back as that store's closed form. -/
theorem sound_kernel7 (c : Dev nD) (E : Set ℕ) (i : grid7.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out7_7 x0 x1 x3 x4 x5 x6) ∗ owns c m8 fullShare (out7_8 x2)) -∗ K ⟨⟩))
      ⊢ wp frame (wpE (defs₀ (F := F)) Variants.none c none) E (cc7_kernel i m0 hm0 m1 hm1 m2 hm2 m3 hm3 m4 hm4 m5 hm5 m6 hm6 m7 hm7 m8 hm8) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 3 t) (iblk7 V c 4 t) (iblk7 V c 5 t) (iblk7 V c 6 t)
    | ⟨8, _⟩ => out7_8 (iblk7 V c 2 t)
  Φ _ := Pipeline.ΦA spec7 c
  q := q
  owed _ := 0

theorem A_eq7 (c : Dev nD) (w : Fin cfg7.W) : (dat7 V q c).A w = V c (Pipeline.arrRef spec7 w) := by
  dsimp only [dat7]

theorem after7_7 (c : Dev nD) (t : Fin cfg7.N) : (dat7 V q c).after 7 t = out7_7 (iblk7 V c 0 t) (iblk7 V c 1 t) (iblk7 V c 3 t) (iblk7 V c 4 t) (iblk7 V c 5 t) (iblk7 V c 6 t) := by dsimp only [dat7]
theorem after7_8 (c : Dev nD) (t : Fin cfg7.N) : (dat7 V q c).after 8 t = out7_8 (iblk7 V c 2 t) := by dsimp only [dat7]

/-- At each input window the hypotheses of `Dat.before_in_eq_fetched` hold by evaluation. -/
theorem before7 (c : Dev nD) : ∀ w : Fin cfg7.W, w.val < 7 → ∀ t d, (dat7 V q c).before w t d = (dat7 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat7 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation7 (c : Dev nD) : BodyObligation (dat7 (F := F) V q c) (defs₀ (F := F)) Variants.none () Set.univ := fun t => by
  show iprop(_ ∗ _ ∗ bigSep Finset.univ fun w => iprop(∃ d, owns (c : Thread nD τ) _ fullShare ((dat7 V q c).before w t d)))
    ⊢ wp _ _ _ (bodyAt7 t) fun _ => iprop(_ ∗ _ ∗ bigSep Finset.univ fun w => owns (c : Thread nD τ) _ fullShare ((dat7 V q c).after w t))
  rw [bigSep_W7, bigSep_W7]
  simp (disch := decide) only [before7]
  rw [show (dat7 V q c).Φ t.succ = (dat7 V q c).Φ t.castSucc from rfl, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg8.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg8.W → PosShare TreeShare)

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev rect8_a : Rect S5000x64 := Rect.unit (s := S5000x64) ![0, 0] S5000x64.size inb_S5000x64_S5000x64_0_0
abbrev rect8_b : Rect S64x64 := Rect.unit (s := S64x64) ![0, 0] S64x64.size inb_S64x64_S64x64_0_0
abbrev rect8_c : Rect S1x64 := Rect.unit (s := S1x64) ![0, 0] S1x64.size inb_S1x64_S1x64_0_0

def out8_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect8_a, k8_pay2 (View.ld x rect8_a) (View.ld agg rect8_a) (View.ld w1 rect8_b) (View.ld b1 rect8_c) (View.ld w2 rect8_b) (View.ld b2 rect8_c) (View.ld xres rect8_a)⟩]

def out8_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect8_a, k8_pay1 (View.ld x rect8_a) (View.ld agg rect8_a) (View.ld w1 rect8_b) (View.ld b1 rect8_c) (View.ld w2 rect8_b) (View.ld b2 rect8_c) (View.ld xres rect8_a)⟩]

set_option maxHeartbeats 4000000 in
/-- The body only reads the inputs and stores each output whole once, so each output reads back as that store's closed form. -/
theorem sound_kernel8 (c : Dev nD) (E : Set ℕ) (i : grid8.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out8_7 x agg w1 b1 w2 b2 xres) ∗ owns c arg9 fullShare (out8_8 x agg w1 b1 w2 b2 xres)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9) K := by
  simp only [cc8_kernel_eq_skeleton]; unfold cc8_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 3 t) (iblk8 V c 4 t) (iblk8 V c 5 t) (iblk8 V c 6 t) (iblk8 V c 2 t)
    | ⟨8, _⟩ => out8_8 (iblk8 V c 0 t) (iblk8 V c 1 t) (iblk8 V c 3 t) (iblk8 V c 4 t) (iblk8 V c 5 t) (iblk8 V c 6 t) (iblk8 V c 2 t)
  Φ _ := Pipeline.ΦA spec8 c
  q := q
  owed _ := 0

theorem A_eq8 (c : Dev nD) (w : Fin cfg8.W) : (dat8 V q c).A w = V c (Pipeline.arrRef spec8 w) := by
  dsimp only [dat8]

theorem after8_7 (c : Dev nD) (t : Fin cfg8.N) : (dat8 V q c).after 7 t = out8_7 (iblk8 V c 0 t) (iblk8 V c 1 t) (iblk8 V c 3 t) (iblk8 V c 4 t) (iblk8 V c 5 t) (iblk8 V c 6 t) (iblk8 V c 2 t) := by dsimp only [dat8]
theorem after8_8 (c : Dev nD) (t : Fin cfg8.N) : (dat8 V q c).after 8 t = out8_8 (iblk8 V c 0 t) (iblk8 V c 1 t) (iblk8 V c 3 t) (iblk8 V c 4 t) (iblk8 V c 5 t) (iblk8 V c 6 t) (iblk8 V c 2 t) := by dsimp only [dat8]

/-- At each input window the hypotheses of `Dat.before_in_eq_fetched` hold by evaluation. -/
theorem before8 (c : Dev nD) : ∀ w : Fin cfg8.W, w.val < 7 → ∀ t d, (dat8 V q c).before w t d = (dat8 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat8 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation8 (c : Dev nD) : BodyObligation (dat8 (F := F) V q c) (defs₀ (F := F)) Variants.none () Set.univ := fun t => by
  show iprop(_ ∗ _ ∗ bigSep Finset.univ fun w => iprop(∃ d, owns (c : Thread nD τ) _ fullShare ((dat8 V q c).before w t d)))
    ⊢ wp _ _ _ (bodyAt8 t) fun _ => iprop(_ ∗ _ ∗ bigSep Finset.univ fun w => owns (c : Thread nD τ) _ fullShare ((dat8 V q c).after w t))
  rw [bigSep_W8, bigSep_W8]
  simp (disch := decide) only [before8]
  rw [show (dat8 V q c).Φ t.succ = (dat8 V q c).Φ t.castSucc from rfl, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg9.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg9.W → PosShare TreeShare)

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rect9_a : Rect S5000x64 := Rect.unit (s := S5000x64) ![0, 0] S5000x64.size inb_S5000x64_S5000x64_0_0
abbrev rect9_b : Rect S64x64 := Rect.unit (s := S64x64) ![0, 0] S64x64.size inb_S64x64_S64x64_0_0
abbrev rect9_c : Rect S1x64 := Rect.unit (s := S1x64) ![0, 0] S1x64.size inb_S1x64_S1x64_0_0

def out9_7 (x agg : Vec F S5000x64 .f32) (wa : Vec F S64x64 .f32) (ba : Vec F S1x64 .f32) (wb : Vec F S64x64 .f32) (bb : Vec F S1x64 .f32) : Vec F S5000x64 .f32 :=
  View.canon [⟨rect9_a, k9_pay2 (View.ld x rect9_a) (View.ld agg rect9_a) (View.ld wa rect9_b) (View.ld ba rect9_c) (View.ld wb rect9_b) (View.ld bb rect9_c)⟩]

def out9_8 (xres : Vec F S5000x64 .f32) : Vec F S5000x64 .f32 :=
  View.canon [⟨rect9_a, k9_pay1 (View.ld xres rect9_a)⟩]

set_option maxHeartbeats 4000000 in
/-- The body only reads the inputs and stores each output whole once, so each output reads back as that store's closed form. -/
theorem sound_kernel9 (c : Dev nD) (E : Set ℕ) (i : grid9.Coords) (m0 : Memref sig .tc .vmem S5000x64 .f32) (hm0 : m0.IsWhole) (m1 : Memref sig .tc .vmem S5000x64 .f32) (hm1 : m1.IsWhole) (m2 : Memref sig .tc .vmem S5000x64 .f32) (hm2 : m2.IsWhole) (m3 : Memref sig .tc .vmem S64x64 .f32) (hm3 : m3.IsWhole) (m4 : Memref sig .tc .vmem S1x64 .f32) (hm4 : m4.IsWhole) (m5 : Memref sig .tc .vmem S64x64 .f32) (hm5 : m5.IsWhole) (m6 : Memref sig .tc .vmem S1x64 .f32) (hm6 : m6.IsWhole) (m7 : Memref sig .tc .vmem S5000x64 .f32) (hm7 : m7.IsWhole) (m8 : Memref sig .tc .vmem S5000x64 .f32) (hm8 : m8.IsWhole)
    (x0 : Vec F S5000x64 .f32) (x1 : Vec F S5000x64 .f32) (x2 : Vec F S5000x64 .f32) (x3 : Vec F S64x64 .f32) (x4 : Vec F S1x64 .f32) (x5 : Vec F S64x64 .f32) (x6 : Vec F S1x64 .f32) (K : PUnit → sProp 𝕄) :
    iprop(owns c m0 fullShare x0 ∗ owns c m1 fullShare x1 ∗ owns c m2 fullShare x2 ∗ owns c m3 fullShare x3 ∗ owns c m4 fullShare x4 ∗ owns c m5 fullShare x5 ∗ owns c m6 fullShare x6
        ∗ (∃ d, owns c m7 fullShare d) ∗ (∃ d, owns c m8 fullShare d)
        ∗ (iprop(owns c m0 fullShare x0 ∗ owns c m1 fullShare x1 ∗ owns c m2 fullShare x2 ∗ owns c m3 fullShare x3 ∗ owns c m4 fullShare x4 ∗ owns c m5 fullShare x5 ∗ owns c m6 fullShare x6
            ∗ owns c m7 fullShare (out9_7 x0 x1 x3 x4 x5 x6) ∗ owns c m8 fullShare (out9_8 x2)) -∗ K ⟨⟩))
      ⊢ wp frame (wpE (defs₀ (F := F)) Variants.none c none) E (cc9_kernel i m0 hm0 m1 hm1 m2 hm2 m3 hm3 m4 hm4 m5 hm5 m6 hm6 m7 hm7 m8 hm8) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S5000x64.size rfl)
  iexists _; isplitr
  swap; · iexact H8
  ipureintro
  exact View.read_writes_eq_canon _ _ _ (View.cover_of_tiled _ S5000x64.size rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 3 t) (iblk9 V c 4 t) (iblk9 V c 5 t) (iblk9 V c 6 t)
    | ⟨8, _⟩ => out9_8 (iblk9 V c 2 t)
  Φ _ := Pipeline.ΦA spec9 c
  q := q
  owed _ := 0

theorem A_eq9 (c : Dev nD) (w : Fin cfg9.W) : (dat9 V q c).A w = V c (Pipeline.arrRef spec9 w) := by
  dsimp only [dat9]

theorem after9_7 (c : Dev nD) (t : Fin cfg9.N) : (dat9 V q c).after 7 t = out9_7 (iblk9 V c 0 t) (iblk9 V c 1 t) (iblk9 V c 3 t) (iblk9 V c 4 t) (iblk9 V c 5 t) (iblk9 V c 6 t) := by dsimp only [dat9]
theorem after9_8 (c : Dev nD) (t : Fin cfg9.N) : (dat9 V q c).after 8 t = out9_8 (iblk9 V c 2 t) := by dsimp only [dat9]

/-- At each input window the hypotheses of `Dat.before_in_eq_fetched` hold by evaluation. -/
theorem before9 (c : Dev nD) : ∀ w : Fin cfg9.W, w.val < 7 → ∀ t d, (dat9 V q c).before w t d = (dat9 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat9 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation9 (c : Dev nD) : BodyObligation (dat9 (F := F) V q c) (defs₀ (F := F)) Variants.none () Set.univ := fun t => by
  show iprop(_ ∗ _ ∗ bigSep Finset.univ fun w => iprop(∃ d, owns (c : Thread nD τ) _ fullShare ((dat9 V q c).before w t d)))
    ⊢ wp _ _ _ (bodyAt9 t) fun _ => iprop(_ ∗ _ ∗ bigSep Finset.univ fun w => owns (c : Thread nD τ) _ fullShare ((dat9 V q c).after w t))
  rw [bigSep_W9, bigSep_W9]
  simp (disch := decide) only [before9]
  rw [show (dat9 V q c).Φ t.succ = (dat9 V q c).Φ t.castSucc from rfl, after9_7, after9_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel9 c Set.univ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg10.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg10.W → PosShare TreeShare)

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rect10_a : Rect S5000x64 := Rect.unit (s := S5000x64) ![0, 0] S5000x64.size inb_S5000x64_S5000x64_0_0
abbrev rect10_b : Rect S64x64 := Rect.unit (s := S64x64) ![0, 0] S64x64.size inb_S64x64_S64x64_0_0
abbrev rect10_c : Rect S1x64 := Rect.unit (s := S1x64) ![0, 0] S1x64.size inb_S1x64_S1x64_0_0

def out10_7 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect10_a, k10_pay2 (View.ld x rect10_a) (View.ld agg rect10_a) (View.ld w1 rect10_b) (View.ld b1 rect10_c) (View.ld w2 rect10_b) (View.ld b2 rect10_c) (View.ld xres rect10_a)⟩]

def out10_8 (x agg : Vec F S5000x64 .f32) (w1 : Vec F S64x64 .f32) (b1 : Vec F S1x64 .f32) (w2 : Vec F S64x64 .f32) (b2 : Vec F S1x64 .f32) (xres : Vec F S5000x64 .f32) : Vec F S5000x64 .f32 :=
  View.canon [⟨rect10_a, k10_pay1 (View.ld x rect10_a) (View.ld agg rect10_a) (View.ld w1 rect10_b) (View.ld b1 rect10_c) (View.ld w2 rect10_b) (View.ld b2 rect10_c) (View.ld xres rect10_a)⟩]

set_option maxHeartbeats 4000000 in
/-- The body only reads the inputs and stores each output whole once, so each output reads back as that store's closed form. -/
theorem sound_kernel10 (c : Dev nD) (E : Set ℕ) (i : grid10.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x64 .f32) (harg9 : arg9.IsWhole)
    (x agg xres : Vec F S5000x64 .f32) (w1 : Vec F S64x64 .f32) (b1 : Vec F S1x64 .f32) (w2 : Vec F S64x64 .f32) (b2 : Vec F S1x64 .f32) (K : PUnit → sProp 𝕄) :
    iprop(owns c arg1 fullShare x ∗ owns c arg2 fullShare agg ∗ owns c arg3 fullShare xres ∗ owns c arg4 fullShare w1 ∗ owns c arg5 fullShare b1 ∗ owns c arg6 fullShare w2 ∗ owns c arg7 fullShare b2
        ∗ (∃ d, owns c arg8 fullShare d) ∗ (∃ d, owns c arg9 fullShare d)
        ∗ (iprop(owns c arg1 fullShare x ∗ owns c arg2 fullShare agg ∗ owns c arg3 fullShare xres ∗ owns c arg4 fullShare w1 ∗ owns c arg5 fullShare b1 ∗ owns c arg6 fullShare w2 ∗ owns c arg7 fullShare b2
            ∗ owns c arg8 fullShare (out10_7 x agg w1 b1 w2 b2 xres) ∗ owns c arg9 fullShare (out10_8 x agg w1 b1 w2 b2 xres)) -∗ K ⟨⟩))
      ⊢ wp frame (wpE (defs₀ (F := F)) Variants.none c none) E (cc10_kernel i arg1 harg1 arg2 harg2 arg3 harg3 arg4 harg4 arg5 harg5 arg6 harg6 arg7 harg7 arg8 harg8 arg9 harg9) K := by
  simp only [cc10_kernel_eq_skeleton]; unfold cc10_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (View.cover_of_tiled _ S5000x64.size rfl)
  iexists _; isplitr
  swap; · iexact H9
  ipureintro
  exact View.read_writes_eq_canon _ _ _ (View.cover_of_tiled _ S5000x64.size rfl)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 3 t) (iblk10 V c 4 t) (iblk10 V c 5 t) (iblk10 V c 6 t) (iblk10 V c 2 t)
    | ⟨8, _⟩ => out10_8 (iblk10 V c 0 t) (iblk10 V c 1 t) (iblk10 V c 3 t) (iblk10 V c 4 t) (iblk10 V c 5 t) (iblk10 V c 6 t) (iblk10 V c 2 t)
  Φ _ := Pipeline.ΦA spec10 c
  q := q
  owed _ := 0

theorem A_eq10 (c : Dev nD) (w : Fin cfg10.W) : (dat10 V q c).A w = V c (Pipeline.arrRef spec10 w) := by
  dsimp only [dat10]

theorem after10_7 (c : Dev nD) (t : Fin cfg10.N) : (dat10 V q c).after 7 t = out10_7 (iblk10 V c 0 t) (iblk10 V c 1 t) (iblk10 V c 3 t) (iblk10 V c 4 t) (iblk10 V c 5 t) (iblk10 V c 6 t) (iblk10 V c 2 t) := by dsimp only [dat10]
theorem after10_8 (c : Dev nD) (t : Fin cfg10.N) : (dat10 V q c).after 8 t = out10_8 (iblk10 V c 0 t) (iblk10 V c 1 t) (iblk10 V c 3 t) (iblk10 V c 4 t) (iblk10 V c 5 t) (iblk10 V c 6 t) (iblk10 V c 2 t) := by dsimp only [dat10]

/-- At each input window the hypotheses of `Dat.before_in_eq_fetched` hold by evaluation. -/
theorem before10 (c : Dev nD) : ∀ w : Fin cfg10.W, w.val < 7 → ∀ t d, (dat10 V q c).before w t d = (dat10 V q c).fetched w t d
  | ⟨0, _⟩, _, t, d | ⟨1, _⟩, _, t, d | ⟨2, _⟩, _, t, d | ⟨3, _⟩, _, t, d | ⟨4, _⟩, _, t, d | ⟨5, _⟩, _, t, d | ⟨6, _⟩, _, t, d =>
    (dat10 V q c).before_in_eq_fetched _ rfl (fun _ => rfl) (fun _ _ _ => rfl) (fun _ => rfl) t d
  | ⟨n + 7, _⟩, h, _, _ => absurd h (Nat.not_lt.mpr (Nat.le_add_left 7 n))

/-- The windows' buffers are the kernel triple's memrefs; the invariant and the debts are framed. -/
theorem body_obligation10 (c : Dev nD) : BodyObligation (dat10 (F := F) V q c) (defs₀ (F := F)) Variants.none () Set.univ := fun t => by
  show iprop(_ ∗ _ ∗ bigSep Finset.univ fun w => iprop(∃ d, owns (c : Thread nD τ) _ fullShare ((dat10 V q c).before w t d)))
    ⊢ wp _ _ _ (bodyAt10 t) fun _ => iprop(_ ∗ _ ∗ bigSep Finset.univ fun w => owns (c : Thread nD τ) _ fullShare ((dat10 V q c).after w t))
  rw [bigSep_W10, bigSep_W10]
  simp (disch := decide) only [before10]
  rw [show (dat10 V q c).Φ t.succ = (dat10 V q c).Φ t.castSucc from rfl, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KernelIdeal.Reg11.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q : Fin cfg11.W → PosShare TreeShare)

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev rect11_a : Rect S128x320 := Rect.unit (s := S128x320) ![0, 0] S128x320.size inb_S128x320_S128x320_0_0
abbrev rect11_b : Rect S320x64 := Rect.unit (s := S320x64) ![0, 0] S320x64.size inb_S320x64_S320x64_0_0
abbrev rect11_c : Rect S1x64 := Rect.unit (s := S1x64) ![0, 0] S1x64.size inb_S1x64_S1x64_0_0
abbrev rect11_d : Rect S64x32 := Rect.unit (s := S64x32) ![0, 0] S64x32.size inb_S64x32_S64x32_0_0
abbrev rect11_e : Rect S1x32 := Rect.unit (s := S1x32) ![0, 0] S1x32.size inb_S1x32_S1x32_0_0
abbrev rect11_f : Rect S128x32 := Rect.unit (s := S128x32) ![0, 0] S128x32.size inb_S128x32_S128x32_0_0

def out11_5 (g : Vec F S128x320 .f32) (w1 : Vec F S320x64 .f32) (b1 : Vec F S1x64 .f32) (w2 : Vec F S64x32 .f32) (b2 : Vec F S1x32 .f32) : Vec F S128x32 .f32 :=
  View.canon [⟨rect11_f, k11_pay1 (View.ld g rect11_a) (View.ld w1 rect11_b) (View.ld b1 rect11_c) (View.ld w2 rect11_d) (View.ld b2 rect11_e)⟩]

set_option maxHeartbeats 1000000 in
/-- The body only reads the inputs and stores the output whole once, so the output reads back as that store's closed form. -/
theorem sound_kernel11 (c : Dev nD) (E : Set ℕ) (i : grid11.Coords)
    (mg : Memref sig .tc .vmem S128x320 .f32) (hmg : mg.IsWhole) (mw1 : Memref sig .tc .vmem S320x64 .f32) (hmw1 : mw1.IsWhole)
    (mb1 : Memref sig .tc .vmem S1x64 .f32) (hmb1 : mb1.IsWhole) (mw2 : Memref sig .tc .vmem S64x32 .f32) (hmw2 : mw2.IsWhole)
    (mb2 : Memref sig .tc .vmem S1x32 .f32) (hmb2 : mb2.IsWhole) (mo : Memref sig .tc .vmem S128x32 .f32) (hmo : mo.IsWhole)
    (xg : Vec F S128x320 .f32) (xw1 : Vec F S320x64 .f32) (xb1 : Vec F S1x64 .f32) (xw2 : Vec F S64x32 .f32) (xb2 : Vec F S1x32 .f32)
    (K : PUnit → sProp 𝕄) :
    iprop(owns c mg fullShare xg ∗ owns c mw1 fullShare xw1 ∗ owns c mb1 fullShare xb1
        ∗ owns c mw2 fullShare xw2 ∗ owns c mb2 fullShare xb2 ∗ (∃ d, owns c mo fullShare d)
        ∗ (iprop(owns c mg fullShare xg ∗ owns c mw1 fullShare xw1 ∗ owns c mb1 fullShare xb1
            ∗ owns c mw2 fullShare xw2 ∗ owns c mb2 fullShare xb2
            ∗ owns c mo fullShare (out11_5 xg xw1 xb1 xw2 xb2)) -∗ K ⟨⟩))
      ⊢ wp frame (wpE (defs₀ (F := F)) Variants.none c none) E (cc11__post_kernel i mg hmg mw1 hmw1 mb1 hmb1 mw2 hmw2 mb2 hmb2 mo hmo) K := by
  simp only [cc11__post_kernel_eq_skeleton]; unfold cc11__post_kernel_skel
  unfold owns
  iintro ⟨⟨%fg, %hfg, Hg⟩, ⟨%fw1, %hfw1, Hw1⟩, ⟨%fb1, %hfb1, Hb1⟩, ⟨%fw2, %hfw2, Hw2⟩, ⟨%fb2, %hfb2, Hb2⟩, ⟨%dO, %fO, -, Ho⟩, Hk⟩
  subst hfg; subst hfw1; subst hfb1; subst hfw2; subst hfb2
  sl_exec
  sl_step
  iapply Hk
  isplitl [Hg]
  · iexists fg; isplitr; · ipureintro; rfl
    iexact Hg
  isplitl [Hw1]
  · iexists fw1; isplitr; · ipureintro; rfl
    iexact Hw1
  isplitl [Hb1]
  · iexists fb1; isplitr; · ipureintro; rfl
    iexact Hb1
  isplitl [Hw2]
  · iexists fw2; isplitr; · ipureintro; rfl
    iexact Hw2
  isplitl [Hb2]
  · iexists fb2; isplitr; · ipureintro; rfl
    iexact Hb2
  iexists _; isplitr
  swap; · iexact Ho
  ipureintro
  exact View.read_writes_eq_canon _ _ _ (View.cover_of_tiled _ S128x32.size rfl)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q := q
  owed _ := 0

theorem A_eq11 (c : Dev nD) (w : Fin cfg11.W) : (dat11 V q c).A w = V c (Pipeline.arrRef spec11 w) := by
  dsimp only [dat11]

theorem after11_5 (c : Dev nD) (t : Fin cfg11.N) : (dat11 V q c).after 5 t = out11_5 (iblk11 V c 0 t) (iblk11 V c 1 t) (iblk11 V c 2 t) (iblk11 V c 3 t) (iblk11 V c 4 t) := by dsimp only [dat11]

/-- At each input window the hypotheses of `Dat.before_in_eq_fetched` hold by evaluation. -/
theorem before11 (c : Dev nD) : ∀ w : Fin cfg11.W, w.val < 5 → ∀ t d, (dat11 V q c).before w t d = (dat11 V q c).fetched w t d
  | ⟨0, _⟩, _, t, d | ⟨1, _⟩, _, t, d | ⟨2, _⟩, _, t, d | ⟨3, _⟩, _, t, d | ⟨4, _⟩, _, t, d =>
    (dat11 V q c).before_in_eq_fetched _ rfl (fun _ => rfl) (fun _ _ _ => rfl) (fun _ => rfl) t d
  | ⟨n + 5, _⟩, h, _, _ => absurd h (Nat.not_lt.mpr (Nat.le_add_left 5 n))

/-- The windows' buffers are the kernel triple's memrefs; the invariant and the debts are framed. -/
theorem body_obligation11 (c : Dev nD) : BodyObligation (dat11 (F := F) V q c) (defs₀ (F := F)) Variants.none () Set.univ := fun t => by
  show iprop(_ ∗ _ ∗ bigSep Finset.univ fun w => iprop(∃ d, owns (c : Thread nD τ) _ fullShare ((dat11 V q c).before w t d)))
    ⊢ wp _ _ _ (bodyAt11 t) fun _ => iprop(_ ∗ _ ∗ bigSep Finset.univ fun w => owns (c : Thread nD τ) _ fullShare ((dat11 V q c).after w t))
  rw [bigSep_W11, bigSep_W11]
  simp (disch := decide) only [before11]
  rw [show (dat11 V q c).Φ t.succ = (dat11 V q c).Φ t.castSucc from rfl, after11_5]
  iintro ⟨HΦ, Hown, ⟨%dg, Hg⟩, ⟨%dw1, Hw1⟩, ⟨%db1, Hb1⟩, ⟨%dw2, Hw2⟩, ⟨%db2, Hb2⟩, ⟨%dO, Ho⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [Hg]; · iexact Hg
  isplitl [Hw1]; · iexact Hw1
  isplitl [Hb1]; · iexact Hb1
  isplitl [Hw2]; · iexact Hw2
  isplitl [Hb2]; · iexact Hb2
  isplitl [Ho]; · iexists _; iexact Ho
  iintro ⟨Hg, Hw1, Hb1, Hw2, Hb2, Ho⟩
  isplitl [HΦ]; · iexact HΦ
  isplitl [Hown]; · iexact Hown
  isplitl [Hg]; · iexact Hg
  isplitl [Hw1]; · iexact Hw1
  isplitl [Hb1]; · iexact Hb1
  isplitl [Hw2]; · iexact Hw2
  isplitl [Hb2]; · iexact Hb2
  iexact Ho

end Cert.KernelIdeal.Hand

end
-- ==== Proof.KernelIdeal.Shared1.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q1 : Fin cfg1.W → PosShare TreeShare
  | ⟨0, _⟩ => (fullShare : PosShare TreeShare).left
  | ⟨1, _⟩ => fullShare
  | ⟨2, _⟩ => (fullShare : PosShare TreeShare).right
  | ⟨3, _⟩ => fullShare
  | ⟨4, _⟩ => fullShare
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

theorem q1_rest : ∀ w : Fin cfg1.W, w ≠ 0 → w ≠ 2 → q1 w = fullShare
  | ⟨0, _⟩, h, _ => absurd rfl h
  | ⟨1, _⟩, _, _ => rfl
  | ⟨2, _⟩, _, h => absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨_ + 9, h⟩, _, _ => absurd h (Nat.not_lt.2 (Nat.le_add_left _ _))

theorem shared_entry1_image :
    (Finset.univ : Finset (Fin cfg1.W)).image (Pipeline.arrRef spec1)
      = ((Finset.univ : Finset (Fin cfg1.W)).erase 2).image (Pipeline.arrRef spec1) := by decide

theorem shared_entry1_distinct : ∀ w ∈ (Finset.univ : Finset (Fin cfg1.W)).erase 2, ∀ w' ∈ (Finset.univ : Finset (Fin cfg1.W)).erase 2,
    Pipeline.arrRef spec1 w = Pipeline.arrRef spec1 w' → w = w' := by decide

theorem shared_entry1_arrays (c : Dev nD) (dat : Dat τ (Elt F) Unit ℕ (UR sig nD τ) ℕ cfg1 c) (hq : dat.q = q1)
    (V : (b : Ref sig .tc) → Buf (Elt F) ((c : Thread nD τ).loc b))
    (Fw : (w : Fin cfg1.W) → Buf (Elt F) (((cfg1.win w).arr.view.loc (c : Thread nD τ))))
    (hF : ∀ w, Fw w = V (Pipeline.arrRef spec1 w)) :
    (Pipeline.arrBufs (Ix := Unit) (Name := ℕ) (U := UR sig nD τ) (Lvl := ℕ) spec1 c V : sProp 𝕄) ⊣⊢ dat.arrays Fw := by
  classical

  have hrest : ∀ w ∈ ((Finset.univ : Finset (Fin cfg1.W)).erase 2).erase 0,
      (((c : Thread nD τ).loc (Pipeline.arrRef spec1 w)) ↦{fullShare} V (Pipeline.arrRef spec1 w) : sProp 𝕄)
        = ((cfg1.win w).arr.view.loc (c : Thread nD τ) ↦[(cfg1.win w).arr.view.set]{dat.share w} Fw w) := by
    intro w hw
    have hw0 : w ≠ 0 := (Finset.mem_erase.mp hw).1
    have hw2 : w ≠ 2 := (Finset.mem_erase.mp (Finset.mem_erase.mp hw).2).1
    have hs : (cfg1.win w).arr.view.set = Finset.univ := (arr_whole1 w).set_eq_univ
    have hsh : dat.share w = fullShare := by unfold Dat.share; rw [hq, q1_rest w hw0 hw2]; exact ite_self _
    rw [hs, hsh, hF w]

  have h0 : ((cfg1.win 0).arr.view.loc (c : Thread nD τ) ↦[(cfg1.win 0).arr.view.set]{dat.share 0} Fw 0 : sProp 𝕄)
      = (((c : Thread nD τ).loc (Pipeline.arrRef spec1 0)) ↦{(fullShare : PosShare TreeShare).left} V (Pipeline.arrRef spec1 0)) := by
    have hs : (cfg1.win 0).arr.view.set = Finset.univ := (arr_whole1 0).set_eq_univ
    have hsh : dat.share 0 = (fullShare : PosShare TreeShare).left := by unfold Dat.share; rw [hq]; rfl
    rw [hs, hsh, hF 0]

  have h2 : ((cfg1.win 2).arr.view.loc (c : Thread nD τ) ↦[(cfg1.win 2).arr.view.set]{dat.share 2} Fw 2 : sProp 𝕄)
      = (((c : Thread nD τ).loc (Pipeline.arrRef spec1 0)) ↦{(fullShare : PosShare TreeShare).right} V (Pipeline.arrRef spec1 0)) := by
    have hs : (cfg1.win 2).arr.view.set = Finset.univ := (arr_whole1 2).set_eq_univ
    have hsh : dat.share 2 = (fullShare : PosShare TreeShare).right := by unfold Dat.share; rw [hq]; rfl
    rw [hs, hsh, hF 2]

  have hhalves : (((c : Thread nD τ).loc (Pipeline.arrRef spec1 0)) ↦{fullShare} V (Pipeline.arrRef spec1 0) : sProp 𝕄)
      ⊣⊢ iprop((((c : Thread nD τ).loc (Pipeline.arrRef spec1 0)) ↦{(fullShare : PosShare TreeShare).left} V (Pipeline.arrRef spec1 0))
        ∗ (((c : Thread nD τ).loc (Pipeline.arrRef spec1 0)) ↦{(fullShare : PosShare TreeShare).right} V (Pipeline.arrRef spec1 0))) :=
    pointsTo_share (PosShare.mem_left_op_right fullShare)
  unfold Pipeline.arrBufs Dat.arrays
  rw [shared_entry1_image,
    bigSep_image_of_injOn (fun a ha b hb => shared_entry1_distinct a (Finset.mem_coe.mp ha) b (Finset.mem_coe.mp hb)),
    bigSep_univ_split (2 : Fin cfg1.W),
    bigSep_erase (i := (0 : Fin cfg1.W)) (s := (Finset.univ : Finset (Fin cfg1.W)).erase 2) (by decide),
    bigSep_erase (i := (0 : Fin cfg1.W)) (s := (Finset.univ : Finset (Fin cfg1.W)).erase 2) (by decide),
    bigSep_congr hrest, h0, h2]
  constructor
  · refine (show iprop(_ ∗ _) ⊢ iprop(_ ∗ _ ∗ _) from ?_)
    iintro ⟨H0, HR⟩
    ihave H := hhalves.1 $$ H0
    icases H with ⟨Hl, Hr⟩
    isplitl [Hr]; · iexact Hr
    isplitl [Hl]; · iexact Hl
    iexact HR
  · refine (show iprop(_ ∗ _ ∗ _) ⊢ iprop(_ ∗ _) from ?_)
    iintro ⟨Hr, Hl, HR⟩
    isplitr [HR]
    · iapply hhalves.2
      isplitl [Hl]; · iexact Hl
      iexact Hr
    · iexact HR

theorem shared_entry1_unscoped [DecidableEq (Ref sig .tc)] :
    (Finset.univ : Finset (Fin cfg1.W)).image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

theorem shared_entry1_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V
      ∗ Pipeline.unscopedRest (Ix := Unit) (Name := ℕ) (U := UR sig nD τ) (Lvl := ℕ) spec1 c V) := by
  classical
  unfold unscopedBufs Pipeline.unscopedRest Pipeline.arrBufs
  rw [bigSep_sdiff_split shared_entry1_unscoped]
  rfl

theorem shared_entry1 (c : Dev nD) (dat : Dat τ (Elt F) Unit ℕ (UR sig nD τ) ℕ cfg1 c) (hq : dat.q = q1)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest (Ix := Unit) (Name := ℕ) (U := UR sig nD τ) (Lvl := ℕ) spec1 c V) := by
  rw [shared_entry1_split c V]
  exact sep_mono (shared_entry1_arrays c dat hq V dat.A hA).1 .rfl

theorem shared_exit1 (c : Dev nD) (dat : Dat τ (Elt F) Unit ℕ (UR sig nD τ) ℕ cfg1 c) (hq : dat.q = q1)
    (V V' : (b : Ref sig .tc) → Buf (Elt F) ((c : Thread nD τ).loc b))
    (Fw : (w : Fin cfg1.W) → Buf (Elt F) (((cfg1.win w).arr.view.loc (c : Thread nD τ))))
    (hF : ∀ w, Fw w = V' (Pipeline.arrRef spec1 w))
    (hrest : ∀ b, b ∉ Finset.univ.image (Pipeline.arrRef spec1) → V' b = V b) :
    iprop(dat.arrays Fw ∗ Pipeline.unscopedRest (Ix := Unit) (Name := ℕ) (U := UR sig nD τ) (Lvl := ℕ) spec1 c V) ⊢ (unscopedBufs c V' : sProp 𝕄) := by
  rw [shared_entry1_split c V']
  refine sep_mono (shared_entry1_arrays c dat hq V' Fw hF).2 (Entails.of_eq ?_)
  unfold Pipeline.unscopedRest
  exact bigSep_congr fun b hb => by rw [hrest b (Finset.mem_sdiff.mp hb).2]

end Cert.KernelIdeal.Hand

end
-- ==== Proof.KernelIdeal.Shared7.lean ====
import proofs.«101247_j38388417692531_1_alg».proof.Proof.Gen.KernelIdeal.Launch
import proofs.«101247_j38388417692531_1_alg».proof.Proof.Gen.KernelIdeal.Skeleton
import proofs.«101247_j38388417692531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q7 : Fin cfg7.W → PosShare TreeShare
  | ⟨0, _⟩ => (fullShare : PosShare TreeShare).left
  | ⟨1, _⟩ => fullShare
  | ⟨2, _⟩ => (fullShare : PosShare TreeShare).right
  | ⟨3, _⟩ => fullShare
  | ⟨4, _⟩ => fullShare
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

theorem q7_rest : ∀ w : Fin cfg7.W, w ≠ 0 → w ≠ 2 → q7 w = fullShare
  | ⟨0, _⟩, h, _ => absurd rfl h
  | ⟨1, _⟩, _, _ => rfl
  | ⟨2, _⟩, _, h => absurd rfl h
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨_ + 9, h⟩, _, _ => absurd h (Nat.not_lt.2 (Nat.le_add_left _ _))

theorem shared_entry7_image :
    (Finset.univ : Finset (Fin cfg7.W)).image (Pipeline.arrRef spec7)
      = ((Finset.univ : Finset (Fin cfg7.W)).erase 2).image (Pipeline.arrRef spec7) := by decide

theorem shared_entry7_distinct : ∀ w ∈ (Finset.univ : Finset (Fin cfg7.W)).erase 2, ∀ w' ∈ (Finset.univ : Finset (Fin cfg7.W)).erase 2,
    Pipeline.arrRef spec7 w = Pipeline.arrRef spec7 w' → w = w' := by decide

theorem shared_entry7_arrays (c : Dev nD) (dat : Dat τ (Elt F) Unit ℕ (UR sig nD τ) ℕ cfg7 c) (hq : dat.q = q7)
    (V : (b : Ref sig .tc) → Buf (Elt F) ((c : Thread nD τ).loc b))
    (Fw : (w : Fin cfg7.W) → Buf (Elt F) (((cfg7.win w).arr.view.loc (c : Thread nD τ))))
    (hF : ∀ w, Fw w = V (Pipeline.arrRef spec7 w)) :
    (Pipeline.arrBufs (Ix := Unit) (Name := ℕ) (U := UR sig nD τ) (Lvl := ℕ) spec7 c V : sProp 𝕄) ⊣⊢ dat.arrays Fw := by
  classical

  have hrest : ∀ w ∈ ((Finset.univ : Finset (Fin cfg7.W)).erase 2).erase 0,
      (((c : Thread nD τ).loc (Pipeline.arrRef spec7 w)) ↦{fullShare} V (Pipeline.arrRef spec7 w) : sProp 𝕄)
        = ((cfg7.win w).arr.view.loc (c : Thread nD τ) ↦[(cfg7.win w).arr.view.set]{dat.share w} Fw w) := by
    intro w hw
    have hw0 : w ≠ 0 := (Finset.mem_erase.mp hw).1
    have hw2 : w ≠ 2 := (Finset.mem_erase.mp (Finset.mem_erase.mp hw).2).1
    have hs : (cfg7.win w).arr.view.set = Finset.univ := (arr_whole7 w).set_eq_univ
    have hsh : dat.share w = fullShare := by unfold Dat.share; rw [hq, q7_rest w hw0 hw2]; exact ite_self _
    rw [hs, hsh, hF w]

  have h0 : ((cfg7.win 0).arr.view.loc (c : Thread nD τ) ↦[(cfg7.win 0).arr.view.set]{dat.share 0} Fw 0 : sProp 𝕄)
      = (((c : Thread nD τ).loc (Pipeline.arrRef spec7 0)) ↦{(fullShare : PosShare TreeShare).left} V (Pipeline.arrRef spec7 0)) := by
    have hs : (cfg7.win 0).arr.view.set = Finset.univ := (arr_whole7 0).set_eq_univ
    have hsh : dat.share 0 = (fullShare : PosShare TreeShare).left := by unfold Dat.share; rw [hq]; rfl
    rw [hs, hsh, hF 0]

  have h2 : ((cfg7.win 2).arr.view.loc (c : Thread nD τ) ↦[(cfg7.win 2).arr.view.set]{dat.share 2} Fw 2 : sProp 𝕄)
      = (((c : Thread nD τ).loc (Pipeline.arrRef spec7 0)) ↦{(fullShare : PosShare TreeShare).right} V (Pipeline.arrRef spec7 0)) := by
    have hs : (cfg7.win 2).arr.view.set = Finset.univ := (arr_whole7 2).set_eq_univ
    have hsh : dat.share 2 = (fullShare : PosShare TreeShare).right := by unfold Dat.share; rw [hq]; rfl
    rw [hs, hsh, hF 2]

  have hhalves : (((c : Thread nD τ).loc (Pipeline.arrRef spec7 0)) ↦{fullShare} V (Pipeline.arrRef spec7 0) : sProp 𝕄)
      ⊣⊢ iprop((((c : Thread nD τ).loc (Pipeline.arrRef spec7 0)) ↦{(fullShare : PosShare TreeShare).left} V (Pipeline.arrRef spec7 0))
        ∗ (((c : Thread nD τ).loc (Pipeline.arrRef spec7 0)) ↦{(fullShare : PosShare TreeShare).right} V (Pipeline.arrRef spec7 0))) :=
    pointsTo_share (PosShare.mem_left_op_right fullShare)
  unfold Pipeline.arrBufs Dat.arrays
  rw [shared_entry7_image,
    bigSep_image_of_injOn (fun a ha b hb => shared_entry7_distinct a (Finset.mem_coe.mp ha) b (Finset.mem_coe.mp hb)),
    bigSep_univ_split (2 : Fin cfg7.W),
    bigSep_erase (i := (0 : Fin cfg7.W)) (s := (Finset.univ : Finset (Fin cfg7.W)).erase 2) (by decide),
    bigSep_erase (i := (0 : Fin cfg7.W)) (s := (Finset.univ : Finset (Fin cfg7.W)).erase 2) (by decide),
    bigSep_congr hrest, h0, h2]
  constructor
  · refine (show iprop(_ ∗ _) ⊢ iprop(_ ∗ _ ∗ _) from ?_)
    iintro ⟨H0, HR⟩
    ihave H := hhalves.1 $$ H0
    icases H with ⟨Hl, Hr⟩
    isplitl [Hr]; · iexact Hr
    isplitl [Hl]; · iexact Hl
    iexact HR
  · refine (show iprop(_ ∗ _ ∗ _) ⊢ iprop(_ ∗ _) from ?_)
    iintro ⟨Hr, Hl, HR⟩
    isplitr [HR]
    · iapply hhalves.2
      isplitl [Hl]; · iexact Hl
      iexact Hr
    · iexact HR

theorem shared_entry7_unscoped [DecidableEq (Ref sig .tc)] :
    (Finset.univ : Finset (Fin cfg7.W)).image (Pipeline.arrRef spec7) ⊆ Finset.univ.filter fun b : Ref sig .tc => ¬ b.isScoped := fun b hb => by
  obtain ⟨w, -, rfl⟩ := Finset.mem_image.mp hb
  exact Finset.mem_filter.mpr ⟨Finset.mem_univ _, by simp [winFacts₀7.arr_unscoped w]⟩

theorem shared_entry7_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec7 c V
      ∗ Pipeline.unscopedRest (Ix := Unit) (Name := ℕ) (U := UR sig nD τ) (Lvl := ℕ) spec7 c V) := by
  classical
  unfold unscopedBufs Pipeline.unscopedRest Pipeline.arrBufs
  rw [bigSep_sdiff_split shared_entry7_unscoped]
  rfl

theorem shared_entry7 (c : Dev nD) (dat : Dat τ (Elt F) Unit ℕ (UR sig nD τ) ℕ cfg7 c) (hq : dat.q = q7)
    (V : (b : Ref sig .tc) → Buf (Elt F) ((c : Thread nD τ).loc b)) (hA : ∀ w, dat.A w = V (Pipeline.arrRef spec7 w)) :
    (unscopedBufs c V : sProp 𝕄) ⊢ iprop(dat.arrays dat.A ∗ Pipeline.unscopedRest (Ix := Unit) (Name := ℕ) (U := UR sig nD τ) (Lvl := ℕ) spec7 c V) := by
  rw [shared_entry7_split c V]
  exact sep_mono (shared_entry7_arrays c dat hq V dat.A hA).1 .rfl

theorem shared_exit7 (c : Dev nD) (dat : Dat τ (Elt F) Unit ℕ (UR sig nD τ) ℕ cfg7 c) (hq : dat.q = q7)
    (V V' : (b : Ref sig .tc) → Buf (Elt F) ((c : Thread nD τ).loc b))
    (Fw : (w : Fin cfg7.W) → Buf (Elt F) (((cfg7.win w).arr.view.loc (c : Thread nD τ))))
    (hF : ∀ w, Fw w = V' (Pipeline.arrRef spec7 w))
    (hrest : ∀ b, b ∉ Finset.univ.image (Pipeline.arrRef spec7) → V' b = V b) :
    iprop(dat.arrays Fw ∗ Pipeline.unscopedRest (Ix := Unit) (Name := ℕ) (U := UR sig nD τ) (Lvl := ℕ) spec7 c V) ⊢ (unscopedBufs c V' : sProp 𝕄) := by
  rw [shared_entry7_split c V']
  refine sep_mono (shared_entry7_arrays c dat hq V' Fw hF).2 (Entails.of_eq ?_)
  unfold Pipeline.unscopedRest
  exact bigSep_congr fun b hb => by rw [hrest b (Finset.mem_sdiff.mp hb).2]

end Cert.KernelIdeal.Hand

end
-- ==== Proof.KernelIdeal.Data.lean ====
import proofs.«101247_j38388417692531_1_alg».proof.Proof.Gen.KernelIdeal.Regions
import proofs.«101247_j38388417692531_1_alg».proof.Proof.KernelIdeal.Reg0
import proofs.«101247_j38388417692531_1_alg».proof.Proof.KernelIdeal.Reg1
import proofs.«101247_j38388417692531_1_alg».proof.Proof.KernelIdeal.Reg2
import proofs.«101247_j38388417692531_1_alg».proof.Proof.KernelIdeal.Reg3
import proofs.«101247_j38388417692531_1_alg».proof.Proof.KernelIdeal.Reg4
import proofs.«101247_j38388417692531_1_alg».proof.Proof.KernelIdeal.Reg5
import proofs.«101247_j38388417692531_1_alg».proof.Proof.KernelIdeal.Reg6
import proofs.«101247_j38388417692531_1_alg».proof.Proof.KernelIdeal.Reg7
import proofs.«101247_j38388417692531_1_alg».proof.Proof.KernelIdeal.Reg8
import proofs.«101247_j38388417692531_1_alg».proof.Proof.KernelIdeal.Reg9
import proofs.«101247_j38388417692531_1_alg».proof.Proof.KernelIdeal.Reg10
import proofs.«101247_j38388417692531_1_alg».proof.Proof.KernelIdeal.Reg11
import proofs.«101247_j38388417692531_1_alg».proof.Proof.KernelIdeal.Shared1
import proofs.«101247_j38388417692531_1_alg».proof.Proof.KernelIdeal.Shared7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The proof data of the twelve kernel regions, each taken at the buffer contents its region is entered from.
    Between two items of the program every unscoped buffer of a core is held whole at the contents the generated
    conditional frame names (the launch contents, then each host stretch applied, then what a region may change at
    unknowns). Here those unknowns are tied to what the regions really leave: each output array after the last grid
    point's write-back. -/

variable (m : (ℓ : Loc nD τ sig) → Buf (Elt F) ℓ) (outs : Outs (F := F))

/-- Every input array is held at the full share, except where one array enters a region through two windows. -/
abbrev qfull {W : Nat} : Fin W → PosShare TreeShare := fun _ => fullShare

/-- Core `c`'s buffers as region 0 finds them, read at the TensorCore's references. -/
abbrev En1 : (c : Dev nD) → (b : Ref sig .tc) → Buf (Elt F) ((c : Thread nD τ).loc b) := fun c b => V1 m c b
/-- Core `c`'s buffers as region 1 finds them, read at the TensorCore's references. -/
abbrev En3 : (c : Dev nD) → (b : Ref sig .tc) → Buf (Elt F) ((c : Thread nD τ).loc b) := fun c b => V3 m outs c b
/-- Core `c`'s buffers as region 2 finds them, read at the TensorCore's references. -/
abbrev En5 : (c : Dev nD) → (b : Ref sig .tc) → Buf (Elt F) ((c : Thread nD τ).loc b) := fun c b => V5 m outs c b
/-- Core `c`'s buffers as region 3 finds them, read at the TensorCore's references. -/
abbrev En7 : (c : Dev nD) → (b : Ref sig .tc) → Buf (Elt F) ((c : Thread nD τ).loc b) := fun c b => V7 m outs c b
/-- Core `c`'s buffers as region 4 finds them, read at the TensorCore's references. -/
abbrev En9 : (c : Dev nD) → (b : Ref sig .tc) → Buf (Elt F) ((c : Thread nD τ).loc b) := fun c b => V9 m outs c b
/-- Core `c`'s buffers as region 5 finds them, read at the TensorCore's references. -/
abbrev En11 : (c : Dev nD) → (b : Ref sig .tc) → Buf (Elt F) ((c : Thread nD τ).loc b) := fun c b => V11 m outs c b
/-- Core `c`'s buffers as region 6 finds them, read at the TensorCore's references. -/
abbrev En13 : (c : Dev nD) → (b : Ref sig .tc) → Buf (Elt F) ((c : Thread nD τ).loc b) := fun c b => V13 m outs c b
/-- Core `c`'s buffers as region 7 finds them, read at the TensorCore's references. -/
abbrev En15 : (c : Dev nD) → (b : Ref sig .tc) → Buf (Elt F) ((c : Thread nD τ).loc b) := fun c b => V15 m outs c b
/-- Core `c`'s buffers as region 8 finds them, read at the TensorCore's references. -/
abbrev En17 : (c : Dev nD) → (b : Ref sig .tc) → Buf (Elt F) ((c : Thread nD τ).loc b) := fun c b => V17 m outs c b
/-- Core `c`'s buffers as region 9 finds them, read at the TensorCore's references. -/
abbrev En19 : (c : Dev nD) → (b : Ref sig .tc) → Buf (Elt F) ((c : Thread nD τ).loc b) := fun c b => V19 m outs c b
/-- Core `c`'s buffers as region 10 finds them, read at the TensorCore's references. -/
abbrev En21 : (c : Dev nD) → (b : Ref sig .tc) → Buf (Elt F) ((c : Thread nD τ).loc b) := fun c b => V21 m outs c b
/-- Core `c`'s buffers as region 11 finds them, read at the TensorCore's references. -/
abbrev En23 : (c : Dev nD) → (b : Ref sig .tc) → Buf (Elt F) ((c : Thread nD τ).loc b) := fun c b => V23 m outs c b

/-- The unknown contents after each region ARE what the region's pipeline leaves in its output arrays: the array's
    entry contents overwritten by every grid point's write-back. -/
structure OutsOk : Prop where
  o_main_v5 : ∀ c : Dev nD, outs 2 main_v5 c = (dat0 (En1 m) qfull c).arrAt 3 cfg0.N
  o_main_v26_0 : ∀ c : Dev nD, outs 4 main_v26_0 c = (dat1 (En3 m outs) q1 c).arrAt 7 cfg1.N
  o_main_v26_1 : ∀ c : Dev nD, outs 4 main_v26_1 c = (dat1 (En3 m outs) q1 c).arrAt 8 cfg1.N
  o_main_v47_0 : ∀ c : Dev nD, outs 6 main_v47_0 c = (dat2 (En5 m outs) qfull c).arrAt 7 cfg2.N
  o_main_v47_1 : ∀ c : Dev nD, outs 6 main_v47_1 c = (dat2 (En5 m outs) qfull c).arrAt 8 cfg2.N
  o_main_v68_0 : ∀ c : Dev nD, outs 8 main_v68_0 c = (dat3 (En7 m outs) qfull c).arrAt 7 cfg3.N
  o_main_v68_1 : ∀ c : Dev nD, outs 8 main_v68_1 c = (dat3 (En7 m outs) qfull c).arrAt 8 cfg3.N
  o_main_v89_0 : ∀ c : Dev nD, outs 10 main_v89_0 c = (dat4 (En9 m outs) qfull c).arrAt 7 cfg4.N
  o_main_v89_1 : ∀ c : Dev nD, outs 10 main_v89_1 c = (dat4 (En9 m outs) qfull c).arrAt 8 cfg4.N
  o_main_v96 : ∀ c : Dev nD, outs 12 main_v96 c = (dat5 (En11 m outs) qfull c).arrAt 5 cfg5.N
  o_main_v102 : ∀ c : Dev nD, outs 14 main_v102 c = (dat6 (En13 m outs) qfull c).arrAt 3 cfg6.N
  o_main_v123_0 : ∀ c : Dev nD, outs 16 main_v123_0 c = (dat7 (En15 m outs) q7 c).arrAt 7 cfg7.N
  o_main_v123_1 : ∀ c : Dev nD, outs 16 main_v123_1 c = (dat7 (En15 m outs) q7 c).arrAt 8 cfg7.N
  o_main_v144_0 : ∀ c : Dev nD, outs 18 main_v144_0 c = (dat8 (En17 m outs) qfull c).arrAt 7 cfg8.N
  o_main_v144_1 : ∀ c : Dev nD, outs 18 main_v144_1 c = (dat8 (En17 m outs) qfull c).arrAt 8 cfg8.N
  o_main_v165_0 : ∀ c : Dev nD, outs 20 main_v165_0 c = (dat9 (En19 m outs) qfull c).arrAt 7 cfg9.N
  o_main_v165_1 : ∀ c : Dev nD, outs 20 main_v165_1 c = (dat9 (En19 m outs) qfull c).arrAt 8 cfg9.N
  o_main_v186_0 : ∀ c : Dev nD, outs 22 main_v186_0 c = (dat10 (En21 m outs) qfull c).arrAt 7 cfg10.N
  o_main_v186_1 : ∀ c : Dev nD, outs 22 main_v186_1 c = (dat10 (En21 m outs) qfull c).arrAt 8 cfg10.N
  o_main_v193 : ∀ c : Dev nD, outs 24 main_v193 c = (dat11 (En23 m outs) qfull c).arrAt 5 cfg11.N

/-- Every pipeline's proof data, each at its region's entry contents: a literal match, so that the data at a
    numeral reduces to the region's own. -/
def pdats : (p : Fin 12) → (c : Dev nD) → Dat τ (Elt F) Unit ℕ (UR sig nD τ) ℕ (cfgs p) c
  | ⟨0, _⟩ => fun c => dat0 (En1 m) qfull c
  | ⟨1, _⟩ => fun c => dat1 (En3 m outs) q1 c
  | ⟨2, _⟩ => fun c => dat2 (En5 m outs) qfull c
  | ⟨3, _⟩ => fun c => dat3 (En7 m outs) qfull c
  | ⟨4, _⟩ => fun c => dat4 (En9 m outs) qfull c
  | ⟨5, _⟩ => fun c => dat5 (En11 m outs) qfull c
  | ⟨6, _⟩ => fun c => dat6 (En13 m outs) qfull c
  | ⟨7, _⟩ => fun c => dat7 (En15 m outs) q7 c
  | ⟨8, _⟩ => fun c => dat8 (En17 m outs) qfull c
  | ⟨9, _⟩ => fun c => dat9 (En19 m outs) qfull c
  | ⟨10, _⟩ => fun c => dat10 (En21 m outs) qfull c
  | ⟨11, _⟩ => fun c => dat11 (En23 m outs) qfull c

/-- What rides beside the buffers through every item: the core's generator register at some state and its dues, at
    nothing. -/
abbrev Rst (c : Dev nD) : sProp 𝕄 :=
  iprop((∃ r, prngReg c r) ∗ ∃ W, owes (c : Thread nD τ) (0 : CellTallies nD τ sig Unit) W)

/-- No core owes another anything: no level is assigned. -/
abbrev L0 : GSem nD τ sig → Finset Unit := fun _ => ∅
abbrev lv0 : GSem nD τ sig → Unit → ℕ := fun _ _ => 0

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KernelIdeal.SegCommon.lean ====
import proofs.«101247_j38388417692531_1_alg».proof.Proof.KernelIdeal.Data

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- With nothing owed and no bound on what is recorded, the loop's view of the core's dues is the bare one. -/
theorem owesAt_plain {cfg : Cfg sig Λ₀} {c : Dev nD} (dat : Dat τ (Elt F) Unit ℕ (UR sig nD τ) ℕ cfg c) (t : Fin (cfg.N + 1))
    (h0 : dat.owed t = 0) (hr : dat.recorded t = Set.univ) :
    (dat.owesAt () t : sProp 𝕄) ⊣⊢ iprop(∃ W, owes (c : Thread nD τ) (0 : CellTallies nD τ sig Unit) W) := by
  unfold Pipeline.Dat.owesAt Pipeline.owesWithin Pipeline.Dat.bound
  rw [h0, hr]
  constructor
  · iintro ⟨%W, -, H⟩; iexists W; iexact H
  · iintro ⟨%W, H⟩; iexists W; isplitr; · ipureintro; exact fun _ _ => Or.inl trivial
    iexact H

/-- Entering, the region's arrays are split out of the unscoped buffers (`hsplit`); leaving, they are put back (`hjoin`); the rest passes by. -/
def regOf (p : Fin 12) (Vin Vout : Dev nD → Valuation τ sig (Elt F))
    (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m outs p c) defs₀ Variants.none () Set.univ)
    (howed : ∀ c t, (pdats m outs p c).owed t = 0) (hrec : ∀ c t, (pdats m outs p c).recorded t = Set.univ)
    (hΦ : ∀ c t, (pdats m outs p c).Φ t = Pipeline.ΦA (cfgs p).spec c)
    (hsplit : ∀ c, (unscopedBufs c (fun b => Vin c b) : sProp 𝕄)
      ⊢ iprop((pdats m outs p c).arrays ((pdats m outs p c).arrAt · 0) ∗ Pipeline.unscopedRest (cfgs p).spec c fun b => Vin c b))
    (hjoin : ∀ c, iprop((pdats m outs p c).arrays ((pdats m outs p c).arrAt · (cfgs p).N) ∗ Pipeline.unscopedRest (cfgs p).spec c fun b => Vin c b)
      ⊢ (unscopedBufs c (fun b => Vout c b) : sProp 𝕄)) :
    Pipeline.RegionSeg (pcfgs (F := F)) adm (pdats m outs) () defs₀ Variants.none L0 lv0 p where
  win := win
  block_pos := block_pos
  stage_whole := stage_whole
  K := PEmpty
  osem k := k.elim
  ho := Pipeline.OwnSemFacts.none _
  hbody := hbody
  hwaits := Pipeline.hwaits_of_owed_zero _ _ _ _ L0 lv0 p howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    rw [Pipeline.ownSems0_none]
    have hsplit := hsplit c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_plain _ _ (howed c 0) (hrec c 0)).2; iexact HO
    isplitl [Hp]; · iexact Hp
    iexact Hrest
  hin c := by
    refine .trans ?_ (Entails.of_eq (hΦ c 0).symm); unfold Pipeline.ΦA
    iintro ⟨Hp, -, Hr⟩
    isplitl [Hr]; · iexact Hr
    iexact Hp
  hout c := by
    rw [Pipeline.ownSems0_none]; refine (Entails.of_eq (hΦ c _)).trans ?_; unfold Pipeline.ΦA
    iintro ⟨Hr, Hp⟩
    isplitl [Hp]; · iexact Hp
    isplitr; · iempintro
    iexact Hr
  hexit c := by
    have hjoin := hjoin c
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_plain _ _ (howed c _) (hrec c _)).1; iexact HO

/-- Distinct whole arrays, each at the full share: the split and the join are the library's. -/
def regPlain (p : Fin 12) (Vin Vout : Dev nD → Valuation τ sig (Elt F))
    (L : Pipeline.LaunchFacts (nD := nD) (τ := τ) cfgs p)
    (hbody : ∀ c, Pipeline.BodyObligationLoose (pdats m outs p c) defs₀ Variants.none () Set.univ)
    (howed : ∀ c t, (pdats m outs p c).owed t = 0) (hrec : ∀ c t, (pdats m outs p c).recorded t = Set.univ)
    (hΦ : ∀ c t, (pdats m outs p c).Φ t = Pipeline.ΦA (cfgs p).spec c)
    (hq : ∀ c w, (pdats m outs p c).q w = fullShare)
    (hA : ∀ c w, (pdats m outs p c).A w = Vin c (Pipeline.arrRef (cfgs p).spec w))
    (hF : ∀ c w, (pdats m outs p c).arrAt w (cfgs p).N = Vout c (Pipeline.arrRef (cfgs p).spec w))
    (hrest : ∀ c, ∀ b : Ref sig .tc, b ∉ Finset.univ.image (Pipeline.arrRef (cfgs p).spec) → Vout c b = Vin c b) :
    Pipeline.RegionSeg (pcfgs (F := F)) adm (pdats m outs) () defs₀ Variants.none L0 lv0 p :=
  regOf m outs p Vin Vout L.win.to₀ L.block_pos L.stage_whole hbody howed hrec hΦ
    (fun c => Pipeline.arrays_of_unscopedBufs (pcfgs (F := F)) adm (pdats m outs) L.win L.arr_whole c
      ((pdats m outs p c).share_full (hq c)) _ (hA c))
    (fun c => Pipeline.unscopedBufs_of_arrays (pcfgs (F := F)) adm L.win L.arr_whole c (pdats m outs)
      ((pdats m outs p c).share_full (hq c)) _ _ _ (hF c) (hrest c))

/-- A reference off every window's array is off the arrays of the listed windows. -/
theorem not_mem_arrs {W gr : Nat} (spec : Fin W → Pipeline.WinSpec sig gr) (ws : List (Fin W)) {b : Ref sig .tc}
    (hb : b ∉ Finset.univ.image (Pipeline.arrRef spec)) : b ∉ ws.map (Pipeline.arrRef spec) := fun h =>
  let ⟨w, _, hw⟩ := List.mem_map.1 h; hb (Finset.mem_image.2 ⟨w, Finset.mem_univ _, hw⟩)

theorem upd_self (V : Valuation τ sig (Elt F)) (r : Ref sig .tc) (x : (Proc.devRef .tc r : DevRef τ sig).ty.Contents (Elt F)) :
    Function.update V (Proc.devRef .tc r) x (Proc.devRef .tc r) = x := Function.update_self _ _ _

/-- Two updates at distinct references: the first is still read at its own reference. -/
theorem upd_fst (V : Valuation τ sig (Elt F)) {r r' : Ref sig .tc} (h : r ≠ r') (x : (Proc.devRef .tc r : DevRef τ sig).ty.Contents (Elt F))
    (y : (Proc.devRef .tc r' : DevRef τ sig).ty.Contents (Elt F)) :
    Function.update (Function.update V (Proc.devRef .tc r) x) (Proc.devRef .tc r') y (Proc.devRef .tc r) = x :=
  (Function.update_of_ne (StableHlo.devRef_ne_of_ne h) _ _).trans (Function.update_self _ _ _)

end Cert.KernelIdeal.Hand

end
-- ==== Proof.KernelIdeal.Seg0.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF0 (hO : OutsOk m outs) (c : Dev nD) (w : Fin cfg0.W) :
    (pdats m outs 0 c).arrAt w cfg0.N = (fun b : Ref sig .tc => V2 m outs c b) (Pipeline.arrRef spec0 w) := by
  rcases (by decide : ∀ w : Fin 4, (cfg0.win w).isOut = false ∧ Pipeline.arrRef spec0 w ∉ [main_v5] ∨ w = 3) w with h | rfl
  · exact ((pdats m outs 0 c).arrAt_in w h.1 _).trans ((A_eq0 (En1 m) qfull c w).trans (V2_of m outs c _ h.2).symm)
  · exact ((upd_self _ _ _).trans (hO.o_main_v5 c)).symm

theorem hrest0 (c : Dev nD) : ∀ b : Ref sig .tc, b ∉ Finset.univ.image (Pipeline.arrRef spec0) →
    (fun b : Ref sig .tc => V2 m outs c b) b = (fun b : Ref sig .tc => V1 m c b) b := fun b hb =>
  V2_of m outs c b (not_mem_arrs spec0 [3] hb)

def reg0 (hO : OutsOk m outs) : Pipeline.RegionSeg (pcfgs (F := F)) adm (pdats m outs) () defs₀ Variants.none L0 lv0 0 :=
  regPlain m outs 0 (V1 m) (V2 m outs) launch0 (fun c => (body_obligation0 (En1 m) qfull c).loose)
    (fun _ _ => rfl) (fun _ _ => rfl) (fun _ _ => rfl) (fun _ _ => rfl) (fun _ _ => rfl) (hF0 m outs hO) (hrest0 m outs)

end Cert.KernelIdeal.Hand

end
-- ==== Proof.KernelIdeal.Seg1.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF1 (hO : OutsOk m outs) (c : Dev nD) (w : Fin cfg1.W) :
    (pdats m outs 1 c).arrAt w cfg1.N = (fun b : Ref sig .tc => V4 m outs c b) (Pipeline.arrRef spec1 w) := by
  rcases (by decide : ∀ w : Fin 9, (cfg1.win w).isOut = false ∧ Pipeline.arrRef spec1 w ∉ [main_v26_0, main_v26_1] ∨ w = 7 ∨ w = 8) w with h | rfl | rfl
  · exact ((pdats m outs 1 c).arrAt_in w h.1 _).trans ((A_eq1 (En3 m outs) q1 c w).trans (V4_of m outs c _ h.2).symm)
  · exact ((upd_fst _ (by decide) _ _).trans (hO.o_main_v26_0 c)).symm
  · exact ((upd_self _ _ _).trans (hO.o_main_v26_1 c)).symm

theorem hrest1 (c : Dev nD) : ∀ b : Ref sig .tc, b ∉ Finset.univ.image (Pipeline.arrRef spec1) →
    (fun b : Ref sig .tc => V4 m outs c b) b = (fun b : Ref sig .tc => V3 m outs c b) b := fun b hb =>
  V4_of m outs c b (not_mem_arrs spec1 [7, 8] hb)

def reg1 (hO : OutsOk m outs) : Pipeline.RegionSeg (pcfgs (F := F)) adm (pdats m outs) () defs₀ Variants.none L0 lv0 1 :=
  regOf m outs 1 (V3 m outs) (V4 m outs) winFacts₀1 block_pos1 stage_whole1 (fun c => (body_obligation1 (En3 m outs) q1 c).loose)
    (fun _ _ => rfl) (fun _ _ => rfl) (fun _ _ => rfl)
    (fun c => shared_entry1 c (pdats m outs 1 c) rfl _ fun _ => rfl)
    (fun c => shared_exit1 c (pdats m outs 1 c) rfl _ _ _ (hF1 m outs hO c) (hrest1 m outs c))

end Cert.KernelIdeal.Hand

end
-- ==== Proof.KernelIdeal.Seg2.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF2 (hO : OutsOk m outs) (c : Dev nD) (w : Fin cfg2.W) :
    (pdats m outs 2 c).arrAt w cfg2.N = (fun b : Ref sig .tc => V6 m outs c b) (Pipeline.arrRef spec2 w) := by
  rcases (by decide : ∀ w : Fin 9, (cfg2.win w).isOut = false ∧ Pipeline.arrRef spec2 w ∉ [main_v47_0, main_v47_1] ∨ w = 7 ∨ w = 8) w with h | rfl | rfl
  · exact ((pdats m outs 2 c).arrAt_in w h.1 _).trans ((A_eq2 (En5 m outs) qfull c w).trans (V6_of m outs c _ h.2).symm)
  · exact ((upd_fst _ (by decide) _ _).trans (hO.o_main_v47_0 c)).symm
  · exact ((upd_self _ _ _).trans (hO.o_main_v47_1 c)).symm

theorem hrest2 (c : Dev nD) : ∀ b : Ref sig .tc, b ∉ Finset.univ.image (Pipeline.arrRef spec2) →
    (fun b : Ref sig .tc => V6 m outs c b) b = (fun b : Ref sig .tc => V5 m outs c b) b := fun b hb =>
  V6_of m outs c b (not_mem_arrs spec2 [7, 8] hb)

def reg2 (hO : OutsOk m outs) : Pipeline.RegionSeg (pcfgs (F := F)) adm (pdats m outs) () defs₀ Variants.none L0 lv0 2 :=
  regPlain m outs 2 (V5 m outs) (V6 m outs) launch2 (fun c => (body_obligation2 (En5 m outs) qfull c).loose)
    (fun _ _ => rfl) (fun _ _ => rfl) (fun _ _ => rfl) (fun _ _ => rfl) (fun _ _ => rfl) (hF2 m outs hO) (hrest2 m outs)

end Cert.KernelIdeal.Hand

end
-- ==== Proof.KernelIdeal.Seg3.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF3 (hO : OutsOk m outs) (c : Dev nD) (w : Fin cfg3.W) :
    (pdats m outs 3 c).arrAt w cfg3.N = (fun b : Ref sig .tc => V8 m outs c b) (Pipeline.arrRef spec3 w) := by
  rcases (by decide : ∀ w : Fin 9, (cfg3.win w).isOut = false ∧ Pipeline.arrRef spec3 w ∉ [main_v68_0, main_v68_1] ∨ w = 7 ∨ w = 8) w with h | rfl | rfl
  · exact ((pdats m outs 3 c).arrAt_in w h.1 _).trans ((A_eq3 (En7 m outs) qfull c w).trans (V8_of m outs c _ h.2).symm)
  · exact ((upd_fst _ (by decide) _ _).trans (hO.o_main_v68_0 c)).symm
  · exact ((upd_self _ _ _).trans (hO.o_main_v68_1 c)).symm

theorem hrest3 (c : Dev nD) : ∀ b : Ref sig .tc, b ∉ Finset.univ.image (Pipeline.arrRef spec3) →
    (fun b : Ref sig .tc => V8 m outs c b) b = (fun b : Ref sig .tc => V7 m outs c b) b := fun b hb =>
  V8_of m outs c b (not_mem_arrs spec3 [7, 8] hb)

def reg3 (hO : OutsOk m outs) : Pipeline.RegionSeg (pcfgs (F := F)) adm (pdats m outs) () defs₀ Variants.none L0 lv0 3 :=
  regPlain m outs 3 (V7 m outs) (V8 m outs) launch3 (fun c => (body_obligation3 (En7 m outs) qfull c).loose)
    (fun _ _ => rfl) (fun _ _ => rfl) (fun _ _ => rfl) (fun _ _ => rfl) (fun _ _ => rfl) (hF3 m outs hO) (hrest3 m outs)

end Cert.KernelIdeal.Hand

end
-- ==== Proof.KernelIdeal.Seg4.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF4 (hO : OutsOk m outs) (c : Dev nD) (w : Fin cfg4.W) :
    (pdats m outs 4 c).arrAt w cfg4.N = (fun b : Ref sig .tc => V10 m outs c b) (Pipeline.arrRef spec4 w) := by
  rcases (by decide : ∀ w : Fin 9, (cfg4.win w).isOut = false ∧ Pipeline.arrRef spec4 w ∉ [main_v89_0, main_v89_1] ∨ w = 7 ∨ w = 8) w with h | rfl | rfl
  · exact ((pdats m outs 4 c).arrAt_in w h.1 _).trans ((A_eq4 (En9 m outs) qfull c w).trans (V10_of m outs c _ h.2).symm)
  · exact ((upd_fst _ (by decide) _ _).trans (hO.o_main_v89_0 c)).symm
  · exact ((upd_self _ _ _).trans (hO.o_main_v89_1 c)).symm

theorem hrest4 (c : Dev nD) : ∀ b : Ref sig .tc, b ∉ Finset.univ.image (Pipeline.arrRef spec4) →
    (fun b : Ref sig .tc => V10 m outs c b) b = (fun b : Ref sig .tc => V9 m outs c b) b := fun b hb =>
  V10_of m outs c b (not_mem_arrs spec4 [7, 8] hb)

def reg4 (hO : OutsOk m outs) : Pipeline.RegionSeg (pcfgs (F := F)) adm (pdats m outs) () defs₀ Variants.none L0 lv0 4 :=
  regPlain m outs 4 (V9 m outs) (V10 m outs) launch4 (fun c => (body_obligation4 (En9 m outs) qfull c).loose)
    (fun _ _ => rfl) (fun _ _ => rfl) (fun _ _ => rfl) (fun _ _ => rfl) (fun _ _ => rfl) (hF4 m outs hO) (hrest4 m outs)

end Cert.KernelIdeal.Hand

end
-- ==== Proof.KernelIdeal.Seg5.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF5 (hO : OutsOk m outs) (c : Dev nD) (w : Fin cfg5.W) :
    (pdats m outs 5 c).arrAt w cfg5.N = (fun b : Ref sig .tc => V12 m outs c b) (Pipeline.arrRef spec5 w) := by
  rcases (by decide : ∀ w : Fin 6, (cfg5.win w).isOut = false ∧ Pipeline.arrRef spec5 w ∉ [main_v96] ∨ w = 5) w with h | rfl
  · exact ((pdats m outs 5 c).arrAt_in w h.1 _).trans ((A_eq5 (En11 m outs) qfull c w).trans (V12_of m outs c _ h.2).symm)
  · exact ((upd_self _ _ _).trans (hO.o_main_v96 c)).symm

theorem hrest5 (c : Dev nD) : ∀ b : Ref sig .tc, b ∉ Finset.univ.image (Pipeline.arrRef spec5) →
    (fun b : Ref sig .tc => V12 m outs c b) b = (fun b : Ref sig .tc => V11 m outs c b) b := fun b hb =>
  V12_of m outs c b (not_mem_arrs spec5 [5] hb)

def reg5 (hO : OutsOk m outs) : Pipeline.RegionSeg (pcfgs (F := F)) adm (pdats m outs) () defs₀ Variants.none L0 lv0 5 :=
  regPlain m outs 5 (V11 m outs) (V12 m outs) launch5 (fun c => (body_obligation5 (En11 m outs) qfull c).loose)
    (fun _ _ => rfl) (fun _ _ => rfl) (fun _ _ => rfl) (fun _ _ => rfl) (fun _ _ => rfl) (hF5 m outs hO) (hrest5 m outs)

end Cert.KernelIdeal.Hand

end
-- ==== Proof.KernelIdeal.Seg6.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF6 (hO : OutsOk m outs) (c : Dev nD) (w : Fin cfg6.W) :
    (pdats m outs 6 c).arrAt w cfg6.N = (fun b : Ref sig .tc => V14 m outs c b) (Pipeline.arrRef spec6 w) := by
  rcases (by decide : ∀ w : Fin 4, (cfg6.win w).isOut = false ∧ Pipeline.arrRef spec6 w ∉ [main_v102] ∨ w = 3) w with h | rfl
  · exact ((pdats m outs 6 c).arrAt_in w h.1 _).trans ((A_eq6 (En13 m outs) qfull c w).trans (V14_of m outs c _ h.2).symm)
  · exact ((upd_self _ _ _).trans (hO.o_main_v102 c)).symm

theorem hrest6 (c : Dev nD) : ∀ b : Ref sig .tc, b ∉ Finset.univ.image (Pipeline.arrRef spec6) →
    (fun b : Ref sig .tc => V14 m outs c b) b = (fun b : Ref sig .tc => V13 m outs c b) b := fun b hb =>
  V14_of m outs c b (not_mem_arrs spec6 [3] hb)

def reg6 (hO : OutsOk m outs) : Pipeline.RegionSeg (pcfgs (F := F)) adm (pdats m outs) () defs₀ Variants.none L0 lv0 6 :=
  regPlain m outs 6 (V13 m outs) (V14 m outs) launch6 (fun c => (body_obligation6 (En13 m outs) qfull c).loose)
    (fun _ _ => rfl) (fun _ _ => rfl) (fun _ _ => rfl) (fun _ _ => rfl) (fun _ _ => rfl) (hF6 m outs hO) (hrest6 m outs)

end Cert.KernelIdeal.Hand

end
-- ==== Proof.KernelIdeal.Seg7.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF7 (hO : OutsOk m outs) (c : Dev nD) (w : Fin cfg7.W) :
    (pdats m outs 7 c).arrAt w cfg7.N = (fun b : Ref sig .tc => V16 m outs c b) (Pipeline.arrRef spec7 w) := by
  rcases (by decide : ∀ w : Fin 9, (cfg7.win w).isOut = false ∧ Pipeline.arrRef spec7 w ∉ [main_v123_0, main_v123_1] ∨ w = 7 ∨ w = 8) w with h | rfl | rfl
  · exact ((pdats m outs 7 c).arrAt_in w h.1 _).trans ((A_eq7 (En15 m outs) q7 c w).trans (V16_of m outs c _ h.2).symm)
  · exact ((upd_fst _ (by decide) _ _).trans (hO.o_main_v123_0 c)).symm
  · exact ((upd_self _ _ _).trans (hO.o_main_v123_1 c)).symm

theorem hrest7 (c : Dev nD) : ∀ b : Ref sig .tc, b ∉ Finset.univ.image (Pipeline.arrRef spec7) →
    (fun b : Ref sig .tc => V16 m outs c b) b = (fun b : Ref sig .tc => V15 m outs c b) b := fun b hb =>
  V16_of m outs c b (not_mem_arrs spec7 [7, 8] hb)

def reg7 (hO : OutsOk m outs) : Pipeline.RegionSeg (pcfgs (F := F)) adm (pdats m outs) () defs₀ Variants.none L0 lv0 7 :=
  regOf m outs 7 (V15 m outs) (V16 m outs) winFacts₀7 block_pos7 stage_whole7 (fun c => (body_obligation7 (En15 m outs) q7 c).loose)
    (fun _ _ => rfl) (fun _ _ => rfl) (fun _ _ => rfl)
    (fun c => shared_entry7 c (pdats m outs 7 c) rfl _ fun _ => rfl)
    (fun c => shared_exit7 c (pdats m outs 7 c) rfl _ _ _ (hF7 m outs hO c) (hrest7 m outs c))

end Cert.KernelIdeal.Hand

end
-- ==== Proof.KernelIdeal.Seg8.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF8 (hO : OutsOk m outs) (c : Dev nD) (w : Fin cfg8.W) :
    (pdats m outs 8 c).arrAt w cfg8.N = (fun b : Ref sig .tc => V18 m outs c b) (Pipeline.arrRef spec8 w) := by
  rcases (by decide : ∀ w : Fin 9, (cfg8.win w).isOut = false ∧ Pipeline.arrRef spec8 w ∉ [main_v144_0, main_v144_1] ∨ w = 7 ∨ w = 8) w with h | rfl | rfl
  · exact ((pdats m outs 8 c).arrAt_in w h.1 _).trans ((A_eq8 (En17 m outs) qfull c w).trans (V18_of m outs c _ h.2).symm)
  · exact ((upd_fst _ (by decide) _ _).trans (hO.o_main_v144_0 c)).symm
  · exact ((upd_self _ _ _).trans (hO.o_main_v144_1 c)).symm

theorem hrest8 (c : Dev nD) : ∀ b : Ref sig .tc, b ∉ Finset.univ.image (Pipeline.arrRef spec8) →
    (fun b : Ref sig .tc => V18 m outs c b) b = (fun b : Ref sig .tc => V17 m outs c b) b := fun b hb =>
  V18_of m outs c b (not_mem_arrs spec8 [7, 8] hb)

def reg8 (hO : OutsOk m outs) : Pipeline.RegionSeg (pcfgs (F := F)) adm (pdats m outs) () defs₀ Variants.none L0 lv0 8 :=
  regPlain m outs 8 (V17 m outs) (V18 m outs) launch8 (fun c => (body_obligation8 (En17 m outs) qfull c).loose)
    (fun _ _ => rfl) (fun _ _ => rfl) (fun _ _ => rfl) (fun _ _ => rfl) (fun _ _ => rfl) (hF8 m outs hO) (hrest8 m outs)

end Cert.KernelIdeal.Hand

end
-- ==== Proof.KernelIdeal.Seg9.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF9 (hO : OutsOk m outs) (c : Dev nD) (w : Fin cfg9.W) :
    (pdats m outs 9 c).arrAt w cfg9.N = (fun b : Ref sig .tc => V20 m outs c b) (Pipeline.arrRef spec9 w) := by
  rcases (by decide : ∀ w : Fin 9, (cfg9.win w).isOut = false ∧ Pipeline.arrRef spec9 w ∉ [main_v165_0, main_v165_1] ∨ w = 7 ∨ w = 8) w with h | rfl | rfl
  · exact ((pdats m outs 9 c).arrAt_in w h.1 _).trans ((A_eq9 (En19 m outs) qfull c w).trans (V20_of m outs c _ h.2).symm)
  · exact ((upd_fst _ (by decide) _ _).trans (hO.o_main_v165_0 c)).symm
  · exact ((upd_self _ _ _).trans (hO.o_main_v165_1 c)).symm

theorem hrest9 (c : Dev nD) : ∀ b : Ref sig .tc, b ∉ Finset.univ.image (Pipeline.arrRef spec9) →
    (fun b : Ref sig .tc => V20 m outs c b) b = (fun b : Ref sig .tc => V19 m outs c b) b := fun b hb =>
  V20_of m outs c b (not_mem_arrs spec9 [7, 8] hb)

def reg9 (hO : OutsOk m outs) : Pipeline.RegionSeg (pcfgs (F := F)) adm (pdats m outs) () defs₀ Variants.none L0 lv0 9 :=
  regPlain m outs 9 (V19 m outs) (V20 m outs) launch9 (fun c => (body_obligation9 (En19 m outs) qfull c).loose)
    (fun _ _ => rfl) (fun _ _ => rfl) (fun _ _ => rfl) (fun _ _ => rfl) (fun _ _ => rfl) (hF9 m outs hO) (hrest9 m outs)

end Cert.KernelIdeal.Hand

end
-- ==== Proof.KernelIdeal.Seg10.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF10 (hO : OutsOk m outs) (c : Dev nD) (w : Fin cfg10.W) :
    (pdats m outs 10 c).arrAt w cfg10.N = (fun b : Ref sig .tc => V22 m outs c b) (Pipeline.arrRef spec10 w) := by
  rcases (by decide : ∀ w : Fin 9, (cfg10.win w).isOut = false ∧ Pipeline.arrRef spec10 w ∉ [main_v186_0, main_v186_1] ∨ w = 7 ∨ w = 8) w with h | rfl | rfl
  · exact ((pdats m outs 10 c).arrAt_in w h.1 _).trans ((A_eq10 (En21 m outs) qfull c w).trans (V22_of m outs c _ h.2).symm)
  · exact ((upd_fst _ (by decide) _ _).trans (hO.o_main_v186_0 c)).symm
  · exact ((upd_self _ _ _).trans (hO.o_main_v186_1 c)).symm

theorem hrest10 (c : Dev nD) : ∀ b : Ref sig .tc, b ∉ Finset.univ.image (Pipeline.arrRef spec10) →
    (fun b : Ref sig .tc => V22 m outs c b) b = (fun b : Ref sig .tc => V21 m outs c b) b := fun b hb =>
  V22_of m outs c b (not_mem_arrs spec10 [7, 8] hb)

def reg10 (hO : OutsOk m outs) : Pipeline.RegionSeg (pcfgs (F := F)) adm (pdats m outs) () defs₀ Variants.none L0 lv0 10 :=
  regPlain m outs 10 (V21 m outs) (V22 m outs) launch10 (fun c => (body_obligation10 (En21 m outs) qfull c).loose)
    (fun _ _ => rfl) (fun _ _ => rfl) (fun _ _ => rfl) (fun _ _ => rfl) (fun _ _ => rfl) (hF10 m outs hO) (hrest10 m outs)

end Cert.KernelIdeal.Hand

end
-- ==== Proof.KernelIdeal.Seg11.lean ====
import proofs.«101247_j38388417692531_1_alg».proof.Proof.KernelIdeal.SegCommon

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (outs : Outs (F := F))

theorem hF11 (hO : OutsOk m outs) (c : Dev nD) (w : Fin cfg11.W) :
    (pdats m outs 11 c).arrAt w cfg11.N = (fun b : Ref sig .tc => V24 m outs c b) (Pipeline.arrRef spec11 w) := by
  rcases (by decide : ∀ w : Fin 6, (cfg11.win w).isOut = false ∧ Pipeline.arrRef spec11 w ∉ [main_v193] ∨ w = 5) w with h | rfl
  · exact ((pdats m outs 11 c).arrAt_in w h.1 _).trans ((A_eq11 (En23 m outs) qfull c w).trans (V24_of m outs c _ h.2).symm)
  · exact ((upd_self _ _ _).trans (hO.o_main_v193 c)).symm

theorem hrest11 (c : Dev nD) : ∀ b : Ref sig .tc, b ∉ Finset.univ.image (Pipeline.arrRef spec11) →
    (fun b : Ref sig .tc => V24 m outs c b) b = (fun b : Ref sig .tc => V23 m outs c b) b := fun b hb =>
  V24_of m outs c b (not_mem_arrs spec11 [5] hb)

def reg11 (hO : OutsOk m outs) : Pipeline.RegionSeg (pcfgs (F := F)) adm (pdats m outs) () defs₀ Variants.none L0 lv0 11 :=
  regPlain m outs 11 (V23 m outs) (V24 m outs) launch11 (fun c => (body_obligation11 (En23 m outs) qfull c).loose)
    (fun _ _ => rfl) (fun _ _ => rfl) (fun _ _ => rfl) (fun _ _ => rfl) (fun _ _ => rfl) (hF11 m outs hO) (hrest11 m outs)

end Cert.KernelIdeal.Hand

end
-- ==== Proof.KernelIdeal.Whole.lean ====
import proofs.«101247_j38388417692531_1_alg».proof.Proof.KernelIdeal.Seg0
import proofs.«101247_j38388417692531_1_alg».proof.Proof.KernelIdeal.Seg1
import proofs.«101247_j38388417692531_1_alg».proof.Proof.KernelIdeal.Seg2
import proofs.«101247_j38388417692531_1_alg».proof.Proof.KernelIdeal.Seg3
import proofs.«101247_j38388417692531_1_alg».proof.Proof.KernelIdeal.Seg4
import proofs.«101247_j38388417692531_1_alg».proof.Proof.KernelIdeal.Seg5
import proofs.«101247_j38388417692531_1_alg».proof.Proof.KernelIdeal.Seg6
import proofs.«101247_j38388417692531_1_alg».proof.Proof.KernelIdeal.Seg7
import proofs.«101247_j38388417692531_1_alg».proof.Proof.KernelIdeal.Seg8
import proofs.«101247_j38388417692531_1_alg».proof.Proof.KernelIdeal.Seg9
import proofs.«101247_j38388417692531_1_alg».proof.Proof.KernelIdeal.Seg10
import proofs.«101247_j38388417692531_1_alg».proof.Proof.KernelIdeal.Seg11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg) (outs : Outs (F := F))

abbrev Erest : Fin 13 → Dev nD → sProp 𝕄 := fun _ c => Rst c

set_option backward.isDefEq.respectTransparency.types false in
set_option maxHeartbeats 4000000 in
theorem run_whole (hO : OutsOk m outs) :
    θ_run defs (onTc (τ := τ) (main (F := F))) ⟨m, fun _ => 0, ρ⟩ (fun r => ∀ c : Dev nD,
      ∀ b ∈ Pipeline.ucRefs τ sig, r.2.mem (((c : Thread nD τ)).1, b) = V29 m outs c b) :=
  Pipeline.θ_run_regions_kit_dev (pcfgs (F := F)) adm (pdats m outs) () cellOf_inj emb₁ defs₀ Variants.none L0 lv0 m ρ main
    (segs m outs Variants.none L0 lv0 Erest () (pdats m outs) (reg0 m outs hO) (reg1 m outs hO) (reg2 m outs hO) (reg3 m outs hO) (reg4 m outs hO) (reg5 m outs hO) (reg6 m outs hO) (reg7 m outs hO) (reg8 m outs hO) (reg9 m outs hO) (reg10 m outs hO) (reg11 m outs hO))
    (fun c Q => by
      rewrite [main_chain c, Seg.run_eq_chain,
        show (segs m outs Variants.none L0 lv0 Erest () (pdats m outs) (reg0 m outs hO) (reg1 m outs hO) (reg2 m outs hO) (reg3 m outs hO) (reg4 m outs hO) (reg5 m outs hO) (reg6 m outs hO) (reg7 m outs hO) (reg8 m outs hO) (reg9 m outs hO) (reg10 m outs hO) (reg11 m outs hO) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          StableHlo.seq hostOps12_1,
          StableHlo.seq hostOps12_2,
          StableHlo.seq hostOps12_3,
          StableHlo.seq hostOps12_4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V29 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (show Rst c ⊢ (iprop(∃ W, owes (c : Thread nD τ) (0 : CellTallies nD τ sig Unit) W) : sProp 𝕄) from by
        iintro ⟨-, HO⟩; iexact HO)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V29 m outs c b)
    (hfin := fun c s' => by
      iintro ⟨Hh, HSI⟩
      unfold StableHlo.held
      imodintro
      iapply (pointsTo_read_all (Pipeline.ucRefs τ sig) (fun b => (((c : Thread nD τ)).1, b)) (V29 m outs c) s')
      isplitl [Hh] <;> iassumption)
    (hQ := fun _ h => h)

theorem value_of (hO : OutsOk m outs) :
    θ_run defs (onTc (τ := τ) (main (F := F))) ⟨m, fun _ => 0, ρ⟩ (fun r => ∀ c : Dev nD,
      r.2.mem ((c.tc : Thread nD τ).loc main_v204) = V29 m outs c main_v204
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨h c _ (mem_uc main_v204 (by decide)),
    (h c _ (mem_uc main_arg0 (by decide))).trans (V29_main_arg0 m outs c),
    (h c _ (mem_uc main_arg1 (by decide))).trans (V29_main_arg1 m outs c),
    (h c _ (mem_uc main_arg2 (by decide))).trans (V29_main_arg2 m outs c),
    (h c _ (mem_uc main_arg3 (by decide))).trans (V29_main_arg3 m outs c),
    (h c _ (mem_uc main_arg4 (by decide))).trans (V29_main_arg4 m outs c),
    (h c _ (mem_uc main_arg5 (by decide))).trans (V29_main_arg5 m outs c),
    (h c _ (mem_uc main_arg6 (by decide))).trans (V29_main_arg6 m outs c),
    (h c _ (mem_uc main_arg7 (by decide))).trans (V29_main_arg7 m outs c),
    (h c _ (mem_uc main_arg8 (by decide))).trans (V29_main_arg8 m outs c),
    (h c _ (mem_uc main_arg9 (by decide))).trans (V29_main_arg9 m outs c),
    (h c _ (mem_uc main_arg10 (by decide))).trans (V29_main_arg10 m outs c),
    (h c _ (mem_uc main_arg11 (by decide))).trans (V29_main_arg11 m outs c),
    (h c _ (mem_uc main_arg12 (by decide))).trans (V29_main_arg12 m outs c),
    (h c _ (mem_uc main_arg13 (by decide))).trans (V29_main_arg13 m outs c),
    (h c _ (mem_uc main_arg14 (by decide))).trans (V29_main_arg14 m outs c),
    (h c _ (mem_uc main_arg15 (by decide))).trans (V29_main_arg15 m outs c)⟩)
    (run_whole m ρ outs hO)

theorem frame_of (hO : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (value_of m ρ outs hO)

end Cert.KernelIdeal.Hand

end
-- ==== Proof.KernelIdeal.Outs.lean ====
import proofs.«101247_j38388417692531_1_alg».proof.Proof.KernelIdeal.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents between the program's items, computed: after a host stretch the stretch applied to the contents
    before it; after a region the contents before it with each output array at what the region's pipeline leaves
    there (the entry contents overwritten by every grid point's write-back). Taken as the unknowns of the conditional
    frame they satisfy its side conditions. -/

variable (m : (ℓ : Loc nD τ sig) → Buf (Elt F) ℓ)

/-- Core `c`'s contents after the first host stretch. -/
def U1 (c : Dev nD) : Valuation τ sig (Elt F) := V1 m c
/-- What region 0 leaves in `main_v5`. -/
def o_main_v5 (c : Dev nD) : Buf (Elt F) ((c : Thread nD τ).loc main_v5) := (dat0 (fun c b => U1 m c b) qfull c).arrAt 3 cfg0.N
/-- Core `c`'s contents after region 0. -/
def U2 (c : Dev nD) : Valuation τ sig (Elt F) := Function.update (U1 m c) main_v5 (o_main_v5 m c)
/-- … and after the host stretch that follows it. -/
def U3 (c : Dev nD) : Valuation τ sig (Elt F) := StableHlo.after hostOps1 (U2 m c)
/-- What region 1 leaves in `main_v26_0`. -/
def o_main_v26_0 (c : Dev nD) : Buf (Elt F) ((c : Thread nD τ).loc main_v26_0) := (dat1 (fun c b => U3 m c b) q1 c).arrAt 7 cfg1.N
/-- What region 1 leaves in `main_v26_1`. -/
def o_main_v26_1 (c : Dev nD) : Buf (Elt F) ((c : Thread nD τ).loc main_v26_1) := (dat1 (fun c b => U3 m c b) q1 c).arrAt 8 cfg1.N
/-- Core `c`'s contents after region 1. -/
def U4 (c : Dev nD) : Valuation τ sig (Elt F) := Function.update (Function.update (U3 m c) main_v26_0 (o_main_v26_0 m c)) main_v26_1 (o_main_v26_1 m c)
/-- … and after the host stretch that follows it. -/
def U5 (c : Dev nD) : Valuation τ sig (Elt F) := StableHlo.after hostOps2 (U4 m c)
/-- What region 2 leaves in `main_v47_0`. -/
def o_main_v47_0 (c : Dev nD) : Buf (Elt F) ((c : Thread nD τ).loc main_v47_0) := (dat2 (fun c b => U5 m c b) qfull c).arrAt 7 cfg2.N
/-- What region 2 leaves in `main_v47_1`. -/
def o_main_v47_1 (c : Dev nD) : Buf (Elt F) ((c : Thread nD τ).loc main_v47_1) := (dat2 (fun c b => U5 m c b) qfull c).arrAt 8 cfg2.N
/-- Core `c`'s contents after region 2. -/
def U6 (c : Dev nD) : Valuation τ sig (Elt F) := Function.update (Function.update (U5 m c) main_v47_0 (o_main_v47_0 m c)) main_v47_1 (o_main_v47_1 m c)
/-- … and after the host stretch that follows it. -/
def U7 (c : Dev nD) : Valuation τ sig (Elt F) := StableHlo.after hostOps3 (U6 m c)
/-- What region 3 leaves in `main_v68_0`. -/
def o_main_v68_0 (c : Dev nD) : Buf (Elt F) ((c : Thread nD τ).loc main_v68_0) := (dat3 (fun c b => U7 m c b) qfull c).arrAt 7 cfg3.N
/-- What region 3 leaves in `main_v68_1`. -/
def o_main_v68_1 (c : Dev nD) : Buf (Elt F) ((c : Thread nD τ).loc main_v68_1) := (dat3 (fun c b => U7 m c b) qfull c).arrAt 8 cfg3.N
/-- Core `c`'s contents after region 3. -/
def U8 (c : Dev nD) : Valuation τ sig (Elt F) := Function.update (Function.update (U7 m c) main_v68_0 (o_main_v68_0 m c)) main_v68_1 (o_main_v68_1 m c)
/-- … and after the host stretch that follows it. -/
def U9 (c : Dev nD) : Valuation τ sig (Elt F) := StableHlo.after hostOps4 (U8 m c)
/-- What region 4 leaves in `main_v89_0`. -/
def o_main_v89_0 (c : Dev nD) : Buf (Elt F) ((c : Thread nD τ).loc main_v89_0) := (dat4 (fun c b => U9 m c b) qfull c).arrAt 7 cfg4.N
/-- What region 4 leaves in `main_v89_1`. -/
def o_main_v89_1 (c : Dev nD) : Buf (Elt F) ((c : Thread nD τ).loc main_v89_1) := (dat4 (fun c b => U9 m c b) qfull c).arrAt 8 cfg4.N
/-- Core `c`'s contents after region 4. -/
def U10 (c : Dev nD) : Valuation τ sig (Elt F) := Function.update (Function.update (U9 m c) main_v89_0 (o_main_v89_0 m c)) main_v89_1 (o_main_v89_1 m c)
/-- … and after the host stretch that follows it. -/
def U11 (c : Dev nD) : Valuation τ sig (Elt F) := StableHlo.after hostOps5 (U10 m c)
/-- What region 5 leaves in `main_v96`. -/
def o_main_v96 (c : Dev nD) : Buf (Elt F) ((c : Thread nD τ).loc main_v96) := (dat5 (fun c b => U11 m c b) qfull c).arrAt 5 cfg5.N
/-- Core `c`'s contents after region 5. -/
def U12 (c : Dev nD) : Valuation τ sig (Elt F) := Function.update (U11 m c) main_v96 (o_main_v96 m c)
/-- … and after the host stretch that follows it. -/
def U13 (c : Dev nD) : Valuation τ sig (Elt F) := StableHlo.after hostOps6 (U12 m c)
/-- What region 6 leaves in `main_v102`. -/
def o_main_v102 (c : Dev nD) : Buf (Elt F) ((c : Thread nD τ).loc main_v102) := (dat6 (fun c b => U13 m c b) qfull c).arrAt 3 cfg6.N
/-- Core `c`'s contents after region 6. -/
def U14 (c : Dev nD) : Valuation τ sig (Elt F) := Function.update (U13 m c) main_v102 (o_main_v102 m c)
/-- … and after the host stretch that follows it. -/
def U15 (c : Dev nD) : Valuation τ sig (Elt F) := StableHlo.after hostOps7 (U14 m c)
/-- What region 7 leaves in `main_v123_0`. -/
def o_main_v123_0 (c : Dev nD) : Buf (Elt F) ((c : Thread nD τ).loc main_v123_0) := (dat7 (fun c b => U15 m c b) q7 c).arrAt 7 cfg7.N
/-- What region 7 leaves in `main_v123_1`. -/
def o_main_v123_1 (c : Dev nD) : Buf (Elt F) ((c : Thread nD τ).loc main_v123_1) := (dat7 (fun c b => U15 m c b) q7 c).arrAt 8 cfg7.N
/-- Core `c`'s contents after region 7. -/
def U16 (c : Dev nD) : Valuation τ sig (Elt F) := Function.update (Function.update (U15 m c) main_v123_0 (o_main_v123_0 m c)) main_v123_1 (o_main_v123_1 m c)
/-- … and after the host stretch that follows it. -/
def U17 (c : Dev nD) : Valuation τ sig (Elt F) := StableHlo.after hostOps8 (U16 m c)
/-- What region 8 leaves in `main_v144_0`. -/
def o_main_v144_0 (c : Dev nD) : Buf (Elt F) ((c : Thread nD τ).loc main_v144_0) := (dat8 (fun c b => U17 m c b) qfull c).arrAt 7 cfg8.N
/-- What region 8 leaves in `main_v144_1`. -/
def o_main_v144_1 (c : Dev nD) : Buf (Elt F) ((c : Thread nD τ).loc main_v144_1) := (dat8 (fun c b => U17 m c b) qfull c).arrAt 8 cfg8.N
/-- Core `c`'s contents after region 8. -/
def U18 (c : Dev nD) : Valuation τ sig (Elt F) := Function.update (Function.update (U17 m c) main_v144_0 (o_main_v144_0 m c)) main_v144_1 (o_main_v144_1 m c)
/-- … and after the host stretch that follows it. -/
def U19 (c : Dev nD) : Valuation τ sig (Elt F) := StableHlo.after hostOps9 (U18 m c)
/-- What region 9 leaves in `main_v165_0`. -/
def o_main_v165_0 (c : Dev nD) : Buf (Elt F) ((c : Thread nD τ).loc main_v165_0) := (dat9 (fun c b => U19 m c b) qfull c).arrAt 7 cfg9.N
/-- What region 9 leaves in `main_v165_1`. -/
def o_main_v165_1 (c : Dev nD) : Buf (Elt F) ((c : Thread nD τ).loc main_v165_1) := (dat9 (fun c b => U19 m c b) qfull c).arrAt 8 cfg9.N
/-- Core `c`'s contents after region 9. -/
def U20 (c : Dev nD) : Valuation τ sig (Elt F) := Function.update (Function.update (U19 m c) main_v165_0 (o_main_v165_0 m c)) main_v165_1 (o_main_v165_1 m c)
/-- … and after the host stretch that follows it. -/
def U21 (c : Dev nD) : Valuation τ sig (Elt F) := StableHlo.after hostOps10 (U20 m c)
/-- What region 10 leaves in `main_v186_0`. -/
def o_main_v186_0 (c : Dev nD) : Buf (Elt F) ((c : Thread nD τ).loc main_v186_0) := (dat10 (fun c b => U21 m c b) qfull c).arrAt 7 cfg10.N
/-- What region 10 leaves in `main_v186_1`. -/
def o_main_v186_1 (c : Dev nD) : Buf (Elt F) ((c : Thread nD τ).loc main_v186_1) := (dat10 (fun c b => U21 m c b) qfull c).arrAt 8 cfg10.N
/-- Core `c`'s contents after region 10. -/
def U22 (c : Dev nD) : Valuation τ sig (Elt F) := Function.update (Function.update (U21 m c) main_v186_0 (o_main_v186_0 m c)) main_v186_1 (o_main_v186_1 m c)
/-- … and after the host stretch that follows it. -/
def U23 (c : Dev nD) : Valuation τ sig (Elt F) := StableHlo.after hostOps11 (U22 m c)
/-- What region 11 leaves in `main_v193`. -/
def o_main_v193 (c : Dev nD) : Buf (Elt F) ((c : Thread nD τ).loc main_v193) := (dat11 (fun c b => U23 m c b) qfull c).arrAt 5 cfg11.N
/-- Core `c`'s contents after region 11. -/
def U24 (c : Dev nD) : Valuation τ sig (Elt F) := Function.update (U23 m c) main_v193 (o_main_v193 m c)

/-- The unknowns: after each region, that region's exit contents. -/
def theOuts : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | _ => m ((c : Thread nD τ).loc r)

theorem V1_eq (c : Dev nD) : V1 m c = U1 m c := rfl
theorem theOuts_main_v5 (c : Dev nD) : theOuts m 2 main_v5 c = o_main_v5 m c :=
  show U2 m c main_v5 = _ from by unfold U2; exact (Function.update_self _ _ _)
theorem V2_eq (c : Dev nD) : V2 m (theOuts m) c = U2 m c := by
  unfold U2
  rw [← V1_eq m c, ← theOuts_main_v5 m c]
theorem V3_eq (c : Dev nD) : V3 m (theOuts m) c = U3 m c := by
  unfold U3
  rw [← V2_eq m c]
theorem theOuts_main_v26_0 (c : Dev nD) : theOuts m 4 main_v26_0 c = o_main_v26_0 m c :=
  show U4 m c main_v26_0 = _ from by unfold U4; exact ((Function.update_of_ne (StableHlo.devRef_ne_of_ne (by decide) : (Proc.devRef .tc main_v26_0 : DevRef τ sig) ≠ Proc.devRef .tc main_v26_1) _ _).trans (Function.update_self _ _ _))
theorem theOuts_main_v26_1 (c : Dev nD) : theOuts m 4 main_v26_1 c = o_main_v26_1 m c :=
  show U4 m c main_v26_1 = _ from by unfold U4; exact (Function.update_self _ _ _)
theorem V4_eq (c : Dev nD) : V4 m (theOuts m) c = U4 m c := by
  unfold U4
  rw [← V3_eq m c, ← theOuts_main_v26_0 m c, ← theOuts_main_v26_1 m c]
theorem V5_eq (c : Dev nD) : V5 m (theOuts m) c = U5 m c := by
  unfold U5
  rw [← V4_eq m c]
theorem theOuts_main_v47_0 (c : Dev nD) : theOuts m 6 main_v47_0 c = o_main_v47_0 m c :=
  show U6 m c main_v47_0 = _ from by unfold U6; exact ((Function.update_of_ne (StableHlo.devRef_ne_of_ne (by decide) : (Proc.devRef .tc main_v47_0 : DevRef τ sig) ≠ Proc.devRef .tc main_v47_1) _ _).trans (Function.update_self _ _ _))
theorem theOuts_main_v47_1 (c : Dev nD) : theOuts m 6 main_v47_1 c = o_main_v47_1 m c :=
  show U6 m c main_v47_1 = _ from by unfold U6; exact (Function.update_self _ _ _)
theorem V6_eq (c : Dev nD) : V6 m (theOuts m) c = U6 m c := by
  unfold U6
  rw [← V5_eq m c, ← theOuts_main_v47_0 m c, ← theOuts_main_v47_1 m c]
theorem V7_eq (c : Dev nD) : V7 m (theOuts m) c = U7 m c := by
  unfold U7
  rw [← V6_eq m c]
theorem theOuts_main_v68_0 (c : Dev nD) : theOuts m 8 main_v68_0 c = o_main_v68_0 m c :=
  show U8 m c main_v68_0 = _ from by unfold U8; exact ((Function.update_of_ne (StableHlo.devRef_ne_of_ne (by decide) : (Proc.devRef .tc main_v68_0 : DevRef τ sig) ≠ Proc.devRef .tc main_v68_1) _ _).trans (Function.update_self _ _ _))
theorem theOuts_main_v68_1 (c : Dev nD) : theOuts m 8 main_v68_1 c = o_main_v68_1 m c :=
  show U8 m c main_v68_1 = _ from by unfold U8; exact (Function.update_self _ _ _)
theorem V8_eq (c : Dev nD) : V8 m (theOuts m) c = U8 m c := by
  unfold U8
  rw [← V7_eq m c, ← theOuts_main_v68_0 m c, ← theOuts_main_v68_1 m c]
theorem V9_eq (c : Dev nD) : V9 m (theOuts m) c = U9 m c := by
  unfold U9
  rw [← V8_eq m c]
theorem theOuts_main_v89_0 (c : Dev nD) : theOuts m 10 main_v89_0 c = o_main_v89_0 m c :=
  show U10 m c main_v89_0 = _ from by unfold U10; exact ((Function.update_of_ne (StableHlo.devRef_ne_of_ne (by decide) : (Proc.devRef .tc main_v89_0 : DevRef τ sig) ≠ Proc.devRef .tc main_v89_1) _ _).trans (Function.update_self _ _ _))
theorem theOuts_main_v89_1 (c : Dev nD) : theOuts m 10 main_v89_1 c = o_main_v89_1 m c :=
  show U10 m c main_v89_1 = _ from by unfold U10; exact (Function.update_self _ _ _)
theorem V10_eq (c : Dev nD) : V10 m (theOuts m) c = U10 m c := by
  unfold U10
  rw [← V9_eq m c, ← theOuts_main_v89_0 m c, ← theOuts_main_v89_1 m c]
theorem V11_eq (c : Dev nD) : V11 m (theOuts m) c = U11 m c := by
  unfold U11
  rw [← V10_eq m c]
theorem theOuts_main_v96 (c : Dev nD) : theOuts m 12 main_v96 c = o_main_v96 m c :=
  show U12 m c main_v96 = _ from by unfold U12; exact (Function.update_self _ _ _)
theorem V12_eq (c : Dev nD) : V12 m (theOuts m) c = U12 m c := by
  unfold U12
  rw [← V11_eq m c, ← theOuts_main_v96 m c]
theorem V13_eq (c : Dev nD) : V13 m (theOuts m) c = U13 m c := by
  unfold U13
  rw [← V12_eq m c]
theorem theOuts_main_v102 (c : Dev nD) : theOuts m 14 main_v102 c = o_main_v102 m c :=
  show U14 m c main_v102 = _ from by unfold U14; exact (Function.update_self _ _ _)
theorem V14_eq (c : Dev nD) : V14 m (theOuts m) c = U14 m c := by
  unfold U14
  rw [← V13_eq m c, ← theOuts_main_v102 m c]
theorem V15_eq (c : Dev nD) : V15 m (theOuts m) c = U15 m c := by
  unfold U15
  rw [← V14_eq m c]
theorem theOuts_main_v123_0 (c : Dev nD) : theOuts m 16 main_v123_0 c = o_main_v123_0 m c :=
  show U16 m c main_v123_0 = _ from by unfold U16; exact ((Function.update_of_ne (StableHlo.devRef_ne_of_ne (by decide) : (Proc.devRef .tc main_v123_0 : DevRef τ sig) ≠ Proc.devRef .tc main_v123_1) _ _).trans (Function.update_self _ _ _))
theorem theOuts_main_v123_1 (c : Dev nD) : theOuts m 16 main_v123_1 c = o_main_v123_1 m c :=
  show U16 m c main_v123_1 = _ from by unfold U16; exact (Function.update_self _ _ _)
theorem V16_eq (c : Dev nD) : V16 m (theOuts m) c = U16 m c := by
  unfold U16
  rw [← V15_eq m c, ← theOuts_main_v123_0 m c, ← theOuts_main_v123_1 m c]
theorem V17_eq (c : Dev nD) : V17 m (theOuts m) c = U17 m c := by
  unfold U17
  rw [← V16_eq m c]
theorem theOuts_main_v144_0 (c : Dev nD) : theOuts m 18 main_v144_0 c = o_main_v144_0 m c :=
  show U18 m c main_v144_0 = _ from by unfold U18; exact ((Function.update_of_ne (StableHlo.devRef_ne_of_ne (by decide) : (Proc.devRef .tc main_v144_0 : DevRef τ sig) ≠ Proc.devRef .tc main_v144_1) _ _).trans (Function.update_self _ _ _))
theorem theOuts_main_v144_1 (c : Dev nD) : theOuts m 18 main_v144_1 c = o_main_v144_1 m c :=
  show U18 m c main_v144_1 = _ from by unfold U18; exact (Function.update_self _ _ _)
theorem V18_eq (c : Dev nD) : V18 m (theOuts m) c = U18 m c := by
  unfold U18
  rw [← V17_eq m c, ← theOuts_main_v144_0 m c, ← theOuts_main_v144_1 m c]
theorem V19_eq (c : Dev nD) : V19 m (theOuts m) c = U19 m c := by
  unfold U19
  rw [← V18_eq m c]
theorem theOuts_main_v165_0 (c : Dev nD) : theOuts m 20 main_v165_0 c = o_main_v165_0 m c :=
  show U20 m c main_v165_0 = _ from by unfold U20; exact ((Function.update_of_ne (StableHlo.devRef_ne_of_ne (by decide) : (Proc.devRef .tc main_v165_0 : DevRef τ sig) ≠ Proc.devRef .tc main_v165_1) _ _).trans (Function.update_self _ _ _))
theorem theOuts_main_v165_1 (c : Dev nD) : theOuts m 20 main_v165_1 c = o_main_v165_1 m c :=
  show U20 m c main_v165_1 = _ from by unfold U20; exact (Function.update_self _ _ _)
theorem V20_eq (c : Dev nD) : V20 m (theOuts m) c = U20 m c := by
  unfold U20
  rw [← V19_eq m c, ← theOuts_main_v165_0 m c, ← theOuts_main_v165_1 m c]
theorem V21_eq (c : Dev nD) : V21 m (theOuts m) c = U21 m c := by
  unfold U21
  rw [← V20_eq m c]
theorem theOuts_main_v186_0 (c : Dev nD) : theOuts m 22 main_v186_0 c = o_main_v186_0 m c :=
  show U22 m c main_v186_0 = _ from by unfold U22; exact ((Function.update_of_ne (StableHlo.devRef_ne_of_ne (by decide) : (Proc.devRef .tc main_v186_0 : DevRef τ sig) ≠ Proc.devRef .tc main_v186_1) _ _).trans (Function.update_self _ _ _))
theorem theOuts_main_v186_1 (c : Dev nD) : theOuts m 22 main_v186_1 c = o_main_v186_1 m c :=
  show U22 m c main_v186_1 = _ from by unfold U22; exact (Function.update_self _ _ _)
theorem V22_eq (c : Dev nD) : V22 m (theOuts m) c = U22 m c := by
  unfold U22
  rw [← V21_eq m c, ← theOuts_main_v186_0 m c, ← theOuts_main_v186_1 m c]
theorem V23_eq (c : Dev nD) : V23 m (theOuts m) c = U23 m c := by
  unfold U23
  rw [← V22_eq m c]
theorem theOuts_main_v193 (c : Dev nD) : theOuts m 24 main_v193 c = o_main_v193 m c :=
  show U24 m c main_v193 = _ from by unfold U24; exact (Function.update_self _ _ _)
theorem V24_eq (c : Dev nD) : V24 m (theOuts m) c = U24 m c := by
  unfold U24
  rw [← V23_eq m c, ← theOuts_main_v193 m c]

/-- The computed contents satisfy the side conditions. -/
theorem theOuts_ok : OutsOk m (theOuts m) where
  o_main_v5 c := (theOuts_main_v5 m c).trans (congrArg (fun V => (dat0 V qfull c).arrAt 3 cfg0.N)
    (show (fun (c : Dev nD) (b : Ref sig .tc) => U1 m c b) = (En1 m) from funext fun c => funext fun b => (congrFun (V1_eq m c) b).symm))
  o_main_v26_0 c := (theOuts_main_v26_0 m c).trans (congrArg (fun V => (dat1 V q1 c).arrAt 7 cfg1.N)
    (show (fun (c : Dev nD) (b : Ref sig .tc) => U3 m c b) = (En3 m (theOuts m)) from funext fun c => funext fun b => (congrFun (V3_eq m c) b).symm))
  o_main_v26_1 c := (theOuts_main_v26_1 m c).trans (congrArg (fun V => (dat1 V q1 c).arrAt 8 cfg1.N)
    (show (fun (c : Dev nD) (b : Ref sig .tc) => U3 m c b) = (En3 m (theOuts m)) from funext fun c => funext fun b => (congrFun (V3_eq m c) b).symm))
  o_main_v47_0 c := (theOuts_main_v47_0 m c).trans (congrArg (fun V => (dat2 V qfull c).arrAt 7 cfg2.N)
    (show (fun (c : Dev nD) (b : Ref sig .tc) => U5 m c b) = (En5 m (theOuts m)) from funext fun c => funext fun b => (congrFun (V5_eq m c) b).symm))
  o_main_v47_1 c := (theOuts_main_v47_1 m c).trans (congrArg (fun V => (dat2 V qfull c).arrAt 8 cfg2.N)
    (show (fun (c : Dev nD) (b : Ref sig .tc) => U5 m c b) = (En5 m (theOuts m)) from funext fun c => funext fun b => (congrFun (V5_eq m c) b).symm))
  o_main_v68_0 c := (theOuts_main_v68_0 m c).trans (congrArg (fun V => (dat3 V qfull c).arrAt 7 cfg3.N)
    (show (fun (c : Dev nD) (b : Ref sig .tc) => U7 m c b) = (En7 m (theOuts m)) from funext fun c => funext fun b => (congrFun (V7_eq m c) b).symm))
  o_main_v68_1 c := (theOuts_main_v68_1 m c).trans (congrArg (fun V => (dat3 V qfull c).arrAt 8 cfg3.N)
    (show (fun (c : Dev nD) (b : Ref sig .tc) => U7 m c b) = (En7 m (theOuts m)) from funext fun c => funext fun b => (congrFun (V7_eq m c) b).symm))
  o_main_v89_0 c := (theOuts_main_v89_0 m c).trans (congrArg (fun V => (dat4 V qfull c).arrAt 7 cfg4.N)
    (show (fun (c : Dev nD) (b : Ref sig .tc) => U9 m c b) = (En9 m (theOuts m)) from funext fun c => funext fun b => (congrFun (V9_eq m c) b).symm))
  o_main_v89_1 c := (theOuts_main_v89_1 m c).trans (congrArg (fun V => (dat4 V qfull c).arrAt 8 cfg4.N)
    (show (fun (c : Dev nD) (b : Ref sig .tc) => U9 m c b) = (En9 m (theOuts m)) from funext fun c => funext fun b => (congrFun (V9_eq m c) b).symm))
  o_main_v96 c := (theOuts_main_v96 m c).trans (congrArg (fun V => (dat5 V qfull c).arrAt 5 cfg5.N)
    (show (fun (c : Dev nD) (b : Ref sig .tc) => U11 m c b) = (En11 m (theOuts m)) from funext fun c => funext fun b => (congrFun (V11_eq m c) b).symm))
  o_main_v102 c := (theOuts_main_v102 m c).trans (congrArg (fun V => (dat6 V qfull c).arrAt 3 cfg6.N)
    (show (fun (c : Dev nD) (b : Ref sig .tc) => U13 m c b) = (En13 m (theOuts m)) from funext fun c => funext fun b => (congrFun (V13_eq m c) b).symm))
  o_main_v123_0 c := (theOuts_main_v123_0 m c).trans (congrArg (fun V => (dat7 V q7 c).arrAt 7 cfg7.N)
    (show (fun (c : Dev nD) (b : Ref sig .tc) => U15 m c b) = (En15 m (theOuts m)) from funext fun c => funext fun b => (congrFun (V15_eq m c) b).symm))
  o_main_v123_1 c := (theOuts_main_v123_1 m c).trans (congrArg (fun V => (dat7 V q7 c).arrAt 8 cfg7.N)
    (show (fun (c : Dev nD) (b : Ref sig .tc) => U15 m c b) = (En15 m (theOuts m)) from funext fun c => funext fun b => (congrFun (V15_eq m c) b).symm))
  o_main_v144_0 c := (theOuts_main_v144_0 m c).trans (congrArg (fun V => (dat8 V qfull c).arrAt 7 cfg8.N)
    (show (fun (c : Dev nD) (b : Ref sig .tc) => U17 m c b) = (En17 m (theOuts m)) from funext fun c => funext fun b => (congrFun (V17_eq m c) b).symm))
  o_main_v144_1 c := (theOuts_main_v144_1 m c).trans (congrArg (fun V => (dat8 V qfull c).arrAt 8 cfg8.N)
    (show (fun (c : Dev nD) (b : Ref sig .tc) => U17 m c b) = (En17 m (theOuts m)) from funext fun c => funext fun b => (congrFun (V17_eq m c) b).symm))
  o_main_v165_0 c := (theOuts_main_v165_0 m c).trans (congrArg (fun V => (dat9 V qfull c).arrAt 7 cfg9.N)
    (show (fun (c : Dev nD) (b : Ref sig .tc) => U19 m c b) = (En19 m (theOuts m)) from funext fun c => funext fun b => (congrFun (V19_eq m c) b).symm))
  o_main_v165_1 c := (theOuts_main_v165_1 m c).trans (congrArg (fun V => (dat9 V qfull c).arrAt 8 cfg9.N)
    (show (fun (c : Dev nD) (b : Ref sig .tc) => U19 m c b) = (En19 m (theOuts m)) from funext fun c => funext fun b => (congrFun (V19_eq m c) b).symm))
  o_main_v186_0 c := (theOuts_main_v186_0 m c).trans (congrArg (fun V => (dat10 V qfull c).arrAt 7 cfg10.N)
    (show (fun (c : Dev nD) (b : Ref sig .tc) => U21 m c b) = (En21 m (theOuts m)) from funext fun c => funext fun b => (congrFun (V21_eq m c) b).symm))
  o_main_v186_1 c := (theOuts_main_v186_1 m c).trans (congrArg (fun V => (dat10 V qfull c).arrAt 8 cfg10.N)
    (show (fun (c : Dev nD) (b : Ref sig .tc) => U21 m c b) = (En21 m (theOuts m)) from funext fun c => funext fun b => (congrFun (V21_eq m c) b).symm))
  o_main_v193 c := (theOuts_main_v193 m c).trans (congrArg (fun V => (dat11 V qfull c).arrAt 5 cfg11.N)
    (show (fun (c : Dev nD) (b : Ref sig .tc) => U23 m c b) = (En23 m (theOuts m)) from funext fun c => funext fun b => (congrFun (V23_eq m c) b).symm))

end Cert.KernelIdeal.Hand

end
-- ==== Proof.KernelIdeal.HostQ.lean ====
import proofs.«101247_j38388417692531_1_alg».proof.Proof.Gen.KernelIdeal.Regions
import Idealize.ShloMosaic.Lib.StableHlo.Run

set_option maxRecDepth 16384

set_option maxHeartbeats 1000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (outs : Outs (F := F))

def edgeSrc (a : IVec S2x1600000 32) : IVec S1600000 32 :=
  shapeCast S1600000 (extractStridedSlice S1x1600000 ![0, 0] a slices_S2x1600000_S1x1600000_0_0) shapeCasts_S1x1600000_S1600000

def edgeDst (a : IVec S2x1600000 32) : IVec S1600000 32 :=
  shapeCast S1600000 (extractStridedSlice S1x1600000 ![1, 0] a slices_S2x1600000_S1x1600000_1_0) shapeCasts_S1x1600000_S1600000

def srcIdx (a : IVec S2x1600000 32) : IVec S1600000x1 32 :=
  broadcastInDim S1600000x1 ![0] bcast_S1600000_S1600000x1_0
    (select (cmpi .slt (edgeSrc a) (broadcastInDim S1600000 ![] bcast_S_S1600000 (constantI S_ 32 0#32)))
      (addi (edgeSrc a) (broadcastInDim S1600000 ![] bcast_S_S1600000 (constantI S_ 32 100000#32)))
      (edgeSrc a))

def dstIdx (a : IVec S2x1600000 32) : IVec S1600000x1 32 :=
  broadcastInDim S1600000x1 ![0] bcast_S1600000_S1600000x1_0 (edgeDst a)

private theorem keep4 (c : Dev nD) (r : Ref sig .tc) (ha : r ∉ ([main_v26_0, main_v26_1] : List (Ref sig .tc))) (hb : r ∉ hostOps1_W) :
    V4 m outs c r = V2 m outs c r := (V4_of m outs c r ha).trans (V3_of m outs c r hb)
private theorem keep6 (c : Dev nD) (r : Ref sig .tc) (ha : r ∉ ([main_v47_0, main_v47_1] : List (Ref sig .tc))) (hb : r ∉ hostOps2_W) :
    V6 m outs c r = V4 m outs c r := (V6_of m outs c r ha).trans (V5_of m outs c r hb)
private theorem keep8 (c : Dev nD) (r : Ref sig .tc) (ha : r ∉ ([main_v68_0, main_v68_1] : List (Ref sig .tc))) (hb : r ∉ hostOps3_W) :
    V8 m outs c r = V6 m outs c r := (V8_of m outs c r ha).trans (V7_of m outs c r hb)
private theorem keep10 (c : Dev nD) (r : Ref sig .tc) (ha : r ∉ ([main_v89_0, main_v89_1] : List (Ref sig .tc))) (hb : r ∉ hostOps4_W) :
    V10 m outs c r = V8 m outs c r := (V10_of m outs c r ha).trans (V9_of m outs c r hb)

private theorem launch2 (c : Dev nD) (r : Ref sig .tc) (h1 : r ∉ ([main_v5] : List (Ref sig .tc))) (h0 : r ∉ hostOps0_W) :
    V2 m outs c r = m ((c : Thread nD τ).loc r) := (V2_of m outs c r h1).trans (V1_of m c r h0)
private theorem launch4 (c : Dev nD) (r : Ref sig .tc) (ha4 : r ∉ ([main_v26_0, main_v26_1] : List (Ref sig .tc))) (hb4 : r ∉ hostOps1_W)
    (h1 : r ∉ ([main_v5] : List (Ref sig .tc))) (h0 : r ∉ hostOps0_W) :
    V4 m outs c r = m ((c : Thread nD τ).loc r) := (keep4 m outs c r ha4 hb4).trans (launch2 m outs c r h1 h0)
private theorem launch6 (c : Dev nD) (r : Ref sig .tc) (ha6 : r ∉ ([main_v47_0, main_v47_1] : List (Ref sig .tc))) (hb6 : r ∉ hostOps2_W)
    (ha4 : r ∉ ([main_v26_0, main_v26_1] : List (Ref sig .tc))) (hb4 : r ∉ hostOps1_W)
    (h1 : r ∉ ([main_v5] : List (Ref sig .tc))) (h0 : r ∉ hostOps0_W) :
    V6 m outs c r = m ((c : Thread nD τ).loc r) := (keep6 m outs c r ha6 hb6).trans (launch4 m outs c r ha4 hb4 h1 h0)
private theorem launch8 (c : Dev nD) (r : Ref sig .tc) (ha8 : r ∉ ([main_v68_0, main_v68_1] : List (Ref sig .tc))) (hb8 : r ∉ hostOps3_W)
    (ha6 : r ∉ ([main_v47_0, main_v47_1] : List (Ref sig .tc))) (hb6 : r ∉ hostOps2_W)
    (ha4 : r ∉ ([main_v26_0, main_v26_1] : List (Ref sig .tc))) (hb4 : r ∉ hostOps1_W)
    (h1 : r ∉ ([main_v5] : List (Ref sig .tc))) (h0 : r ∉ hostOps0_W) :
    V8 m outs c r = m ((c : Thread nD τ).loc r) := (keep8 m outs c r ha8 hb8).trans (launch6 m outs c r ha6 hb6 ha4 hb4 h1 h0)
private theorem launch10 (c : Dev nD) (r : Ref sig .tc) (ha10 : r ∉ ([main_v89_0, main_v89_1] : List (Ref sig .tc))) (hb10 : r ∉ hostOps4_W)
    (ha8 : r ∉ ([main_v68_0, main_v68_1] : List (Ref sig .tc))) (hb8 : r ∉ hostOps3_W)
    (ha6 : r ∉ ([main_v47_0, main_v47_1] : List (Ref sig .tc))) (hb6 : r ∉ hostOps2_W)
    (ha4 : r ∉ ([main_v26_0, main_v26_1] : List (Ref sig .tc))) (hb4 : r ∉ hostOps1_W)
    (h1 : r ∉ ([main_v5] : List (Ref sig .tc))) (h0 : r ∉ hostOps0_W) :
    V10 m outs c r = m ((c : Thread nD τ).loc r) := (keep10 m outs c r ha10 hb10).trans (launch8 m outs c r ha8 hb8 ha6 hb6 ha4 hb4 h1 h0)

private theorem src_at1 (c : Dev nD) : V1 m c main_v1 = edgeSrc (m ((c : Thread nD τ).loc main_arg1)) := by
  show StableHlo.after hostOps0 (V0 m c) (Proc.devRef .tc main_v1) = _
  generalize hW : V0 m c = W
  after_results
  subst hW
  rfl
private theorem dst_at1 (c : Dev nD) : V1 m c main_v3 = edgeDst (m ((c : Thread nD τ).loc main_arg1)) := by
  show StableHlo.after hostOps0 (V0 m c) (Proc.devRef .tc main_v3) = _
  generalize hW : V0 m c = W
  after_results
  subst hW
  rfl
private theorem src_at2 (c : Dev nD) : V2 m outs c main_v1 = edgeSrc (m ((c : Thread nD τ).loc main_arg1)) := (V2_of m outs c main_v1 (by decide)).trans (src_at1 m c)
private theorem dst_at2 (c : Dev nD) : V2 m outs c main_v3 = edgeDst (m ((c : Thread nD τ).loc main_arg1)) := (V2_of m outs c main_v3 (by decide)).trans (dst_at1 m c)
private theorem src_at4 (c : Dev nD) : V4 m outs c main_v1 = edgeSrc (m ((c : Thread nD τ).loc main_arg1)) := (keep4 m outs c main_v1 (by decide) (by decide)).trans (src_at2 m outs c)
private theorem dst_at4 (c : Dev nD) : V4 m outs c main_v3 = edgeDst (m ((c : Thread nD τ).loc main_arg1)) := (keep4 m outs c main_v3 (by decide) (by decide)).trans (dst_at2 m outs c)
private theorem src_at6 (c : Dev nD) : V6 m outs c main_v1 = edgeSrc (m ((c : Thread nD τ).loc main_arg1)) := (keep6 m outs c main_v1 (by decide) (by decide)).trans (src_at4 m outs c)
private theorem dst_at6 (c : Dev nD) : V6 m outs c main_v3 = edgeDst (m ((c : Thread nD τ).loc main_arg1)) := (keep6 m outs c main_v3 (by decide) (by decide)).trans (dst_at4 m outs c)
private theorem src_at8 (c : Dev nD) : V8 m outs c main_v1 = edgeSrc (m ((c : Thread nD τ).loc main_arg1)) := (keep8 m outs c main_v1 (by decide) (by decide)).trans (src_at6 m outs c)
private theorem dst_at8 (c : Dev nD) : V8 m outs c main_v3 = edgeDst (m ((c : Thread nD τ).loc main_arg1)) := (keep8 m outs c main_v3 (by decide) (by decide)).trans (dst_at6 m outs c)

private theorem feat0_at10 (c : Dev nD) : V10 m outs c main_v5 = V2 m outs c main_v5 :=
  (keep10 m outs c main_v5 (by decide) (by decide)).trans <| (keep8 m outs c main_v5 (by decide) (by decide)).trans <|
    (keep6 m outs c main_v5 (by decide) (by decide)).trans (keep4 m outs c main_v5 (by decide) (by decide))
private theorem feat1_at10 (c : Dev nD) : V10 m outs c main_v26_0 = V4 m outs c main_v26_0 :=
  (keep10 m outs c main_v26_0 (by decide) (by decide)).trans <| (keep8 m outs c main_v26_0 (by decide) (by decide)).trans
    (keep6 m outs c main_v26_0 (by decide) (by decide))
private theorem feat2_at10 (c : Dev nD) : V10 m outs c main_v47_0 = V6 m outs c main_v47_0 :=
  (keep10 m outs c main_v47_0 (by decide) (by decide)).trans (keep8 m outs c main_v47_0 (by decide) (by decide))
private theorem feat3_at10 (c : Dev nD) : V10 m outs c main_v68_0 = V8 m outs c main_v68_0 :=
  keep10 m outs c main_v68_0 (by decide) (by decide)

theorem rd0_0 (c : Dev nD) : V1 m c main_arg0 = m ((c : Thread nD τ).loc main_arg0) := V1_of m c main_arg0 (by decide)

theorem rd0_1 (c : Dev nD) : V1 m c main_arg6 = m ((c : Thread nD τ).loc main_arg6) := V1_of m c main_arg6 (by decide)

theorem rd0_2 (c : Dev nD) : V1 m c main_v4 = (shapeCast S1x64 (m ((c : Thread nD τ).loc main_arg7)) shapeCasts_S64_S1x64 : Vec F S1x64 .f32) := by
  show StableHlo.after hostOps0 (V0 m c) (Proc.devRef .tc main_v4) = _
  generalize hW : V0 m c = W
  after_results
  subst hW
  rfl

theorem rd1_0 (c : Dev nD) : V3 m outs c main_v5 = V2 m outs c main_v5 := V3_of m outs c main_v5 (by decide)

theorem rd1_1 (c : Dev nD) : V3 m outs c main_v15 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg1)))
        (Host.gather gather_S100000x64_S1600000x1_S1600000x64_1_0_n_n_0_1_164 (V2 m outs c main_v5) (srcIdx (m ((c : Thread nD τ).loc main_arg1)))) : Vec F S100000x64 .f32) := by
  show StableHlo.after hostOps1 (V2 m outs c) (Proc.devRef .tc main_v15) = _
  generalize hW : V2 m outs c = W
  after_results
  subst hW
  rw [src_at2 m outs c, dst_at2 m outs c]
  rfl

theorem rd1_2 (c : Dev nD) : V3 m outs c main_v5 = V2 m outs c main_v5 := V3_of m outs c main_v5 (by decide)

theorem rd1_3 (c : Dev nD) : V3 m outs c main_v17 =
      (shapeCast S64x64 (extractStridedSlice S1x64x64 ![0, 0, 0] (m ((c : Thread nD τ).loc main_arg8)) slices_S4x64x64_S1x64x64_0_0_0) shapeCasts_S1x64x64_S64x64 : Vec F S64x64 .f32) := by
  show StableHlo.after hostOps1 (V2 m outs c) (Proc.devRef .tc main_v17) = _
  generalize hW : V2 m outs c = W
  after_results
  subst hW
  rw [launch2 m outs c main_arg8 (by decide) (by decide)]
  rfl

theorem rd1_4 (c : Dev nD) : V3 m outs c main_v24 =
      (shapeCast S1x64 (shapeCast S64 (extractStridedSlice S1x64 ![0, 0] (m ((c : Thread nD τ).loc main_arg9)) slices_S4x64_S1x64_0_0) shapeCasts_S1x64_S64) shapeCasts_S64_S1x64 : Vec F S1x64 .f32) := by
  show StableHlo.after hostOps1 (V2 m outs c) (Proc.devRef .tc main_v24) = _
  generalize hW : V2 m outs c = W
  after_results
  subst hW
  rw [launch2 m outs c main_arg9 (by decide) (by decide)]
  rfl

theorem rd1_5 (c : Dev nD) : V3 m outs c main_v21 =
      (shapeCast S64x64 (extractStridedSlice S1x64x64 ![0, 0, 0] (m ((c : Thread nD τ).loc main_arg10)) slices_S4x64x64_S1x64x64_0_0_0) shapeCasts_S1x64x64_S64x64 : Vec F S64x64 .f32) := by
  show StableHlo.after hostOps1 (V2 m outs c) (Proc.devRef .tc main_v21) = _
  generalize hW : V2 m outs c = W
  after_results
  subst hW
  rw [launch2 m outs c main_arg10 (by decide) (by decide)]
  rfl

theorem rd1_6 (c : Dev nD) : V3 m outs c main_v25 =
      (shapeCast S1x64 (shapeCast S64 (extractStridedSlice S1x64 ![0, 0] (m ((c : Thread nD τ).loc main_arg11)) slices_S4x64_S1x64_0_0) shapeCasts_S1x64_S64) shapeCasts_S64_S1x64 : Vec F S1x64 .f32) := by
  show StableHlo.after hostOps1 (V2 m outs c) (Proc.devRef .tc main_v25) = _
  generalize hW : V2 m outs c = W
  after_results
  subst hW
  rw [launch2 m outs c main_arg11 (by decide) (by decide)]
  rfl

theorem rd2_0 (c : Dev nD) : V5 m outs c main_v26_0 = V4 m outs c main_v26_0 := V5_of m outs c main_v26_0 (by decide)

theorem rd2_1 (c : Dev nD) : V5 m outs c main_v36 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg1)))
        (Host.gather gather_S100000x64_S1600000x1_S1600000x64_1_0_n_n_0_1_164 (V4 m outs c main_v26_0) (srcIdx (m ((c : Thread nD τ).loc main_arg1)))) : Vec F S100000x64 .f32) := by
  show StableHlo.after hostOps2 (V4 m outs c) (Proc.devRef .tc main_v36) = _
  generalize hW : V4 m outs c = W
  after_results
  subst hW
  rw [src_at4 m outs c, dst_at4 m outs c]
  rfl

theorem rd2_2 (c : Dev nD) : V5 m outs c main_v26_1 = V4 m outs c main_v26_1 := V5_of m outs c main_v26_1 (by decide)

theorem rd2_3 (c : Dev nD) : V5 m outs c main_v38 =
      (shapeCast S64x64 (extractStridedSlice S1x64x64 ![1, 0, 0] (m ((c : Thread nD τ).loc main_arg8)) slices_S4x64x64_S1x64x64_1_0_0) shapeCasts_S1x64x64_S64x64 : Vec F S64x64 .f32) := by
  show StableHlo.after hostOps2 (V4 m outs c) (Proc.devRef .tc main_v38) = _
  generalize hW : V4 m outs c = W
  after_results
  subst hW
  rw [launch4 m outs c main_arg8 (by decide) (by decide) (by decide) (by decide)]
  rfl

theorem rd2_4 (c : Dev nD) : V5 m outs c main_v45 =
      (shapeCast S1x64 (shapeCast S64 (extractStridedSlice S1x64 ![1, 0] (m ((c : Thread nD τ).loc main_arg9)) slices_S4x64_S1x64_1_0) shapeCasts_S1x64_S64) shapeCasts_S64_S1x64 : Vec F S1x64 .f32) := by
  show StableHlo.after hostOps2 (V4 m outs c) (Proc.devRef .tc main_v45) = _
  generalize hW : V4 m outs c = W
  after_results
  subst hW
  rw [launch4 m outs c main_arg9 (by decide) (by decide) (by decide) (by decide)]
  rfl

theorem rd2_5 (c : Dev nD) : V5 m outs c main_v42 =
      (shapeCast S64x64 (extractStridedSlice S1x64x64 ![1, 0, 0] (m ((c : Thread nD τ).loc main_arg10)) slices_S4x64x64_S1x64x64_1_0_0) shapeCasts_S1x64x64_S64x64 : Vec F S64x64 .f32) := by
  show StableHlo.after hostOps2 (V4 m outs c) (Proc.devRef .tc main_v42) = _
  generalize hW : V4 m outs c = W
  after_results
  subst hW
  rw [launch4 m outs c main_arg10 (by decide) (by decide) (by decide) (by decide)]
  rfl

theorem rd2_6 (c : Dev nD) : V5 m outs c main_v46 =
      (shapeCast S1x64 (shapeCast S64 (extractStridedSlice S1x64 ![1, 0] (m ((c : Thread nD τ).loc main_arg11)) slices_S4x64_S1x64_1_0) shapeCasts_S1x64_S64) shapeCasts_S64_S1x64 : Vec F S1x64 .f32) := by
  show StableHlo.after hostOps2 (V4 m outs c) (Proc.devRef .tc main_v46) = _
  generalize hW : V4 m outs c = W
  after_results
  subst hW
  rw [launch4 m outs c main_arg11 (by decide) (by decide) (by decide) (by decide)]
  rfl

theorem rd3_0 (c : Dev nD) : V7 m outs c main_v47_0 = V6 m outs c main_v47_0 := V7_of m outs c main_v47_0 (by decide)

theorem rd3_1 (c : Dev nD) : V7 m outs c main_v57 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg1)))
        (Host.gather gather_S100000x64_S1600000x1_S1600000x64_1_0_n_n_0_1_164 (V6 m outs c main_v47_0) (srcIdx (m ((c : Thread nD τ).loc main_arg1)))) : Vec F S100000x64 .f32) := by
  show StableHlo.after hostOps3 (V6 m outs c) (Proc.devRef .tc main_v57) = _
  generalize hW : V6 m outs c = W
  after_results
  subst hW
  rw [src_at6 m outs c, dst_at6 m outs c]
  rfl

theorem rd3_2 (c : Dev nD) : V7 m outs c main_v47_1 = V6 m outs c main_v47_1 := V7_of m outs c main_v47_1 (by decide)

theorem rd3_3 (c : Dev nD) : V7 m outs c main_v59 =
      (shapeCast S64x64 (extractStridedSlice S1x64x64 ![2, 0, 0] (m ((c : Thread nD τ).loc main_arg8)) slices_S4x64x64_S1x64x64_2_0_0) shapeCasts_S1x64x64_S64x64 : Vec F S64x64 .f32) := by
  show StableHlo.after hostOps3 (V6 m outs c) (Proc.devRef .tc main_v59) = _
  generalize hW : V6 m outs c = W
  after_results
  subst hW
  rw [launch6 m outs c main_arg8 (by decide) (by decide) (by decide) (by decide) (by decide) (by decide)]
  rfl

theorem rd3_4 (c : Dev nD) : V7 m outs c main_v66 =
      (shapeCast S1x64 (shapeCast S64 (extractStridedSlice S1x64 ![2, 0] (m ((c : Thread nD τ).loc main_arg9)) slices_S4x64_S1x64_2_0) shapeCasts_S1x64_S64) shapeCasts_S64_S1x64 : Vec F S1x64 .f32) := by
  show StableHlo.after hostOps3 (V6 m outs c) (Proc.devRef .tc main_v66) = _
  generalize hW : V6 m outs c = W
  after_results
  subst hW
  rw [launch6 m outs c main_arg9 (by decide) (by decide) (by decide) (by decide) (by decide) (by decide)]
  rfl

theorem rd3_5 (c : Dev nD) : V7 m outs c main_v63 =
      (shapeCast S64x64 (extractStridedSlice S1x64x64 ![2, 0, 0] (m ((c : Thread nD τ).loc main_arg10)) slices_S4x64x64_S1x64x64_2_0_0) shapeCasts_S1x64x64_S64x64 : Vec F S64x64 .f32) := by
  show StableHlo.after hostOps3 (V6 m outs c) (Proc.devRef .tc main_v63) = _
  generalize hW : V6 m outs c = W
  after_results
  subst hW
  rw [launch6 m outs c main_arg10 (by decide) (by decide) (by decide) (by decide) (by decide) (by decide)]
  rfl

theorem rd3_6 (c : Dev nD) : V7 m outs c main_v67 =
      (shapeCast S1x64 (shapeCast S64 (extractStridedSlice S1x64 ![2, 0] (m ((c : Thread nD τ).loc main_arg11)) slices_S4x64_S1x64_2_0) shapeCasts_S1x64_S64) shapeCasts_S64_S1x64 : Vec F S1x64 .f32) := by
  show StableHlo.after hostOps3 (V6 m outs c) (Proc.devRef .tc main_v67) = _
  generalize hW : V6 m outs c = W
  after_results
  subst hW
  rw [launch6 m outs c main_arg11 (by decide) (by decide) (by decide) (by decide) (by decide) (by decide)]
  rfl

theorem rd4_0 (c : Dev nD) : V9 m outs c main_v68_0 = V8 m outs c main_v68_0 := V9_of m outs c main_v68_0 (by decide)

theorem rd4_1 (c : Dev nD) : V9 m outs c main_v78 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg1)))
        (Host.gather gather_S100000x64_S1600000x1_S1600000x64_1_0_n_n_0_1_164 (V8 m outs c main_v68_0) (srcIdx (m ((c : Thread nD τ).loc main_arg1)))) : Vec F S100000x64 .f32) := by
  show StableHlo.after hostOps4 (V8 m outs c) (Proc.devRef .tc main_v78) = _
  generalize hW : V8 m outs c = W
  after_results
  subst hW
  rw [src_at8 m outs c, dst_at8 m outs c]
  rfl

theorem rd4_2 (c : Dev nD) : V9 m outs c main_v68_1 = V8 m outs c main_v68_1 := V9_of m outs c main_v68_1 (by decide)

theorem rd4_3 (c : Dev nD) : V9 m outs c main_v80 =
      (shapeCast S64x64 (extractStridedSlice S1x64x64 ![3, 0, 0] (m ((c : Thread nD τ).loc main_arg8)) slices_S4x64x64_S1x64x64_3_0_0) shapeCasts_S1x64x64_S64x64 : Vec F S64x64 .f32) := by
  show StableHlo.after hostOps4 (V8 m outs c) (Proc.devRef .tc main_v80) = _
  generalize hW : V8 m outs c = W
  after_results
  subst hW
  rw [launch8 m outs c main_arg8 (by decide) (by decide) (by decide) (by decide) (by decide) (by decide) (by decide) (by decide)]
  rfl

theorem rd4_4 (c : Dev nD) : V9 m outs c main_v87 =
      (shapeCast S1x64 (shapeCast S64 (extractStridedSlice S1x64 ![3, 0] (m ((c : Thread nD τ).loc main_arg9)) slices_S4x64_S1x64_3_0) shapeCasts_S1x64_S64) shapeCasts_S64_S1x64 : Vec F S1x64 .f32) := by
  show StableHlo.after hostOps4 (V8 m outs c) (Proc.devRef .tc main_v87) = _
  generalize hW : V8 m outs c = W
  after_results
  subst hW
  rw [launch8 m outs c main_arg9 (by decide) (by decide) (by decide) (by decide) (by decide) (by decide) (by decide) (by decide)]
  rfl

theorem rd4_5 (c : Dev nD) : V9 m outs c main_v84 =
      (shapeCast S64x64 (extractStridedSlice S1x64x64 ![3, 0, 0] (m ((c : Thread nD τ).loc main_arg10)) slices_S4x64x64_S1x64x64_3_0_0) shapeCasts_S1x64x64_S64x64 : Vec F S64x64 .f32) := by
  show StableHlo.after hostOps4 (V8 m outs c) (Proc.devRef .tc main_v84) = _
  generalize hW : V8 m outs c = W
  after_results
  subst hW
  rw [launch8 m outs c main_arg10 (by decide) (by decide) (by decide) (by decide) (by decide) (by decide) (by decide) (by decide)]
  rfl

theorem rd4_6 (c : Dev nD) : V9 m outs c main_v88 =
      (shapeCast S1x64 (shapeCast S64 (extractStridedSlice S1x64 ![3, 0] (m ((c : Thread nD τ).loc main_arg11)) slices_S4x64_S1x64_3_0) shapeCasts_S1x64_S64) shapeCasts_S64_S1x64 : Vec F S1x64 .f32) := by
  show StableHlo.after hostOps4 (V8 m outs c) (Proc.devRef .tc main_v88) = _
  generalize hW : V8 m outs c = W
  after_results
  subst hW
  rw [launch8 m outs c main_arg11 (by decide) (by decide) (by decide) (by decide) (by decide) (by decide) (by decide) (by decide)]
  rfl

theorem rd5_0 (c : Dev nD) : V11 m outs c main_v93 =
      (Host.scatterAdd scatter_S128x320_S100000x1_S100000x320_1_0_0_1
        (broadcastInDim S128x320 ![] bcast_S_S128x320 (constant (F := F) S_ .f32 0x00000000#32))
        (broadcastInDim S100000x1 ![0] bcast_S100000_S100000x1_0 (m ((c : Thread nD τ).loc main_arg2)))
        (concatenate S100000x320 1 [⟨S100000x64, V2 m outs c main_v5⟩, ⟨S100000x64, V4 m outs c main_v26_0⟩, ⟨S100000x64, V6 m outs c main_v47_0⟩, ⟨S100000x64, V8 m outs c main_v68_0⟩, ⟨S100000x64, V10 m outs c main_v89_0⟩]
          concatenates_S100000x64_S100000x64_S100000x64_S100000x64_S100000x64_S100000x320_d1) : Vec F S128x320 .f32) := by
  show StableHlo.after hostOps5 (V10 m outs c) (Proc.devRef .tc main_v93) = _
  generalize hW : V10 m outs c = W
  after_results
  subst hW
  show Host.scatterAdd scatter_S128x320_S100000x1_S100000x320_1_0_0_1
      (broadcastInDim S128x320 ![] bcast_S_S128x320 (constant (F := F) S_ .f32 0x00000000#32))
      (broadcastInDim S100000x1 ![0] bcast_S100000_S100000x1_0 (V10 m outs c main_arg2))
      (concatenate S100000x320 1 [⟨S100000x64, V10 m outs c main_v5⟩, ⟨S100000x64, V10 m outs c main_v26_0⟩, ⟨S100000x64, V10 m outs c main_v47_0⟩, ⟨S100000x64, V10 m outs c main_v68_0⟩, ⟨S100000x64, V10 m outs c main_v89_0⟩]
        concatenates_S100000x64_S100000x64_S100000x64_S100000x64_S100000x64_S100000x320_d1) = _
  rw [launch10 m outs c main_arg2 (by decide) (by decide) (by decide) (by decide) (by decide) (by decide) (by decide) (by decide) (by decide) (by decide), feat0_at10 m outs c, feat1_at10 m outs c, feat2_at10 m outs c, feat3_at10 m outs c]

theorem rd5_1 (c : Dev nD) : V11 m outs c main_arg12 = m ((c : Thread nD τ).loc main_arg12) := (V11_of m outs c main_arg12 (by decide)).trans (launch10 m outs c main_arg12 (by decide) (by decide) (by decide) (by decide) (by decide) (by decide) (by decide) (by decide) (by decide) (by decide))

theorem rd5_2 (c : Dev nD) : V11 m outs c main_v94 = (shapeCast S1x64 (m ((c : Thread nD τ).loc main_arg13)) shapeCasts_S64_S1x64 : Vec F S1x64 .f32) := by
  show StableHlo.after hostOps5 (V10 m outs c) (Proc.devRef .tc main_v94) = _
  generalize hW : V10 m outs c = W
  after_results
  subst hW
  rw [launch10 m outs c main_arg13 (by decide) (by decide) (by decide) (by decide) (by decide) (by decide) (by decide) (by decide) (by decide) (by decide)]
  rfl

theorem rd5_3 (c : Dev nD) : V11 m outs c main_arg14 = m ((c : Thread nD τ).loc main_arg14) := (V11_of m outs c main_arg14 (by decide)).trans (launch10 m outs c main_arg14 (by decide) (by decide) (by decide) (by decide) (by decide) (by decide) (by decide) (by decide) (by decide) (by decide))

theorem rd5_4 (c : Dev nD) : V11 m outs c main_v95 = (shapeCast S1x32 (m ((c : Thread nD τ).loc main_arg15)) shapeCasts_S32_S1x32 : Vec F S1x32 .f32) := by
  show StableHlo.after hostOps5 (V10 m outs c) (Proc.devRef .tc main_v95) = _
  generalize hW : V10 m outs c = W
  after_results
  subst hW
  rw [launch10 m outs c main_arg15 (by decide) (by decide) (by decide) (by decide) (by decide) (by decide) (by decide) (by decide) (by decide) (by decide)]
  rfl

end Cert.KernelIdeal.Hand

end
-- ==== Proof.KernelIdeal.HostC.lean ====
import proofs.«101247_j38388417692531_1_alg».proof.Proof.Gen.KernelIdeal.Regions
import proofs.«101247_j38388417692531_1_alg».proof.Proof.KernelIdeal.HostQ
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (outs : Outs (F := F))

private theorem arg3_at13 (c : Dev nD) : V13 m outs c main_arg3 = m ((c : Thread nD τ).loc main_arg3) :=
  (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide)).trans rfl
private theorem arg6_at13 (c : Dev nD) : V13 m outs c main_arg6 = m ((c : Thread nD τ).loc main_arg6) :=
  (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans rfl
private theorem arg7_at12 (c : Dev nD) : V12 m outs c main_arg7 = m ((c : Thread nD τ).loc main_arg7) :=
  (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide)).trans rfl
private theorem arg4_at12 (c : Dev nD) : V12 m outs c main_arg4 = m ((c : Thread nD τ).loc main_arg4) :=
  (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide)).trans rfl
private theorem arg8_at14 (c : Dev nD) : V14 m outs c main_arg8 = m ((c : Thread nD τ).loc main_arg8) :=
  (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans rfl
private theorem arg8_at16 (c : Dev nD) : V16 m outs c main_arg8 = m ((c : Thread nD τ).loc main_arg8) :=
  (V16_of m outs c main_arg8 (by decide)).trans <| (V15_of m outs c main_arg8 (by decide)).trans (arg8_at14 m outs c)
private theorem arg8_at18 (c : Dev nD) : V18 m outs c main_arg8 = m ((c : Thread nD τ).loc main_arg8) :=
  (V18_of m outs c main_arg8 (by decide)).trans <| (V17_of m outs c main_arg8 (by decide)).trans (arg8_at16 m outs c)
private theorem arg8_at20 (c : Dev nD) : V20 m outs c main_arg8 = m ((c : Thread nD τ).loc main_arg8) :=
  (V20_of m outs c main_arg8 (by decide)).trans <| (V19_of m outs c main_arg8 (by decide)).trans (arg8_at18 m outs c)
private theorem arg9_at14 (c : Dev nD) : V14 m outs c main_arg9 = m ((c : Thread nD τ).loc main_arg9) :=
  (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans rfl
private theorem arg9_at16 (c : Dev nD) : V16 m outs c main_arg9 = m ((c : Thread nD τ).loc main_arg9) :=
  (V16_of m outs c main_arg9 (by decide)).trans <| (V15_of m outs c main_arg9 (by decide)).trans (arg9_at14 m outs c)
private theorem arg9_at18 (c : Dev nD) : V18 m outs c main_arg9 = m ((c : Thread nD τ).loc main_arg9) :=
  (V18_of m outs c main_arg9 (by decide)).trans <| (V17_of m outs c main_arg9 (by decide)).trans (arg9_at16 m outs c)
private theorem arg9_at20 (c : Dev nD) : V20 m outs c main_arg9 = m ((c : Thread nD τ).loc main_arg9) :=
  (V20_of m outs c main_arg9 (by decide)).trans <| (V19_of m outs c main_arg9 (by decide)).trans (arg9_at18 m outs c)
private theorem arg10_at14 (c : Dev nD) : V14 m outs c main_arg10 = m ((c : Thread nD τ).loc main_arg10) :=
  (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans rfl
private theorem arg10_at16 (c : Dev nD) : V16 m outs c main_arg10 = m ((c : Thread nD τ).loc main_arg10) :=
  (V16_of m outs c main_arg10 (by decide)).trans <| (V15_of m outs c main_arg10 (by decide)).trans (arg10_at14 m outs c)
private theorem arg10_at18 (c : Dev nD) : V18 m outs c main_arg10 = m ((c : Thread nD τ).loc main_arg10) :=
  (V18_of m outs c main_arg10 (by decide)).trans <| (V17_of m outs c main_arg10 (by decide)).trans (arg10_at16 m outs c)
private theorem arg10_at20 (c : Dev nD) : V20 m outs c main_arg10 = m ((c : Thread nD τ).loc main_arg10) :=
  (V20_of m outs c main_arg10 (by decide)).trans <| (V19_of m outs c main_arg10 (by decide)).trans (arg10_at18 m outs c)
private theorem arg11_at14 (c : Dev nD) : V14 m outs c main_arg11 = m ((c : Thread nD τ).loc main_arg11) :=
  (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans rfl
private theorem arg11_at16 (c : Dev nD) : V16 m outs c main_arg11 = m ((c : Thread nD τ).loc main_arg11) :=
  (V16_of m outs c main_arg11 (by decide)).trans <| (V15_of m outs c main_arg11 (by decide)).trans (arg11_at14 m outs c)
private theorem arg11_at18 (c : Dev nD) : V18 m outs c main_arg11 = m ((c : Thread nD τ).loc main_arg11) :=
  (V18_of m outs c main_arg11 (by decide)).trans <| (V17_of m outs c main_arg11 (by decide)).trans (arg11_at16 m outs c)
private theorem arg11_at20 (c : Dev nD) : V20 m outs c main_arg11 = m ((c : Thread nD τ).loc main_arg11) :=
  (V20_of m outs c main_arg11 (by decide)).trans <| (V19_of m outs c main_arg11 (by decide)).trans (arg11_at18 m outs c)
private theorem arg5_at22 (c : Dev nD) : V22 m outs c main_arg5 = m ((c : Thread nD τ).loc main_arg5) :=
  (V22_of m outs c main_arg5 (by decide)).trans <| (V21_of m outs c main_arg5 (by decide)).trans <| (V20_of m outs c main_arg5 (by decide)).trans <| (V19_of m outs c main_arg5 (by decide)).trans <| (V18_of m outs c main_arg5 (by decide)).trans <| (V17_of m outs c main_arg5 (by decide)).trans <| (V16_of m outs c main_arg5 (by decide)).trans <| (V15_of m outs c main_arg5 (by decide)).trans <| (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide)).trans rfl
private theorem arg13_at22 (c : Dev nD) : V22 m outs c main_arg13 = m ((c : Thread nD τ).loc main_arg13) :=
  (V22_of m outs c main_arg13 (by decide)).trans <| (V21_of m outs c main_arg13 (by decide)).trans <| (V20_of m outs c main_arg13 (by decide)).trans <| (V19_of m outs c main_arg13 (by decide)).trans <| (V18_of m outs c main_arg13 (by decide)).trans <| (V17_of m outs c main_arg13 (by decide)).trans <| (V16_of m outs c main_arg13 (by decide)).trans <| (V15_of m outs c main_arg13 (by decide)).trans <| (V14_of m outs c main_arg13 (by decide)).trans <| (V13_of m outs c main_arg13 (by decide)).trans <| (V12_of m outs c main_arg13 (by decide)).trans <| (V11_of m outs c main_arg13 (by decide)).trans <| (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m outs c main_arg13 (by decide)).trans <| (V3_of m outs c main_arg13 (by decide)).trans <| (V2_of m outs c main_arg13 (by decide)).trans <| (V1_of m c main_arg13 (by decide)).trans rfl
private theorem arg15_at22 (c : Dev nD) : V22 m outs c main_arg15 = m ((c : Thread nD τ).loc main_arg15) :=
  (V22_of m outs c main_arg15 (by decide)).trans <| (V21_of m outs c main_arg15 (by decide)).trans <| (V20_of m outs c main_arg15 (by decide)).trans <| (V19_of m outs c main_arg15 (by decide)).trans <| (V18_of m outs c main_arg15 (by decide)).trans <| (V17_of m outs c main_arg15 (by decide)).trans <| (V16_of m outs c main_arg15 (by decide)).trans <| (V15_of m outs c main_arg15 (by decide)).trans <| (V14_of m outs c main_arg15 (by decide)).trans <| (V13_of m outs c main_arg15 (by decide)).trans <| (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide)).trans rfl
private theorem arg12_at23 (c : Dev nD) : V23 m outs c main_arg12 = m ((c : Thread nD τ).loc main_arg12) :=
  (V23_of m outs c main_arg12 (by decide)).trans <| (V22_of m outs c main_arg12 (by decide)).trans <| (V21_of m outs c main_arg12 (by decide)).trans <| (V20_of m outs c main_arg12 (by decide)).trans <| (V19_of m outs c main_arg12 (by decide)).trans <| (V18_of m outs c main_arg12 (by decide)).trans <| (V17_of m outs c main_arg12 (by decide)).trans <| (V16_of m outs c main_arg12 (by decide)).trans <| (V15_of m outs c main_arg12 (by decide)).trans <| (V14_of m outs c main_arg12 (by decide)).trans <| (V13_of m outs c main_arg12 (by decide)).trans <| (V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans rfl
private theorem arg14_at23 (c : Dev nD) : V23 m outs c main_arg14 = m ((c : Thread nD τ).loc main_arg14) :=
  (V23_of m outs c main_arg14 (by decide)).trans <| (V22_of m outs c main_arg14 (by decide)).trans <| (V21_of m outs c main_arg14 (by decide)).trans <| (V20_of m outs c main_arg14 (by decide)).trans <| (V19_of m outs c main_arg14 (by decide)).trans <| (V18_of m outs c main_arg14 (by decide)).trans <| (V17_of m outs c main_arg14 (by decide)).trans <| (V16_of m outs c main_arg14 (by decide)).trans <| (V15_of m outs c main_arg14 (by decide)).trans <| (V14_of m outs c main_arg14 (by decide)).trans <| (V13_of m outs c main_arg14 (by decide)).trans <| (V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide)).trans rfl

private theorem src_at14 (c : Dev nD) : V14 m outs c main_v98 = edgeSrc (m ((c : Thread nD τ).loc main_arg4)) := by
  rw [V14_of m outs c main_v98 (by decide)]
  show StableHlo.after hostOps6 _ (Proc.devRef .tc main_v98) = _
  after_results
  rw [arg4_at12]
  rfl
private theorem dst_at14 (c : Dev nD) : V14 m outs c main_v100 = edgeDst (m ((c : Thread nD τ).loc main_arg4)) := by
  rw [V14_of m outs c main_v100 (by decide)]
  show StableHlo.after hostOps6 _ (Proc.devRef .tc main_v100) = _
  after_results
  rw [arg4_at12]
  rfl
private theorem src_at16 (c : Dev nD) : V16 m outs c main_v98 = edgeSrc (m ((c : Thread nD τ).loc main_arg4)) :=
  (V16_of m outs c main_v98 (by decide)).trans <| (V15_of m outs c main_v98 (by decide)).trans (src_at14 m outs c)
private theorem dst_at16 (c : Dev nD) : V16 m outs c main_v100 = edgeDst (m ((c : Thread nD τ).loc main_arg4)) :=
  (V16_of m outs c main_v100 (by decide)).trans <| (V15_of m outs c main_v100 (by decide)).trans (dst_at14 m outs c)
private theorem src_at18 (c : Dev nD) : V18 m outs c main_v98 = edgeSrc (m ((c : Thread nD τ).loc main_arg4)) :=
  (V18_of m outs c main_v98 (by decide)).trans <| (V17_of m outs c main_v98 (by decide)).trans (src_at16 m outs c)
private theorem dst_at18 (c : Dev nD) : V18 m outs c main_v100 = edgeDst (m ((c : Thread nD τ).loc main_arg4)) :=
  (V18_of m outs c main_v100 (by decide)).trans <| (V17_of m outs c main_v100 (by decide)).trans (dst_at16 m outs c)
private theorem src_at20 (c : Dev nD) : V20 m outs c main_v98 = edgeSrc (m ((c : Thread nD τ).loc main_arg4)) :=
  (V20_of m outs c main_v98 (by decide)).trans <| (V19_of m outs c main_v98 (by decide)).trans (src_at18 m outs c)
private theorem dst_at20 (c : Dev nD) : V20 m outs c main_v100 = edgeDst (m ((c : Thread nD τ).loc main_arg4)) :=
  (V20_of m outs c main_v100 (by decide)).trans <| (V19_of m outs c main_v100 (by decide)).trans (dst_at18 m outs c)

theorem rd6_0 (c : Dev nD) : V13 m outs c main_arg3 = m ((c : Thread nD τ).loc main_arg3) := arg3_at13 m outs c

theorem rd6_1 (c : Dev nD) : V13 m outs c main_arg6 = m ((c : Thread nD τ).loc main_arg6) := arg6_at13 m outs c

theorem rd6_2 (c : Dev nD) : V13 m outs c main_v101 = (shapeCast S1x64 (m ((c : Thread nD τ).loc main_arg7)) shapeCasts_S64_S1x64 : Vec F S1x64 .f32) := by
  show StableHlo.after hostOps6 _ (Proc.devRef .tc main_v101) = _
  after_results
  rw [arg7_at12]
  rfl

theorem rd7_0 (c : Dev nD) : V15 m outs c main_v102 = V14 m outs c main_v102 := V15_of m outs c main_v102 (by decide)

theorem rd7_1 (c : Dev nD) : V15 m outs c main_v112 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg4)))
        (Host.gather gather_S100000x64_S1600000x1_S1600000x64_1_0_n_n_0_1_164 (V14 m outs c main_v102) (srcIdx (m ((c : Thread nD τ).loc main_arg4)))) : Vec F S100000x64 .f32) := by
  show StableHlo.after hostOps7 _ (Proc.devRef .tc main_v112) = _
  after_results
  rw [src_at14, dst_at14]
  rfl

theorem rd7_2 (c : Dev nD) : V15 m outs c main_v102 = V14 m outs c main_v102 := V15_of m outs c main_v102 (by decide)

theorem rd7_3 (c : Dev nD) : V15 m outs c main_v114 = (shapeCast S64x64 (extractStridedSlice S1x64x64 ![0, 0, 0] (m ((c : Thread nD τ).loc main_arg8)) slices_S4x64x64_S1x64x64_0_0_0) shapeCasts_S1x64x64_S64x64 : Vec F S64x64 .f32) := by
  show StableHlo.after hostOps7 _ (Proc.devRef .tc main_v114) = _
  after_results
  rw [arg8_at14]
  rfl

theorem rd7_4 (c : Dev nD) : V15 m outs c main_v121 = (shapeCast S1x64 (shapeCast S64 (extractStridedSlice S1x64 ![0, 0] (m ((c : Thread nD τ).loc main_arg9)) slices_S4x64_S1x64_0_0) shapeCasts_S1x64_S64) shapeCasts_S64_S1x64 : Vec F S1x64 .f32) := by
  show StableHlo.after hostOps7 _ (Proc.devRef .tc main_v121) = _
  after_results
  rw [arg9_at14]
  rfl

theorem rd7_5 (c : Dev nD) : V15 m outs c main_v118 = (shapeCast S64x64 (extractStridedSlice S1x64x64 ![0, 0, 0] (m ((c : Thread nD τ).loc main_arg10)) slices_S4x64x64_S1x64x64_0_0_0) shapeCasts_S1x64x64_S64x64 : Vec F S64x64 .f32) := by
  show StableHlo.after hostOps7 _ (Proc.devRef .tc main_v118) = _
  after_results
  rw [arg10_at14]
  rfl

theorem rd7_6 (c : Dev nD) : V15 m outs c main_v122 = (shapeCast S1x64 (shapeCast S64 (extractStridedSlice S1x64 ![0, 0] (m ((c : Thread nD τ).loc main_arg11)) slices_S4x64_S1x64_0_0) shapeCasts_S1x64_S64) shapeCasts_S64_S1x64 : Vec F S1x64 .f32) := by
  show StableHlo.after hostOps7 _ (Proc.devRef .tc main_v122) = _
  after_results
  rw [arg11_at14]
  rfl

theorem rd8_0 (c : Dev nD) : V17 m outs c main_v123_0 = V16 m outs c main_v123_0 := V17_of m outs c main_v123_0 (by decide)

theorem rd8_1 (c : Dev nD) : V17 m outs c main_v133 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg4)))
        (Host.gather gather_S100000x64_S1600000x1_S1600000x64_1_0_n_n_0_1_164 (V16 m outs c main_v123_0) (srcIdx (m ((c : Thread nD τ).loc main_arg4)))) : Vec F S100000x64 .f32) := by
  show StableHlo.after hostOps8 _ (Proc.devRef .tc main_v133) = _
  after_results
  rw [src_at16, dst_at16]
  rfl

theorem rd8_2 (c : Dev nD) : V17 m outs c main_v123_1 = V16 m outs c main_v123_1 := V17_of m outs c main_v123_1 (by decide)

theorem rd8_3 (c : Dev nD) : V17 m outs c main_v135 = (shapeCast S64x64 (extractStridedSlice S1x64x64 ![1, 0, 0] (m ((c : Thread nD τ).loc main_arg8)) slices_S4x64x64_S1x64x64_1_0_0) shapeCasts_S1x64x64_S64x64 : Vec F S64x64 .f32) := by
  show StableHlo.after hostOps8 _ (Proc.devRef .tc main_v135) = _
  after_results
  rw [arg8_at16]
  rfl

theorem rd8_4 (c : Dev nD) : V17 m outs c main_v142 = (shapeCast S1x64 (shapeCast S64 (extractStridedSlice S1x64 ![1, 0] (m ((c : Thread nD τ).loc main_arg9)) slices_S4x64_S1x64_1_0) shapeCasts_S1x64_S64) shapeCasts_S64_S1x64 : Vec F S1x64 .f32) := by
  show StableHlo.after hostOps8 _ (Proc.devRef .tc main_v142) = _
  after_results
  rw [arg9_at16]
  rfl

theorem rd8_5 (c : Dev nD) : V17 m outs c main_v139 = (shapeCast S64x64 (extractStridedSlice S1x64x64 ![1, 0, 0] (m ((c : Thread nD τ).loc main_arg10)) slices_S4x64x64_S1x64x64_1_0_0) shapeCasts_S1x64x64_S64x64 : Vec F S64x64 .f32) := by
  show StableHlo.after hostOps8 _ (Proc.devRef .tc main_v139) = _
  after_results
  rw [arg10_at16]
  rfl

theorem rd8_6 (c : Dev nD) : V17 m outs c main_v143 = (shapeCast S1x64 (shapeCast S64 (extractStridedSlice S1x64 ![1, 0] (m ((c : Thread nD τ).loc main_arg11)) slices_S4x64_S1x64_1_0) shapeCasts_S1x64_S64) shapeCasts_S64_S1x64 : Vec F S1x64 .f32) := by
  show StableHlo.after hostOps8 _ (Proc.devRef .tc main_v143) = _
  after_results
  rw [arg11_at16]
  rfl

theorem rd9_0 (c : Dev nD) : V19 m outs c main_v144_0 = V18 m outs c main_v144_0 := V19_of m outs c main_v144_0 (by decide)

theorem rd9_1 (c : Dev nD) : V19 m outs c main_v154 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg4)))
        (Host.gather gather_S100000x64_S1600000x1_S1600000x64_1_0_n_n_0_1_164 (V18 m outs c main_v144_0) (srcIdx (m ((c : Thread nD τ).loc main_arg4)))) : Vec F S100000x64 .f32) := by
  show StableHlo.after hostOps9 _ (Proc.devRef .tc main_v154) = _
  after_results
  rw [src_at18, dst_at18]
  rfl

theorem rd9_2 (c : Dev nD) : V19 m outs c main_v144_1 = V18 m outs c main_v144_1 := V19_of m outs c main_v144_1 (by decide)

theorem rd9_3 (c : Dev nD) : V19 m outs c main_v156 = (shapeCast S64x64 (extractStridedSlice S1x64x64 ![2, 0, 0] (m ((c : Thread nD τ).loc main_arg8)) slices_S4x64x64_S1x64x64_2_0_0) shapeCasts_S1x64x64_S64x64 : Vec F S64x64 .f32) := by
  show StableHlo.after hostOps9 _ (Proc.devRef .tc main_v156) = _
  after_results
  rw [arg8_at18]
  rfl

theorem rd9_4 (c : Dev nD) : V19 m outs c main_v163 = (shapeCast S1x64 (shapeCast S64 (extractStridedSlice S1x64 ![2, 0] (m ((c : Thread nD τ).loc main_arg9)) slices_S4x64_S1x64_2_0) shapeCasts_S1x64_S64) shapeCasts_S64_S1x64 : Vec F S1x64 .f32) := by
  show StableHlo.after hostOps9 _ (Proc.devRef .tc main_v163) = _
  after_results
  rw [arg9_at18]
  rfl

theorem rd9_5 (c : Dev nD) : V19 m outs c main_v160 = (shapeCast S64x64 (extractStridedSlice S1x64x64 ![2, 0, 0] (m ((c : Thread nD τ).loc main_arg10)) slices_S4x64x64_S1x64x64_2_0_0) shapeCasts_S1x64x64_S64x64 : Vec F S64x64 .f32) := by
  show StableHlo.after hostOps9 _ (Proc.devRef .tc main_v160) = _
  after_results
  rw [arg10_at18]
  rfl

theorem rd9_6 (c : Dev nD) : V19 m outs c main_v164 = (shapeCast S1x64 (shapeCast S64 (extractStridedSlice S1x64 ![2, 0] (m ((c : Thread nD τ).loc main_arg11)) slices_S4x64_S1x64_2_0) shapeCasts_S1x64_S64) shapeCasts_S64_S1x64 : Vec F S1x64 .f32) := by
  show StableHlo.after hostOps9 _ (Proc.devRef .tc main_v164) = _
  after_results
  rw [arg11_at18]
  rfl

theorem rd10_0 (c : Dev nD) : V21 m outs c main_v165_0 = V20 m outs c main_v165_0 := V21_of m outs c main_v165_0 (by decide)

theorem rd10_1 (c : Dev nD) : V21 m outs c main_v175 =
      (Host.scatterAdd scatter_S100000x64_S1600000x1_S1600000x64_1_0_0_1
        (broadcastInDim S100000x64 ![] bcast_S_S100000x64 (constant (F := F) S_ .f32 0x00000000#32))
        (dstIdx (m ((c : Thread nD τ).loc main_arg4)))
        (Host.gather gather_S100000x64_S1600000x1_S1600000x64_1_0_n_n_0_1_164 (V20 m outs c main_v165_0) (srcIdx (m ((c : Thread nD τ).loc main_arg4)))) : Vec F S100000x64 .f32) := by
  show StableHlo.after hostOps10 _ (Proc.devRef .tc main_v175) = _
  after_results
  rw [src_at20, dst_at20]
  rfl

theorem rd10_2 (c : Dev nD) : V21 m outs c main_v165_1 = V20 m outs c main_v165_1 := V21_of m outs c main_v165_1 (by decide)

theorem rd10_3 (c : Dev nD) : V21 m outs c main_v177 = (shapeCast S64x64 (extractStridedSlice S1x64x64 ![3, 0, 0] (m ((c : Thread nD τ).loc main_arg8)) slices_S4x64x64_S1x64x64_3_0_0) shapeCasts_S1x64x64_S64x64 : Vec F S64x64 .f32) := by
  show StableHlo.after hostOps10 _ (Proc.devRef .tc main_v177) = _
  after_results
  rw [arg8_at20]
  rfl

theorem rd10_4 (c : Dev nD) : V21 m outs c main_v184 = (shapeCast S1x64 (shapeCast S64 (extractStridedSlice S1x64 ![3, 0] (m ((c : Thread nD τ).loc main_arg9)) slices_S4x64_S1x64_3_0) shapeCasts_S1x64_S64) shapeCasts_S64_S1x64 : Vec F S1x64 .f32) := by
  show StableHlo.after hostOps10 _ (Proc.devRef .tc main_v184) = _
  after_results
  rw [arg9_at20]
  rfl

theorem rd10_5 (c : Dev nD) : V21 m outs c main_v181 = (shapeCast S64x64 (extractStridedSlice S1x64x64 ![3, 0, 0] (m ((c : Thread nD τ).loc main_arg10)) slices_S4x64x64_S1x64x64_3_0_0) shapeCasts_S1x64x64_S64x64 : Vec F S64x64 .f32) := by
  show StableHlo.after hostOps10 _ (Proc.devRef .tc main_v181) = _
  after_results
  rw [arg10_at20]
  rfl

theorem rd10_6 (c : Dev nD) : V21 m outs c main_v185 = (shapeCast S1x64 (shapeCast S64 (extractStridedSlice S1x64 ![3, 0] (m ((c : Thread nD τ).loc main_arg11)) slices_S4x64_S1x64_3_0) shapeCasts_S1x64_S64) shapeCasts_S64_S1x64 : Vec F S1x64 .f32) := by
  show StableHlo.after hostOps10 _ (Proc.devRef .tc main_v185) = _
  after_results
  rw [arg11_at20]
  rfl

private theorem v102_at22 (c : Dev nD) : V22 m outs c main_v102 = V14 m outs c main_v102 :=
  (V22_of m outs c main_v102 (by decide)).trans <| (V21_of m outs c main_v102 (by decide)).trans <| (V20_of m outs c main_v102 (by decide)).trans <| (V19_of m outs c main_v102 (by decide)).trans <| (V18_of m outs c main_v102 (by decide)).trans <| (V17_of m outs c main_v102 (by decide)).trans <| (V16_of m outs c main_v102 (by decide)).trans <| (V15_of m outs c main_v102 (by decide))
private theorem v123_0_at22 (c : Dev nD) : V22 m outs c main_v123_0 = V16 m outs c main_v123_0 :=
  (V22_of m outs c main_v123_0 (by decide)).trans <| (V21_of m outs c main_v123_0 (by decide)).trans <| (V20_of m outs c main_v123_0 (by decide)).trans <| (V19_of m outs c main_v123_0 (by decide)).trans <| (V18_of m outs c main_v123_0 (by decide)).trans <| (V17_of m outs c main_v123_0 (by decide))
private theorem v144_0_at22 (c : Dev nD) : V22 m outs c main_v144_0 = V18 m outs c main_v144_0 :=
  (V22_of m outs c main_v144_0 (by decide)).trans <| (V21_of m outs c main_v144_0 (by decide)).trans <| (V20_of m outs c main_v144_0 (by decide)).trans <| (V19_of m outs c main_v144_0 (by decide))
private theorem v165_0_at22 (c : Dev nD) : V22 m outs c main_v165_0 = V20 m outs c main_v165_0 :=
  (V22_of m outs c main_v165_0 (by decide)).trans <| (V21_of m outs c main_v165_0 (by decide))

theorem rd11_0 (c : Dev nD) : V23 m outs c main_v190 =
      (Host.scatterAdd scatter_S128x320_S100000x1_S100000x320_1_0_0_1
        (broadcastInDim S128x320 ![] bcast_S_S128x320 (constant (F := F) S_ .f32 0x00000000#32))
        (broadcastInDim S100000x1 ![0] bcast_S100000_S100000x1_0 (m ((c : Thread nD τ).loc main_arg5)))
        (concatenate S100000x320 1 [⟨S100000x64, V14 m outs c main_v102⟩, ⟨S100000x64, V16 m outs c main_v123_0⟩, ⟨S100000x64, V18 m outs c main_v144_0⟩, ⟨S100000x64, V20 m outs c main_v165_0⟩, ⟨S100000x64, V22 m outs c main_v186_0⟩]
          concatenates_S100000x64_S100000x64_S100000x64_S100000x64_S100000x64_S100000x320_d1) : Vec F S128x320 .f32) := by
  show StableHlo.after hostOps11 _ (Proc.devRef .tc main_v190) = _
  after_results
  show (Host.scatterAdd scatter_S128x320_S100000x1_S100000x320_1_0_0_1
        (broadcastInDim S128x320 ![] bcast_S_S128x320 (constant (F := F) S_ .f32 0x00000000#32))
        (broadcastInDim S100000x1 ![0] bcast_S100000_S100000x1_0 (V22 m outs c main_arg5))
        (concatenate S100000x320 1 [⟨S100000x64, V22 m outs c main_v102⟩, ⟨S100000x64, V22 m outs c main_v123_0⟩, ⟨S100000x64, V22 m outs c main_v144_0⟩, ⟨S100000x64, V22 m outs c main_v165_0⟩, ⟨S100000x64, V22 m outs c main_v186_0⟩]
          concatenates_S100000x64_S100000x64_S100000x64_S100000x64_S100000x64_S100000x320_d1) : Vec F S128x320 .f32) = _
  rw [arg5_at22, v102_at22, v123_0_at22, v144_0_at22, v165_0_at22]

theorem rd11_1 (c : Dev nD) : V23 m outs c main_arg12 = m ((c : Thread nD τ).loc main_arg12) := arg12_at23 m outs c

theorem rd11_2 (c : Dev nD) : V23 m outs c main_v191 = (shapeCast S1x64 (m ((c : Thread nD τ).loc main_arg13)) shapeCasts_S64_S1x64 : Vec F S1x64 .f32) := by
  show StableHlo.after hostOps11 _ (Proc.devRef .tc main_v191) = _
  after_results
  rw [arg13_at22]
  rfl

theorem rd11_3 (c : Dev nD) : V23 m outs c main_arg14 = m ((c : Thread nD τ).loc main_arg14) := arg14_at23 m outs c

theorem rd11_4 (c : Dev nD) : V23 m outs c main_v192 = (shapeCast S1x32 (m ((c : Thread nD τ).loc main_arg15)) shapeCasts_S32_S1x32 : Vec F S1x32 .f32) := by
  show StableHlo.after hostOps11 _ (Proc.devRef .tc main_v192) = _
  after_results
  rw [arg15_at22]
  rfl

theorem rdT_96 (c : Dev nD) : V24 m outs c main_v96 = V12 m outs c main_v96 :=
  (V24_of m outs c main_v96 (by decide)).trans <| (V23_of m outs c main_v96 (by decide)).trans <| (V22_of m outs c main_v96 (by decide)).trans <| (V21_of m outs c main_v96 (by decide)).trans <| (V20_of m outs c main_v96 (by decide)).trans <| (V19_of m outs c main_v96 (by decide)).trans <| (V18_of m outs c main_v96 (by decide)).trans <| (V17_of m outs c main_v96 (by decide)).trans <| (V16_of m outs c main_v96 (by decide)).trans <| (V15_of m outs c main_v96 (by decide)).trans <| (V14_of m outs c main_v96 (by decide)).trans <| (V13_of m outs c main_v96 (by decide))

theorem rdT (c : Dev nD) : V29 m outs c main_v204 =
      (addf (Host.reduceAdd (mulf (maximumf (subf (V24 m outs c main_v96) (V24 m outs c main_v193)) (broadcastInDim S128x32 ![] bcast_S_S128x32 (constant (F := F) S_ .f32 0x00000000#32))) (broadcastInDim S128x32 ![] bcast_S_S128x32 (constant (F := F) S_ .f32 0x3F800000#32))) (constant (F := F) S_ .f32 0x00000000#32) reducesTo_S128x32_S128_d1 h_S_)
        (Host.reduceAdd (mulf (maximumf (subf (V24 m outs c main_v193) (V24 m outs c main_v96)) (broadcastInDim S128x32 ![] bcast_S_S128x32 (constant (F := F) S_ .f32 0x00000000#32))) (broadcastInDim S128x32 ![] bcast_S_S128x32 (constant (F := F) S_ .f32 0x3F800000#32))) (constant (F := F) S_ .f32 0x00000000#32) reducesTo_S128x32_S128_d1 h_S_) : Vec F S128 .f32) := by
  show StableHlo.after hostOps12_4 _ (Proc.devRef .tc main_v204) = _
  after_results_simp
  simp only [StableHlo.TRef.ofBuf, StableHlo.TRef.toBuf, cast_eq]

end Cert.KernelIdeal.Hand

end
-- ==== Proof.ChainT.lean ====
import proofs.«101247_j38388417692531_1_alg».proof.Proof.Gen.KernelIdeal.Regions
import proofs.«101247_j38388417692531_1_alg».proof.Proof.Gen.ReferenceIdeal
import proofs.«101247_j38388417692531_1_alg».proof.Proof.RefRunP
import proofs.«101247_j38388417692531_1_alg».proof.Proof.KernelIdeal.HostC
import Idealize.ShloMosaic.Lib.StableHlo.Run
import Idealize.ShloMosaic.PureOps.Ideal

set_option maxRecDepth 16384

noncomputable section

namespace Cert.Proof.ChainT

open Cert.KernelIdeal Cert.KernelIdeal.Gen
open Idealize.ShloMosaic Idealize.ShloMosaic.TcCoe Idealize.SL.Sem Idealize.ShloMosaic.StableHlo

section Generic
variable {F : FTy → Type} [FloatOps F]

def halfK (A B : (⟨S128x32, .f32⟩ : BufTy).Contents (Elt F)) : (⟨S128, .f32⟩ : BufTy).Contents (Elt F) :=
  Host.reduceAdd
    (mulf (maximumf (subf A B : (⟨S128x32, .f32⟩ : BufTy).Contents (Elt F))
        (broadcastInDim S128x32 ![] bcast_S_S128x32 (constant (F := F) S_ .f32 0x00000000#32)) : (⟨S128x32, .f32⟩ : BufTy).Contents (Elt F))
      (broadcastInDim S128x32 ![] bcast_S_S128x32 (constant (F := F) S_ .f32 0x3F800000#32)) : (⟨S128x32, .f32⟩ : BufTy).Contents (Elt F))
    (constant (F := F) S_ .f32 0x00000000#32) reducesTo_S128x32_S128_d1 h_S_

def tailK (A B : (⟨S128x32, .f32⟩ : BufTy).Contents (Elt F)) : (⟨S128, .f32⟩ : BufTy).Contents (Elt F) :=
  addf (halfK A B) (halfK B A)

theorem kernel_tail (m : (ℓ : Loc nD τ sig) → Buf (Elt F) ℓ) (outs : Outs (F := F)) (c : Dev nD) :
    V29 m outs c main_v204 = tailK (F := F) (V24 m outs c main_v96) (V24 m outs c main_v193) :=
  Cert.KernelIdeal.Hand.rdT m outs c

theorem ref_tail (x0 : (⟨Cert.ReferenceIdeal.S100000x32, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F)) (x3 : (⟨Cert.ReferenceIdeal.S100000x32, .f32⟩ : BufTy).Contents (Elt F)) (x4 : (⟨Cert.ReferenceIdeal.S2x1600000, .i32⟩ : BufTy).Contents (Elt F)) (x5 : (⟨Cert.ReferenceIdeal.S100000, .i32⟩ : BufTy).Contents (Elt F)) (x6 : (⟨Cert.ReferenceIdeal.S32x64, .f32⟩ : BufTy).Contents (Elt F)) (x7 : (⟨Cert.ReferenceIdeal.S64, .f32⟩ : BufTy).Contents (Elt F)) (x8 : (⟨Cert.ReferenceIdeal.S4x64x64, .f32⟩ : BufTy).Contents (Elt F)) (x9 : (⟨Cert.ReferenceIdeal.S4x64, .f32⟩ : BufTy).Contents (Elt F)) (x10 : (⟨Cert.ReferenceIdeal.S4x64x64, .f32⟩ : BufTy).Contents (Elt F)) (x11 : (⟨Cert.ReferenceIdeal.S4x64, .f32⟩ : BufTy).Contents (Elt F)) (x12 : (⟨Cert.ReferenceIdeal.S320x64, .f32⟩ : BufTy).Contents (Elt F)) (x13 : (⟨Cert.ReferenceIdeal.S64, .f32⟩ : BufTy).Contents (Elt F)) (x14 : (⟨Cert.ReferenceIdeal.S64x32, .f32⟩ : BufTy).Contents (Elt F)) (x15 : (⟨Cert.ReferenceIdeal.S32, .f32⟩ : BufTy).Contents (Elt F)) :
    Cert.ReferenceIdeal.Value.stage_main_v288 (F := F) x0 x1 x2 x3 x4 x5 x6 x7 x8 x9 x10 x11 x12 x13 x14 x15
      = tailK (F := F) (Cert.ReferenceIdeal.Value.stage_main_v138 (F := F) x0 x1 x2 x6 x7 x8 x9 x10 x11 x12 x13 x14 x15)
          (Cert.ReferenceIdeal.Value.stage_main_v277 (F := F) x3 x4 x5 x6 x7 x8 x9 x10 x11 x12 x13 x14 x15) := by
  unfold Cert.ReferenceIdeal.Value.stage_main_v288 Cert.ReferenceIdeal.Value.stage_main_v287 Cert.ReferenceIdeal.Value.stage_main_v286
    Cert.ReferenceIdeal.Value.stage_main_v285 Cert.ReferenceIdeal.Value.stage_main_cst_26 Cert.ReferenceIdeal.Value.stage_main_v284
    Cert.ReferenceIdeal.Value.stage_main_call19_v0 Cert.ReferenceIdeal.Value.stage_main_call19_cst Cert.ReferenceIdeal.Value.stage_main_v283
    Cert.ReferenceIdeal.Value.stage_main_cst_27 Cert.ReferenceIdeal.Value.stage_main_v282 Cert.ReferenceIdeal.Value.stage_main_v281
    Cert.ReferenceIdeal.Value.stage_main_v280 Cert.ReferenceIdeal.Value.stage_main_cst_24 Cert.ReferenceIdeal.Value.stage_main_v279
    Cert.ReferenceIdeal.Value.stage_main_call18_v0 Cert.ReferenceIdeal.Value.stage_main_call18_cst Cert.ReferenceIdeal.Value.stage_main_v278
    Cert.ReferenceIdeal.Value.stage_main_cst_25
  generalize Cert.ReferenceIdeal.Value.stage_main_v138 (F := F) x0 x1 x2 x6 x7 x8 x9 x10 x11 x12 x13 x14 x15 = A
  generalize Cert.ReferenceIdeal.Value.stage_main_v277 (F := F) x3 x4 x5 x6 x7 x8 x9 x10 x11 x12 x13 x14 x15 = B
  unfold tailK halfK
  rfl

end Generic

theorem result_eq (m : (ℓ : Loc nD τ sig) → Buf (Elt Ideal) ℓ) (outs : Outs (F := Ideal)) (c : Dev nD)
    (h96 : V12 m outs c main_v96 = Cert.ReferenceIdeal.Value.stage_main_v138 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
    (h193 : V24 m outs c main_v193 = Cert.ReferenceIdeal.Value.stage_main_v277 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :
    V29 m outs c main_v204 = Cert.ReferenceIdeal.Value.stage_main_v288 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (kernel_tail (F := Ideal) m outs c).trans
    ((congrArg₂ (tailK (F := Ideal)) ((Cert.KernelIdeal.Hand.rdT_96 m outs c).trans h96) h193).trans
      (ref_tail (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).symm)

theorem result_res (m : (ℓ : Loc nD τ sig) → Buf (Elt Ideal) ℓ) (outs : Outs (F := Ideal))
    (m' : (ℓ : Loc Cert.ReferenceIdeal.nD Cert.ReferenceIdeal.τ Cert.ReferenceIdeal.sig) → Buf (Elt Ideal) ℓ) (c : Dev nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h96 : V12 m outs c main_v96 = Cert.ReferenceIdeal.Value.stage_main_v138 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
    (h193 : V24 m outs c main_v193 = Cert.ReferenceIdeal.Value.stage_main_v277 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :
    V29 m outs c main_v204 = Cert.ReferenceIdeal.Value.res_main_v288 m' c := by
  obtain ⟨e0, e1, e2, e3, e4, e5, e6, e7, e8, e9, e10, e11, e12, e13, e14, e15⟩ := hm
  unfold Cert.ReferenceIdeal.Value.res_main_v288
  rw [e0, e1, e2, e3, e4, e5, e6, e7, e8, e9, e10, e11, e12, e13, e14, e15]
  exact result_eq m outs c h96 h193

end Cert.Proof.ChainT

end
-- ==== Proof.KernelIdeal.SpecProj.lean ====
import Idealize.ShloMosaic.Lib.ValueIdx
import Idealize.ShloMosaic.Lib.Pipeline.Value
import Idealize.ShloMosaic.Lib.ValueLayout
import Idealize.ShloMosaic.PureOps.Ideal.Laws
import proofs.«101247_j38388417692531_1_alg».proof.KernelIdeal
import proofs.«101247_j38388417692531_1_alg».proof.ReferenceIdeal

noncomputable section

open scoped BigOperators

namespace Cert.Spec

open Idealize.ShloMosaic Idealize.ShloMosaic.ValueIdx

theorem sum_contr_plain {M K N : Nat} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (j : (⟨2, ![M, N]⟩ : Shape).Idx) :
    ∑ k : D.contr.Idx, l (D.lhsIdx j k) * r (D.rhsIdx j k)
      = ∑ k : Fin K, l (ix2 (j 0 : Fin M) k) * r (ix2 k (j 1 : Fin N)) := by
  obtain ⟨lc, rc, ln, rn, lb, rb, wf⟩ := D
  simp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD

  have l0 : ∀ q, (D.lhsIdx j q 0).val = (j 0).val := fun q => by
    unfold DotDims.lhsIdx
    rw [dif_neg (show ¬(0 : Fin (⟨2, ![M, K]⟩ : Shape).rank) ∈ D.lhsBatch from List.not_mem_nil),
      dif_pos (show (0 : Fin (⟨2, ![M, K]⟩ : Shape).rank) ∈ D.lhsNonContracting from List.mem_singleton.2 rfl)]
    rfl
  have r1 : ∀ q, (D.rhsIdx j q 1).val = (j 1).val := fun q => by
    unfold DotDims.rhsIdx
    rw [dif_neg (show ¬(1 : Fin (⟨2, ![K, N]⟩ : Shape).rank) ∈ D.rhsBatch from List.not_mem_nil),
      dif_pos (show (1 : Fin (⟨2, ![K, N]⟩ : Shape).rank) ∈ D.rhsNonContracting from List.mem_singleton.2 rfl)]
    rfl
  rw [← Equiv.sum_comp (contrEquiv1 D K rfl rfl).symm]
  refine Finset.sum_congr rfl fun k _ => ?_
  have hk := contrEquiv1_symm_val D K rfl rfl k

  have el : D.lhsIdx j ((contrEquiv1 D K rfl rfl).symm k) = ix2 (j 0 : Fin M) k := funext fun a => Fin.ext (by
    match a with
    | ⟨0, _⟩ => exact l0 _
    | ⟨1, _⟩ => exact (D.lhsIdx_val_of_single rfl j _).trans hk)

  have er : D.rhsIdx j ((contrEquiv1 D K rfl rfl).symm k) = ix2 k (j 1 : Fin N) := funext fun a => Fin.ext (by
    match a with
    | ⟨0, _⟩ => exact (D.rhsIdx_val_of_single rfl j _).trans hk
    | ⟨1, _⟩ => exact r1 _)
  rw [el, er]
  rfl

def proj (x : FVec Ideal Cert.KernelIdeal.S100000x32 .f32) (w : FVec Ideal Cert.KernelIdeal.S32x64 .f32)
    (b : FVec Ideal Cert.KernelIdeal.S1x64 .f32) : FVec Ideal Cert.KernelIdeal.S100000x64 .f32 :=
  fun i => (∑ k : Fin 32, x (ix2 (i 0 : Fin 100000) k) * w (ix2 k (i 1 : Fin 64))) + b (ix2 (0 : Fin 1) (i 1 : Fin 64))

theorem proj_apply (x : FVec Ideal Cert.KernelIdeal.S100000x32 .f32) (w : FVec Ideal Cert.KernelIdeal.S32x64 .f32)
    (b : FVec Ideal Cert.KernelIdeal.S1x64 .f32) (r : Fin 100000) (j : Fin 64) :
    proj x w b (ix2 r j) = (∑ k : Fin 32, x (ix2 r k) * w (ix2 k j)) + b (ix2 (0 : Fin 1) j) := rfl

section Ops

variable [Cert.KernelIdeal.Facts₀] [Cert.ReferenceIdeal.Facts₀]

theorem proj_ops (x : FVec Ideal Cert.KernelIdeal.S100000x32 .f32) (w : FVec Ideal Cert.KernelIdeal.S32x64 .f32)
    (b64 : FVec Ideal Cert.KernelIdeal.S64 .f32) :
    proj x w (shapeCast Cert.KernelIdeal.S1x64 b64 Cert.KernelIdeal.Facts₀.shapeCasts_S64_S1x64)
      = addf (Host.dotGeneral Cert.ReferenceIdeal.dot_S100000x32_S32x64_S100000x64_1_0_0_1_n_n none x w)
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b64)) := by
  funext i
  rw [addf_apply]
  unfold proj
  congr 1
  ·
    simp only [Host.dotGeneral]
    rw [Ideal.dotGeneral_apply]
    exact (sum_contr_plain Cert.ReferenceIdeal.dot_S100000x32_S32x64_S100000x64_1_0_0_1_n_n rfl rfl rfl rfl rfl rfl x w i).symm
  ·
    have hl : shapeCast Cert.KernelIdeal.S1x64 b64 Cert.KernelIdeal.Facts₀.shapeCasts_S64_S1x64 (ix2 (0 : Fin 1) (i 1 : Fin 64))
        = b64 (ix1 (i 1 : Fin 64)) :=
      shapeCast_apply b64 _ (ix2 (0 : Fin 1) (i 1 : Fin 64)) (ix1 (i 1 : Fin 64)) (by
        rw [Shape.rowMajor_val_two, Shape.rowMajor_val_one]
        show (i 1).val = 0 * 64 + (i 1).val
        omega)
    have hr1 : broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b64) i
        = broadcastInDim Cert.ReferenceIdeal.S1x64 ![1] Cert.ReferenceIdeal.Facts₀.bcast_S64_S1x64_1 b64 (ix2 (0 : Fin 1) (i 1 : Fin 64)) :=
      broadcastInDim_apply _ Cert.ReferenceIdeal.Facts₀.bcast_S1x64_S100000x64_0_1 _ i (ix2 (0 : Fin 1) (i 1 : Fin 64)) (fun a => match a with
        | ⟨0, _⟩ => by show 0 = if (1 : Nat) = 1 then 0 else (i 0).val; rw [if_pos rfl]
        | ⟨1, _⟩ => by show (i 1).val = if (64 : Nat) = 1 then 0 else (i 1).val; rw [if_neg (by decide)])
    have hr2 : broadcastInDim Cert.ReferenceIdeal.S1x64 ![1] Cert.ReferenceIdeal.Facts₀.bcast_S64_S1x64_1 b64 (ix2 (0 : Fin 1) (i 1 : Fin 64))
        = b64 (ix1 (i 1 : Fin 64)) :=
      broadcastInDim_apply _ Cert.ReferenceIdeal.Facts₀.bcast_S64_S1x64_1 b64 (ix2 (0 : Fin 1) (i 1 : Fin 64)) (ix1 (i 1 : Fin 64)) (fun a => match a with
        | ⟨0, _⟩ => by show (i 1).val = if (64 : Nat) = 1 then 0 else (i 1).val; rw [if_neg (by decide)])
    rw [hl, hr1, hr2]

end Ops

end Cert.Spec
-- ==== Proof.KernelIdeal.SpecLayerA.lean ====
import Idealize.ShloMosaic.Lib.ValueIdx
import Idealize.ShloMosaic.Lib.Pipeline.Value
import Idealize.ShloMosaic.Lib.ValueLayout
import Idealize.ShloMosaic.PureOps.Ideal.Laws
import proofs.«101247_j38388417692531_1_alg».proof.KernelIdeal
import proofs.«101247_j38388417692531_1_alg».proof.ReferenceIdeal

noncomputable section

namespace Cert.Spec

open Idealize.ShloMosaic Idealize.ShloMosaic.ValueIdx
open scoped BigOperators

def hiddenRow {n : Nat} (x agg : (⟨2, ![n, 64]⟩ : Shape).Idx → EReal) (w1 : (⟨2, ![64, 64]⟩ : Shape).Idx → EReal)
    (b1 : (⟨2, ![1, 64]⟩ : Shape).Idx → EReal) (r : Fin n) (k : Fin 64) : EReal :=
  max ((∑ l : Fin 64, (x (ix2 r l) + agg (ix2 r l)) * w1 (ix2 l k)) + b1 (ix2 (0 : Fin 1) k)) 0

def layerRow {n : Nat} (x agg : (⟨2, ![n, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) (r : Fin n) (j : Fin 64) : EReal :=
  max ((∑ k : Fin 64, hiddenRow x agg w1 b1 r k * w2 (ix2 k j)) + b2 (ix2 (0 : Fin 1) j)) 0

theorem layerRow_congr {n m : Nat} (x agg : (⟨2, ![n, 64]⟩ : Shape).Idx → EReal) (x' agg' : (⟨2, ![m, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (r : Fin n) (r' : Fin m) (hx : ∀ l : Fin 64, x (ix2 r l) = x' (ix2 r' l)) (hagg : ∀ l : Fin 64, agg (ix2 r l) = agg' (ix2 r' l))
    (j : Fin 64) : layerRow x agg w1 b1 w2 b2 r j = layerRow x' agg' w1 b1 w2 b2 r' j := by
  unfold layerRow hiddenRow
  simp only [hx, hagg]

def layerA (x agg : FVec Ideal Cert.KernelIdeal.S100000x64 .f32) (w1 : FVec Ideal Cert.KernelIdeal.S64x64 .f32)
    (b1 : FVec Ideal Cert.KernelIdeal.S1x64 .f32) (w2 : FVec Ideal Cert.KernelIdeal.S64x64 .f32)
    (b2 : FVec Ideal Cert.KernelIdeal.S1x64 .f32) : FVec Ideal Cert.KernelIdeal.S100000x64 .f32 :=
  fun i => layerRow x agg w1 b1 w2 b2 (i 0 : Fin 100000) (i 1 : Fin 64)

theorem layerA_apply (x agg : FVec Ideal Cert.KernelIdeal.S100000x64 .f32) (w1 : FVec Ideal Cert.KernelIdeal.S64x64 .f32)
    (b1 : FVec Ideal Cert.KernelIdeal.S1x64 .f32) (w2 : FVec Ideal Cert.KernelIdeal.S64x64 .f32)
    (b2 : FVec Ideal Cert.KernelIdeal.S1x64 .f32) (r : Fin 100000) (j : Fin 64) :
    layerA x agg w1 b1 w2 b2 (ix2 r j) = layerRow x agg w1 b1 w2 b2 r j := rfl

section Reference
variable [Cert.ReferenceIdeal.Facts₀]
open Cert.ReferenceIdeal Cert.ReferenceIdeal.Facts₀

theorem dot_lhs_0 (i : Cert.ReferenceIdeal.S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin Cert.ReferenceIdeal.S100000x64.rank) ∈ dot_S100000x64_S64x64_S100000x64_1_0_0_1_n_n.lhsBatch from List.not_mem_nil),
    dif_pos (show (0 : Fin Cert.ReferenceIdeal.S100000x64.rank) ∈ dot_S100000x64_S64x64_S100000x64_1_0_0_1_n_n.lhsNonContracting from List.mem_singleton.mpr rfl)]
  rfl

theorem dot_lhs_1 (i : Cert.ReferenceIdeal.S100000x64.Idx) (q : dot_S100000x64_S64x64_S100000x64_1_0_0_1_n_n.contr.Idx) : (dot_S100000x64_S64x64_S100000x64_1_0_0_1_n_n.lhsIdx i q 1).val = (q ⟨0, Nat.one_pos⟩).val :=
  dot_S100000x64_S64x64_S100000x64_1_0_0_1_n_n.lhsIdx_val_of_single rfl i q

theorem dot_rhs_0 (i : Cert.ReferenceIdeal.S100000x64.Idx) (q : dot_S100000x64_S64x64_S100000x64_1_0_0_1_n_n.contr.Idx) : (dot_S100000x64_S64x64_S100000x64_1_0_0_1_n_n.rhsIdx i q 0).val = (q ⟨0, Nat.one_pos⟩).val :=
  dot_S100000x64_S64x64_S100000x64_1_0_0_1_n_n.rhsIdx_val_of_single rfl i q

theorem dot_rhs_1 (i : Cert.ReferenceIdeal.S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin Cert.ReferenceIdeal.S64x64.rank) ∈ dot_S100000x64_S64x64_S100000x64_1_0_0_1_n_n.rhsBatch from List.not_mem_nil),
    dif_pos (show (1 : Fin Cert.ReferenceIdeal.S64x64.rank) ∈ dot_S100000x64_S64x64_S100000x64_1_0_0_1_n_n.rhsNonContracting from List.mem_singleton.mpr rfl)]
  rfl

theorem dot_apply (a : FVec Ideal Cert.ReferenceIdeal.S100000x64 .f32) (w : FVec Ideal Cert.ReferenceIdeal.S64x64 .f32)
    (r : Fin 100000) (j : Fin 64) :
    Host.dotGeneral dot_S100000x64_S64x64_S100000x64_1_0_0_1_n_n none a w (ix2 r j) = ∑ k : Fin 64, a (ix2 r k) * w (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact dot_lhs_0 _ _
    | ⟨1, _⟩ => exact (dot_lhs_1 _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (dot_rhs_0 _ _).trans hk
    | ⟨1, _⟩ => exact dot_rhs_1 _ _)
  rw [el, er]

theorem bias_apply (b : FVec Ideal Cert.ReferenceIdeal.S64 .f32) (r : Fin 100000) (j : Fin 64) :
    broadcastInDim Cert.ReferenceIdeal.S100000x64 ![0, 1] bcast_S1x64_S100000x64_0_1
        (broadcastInDim Cert.ReferenceIdeal.S1x64 ![1] bcast_S64_S1x64_1 b) (ix2 r j) = b (ix1 j) := by
  refine (broadcastInDim_apply _ bcast_S1x64_S100000x64_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (64 : Nat) = 1 then 0 else j.val; rw [if_neg (by decide)]
  · refine broadcastInDim_apply _ bcast_S64_S1x64_1 b (ix2 (0 : Fin 1) j) (ix1 j) (fun a => ?_)
    match a with
    | ⟨0, _⟩ => show j.val = if (64 : Nat) = 1 then 0 else j.val; rw [if_neg (by decide)]

theorem zeros_apply (i : Cert.ReferenceIdeal.S100000x64.Idx) :
    broadcastInDim Cert.ReferenceIdeal.S100000x64 ![] bcast_S_S100000x64
        (constant (F := Ideal) Cert.ReferenceIdeal.S_ .f32 0x00000000#32) i = 0 := by
  refine (broadcastInDim_apply _ bcast_S_S100000x64 _ i (fun a => a.elim0) (fun a => a.elim0)).trans ?_
  exact Ideal.ofBits_zero_f32

theorem layerA_ops (x agg : FVec Ideal Cert.KernelIdeal.S100000x64 .f32) (w1 : FVec Ideal Cert.KernelIdeal.S64x64 .f32)
    (b1 : FVec Ideal Cert.KernelIdeal.S64 .f32) (w2 : FVec Ideal Cert.KernelIdeal.S64x64 .f32)
    (b2 : FVec Ideal Cert.KernelIdeal.S64 .f32)
    (h1 h2 : Cert.KernelIdeal.S64.ShapeCasts Cert.KernelIdeal.S1x64) :
    layerA x agg w1 (shapeCast Cert.KernelIdeal.S1x64 b1 h1) w2 (shapeCast Cert.KernelIdeal.S1x64 b2 h2)
      = maximumf
          (addf
            (Host.dotGeneral dot_S100000x64_S64x64_S100000x64_1_0_0_1_n_n none
              (maximumf
                (addf (Host.dotGeneral dot_S100000x64_S64x64_S100000x64_1_0_0_1_n_n none (addf x agg) w1)
                  (broadcastInDim Cert.ReferenceIdeal.S100000x64 ![0, 1] bcast_S1x64_S100000x64_0_1
                    (broadcastInDim Cert.ReferenceIdeal.S1x64 ![1] bcast_S64_S1x64_1 b1)))
                (broadcastInDim Cert.ReferenceIdeal.S100000x64 ![] bcast_S_S100000x64
                  (constant (F := Ideal) Cert.ReferenceIdeal.S_ .f32 0x00000000#32)))
              w2)
            (broadcastInDim Cert.ReferenceIdeal.S100000x64 ![0, 1] bcast_S1x64_S100000x64_0_1
              (broadcastInDim Cert.ReferenceIdeal.S1x64 ![1] bcast_S64_S1x64_1 b2)))
          (broadcastInDim Cert.ReferenceIdeal.S100000x64 ![] bcast_S_S100000x64
            (constant (F := Ideal) Cert.ReferenceIdeal.S_ .f32 0x00000000#32)) := by
  funext i
  obtain ⟨r, j, rfl⟩ : ∃ (r : Fin 100000) (j : Fin 64), i = ix2 r j := ⟨i 0, i 1, eq_ix2 i⟩
  rw [layerA_apply, maximumf_apply, addf_apply, dot_apply, bias_apply, zeros_apply]
  unfold layerRow hiddenRow
  rw [shapeCast_a_1a_apply]
  congr 2
  refine Finset.sum_congr rfl fun k _ => ?_
  rw [maximumf_apply, addf_apply, dot_apply, bias_apply, zeros_apply, shapeCast_a_1a_apply]
  congr 3

end Reference

end Cert.Spec
-- ==== Proof.KernelIdeal.Pay0.lean ====
import proofs.«101247_j38388417692531_1_alg».proof.Proof.KernelIdeal.SpecProj
import proofs.«101247_j38388417692531_1_alg».proof.Proof.Gen.KernelIdeal.Skeleton

noncomputable section

open scoped BigOperators

namespace Cert.KernelIdeal.Hand

open Cert.KernelIdeal Cert.KernelIdeal.Gen Idealize.ShloMosaic Idealize.ShloMosaic.ValueIdx

theorem pay0_3 (xb : Vec Ideal S5000x32 .f32) (w : Vec Ideal S32x64 .f32) (b : Vec Ideal S1x64 .f32) (r : Fin 5000) (j : Fin 64) :
    k0_pay1 (F := Ideal) xb w b (ix2 r j) = (∑ k : Fin 32, xb (ix2 r k) * w (ix2 k j)) + b (ix2 (0 : Fin 1) j) := by
  unfold k0_pay1
  rw [addf_apply]
  congr 1
  ·
    simp only [matmul]
    rw [Ideal.matmul_constant_zero_apply]
    exact Cert.Spec.sum_contr_plain dot_S5000x32_S32x64_S5000x64_1_0_0_1_n_n rfl rfl rfl rfl rfl rfl _ _ (ix2 r j)
  ·
    rw [shapeCast_self]
    exact broadcastTo_apply b _ (ix2 r j) (ix2 (0 : Fin 1) j) (fun a => match a with
      | ⟨0, _⟩ => by show 0 = if (1 : Nat) = 1 then 0 else (r : Nat); rw [if_pos rfl]
      | ⟨1, _⟩ => by show (j : Nat) = if (64 : Nat) = 1 then 0 else (j : Nat); rw [if_neg (by decide)])

end Cert.KernelIdeal.Hand
-- ==== Proof.KernelIdeal.Blocks.lean ====
import Idealize.ShloMosaic.Lib.ValueIdx
import Idealize.ShloMosaic.Lib.Pipeline.Value

namespace Cert.KernelIdeal.Hand

open Idealize.ShloMosaic Idealize.ShloMosaic.ValueIdx

theorem blk_hz : (![0, 0] : Fin 2 → Nat) = fun _ => 0 := funext fun a => by fin_cases a <;> rfl

/-- A block of extents (n, c) at block index (k, 0): its element (r, j) is the array's element (k n + r, j). -/
theorem blk_emb {n c N : Nat} {e : (⟨2, ![n, c]⟩ : Shape).Idx → (⟨2, ![N, c]⟩ : Shape).Idx} {i : Fin 2 → Nat} {k : Nat}
    (he : ∀ y a, (e y a : Nat) = i a * ![n, c] a + y a) (hi : i = ![k, 0]) (r : Fin n) (j : Fin c) (R : Fin N)
    (hR : R.val = k * n + r.val) : e (ix2 r j) = ix2 R j := by
  subst hi
  refine Shape.idx_ext₂ ((he _ 0).trans hR.symm) ((he _ 1).trans ?_)
  show 0 * c + j.val = j.val
  omega

/-- At block index (0, 0) a block that is its whole array sits in it as itself. -/
theorem blk_whole {n c : Nat} {e : (⟨2, ![n, c]⟩ : Shape).Idx → (⟨2, ![n, c]⟩ : Shape).Idx} {i : Fin 2 → Nat}
    (he : ∀ y a, (e y a : Nat) = i a * ![n, c] a + y a) (hi : i = ![0, 0]) (y : (⟨2, ![n, c]⟩ : Shape).Idx) : e y = y :=
  (congrArg e (eq_ix2 y)).trans ((blk_emb he hi _ _ (y 0) (by omega)).trans (eq_ix2 y).symm)

/-- n row tiles of m rows, tile t at block (t, 0), cover the n m rows: row R lies in tile R / m. -/
theorem rows_cover {n m c M : Nat} (hM : n * m = M) {e : Fin n → (⟨2, ![m, c]⟩ : Shape).Idx → (⟨2, ![M, c]⟩ : Shape).Idx}
    (he : ∀ t r j R, R.val = t.val * m + r.val → e t (ix2 r j) = ix2 R j) (i : (⟨2, ![M, c]⟩ : Shape).Idx) : ∃ t y, e t y = i := by
  obtain ⟨R, j, rfl⟩ : ∃ (R : Fin M) (j : Fin c), i = ix2 R j := ⟨i 0, i 1, eq_ix2 i⟩
  have hR : R.val < n * m := hM ▸ R.isLt
  have hm : 0 < m := Nat.pos_of_ne_zero fun h => by simp [h] at hR
  exact ⟨⟨R.val / m, (Nat.div_lt_iff_lt_mul hm).2 hR⟩, ix2 ⟨R.val % m, Nat.mod_lt _ hm⟩ j,
    he _ _ j R (by show R.val = R.val / m * m + R.val % m; rw [Nat.mul_comm]; exact (Nat.div_add_mod _ _).symm)⟩

/-- If at every (r, j) of tile k a block holds an array function's value at (k m + r, j), the block is tile k of that function. -/
theorem rows_tile {α : Type} {m c M k : Nat} (hk : k * m + m ≤ M) {e : (⟨2, ![m, c]⟩ : Shape).Idx → (⟨2, ![M, c]⟩ : Shape).Idx}
    (he : ∀ r j R, R.val = k * m + r.val → e (ix2 r j) = ix2 R j) (G : (⟨2, ![M, c]⟩ : Shape).Idx → α)
    {o : (⟨2, ![m, c]⟩ : Shape).Idx → α} (h : ∀ r j R, R.val = k * m + r.val → o (ix2 r j) = G (ix2 R j)) :
    o = fun y => G (e y) := by
  funext y
  obtain ⟨r, j, rfl⟩ : ∃ (r : Fin m) (j : Fin c), y = ix2 r j := ⟨y 0, y 1, eq_ix2 y⟩
  have hR : (⟨k * m + r.val, by have := r.isLt; omega⟩ : Fin M).val = k * m + r.val := rfl
  rw [he r j _ hR]
  exact h r j _ hR

end Cert.KernelIdeal.Hand
-- ==== Proof.KernelIdeal.Val0.lean ====
import proofs.«101247_j38388417692531_1_alg».proof.Proof.KernelIdeal.Pay0
import proofs.«101247_j38388417692531_1_alg».proof.Proof.KernelIdeal.Reg0
import Idealize.ShloMosaic.Lib.Pipeline.Value
import proofs.«101247_j38388417692531_1_alg».proof.Proof.KernelIdeal.Blocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

variable (V : (c : Dev nD) → (b : Ref sig .tc) → Buf (Elt Ideal) ((c : Thread nD τ).loc b))
variable (q : Fin cfg0.W → PosShare TreeShare)

/-- At point t the row tiles are at block (t, 0), the weights and the bias row at block (0, 0). -/
theorem idx0_facts (t : Fin grid0.N) :
    (cfg0.win 0).index t = ![t.val, 0] ∧ (cfg0.win 1).index t = ![0, 0] ∧ (cfg0.win 2).index t = ![0, 0]
    ∧ (cfg0.win 3).index t = ![t.val, 0] ∧ (cfg0.win 3).flush t = true := by
  revert t; decide +kernel

theorem out0_3_apply (xb : Vec Ideal S5000x32 .f32) (w : Vec Ideal S32x64 .f32) (b : Vec Ideal S1x64 .f32) (r : Fin 5000) (j : Fin 64) :
    out0_3 (F := Ideal) xb w b (ix2 r j) = (∑ k : Fin 32, xb (ix2 r k) * w (ix2 k j)) + b (ix2 (0 : Fin 1) j) := by
  unfold out0_3
  rw [View.canon_unit_zero blk_hz]
  simp only [View.ld_unit_zero (S := S5000x32) blk_hz, View.ld_unit_zero (S := S32x64) blk_hz, View.ld_unit_zero (S := S1x64) blk_hz]
  exact pay0_3 xb w b r j

theorem iblk0_1 (c : Dev nD) (t : Fin cfg0.N) : iblk0 V c 1 t = V c (Pipeline.arrRef spec0 1) :=
  funext fun y => congrArg (V c _) (blk_whole (rect_emb_val (cfg0.win 1) t) (idx0_facts t).2.1 y)

theorem iblk0_2 (c : Dev nD) (t : Fin cfg0.N) : iblk0 V c 2 t = V c (Pipeline.arrRef spec0 2) :=
  funext fun y => congrArg (V c _) (blk_whole (rect_emb_val (cfg0.win 2) t) (idx0_facts t).2.2.1 y)

/-- A row of the projection reads the same row of the features only, so tile t of the projection is the projection of the tiles. -/
theorem final0_3 (c : Dev nD) :
    (dat0 V q c).arrAt 3 cfg0.N
      = Cert.Spec.proj (V c (Pipeline.arrRef spec0 0)) (V c (Pipeline.arrRef spec0 1)) (V c (Pipeline.arrRef spec0 2)) := by
  have h3 (t : Fin cfg0.N) := blk_emb (e := ((cfg0.win 3).blk t).view.emb) (rect_emb_val (cfg0.win 3) t) (idx0_facts t).2.2.2.1
  refine (dat0 V q c).arrAt_eq_of_cover 3 _ (fun t _ => ?_) fun i => ?_
  · show (cfg0.win 3).cut (cfg0.grid.coords t) ((dat0 V q c).after 3 t) = _
    rw [after0_3, iblk0_1, iblk0_2]
    exact rows_tile (by have := lt_of_lt_of_eq t.isLt N_0; omega) (h3 t) (Cert.Spec.proj _ _ _) fun r j R hR =>
      (out0_3_apply _ _ _ r j).trans (congrArg (· + _) (Finset.sum_congr rfl fun k _ =>
        congrArg (· * _) (congrArg (V c _) (blk_emb (rect_emb_val (cfg0.win 0) t) (idx0_facts t).1 r k R hR))))
  · obtain ⟨t, y, rfl⟩ := rows_cover (by rw [show cfg0.N = 20 from N_0]) h3 i
    exact ⟨t, (idx0_facts t).2.2.2.2, View.emb_mem_set _ _⟩

end Cert.KernelIdeal.Hand
-- ==== Proof.KernelIdeal.Pay1.lean ====
import proofs.«101247_j38388417692531_1_alg».proof.Proof.KernelIdeal.SpecLayerA
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open scoped BigOperators

section Product
variable [Cert.KernelIdeal.Facts₀]

private theorem mm_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch from List.not_mem_nil),
    dif_pos (show (0 : Fin S5000x64.rank) ∈ dot_S5000x64_S64x64_S5000x64_1_0_0_1_n_n.lhsNonContracting from List.mem_singleton.mpr rfl)]
  rfl

private theorem mm_lhs_col (i : S5000x64.Idx) (q : dot_S5000x64_S64x64_S5000x64_1_0_0_1_n_n.contr.Idx) :
    (dot_S5000x64_S64x64_S5000x64_1_0_0_1_n_n.lhsIdx i q 1).val = (q ⟨0, Nat.one_pos⟩).val :=
  dot_S5000x64_S64x64_S5000x64_1_0_0_1_n_n.lhsIdx_val_of_single rfl i q

private theorem mm_rhs_row (i : S5000x64.Idx) (q : dot_S5000x64_S64x64_S5000x64_1_0_0_1_n_n.contr.Idx) :
    (dot_S5000x64_S64x64_S5000x64_1_0_0_1_n_n.rhsIdx i q 0).val = (q ⟨0, Nat.one_pos⟩).val :=
  dot_S5000x64_S64x64_S5000x64_1_0_0_1_n_n.rhsIdx_val_of_single rfl i q

private theorem mm_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch from List.not_mem_nil),
    dif_pos (show (1 : Fin S64x64.rank) ∈ dot_S5000x64_S64x64_S5000x64_1_0_0_1_n_n.rhsNonContracting from List.mem_singleton.mpr rfl)]
  rfl

private theorem mm_apply {φ₁ φ₂ : FTy} (a : FVec Ideal S5000x64 φ₁) (w : FVec Ideal S64x64 φ₂) (r : Fin 5000) (j : Fin 64) :
    matmul dot_S5000x64_S64x64_S5000x64_1_0_0_1_n_n none a w (constant S5000x64 .f32 0x00000000#32) (ix2 r j)
      = ∑ k : Fin 64, a (ix2 r k) * w (ix2 k j) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j)
      ((contrEquiv1 dot_S5000x64_S64x64_S5000x64_1_0_0_1_n_n 64 rfl rfl).symm k) = ix2 r k := funext fun a => Fin.ext (by
    match a with
    | ⟨0, _⟩ => exact mm_lhs_row _ _
    | ⟨1, _⟩ => exact (mm_lhs_col _ _).trans hk)
  have er : dot_S5000x64_S64x64_S5000x64_1_0_0_1_n_n.rhsIdx (ix2 r j)
      ((contrEquiv1 dot_S5000x64_S64x64_S5000x64_1_0_0_1_n_n 64 rfl rfl).symm k) = ix2 k j := funext fun a => Fin.ext (by
    match a with
    | ⟨0, _⟩ => exact (mm_rhs_row _ _).trans hk
    | ⟨1, _⟩ => exact mm_rhs_col _ _)
  rw [el, er]

end Product

theorem pay1_7 (xb aggb : Vec Ideal S5000x64 .f32) (w1 : Vec Ideal S64x64 .f32) (b1 : Vec Ideal S1x64 .f32)
    (w2 : Vec Ideal S64x64 .f32) (b2 : Vec Ideal S1x64 .f32) (r : Fin 5000) (j : Fin 64) :
    k1_pay2 (F := Ideal) xb aggb w1 b1 w2 b2 (ix2 r j) = Cert.Spec.layerRow xb aggb w1 b1 w2 b2 r j := by
  unfold k1_pay2
  simp only [shapeCast_self]
  rw [maximumf_apply, addf_apply, mm_apply, broadcastTo_1b_ab_apply, broadcast_apply]
  unfold Cert.Spec.layerRow Cert.Spec.hiddenRow
  have hz : (Scalar.ofBits (F := Ideal) .f32 0x00000000#32 : EReal) = 0 := Ideal.ofBits_zero_f32
  rw [hz]
  congr 2
  refine Finset.sum_congr rfl fun k _ => ?_
  rw [truncf_apply, truncf_apply, maximumf_apply, addf_apply, mm_apply, broadcastTo_1b_ab_apply, broadcast_apply]
  rfl

theorem pay1_8 (xres : Vec Ideal S5000x64 .f32) : k1_pay1 (F := Ideal) xres = xres := by
  unfold k1_pay1
  exact shapeCast_self _ _

end Cert.KernelIdeal.Hand
-- ==== Proof.KernelIdeal.Val1.lean ====
import proofs.«101247_j38388417692531_1_alg».proof.Proof.KernelIdeal.Pay1
import proofs.«101247_j38388417692531_1_alg».proof.Proof.KernelIdeal.Reg1
import Idealize.ShloMosaic.Lib.Pipeline.Value
import proofs.«101247_j38388417692531_1_alg».proof.Proof.KernelIdeal.Blocks

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)
open Idealize.ShloMosaic.Pipeline.Window (rect_emb_val)
open Idealize.ShloMosaic.ValueIdx

variable (V : (c : Dev nD) → (b : Ref sig .tc) → Buf (Elt Ideal) ((c : Thread nD τ).loc b))
variable (q : Fin cfg1.W → PosShare TreeShare)

/-- At point t the row tiles are at block (t, 0), the weights and biases at block (0, 0). -/
theorem idx1_facts (t : Fin grid1.N) :
    (cfg1.win 0).index t = ![t.val, 0] ∧ (cfg1.win 1).index t = ![t.val, 0] ∧ (cfg1.win 2).index t = ![t.val, 0]
    ∧ (cfg1.win 3).index t = ![0, 0] ∧ (cfg1.win 4).index t = ![0, 0] ∧ (cfg1.win 5).index t = ![0, 0]
    ∧ (cfg1.win 6).index t = ![0, 0] ∧ (cfg1.win 7).index t = ![t.val, 0] ∧ (cfg1.win 8).index t = ![t.val, 0]
    ∧ (cfg1.win 7).flush t = true ∧ (cfg1.win 8).flush t = true := by
  revert t; decide +kernel

theorem out1_7_apply (x agg : Vec Ideal S5000x64 .f32) (wa : Vec Ideal S64x64 .f32) (ba : Vec Ideal S1x64 .f32)
    (wb : Vec Ideal S64x64 .f32) (bb : Vec Ideal S1x64 .f32) (r : Fin 5000) (j : Fin 64) :
    out1_7 (F := Ideal) x agg wa ba wb bb (ix2 r j) = Cert.Spec.layerRow x agg wa ba wb bb r j := by
  unfold out1_7
  rw [View.canon_unit_zero blk_hz]
  simp only [View.ld_unit_zero (S := S5000x64) blk_hz, View.ld_unit_zero (S := S64x64) blk_hz,
    View.ld_unit_zero (S := S1x64) blk_hz]
  exact pay1_7 x agg wa ba wb bb r j

theorem out1_8_apply (xres : Vec Ideal S5000x64 .f32) : out1_8 (F := Ideal) xres = xres := by
  unfold out1_8
  rw [View.canon_unit_zero blk_hz]
  simp only [View.ld_unit_zero (S := S5000x64) blk_hz]
  exact pay1_8 xres

/-- A row of the layer reads the same row of the features only, so tile t of the layer is the layer's formula on the tiles. -/
theorem final1_7 (c : Dev nD) :
    (dat1 (F := Ideal) V q c).arrAt 7 cfg1.N
      = Cert.Spec.layerA (V c (Pipeline.arrRef spec1 0)) (V c (Pipeline.arrRef spec1 1)) (V c (Pipeline.arrRef spec1 3))
          (V c (Pipeline.arrRef spec1 4)) (V c (Pipeline.arrRef spec1 5)) (V c (Pipeline.arrRef spec1 6)) := by
  have h7 (t : Fin cfg1.N) := blk_emb (e := ((cfg1.win 7).blk t).view.emb) (rect_emb_val (cfg1.win 7) t) (idx1_facts t).2.2.2.2.2.2.2.1
  refine (dat1 (F := Ideal) V q c).arrAt_eq_of_cover 7 _ (fun t _ => ?_) fun i => ?_
  · obtain ⟨ea, eb, -, ec, ed, ee, ef, -⟩ := idx1_facts t
    show (cfg1.win 7).cut (cfg1.grid.coords t) ((dat1 (F := Ideal) V q c).after 7 t) = _
    rw [after1_7, show iblk1 V c 3 t = V c (Pipeline.arrRef spec1 3) from
        funext fun y => congrArg (V c _) (blk_whole (rect_emb_val (cfg1.win 3) t) ec y),
      show iblk1 V c 4 t = V c (Pipeline.arrRef spec1 4) from
        funext fun y => congrArg (V c _) (blk_whole (rect_emb_val (cfg1.win 4) t) ed y),
      show iblk1 V c 5 t = V c (Pipeline.arrRef spec1 5) from
        funext fun y => congrArg (V c _) (blk_whole (rect_emb_val (cfg1.win 5) t) ee y),
      show iblk1 V c 6 t = V c (Pipeline.arrRef spec1 6) from
        funext fun y => congrArg (V c _) (blk_whole (rect_emb_val (cfg1.win 6) t) ef y)]
    exact rows_tile (by have := lt_of_lt_of_eq t.isLt N_1; omega) (h7 t) (Cert.Spec.layerA _ _ _ _ _ _) fun r j R hR =>
      (out1_7_apply _ _ _ _ _ _ r j).trans (Cert.Spec.layerRow_congr _ _ _ _ _ _ _ _ r R
        (fun l => congrArg (V c _) (blk_emb (rect_emb_val (cfg1.win 0) t) ea r l R hR))
        (fun l => congrArg (V c _) (blk_emb (rect_emb_val (cfg1.win 1) t) eb r l R hR)) j)
  · obtain ⟨t, y, rfl⟩ := rows_cover (by rw [show cfg1.N = 20 from N_1]) h7 i
    exact ⟨t, (idx1_facts t).2.2.2.2.2.2.2.2.2.1, View.emb_mem_set _ _⟩

/-- The second result is the residual array, tile by tile. -/
theorem final1_8 (c : Dev nD) :
    (dat1 (F := Ideal) V q c).arrAt 8 cfg1.N = V c (Pipeline.arrRef spec1 2) := by
  have h8 (t : Fin cfg1.N) := blk_emb (e := ((cfg1.win 8).blk t).view.emb) (rect_emb_val (cfg1.win 8) t) (idx1_facts t).2.2.2.2.2.2.2.2.1
  refine (dat1 (F := Ideal) V q c).arrAt_eq_of_cover 8 _ (fun t _ => ?_) fun i => ?_
  · show (cfg1.win 8).cut (cfg1.grid.coords t) ((dat1 (F := Ideal) V q c).after 8 t) = _
    rw [after1_8, out1_8_apply]
    exact rows_tile (by have := lt_of_lt_of_eq t.isLt N_1; omega) (h8 t) (V c (Pipeline.arrRef spec1 2)) fun r j R hR =>
      congrArg (V c _) (blk_emb (rect_emb_val (cfg1.win 2) t) (idx1_facts t).2.2.1 r j R hR)
  · obtain ⟨t, y, rfl⟩ := rows_cover (by rw [show cfg1.N = 20 from N_1]) h8 i
    exact ⟨t, (idx1_facts t).2.2.2.2.2.2.2.2.2.2, View.emb_mem_set _ _⟩

end Cert.KernelIdeal.Hand
-- ==== Proof.ChainQ.lean ====
import proofs.«101247_j38388417692531_1_alg».proof.Proof.Gen.KernelIdeal.Regions
import proofs.«101247_j38388417692531_1_alg».proof.Proof.Gen.ReferenceIdeal
import proofs.«101247_j38388417692531_1_alg».proof.Proof.KernelIdeal.Data
import proofs.«101247_j38388417692531_1_alg».proof.Proof.KernelIdeal.HostQ
import proofs.«101247_j38388417692531_1_alg».proof.Proof.KernelIdeal.SpecProj
import proofs.«101247_j38388417692531_1_alg».proof.Proof.KernelIdeal.SpecLayerA
import proofs.«101247_j38388417692531_1_alg».proof.Proof.KernelIdeal.Val0
import proofs.«101247_j38388417692531_1_alg».proof.Proof.KernelIdeal.Val1
import proofs.«101247_j38388417692531_1_alg».proof.Proof.RefRunP

set_option maxRecDepth 16384

noncomputable section

namespace Cert.Proof.ChainQ

open Cert.KernelIdeal Cert.KernelIdeal.Gen Cert.KernelIdeal.Hand
open Cert.ReferenceIdeal.Value
open Idealize.ShloMosaic Idealize.ShloMosaic.TcCoe
open Idealize.SL Idealize.SL.Sem

variable (m : (ℓ : Loc nD τ sig) → Buf (Elt Ideal) ℓ) (outs : Outs (F := Ideal)) (hO : OutsOk m outs) (c : Dev nD)
include hO

theorem cq0 : V2 m outs c main_v5 = stage_main_v7 (m ((c : Thread nD τ).loc main_arg0)) (m ((c : Thread nD τ).loc main_arg6)) (m ((c : Thread nD τ).loc main_arg7)) := by
  have h := final0_3 (En1 m) qfull c
  change _ = Cert.Spec.proj (V1 m c main_arg0) (V1 m c main_arg6) (V1 m c main_v4) at h
  rw [rd0_0, rd0_1, rd0_2, Cert.Spec.proj_ops] at h
  refine (Function.update_self _ _ _).trans (((hO.o_main_v5 c).trans h).trans ?_)
  unfold stage_main_v7 stage_main_v4 stage_main_v6 stage_main_v5
  rfl

theorem cq1 : V4 m outs c main_v26_0 = stage_main_v36 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ∧ V4 m outs c main_v26_1 = stage_main_v7 (m ((c : Thread nD τ).loc main_arg0)) (m ((c : Thread nD τ).loc main_arg6)) (m ((c : Thread nD τ).loc main_arg7)) := by
  have h0 := cq0 m outs hO c
  constructor
  · have h := final1_7 (En3 m outs) q1 c
    change _ = Cert.Spec.layerA (V3 m outs c main_v5) (V3 m outs c main_v15) (V3 m outs c main_v17) (V3 m outs c main_v24) (V3 m outs c main_v21) (V3 m outs c main_v25) at h
    rw [rd1_0, rd1_1, rd1_3, rd1_4, rd1_5, rd1_6, h0, Cert.Spec.layerA_ops] at h
    refine ((Function.update_of_ne (by decide) _ _).trans (Function.update_self _ _ _)).trans (((hO.o_main_v26_0 c).trans h).trans ?_)

    unfold stage_main_v36 stage_main_v35 stage_main_v34 stage_main_v33 stage_main_v32 stage_main_v31 stage_main_v30 stage_main_v29 stage_main_v28 stage_main_v27
      stage_main_v26 stage_main_v25 stage_main_v24 stage_main_v23 stage_main_v22 stage_main_v21 stage_main_v20 stage_main_v19 stage_main_v18 stage_main_v17
      stage_main_v16 stage_main_v15 stage_main_v14 stage_main_v13 stage_main_v12 stage_main_v11 stage_main_v10 stage_main_v9 stage_main_v8 stage_main_v3 stage_main_v2
      stage_main_v1 stage_main_v0 stage_main_call0_v0 stage_main_call0_cst stage_main_call1_v0 stage_main_call1_cst stage_main_c stage_main_c_0 stage_main_cst

    unfold srcIdx dstIdx edgeSrc edgeDst
    rfl
  · have h := final1_8 (En3 m outs) q1 c
    change _ = V3 m outs c main_v5 at h
    rw [rd1_2, h0] at h
    exact (Function.update_self _ _ _).trans ((hO.o_main_v26_1 c).trans h)

end Cert.Proof.ChainQ

end
-- ==== Proof.KernelIdeal.SpecLayerB.lean ====
import Idealize.ShloMosaic.Lib.ValueIdx
import Idealize.ShloMosaic.Lib.Pipeline.Value
import Idealize.ShloMosaic.Lib.ValueLayout
import Idealize.ShloMosaic.PureOps.Ideal.Laws
import proofs.«101247_j38388417692531_1_alg».proof.KernelIdeal
import proofs.«101247_j38388417692531_1_alg».proof.ReferenceIdeal

noncomputable section

namespace Cert.Spec

open Idealize.ShloMosaic Idealize.ShloMosaic.ValueIdx
open scoped BigOperators

namespace LayerB

section PlainDot
variable {n m p : Nat} (d : DotDims ⟨2, ![n, m]⟩ ⟨2, ![m, p]⟩ ⟨2, ![n, p]⟩)

theorem plainDot_contr_rank (hlc : d.lhsContracting = [(1 : Fin 2)]) : d.contr.rank = 1 := by
  rw [d.rank_contr, hlc]; rfl

theorem plainDot_contr_size (hlc : d.lhsContracting = [(1 : Fin 2)]) :
    d.contr.size ⟨0, by rw [plainDot_contr_rank d hlc]; exact Nat.one_pos⟩ = m := by
  rw [d.size_contr 0 (by rw [hlc]; exact Nat.one_pos), List.getElem_of_eq hlc]
  rfl

theorem plainDot_lhs0 (hlb : d.lhsBatch = []) (hln : d.lhsNonContracting = [(0 : Fin 2)])
    (j : (⟨2, ![n, p]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![n, p]⟩ : Shape).rank) (hb : b < (⟨2, ![n, p]⟩ : Shape).rank), a = b →
      (j ⟨a, ha⟩).val = (j ⟨b, hb⟩).val := fun a b ha hb h => by subst h; rfl
  exact key _ _ _ _ (by simp [hlb, hln])

theorem plainDot_rhs1 (hlb : d.lhsBatch = []) (hrb : d.rhsBatch = []) (hln : d.lhsNonContracting = [(0 : Fin 2)])
    (hrn : d.rhsNonContracting = [(1 : Fin 2)])
    (j : (⟨2, ![n, p]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![n, p]⟩ : Shape).rank) (hb : b < (⟨2, ![n, p]⟩ : Shape).rank), a = b →
      (j ⟨a, ha⟩).val = (j ⟨b, hb⟩).val := fun a b ha hb h => by subst h; rfl
  exact key _ _ _ _ (by simp [hlb, hln, hrn])

theorem plainDot_sum (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (lhs : (⟨2, ![n, m]⟩ : Shape).Idx → EReal) (rhs : (⟨2, ![m, p]⟩ : Shape).Idx → EReal) (r : Fin n) (j : Fin p) :
    ∑ k : d.contr.Idx, lhs (d.lhsIdx (ix2 r j) k) * rhs (d.rhsIdx (ix2 r j) k)
      = ∑ k : Fin m, lhs (ix2 r k) * rhs (ix2 k j) := by
  rw [← Equiv.sum_comp (contrEquiv1 d m (plainDot_contr_rank d hlc) (plainDot_contr_size d hlc)).symm]
  refine Finset.sum_congr rfl fun k _ => ?_
  have hk := contrEquiv1_symm_val d m (plainDot_contr_rank d hlc) (plainDot_contr_size d hlc) k
  have el : d.lhsIdx (ix2 r j) ((contrEquiv1 d m (plainDot_contr_rank d hlc) (plainDot_contr_size d hlc)).symm k)
      = ix2 r k := funext fun a => Fin.ext (by
    match a with
    | ⟨0, _⟩ => exact plainDot_lhs0 d hlb hln _ _
    | ⟨1, _⟩ => exact (d.lhsIdx_val_of_single hlc _ _).trans hk)
  have er : d.rhsIdx (ix2 r j) ((contrEquiv1 d m (plainDot_contr_rank d hlc) (plainDot_contr_size d hlc)).symm k)
      = ix2 k j := funext fun a => Fin.ext (by
    match a with
    | ⟨0, _⟩ => exact (d.rhsIdx_val_of_single hrc _ _).trans hk
    | ⟨1, _⟩ => exact plainDot_rhs1 d hlb hrb hln hrn _ _)
  rw [el, er]

end PlainDot

theorem dotGeneral_plain_apply {n m p : Nat} {φ₁ φ₂ : FTy} (d : DotDims ⟨2, ![n, m]⟩ ⟨2, ![m, p]⟩ ⟨2, ![n, p]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = []) (prec : Option ContractPrecision) (sched : HostSchedule)
    (lhs : FVec Ideal ⟨2, ![n, m]⟩ φ₁) (rhs : FVec Ideal ⟨2, ![m, p]⟩ φ₂) (r : Fin n) (j : Fin p) :
    FloatOps.dotGeneral d prec sched lhs rhs (ix2 r j) = ∑ k : Fin m, lhs (ix2 r k) * rhs (ix2 k j) :=
  (Ideal.dotGeneral_apply d prec sched lhs rhs (ix2 r j)).trans (plainDot_sum d hlc hrc hln hrn hlb hrb lhs rhs r j)

theorem matmul_plain_apply {n m p : Nat} {φ₁ φ₂ : FTy} (d : DotDims ⟨2, ![n, m]⟩ ⟨2, ![m, p]⟩ ⟨2, ![n, p]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = []) (prec : Option ContractPrecision)
    (lhs : FVec Ideal ⟨2, ![n, m]⟩ φ₁) (rhs : FVec Ideal ⟨2, ![m, p]⟩ φ₂) (r : Fin n) (j : Fin p) :
    FloatOps.matmul d prec lhs rhs (constant ⟨2, ![n, p]⟩ .f32 0x00000000#32) (ix2 r j)
      = ∑ k : Fin m, lhs (ix2 r k) * rhs (ix2 k j) :=
  (Ideal.matmul_constant_zero_apply d prec lhs rhs (ix2 r j)).trans (plainDot_sum d hlc hrc hln hrn hlb hrb lhs rhs r j)

theorem bias_bcast_apply {n : Nat} (b : (⟨1, ![64]⟩ : Shape).Idx → EReal)
    (h1 : (⟨1, ![64]⟩ : Shape).BroadcastsInDim ⟨2, ![1, 64]⟩ (![1] : Fin 1 → Fin 2))
    (h2 : (⟨2, ![1, 64]⟩ : Shape).BroadcastsInDim ⟨2, ![n, 64]⟩ (![0, 1] : Fin 2 → Fin 2)) (r : Fin n) (k : Fin 64) :
    broadcastInDim ⟨2, ![n, 64]⟩ ![0, 1] h2 (broadcastInDim ⟨2, ![1, 64]⟩ ![1] h1 b) (ix2 r k) = b (ix1 k) := by
  refine (broadcastInDim_apply _ h2 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans ?_
  exact broadcastInDim_apply _ h1 b (ix2 (0 : Fin 1) k) (ix1 k) (fun a => match a with
    | ⟨0, _⟩ => by show k.val = if (64 : Nat) = 1 then 0 else k.val; rw [if_neg (by decide)])

end LayerB

open LayerB

abbrev layerBzero : Ideal .f32 := Scalar.ofBits (F := Ideal) .f32 0x00000000#32

def layerBresAt {n : Nat} (x agg : (⟨2, ![n, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) (xres : (⟨2, ![n, 64]⟩ : Shape).Idx → EReal) (r : Fin n) (j : Fin 64) : EReal :=
  ((∑ k : Fin 64, (max ((∑ l : Fin 64, (x (ix2 r l) + agg (ix2 r l)) * w1 (ix2 l k)) + b1 (ix2 (0 : Fin 1) k)) layerBzero)
      * w2 (ix2 k j)) + b2 (ix2 (0 : Fin 1) j)) + xres (ix2 r j)

def layerBres (x agg : FVec Ideal Cert.KernelIdeal.S100000x64 .f32) (w1 : FVec Ideal Cert.KernelIdeal.S64x64 .f32)
    (b1 : FVec Ideal Cert.KernelIdeal.S1x64 .f32) (w2 : FVec Ideal Cert.KernelIdeal.S64x64 .f32)
    (b2 : FVec Ideal Cert.KernelIdeal.S1x64 .f32) (xres : FVec Ideal Cert.KernelIdeal.S100000x64 .f32) :
    FVec Ideal Cert.KernelIdeal.S100000x64 .f32 :=
  fun i => layerBresAt x agg w1 b1 w2 b2 xres (i 0 : Fin 100000) (i 1 : Fin 64)

def layerBout (x agg : FVec Ideal Cert.KernelIdeal.S100000x64 .f32) (w1 : FVec Ideal Cert.KernelIdeal.S64x64 .f32)
    (b1 : FVec Ideal Cert.KernelIdeal.S1x64 .f32) (w2 : FVec Ideal Cert.KernelIdeal.S64x64 .f32)
    (b2 : FVec Ideal Cert.KernelIdeal.S1x64 .f32) (xres : FVec Ideal Cert.KernelIdeal.S100000x64 .f32) :
    FVec Ideal Cert.KernelIdeal.S100000x64 .f32 :=
  fun i => max (layerBres x agg w1 b1 w2 b2 xres i) layerBzero

theorem layerBres_ix2 (x agg : FVec Ideal Cert.KernelIdeal.S100000x64 .f32) (w1 : FVec Ideal Cert.KernelIdeal.S64x64 .f32)
    (b1 : FVec Ideal Cert.KernelIdeal.S1x64 .f32) (w2 : FVec Ideal Cert.KernelIdeal.S64x64 .f32)
    (b2 : FVec Ideal Cert.KernelIdeal.S1x64 .f32) (xres : FVec Ideal Cert.KernelIdeal.S100000x64 .f32)
    (r : Fin 100000) (j : Fin 64) :
    layerBres x agg w1 b1 w2 b2 xres (ix2 r j) = layerBresAt x agg w1 b1 w2 b2 xres r j := rfl

theorem layerBout_ix2 (x agg : FVec Ideal Cert.KernelIdeal.S100000x64 .f32) (w1 : FVec Ideal Cert.KernelIdeal.S64x64 .f32)
    (b1 : FVec Ideal Cert.KernelIdeal.S1x64 .f32) (w2 : FVec Ideal Cert.KernelIdeal.S64x64 .f32)
    (b2 : FVec Ideal Cert.KernelIdeal.S1x64 .f32) (xres : FVec Ideal Cert.KernelIdeal.S100000x64 .f32)
    (r : Fin 100000) (j : Fin 64) :
    layerBout x agg w1 b1 w2 b2 xres (ix2 r j) = max (layerBresAt x agg w1 b1 w2 b2 xres r j) layerBzero := rfl

section Ops
variable [Cert.ReferenceIdeal.Facts₀] [Cert.KernelIdeal.Facts₀]
open Cert.ReferenceIdeal.Facts₀ in

theorem layerBres_ops (x agg : FVec Ideal Cert.KernelIdeal.S100000x64 .f32) (w1 : FVec Ideal Cert.KernelIdeal.S64x64 .f32)
    (b1 : FVec Ideal Cert.KernelIdeal.S64 .f32) (w2 : FVec Ideal Cert.KernelIdeal.S64x64 .f32)
    (b2 : FVec Ideal Cert.KernelIdeal.S64 .f32) (xres : FVec Ideal Cert.KernelIdeal.S100000x64 .f32) :
    layerBres x agg w1 (shapeCast Cert.KernelIdeal.S1x64 b1 Cert.KernelIdeal.Facts₀.shapeCasts_S64_S1x64) w2
        (shapeCast Cert.KernelIdeal.S1x64 b2 Cert.KernelIdeal.Facts₀.shapeCasts_S64_S1x64) xres
      = addf (addf (Host.dotGeneral Cert.ReferenceIdeal.dot_S100000x64_S64x64_S100000x64_1_0_0_1_n_n none
            (maximumf (addf (Host.dotGeneral Cert.ReferenceIdeal.dot_S100000x64_S64x64_S100000x64_1_0_0_1_n_n none (addf x agg) w1)
                (broadcastInDim Cert.ReferenceIdeal.S100000x64 ![0, 1] bcast_S1x64_S100000x64_0_1
                  (broadcastInDim Cert.ReferenceIdeal.S1x64 ![1] bcast_S64_S1x64_1 b1)))
              (broadcastInDim Cert.ReferenceIdeal.S100000x64 ![] bcast_S_S100000x64 (constant Cert.ReferenceIdeal.S_ .f32 0x00000000#32)))
            w2)
          (broadcastInDim Cert.ReferenceIdeal.S100000x64 ![0, 1] bcast_S1x64_S100000x64_0_1
            (broadcastInDim Cert.ReferenceIdeal.S1x64 ![1] bcast_S64_S1x64_1 b2)))
        xres := by
  funext i
  obtain ⟨r, j, rfl⟩ : ∃ r j, i = ix2 r j := ⟨i 0, i 1, eq_ix2 i⟩
  rw [layerBres_ix2]
  unfold layerBresAt
  simp only [addf_apply, Host.dotGeneral]
  rw [dotGeneral_plain_apply Cert.ReferenceIdeal.dot_S100000x64_S64x64_S100000x64_1_0_0_1_n_n rfl rfl rfl rfl rfl rfl]
  rw [bias_bcast_apply, shapeCast_a_1a_apply]
  congr 2
  refine Finset.sum_congr rfl fun k _ => ?_
  simp only [maximumf_apply, addf_apply]
  rw [dotGeneral_plain_apply Cert.ReferenceIdeal.dot_S100000x64_S64x64_S100000x64_1_0_0_1_n_n rfl rfl rfl rfl rfl rfl,
    bias_bcast_apply, shapeCast_a_1a_apply]
  rfl

open Cert.ReferenceIdeal.Facts₀ in

theorem layerBout_ops (x agg : FVec Ideal Cert.KernelIdeal.S100000x64 .f32) (w1 : FVec Ideal Cert.KernelIdeal.S64x64 .f32)
    (b1 : FVec Ideal Cert.KernelIdeal.S64 .f32) (w2 : FVec Ideal Cert.KernelIdeal.S64x64 .f32)
    (b2 : FVec Ideal Cert.KernelIdeal.S64 .f32) (xres : FVec Ideal Cert.KernelIdeal.S100000x64 .f32) :
    layerBout x agg w1 (shapeCast Cert.KernelIdeal.S1x64 b1 Cert.KernelIdeal.Facts₀.shapeCasts_S64_S1x64) w2
        (shapeCast Cert.KernelIdeal.S1x64 b2 Cert.KernelIdeal.Facts₀.shapeCasts_S64_S1x64) xres
      = maximumf
        (addf (addf (Host.dotGeneral Cert.ReferenceIdeal.dot_S100000x64_S64x64_S100000x64_1_0_0_1_n_n none
            (maximumf (addf (Host.dotGeneral Cert.ReferenceIdeal.dot_S100000x64_S64x64_S100000x64_1_0_0_1_n_n none (addf x agg) w1)
                (broadcastInDim Cert.ReferenceIdeal.S100000x64 ![0, 1] bcast_S1x64_S100000x64_0_1
                  (broadcastInDim Cert.ReferenceIdeal.S1x64 ![1] bcast_S64_S1x64_1 b1)))
              (broadcastInDim Cert.ReferenceIdeal.S100000x64 ![] bcast_S_S100000x64 (constant Cert.ReferenceIdeal.S_ .f32 0x00000000#32)))
            w2)
          (broadcastInDim Cert.ReferenceIdeal.S100000x64 ![0, 1] bcast_S1x64_S100000x64_0_1
            (broadcastInDim Cert.ReferenceIdeal.S1x64 ![1] bcast_S64_S1x64_1 b2)))
        xres)
        (broadcastInDim Cert.ReferenceIdeal.S100000x64 ![] bcast_S_S100000x64 (constant Cert.ReferenceIdeal.S_ .f32 0x00000000#32)) := by
  unfold layerBout
  rw [layerBres_ops]
  rfl

end Ops

end Cert.Spec
-- ==== Proof.KernelIdeal.Pay2.lean ====
import proofs.«101247_j38388417692531_1_alg».proof.Proof.KernelIdeal.SpecLayerB
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open Cert.Spec.LayerB
open scoped BigOperators

theorem pay2_8 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k2_pay1 (F := Ideal) xb aggb w1 b1 w2 b2 xresb (ix2 r j) = Cert.Spec.layerBresAt xb aggb w1 b1 w2 b2 xresb r j := by
  unfold k2_pay1
  simp only [shapeCast_self]
  unfold Cert.Spec.layerBresAt
  simp only [addf_apply, matmul]
  rw [matmul_plain_apply dot_S5000x64_S64x64_S5000x64_1_0_0_1_n_n rfl rfl rfl rfl rfl rfl, broadcastTo_1b_ab_apply]
  congr 2
  refine Finset.sum_congr rfl fun k _ => ?_
  simp only [truncf_apply, maximumf_apply, addf_apply, broadcast_apply]
  rw [matmul_plain_apply dot_S5000x64_S64x64_S5000x64_1_0_0_1_n_n rfl rfl rfl rfl rfl rfl, broadcastTo_1b_ab_apply]
  simp only [truncf_apply, addf_apply]

theorem pay2_7 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k2_pay2 (F := Ideal) xb aggb w1 b1 w2 b2 xresb (ix2 r j)
      = max (Cert.Spec.layerBresAt xb aggb w1 b1 w2 b2 xresb r j) Cert.Spec.layerBzero := by
  unfold k2_pay2
  simp only [maximumf_apply, broadcast_apply]
  rw [pay2_8]

end Cert.KernelIdeal.Hand
-- ==== Proof.KernelIdeal.Val2.lean ====
import proofs.«101247_j38388417692531_1_alg».proof.Proof.KernelIdeal.Pay2
import proofs.«101247_j38388417692531_1_alg».proof.Proof.KernelIdeal.Reg2
import Idealize.ShloMosaic.Lib.Pipeline.Value
import proofs.«101247_j38388417692531_1_alg».proof.Proof.KernelIdeal.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

variable (V : (c : Dev nD) → (b : Ref sig .tc) → Buf (Elt Ideal) ((c : Thread nD τ).loc b))
variable (q : Fin cfg2.W → PosShare TreeShare)

/-- At point t the row tiles are at block (t, 0), the weights and biases at block (0, 0). -/
theorem idx2_facts (t : Fin grid2.N) :
    (cfg2.win 0).index t = ![t.val, 0] ∧ (cfg2.win 1).index t = ![t.val, 0] ∧ (cfg2.win 2).index t = ![t.val, 0]
    ∧ (cfg2.win 3).index t = ![0, 0] ∧ (cfg2.win 4).index t = ![0, 0] ∧ (cfg2.win 5).index t = ![0, 0]
    ∧ (cfg2.win 6).index t = ![0, 0] ∧ (cfg2.win 7).index t = ![t.val, 0] ∧ (cfg2.win 8).index t = ![t.val, 0]
    ∧ (cfg2.win 7).flush t = true ∧ (cfg2.win 8).flush t = true := by
  revert t; decide +kernel

theorem out2_8_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out2_8 (F := Ideal) xb aggb w1 b1 w2 b2 xresb (ix2 r j) = Cert.Spec.layerBresAt xb aggb w1 b1 w2 b2 xresb r j := by
  unfold out2_8
  rw [View.canon_unit_zero blk_hz]
  simp only [View.ld_unit_zero (S := S5000x64) blk_hz, View.ld_unit_zero (S := S64x64) blk_hz, View.ld_unit_zero (S := S1x64) blk_hz]
  exact pay2_8 xb aggb w1 b1 w2 b2 xresb r j

theorem out2_7_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out2_7 (F := Ideal) xb aggb w1 b1 w2 b2 xresb (ix2 r j)
      = max (Cert.Spec.layerBresAt xb aggb w1 b1 w2 b2 xresb r j) Cert.Spec.layerBzero := by
  unfold out2_7
  rw [View.canon_unit_zero blk_hz]
  simp only [View.ld_unit_zero (S := S5000x64) blk_hz, View.ld_unit_zero (S := S64x64) blk_hz, View.ld_unit_zero (S := S1x64) blk_hz]
  exact pay2_7 xb aggb w1 b1 w2 b2 xresb r j

theorem iblk2_3 (c : Dev nD) (t : Fin cfg2.N) : iblk2 V c 3 t = V c (Pipeline.arrRef spec2 3) :=
  funext fun y => congrArg (V c _) (blk_whole (rect_emb_val (cfg2.win 3) t) (idx2_facts t).2.2.2.1 y)

theorem iblk2_4 (c : Dev nD) (t : Fin cfg2.N) : iblk2 V c 4 t = V c (Pipeline.arrRef spec2 4) :=
  funext fun y => congrArg (V c _) (blk_whole (rect_emb_val (cfg2.win 4) t) (idx2_facts t).2.2.2.2.1 y)

theorem iblk2_5 (c : Dev nD) (t : Fin cfg2.N) : iblk2 V c 5 t = V c (Pipeline.arrRef spec2 5) :=
  funext fun y => congrArg (V c _) (blk_whole (rect_emb_val (cfg2.win 5) t) (idx2_facts t).2.2.2.2.2.1 y)

theorem iblk2_6 (c : Dev nD) (t : Fin cfg2.N) : iblk2 V c 6 t = V c (Pipeline.arrRef spec2 6) :=
  funext fun y => congrArg (V c _) (blk_whole (rect_emb_val (cfg2.win 6) t) (idx2_facts t).2.2.2.2.2.2.1 y)

theorem iblk2_0 (c : Dev nD) (t : Fin cfg2.N) (r : Fin 5000) (R : Fin 100000) (hR : R.val = t.val * 5000 + r.val) (l : Fin 64) :
    iblk2 V c 0 t (ix2 r l) = V c (Pipeline.arrRef spec2 0) (ix2 R l) :=
  congrArg (V c _) (blk_emb (rect_emb_val (cfg2.win 0) t) (idx2_facts t).1 r l R hR)

theorem iblk2_1 (c : Dev nD) (t : Fin cfg2.N) (r : Fin 5000) (R : Fin 100000) (hR : R.val = t.val * 5000 + r.val) (l : Fin 64) :
    iblk2 V c 1 t (ix2 r l) = V c (Pipeline.arrRef spec2 1) (ix2 R l) :=
  congrArg (V c _) (blk_emb (rect_emb_val (cfg2.win 1) t) (idx2_facts t).2.1 r l R hR)

theorem iblk2_2 (c : Dev nD) (t : Fin cfg2.N) (r : Fin 5000) (R : Fin 100000) (hR : R.val = t.val * 5000 + r.val) (l : Fin 64) :
    iblk2 V c 2 t (ix2 r l) = V c (Pipeline.arrRef spec2 2) (ix2 R l) :=
  congrArg (V c _) (blk_emb (rect_emb_val (cfg2.win 2) t) (idx2_facts t).2.2.1 r l R hR)

/-- A row of the layer reads the same row of the row-tiled arrays only: the formula on the tiles at row r is the formula on the arrays at row 5000 t + r. -/
theorem covered2_resAt (c : Dev nD) (t : Fin cfg2.N) (r : Fin 5000) (R : Fin 100000) (hR : R.val = t.val * 5000 + r.val) (j : Fin 64) :
    Cert.Spec.layerBresAt (n := 5000) (iblk2 V c 0 t) (iblk2 V c 1 t) (iblk2 V c 3 t) (iblk2 V c 4 t) (iblk2 V c 5 t) (iblk2 V c 6 t) (iblk2 V c 2 t) r j
      = Cert.Spec.layerBresAt (n := 100000) (V c (Pipeline.arrRef spec2 0)) (V c (Pipeline.arrRef spec2 1)) (V c (Pipeline.arrRef spec2 3))
        (V c (Pipeline.arrRef spec2 4)) (V c (Pipeline.arrRef spec2 5)) (V c (Pipeline.arrRef spec2 6)) (V c (Pipeline.arrRef spec2 2)) R j := by
  rw [iblk2_3, iblk2_4, iblk2_5, iblk2_6]
  unfold Cert.Spec.layerBresAt
  simp only [iblk2_0 V c t r R hR, iblk2_1 V c t r R hR, iblk2_2 V c t r R hR]

theorem final2_8 (c : Dev nD) : (dat2 (F := Ideal) V q c).arrAt 8 cfg2.N
    = Cert.Spec.layerBres (V c (Pipeline.arrRef spec2 0)) (V c (Pipeline.arrRef spec2 1)) (V c (Pipeline.arrRef spec2 3))
        (V c (Pipeline.arrRef spec2 4)) (V c (Pipeline.arrRef spec2 5)) (V c (Pipeline.arrRef spec2 6)) (V c (Pipeline.arrRef spec2 2)) := by
  have h8 (t : Fin cfg2.N) := blk_emb (e := ((cfg2.win 8).blk t).view.emb) (rect_emb_val (cfg2.win 8) t) (idx2_facts t).2.2.2.2.2.2.2.2.1
  refine (dat2 (F := Ideal) V q c).arrAt_eq_of_cover 8 _ (fun t _ => ?_) fun i => ?_
  · show (cfg2.win 8).cut (cfg2.grid.coords t) ((dat2 V q c).after 8 t) = _
    rw [after2_8]
    exact rows_tile (by have := lt_of_lt_of_eq t.isLt N_2; omega) (h8 t) (Cert.Spec.layerBres _ _ _ _ _ _ _) fun r j R hR =>
      (out2_8_apply _ _ _ _ _ _ _ r j).trans (covered2_resAt V c t r R hR j)
  · obtain ⟨t, y, rfl⟩ := rows_cover (by rw [show cfg2.N = 20 from N_2]) h8 i
    exact ⟨t, (idx2_facts t).2.2.2.2.2.2.2.2.2.2, View.emb_mem_set _ _⟩

theorem final2_7 (c : Dev nD) : (dat2 (F := Ideal) V q c).arrAt 7 cfg2.N
    = Cert.Spec.layerBout (V c (Pipeline.arrRef spec2 0)) (V c (Pipeline.arrRef spec2 1)) (V c (Pipeline.arrRef spec2 3))
        (V c (Pipeline.arrRef spec2 4)) (V c (Pipeline.arrRef spec2 5)) (V c (Pipeline.arrRef spec2 6)) (V c (Pipeline.arrRef spec2 2)) := by
  have h7 (t : Fin cfg2.N) := blk_emb (e := ((cfg2.win 7).blk t).view.emb) (rect_emb_val (cfg2.win 7) t) (idx2_facts t).2.2.2.2.2.2.2.1
  refine (dat2 (F := Ideal) V q c).arrAt_eq_of_cover 7 _ (fun t _ => ?_) fun i => ?_
  · show (cfg2.win 7).cut (cfg2.grid.coords t) ((dat2 V q c).after 7 t) = _
    rw [after2_7]
    exact rows_tile (by have := lt_of_lt_of_eq t.isLt N_2; omega) (h7 t) (Cert.Spec.layerBout _ _ _ _ _ _ _) fun r j R hR =>
      (out2_7_apply _ _ _ _ _ _ _ r j).trans (congrArg (max · _) (covered2_resAt V c t r R hR j))
  · obtain ⟨t, y, rfl⟩ := rows_cover (by rw [show cfg2.N = 20 from N_2]) h7 i
    exact ⟨t, (idx2_facts t).2.2.2.2.2.2.2.2.2.1, View.emb_mem_set _ _⟩

end Cert.KernelIdeal.Hand
-- ==== Proof.KernelIdeal.Pay3.lean ====
import proofs.«101247_j38388417692531_1_alg».proof.Proof.KernelIdeal.SpecLayerA
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open scoped BigOperators

section Product
variable [Cert.KernelIdeal.Facts₀]

private theorem mm_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch from List.not_mem_nil),
    dif_pos (show (0 : Fin S5000x64.rank) ∈ dot_S5000x64_S64x64_S5000x64_1_0_0_1_n_n.lhsNonContracting from List.mem_singleton.mpr rfl)]
  rfl

private theorem mm_lhs_col (i : S5000x64.Idx) (q : dot_S5000x64_S64x64_S5000x64_1_0_0_1_n_n.contr.Idx) :
    (dot_S5000x64_S64x64_S5000x64_1_0_0_1_n_n.lhsIdx i q 1).val = (q ⟨0, Nat.one_pos⟩).val :=
  dot_S5000x64_S64x64_S5000x64_1_0_0_1_n_n.lhsIdx_val_of_single rfl i q

private theorem mm_rhs_row (i : S5000x64.Idx) (q : dot_S5000x64_S64x64_S5000x64_1_0_0_1_n_n.contr.Idx) :
    (dot_S5000x64_S64x64_S5000x64_1_0_0_1_n_n.rhsIdx i q 0).val = (q ⟨0, Nat.one_pos⟩).val :=
  dot_S5000x64_S64x64_S5000x64_1_0_0_1_n_n.rhsIdx_val_of_single rfl i q

private theorem mm_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch from List.not_mem_nil),
    dif_pos (show (1 : Fin S64x64.rank) ∈ dot_S5000x64_S64x64_S5000x64_1_0_0_1_n_n.rhsNonContracting from List.mem_singleton.mpr rfl)]
  rfl

private theorem mm_apply {φ₁ φ₂ : FTy} (a : FVec Ideal S5000x64 φ₁) (w : FVec Ideal S64x64 φ₂) (r : Fin 5000) (j : Fin 64) :
    matmul dot_S5000x64_S64x64_S5000x64_1_0_0_1_n_n none a w (constant S5000x64 .f32 0x00000000#32) (ix2 r j)
      = ∑ k : Fin 64, a (ix2 r k) * w (ix2 k j) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j)
      ((contrEquiv1 dot_S5000x64_S64x64_S5000x64_1_0_0_1_n_n 64 rfl rfl).symm k) = ix2 r k := funext fun a => Fin.ext (by
    match a with
    | ⟨0, _⟩ => exact mm_lhs_row _ _
    | ⟨1, _⟩ => exact (mm_lhs_col _ _).trans hk)
  have er : dot_S5000x64_S64x64_S5000x64_1_0_0_1_n_n.rhsIdx (ix2 r j)
      ((contrEquiv1 dot_S5000x64_S64x64_S5000x64_1_0_0_1_n_n 64 rfl rfl).symm k) = ix2 k j := funext fun a => Fin.ext (by
    match a with
    | ⟨0, _⟩ => exact (mm_rhs_row _ _).trans hk
    | ⟨1, _⟩ => exact mm_rhs_col _ _)
  rw [el, er]

end Product

theorem pay3_7 (xb aggb : Vec Ideal S5000x64 .f32) (w1 : Vec Ideal S64x64 .f32) (b1 : Vec Ideal S1x64 .f32)
    (w2 : Vec Ideal S64x64 .f32) (b2 : Vec Ideal S1x64 .f32) (r : Fin 5000) (j : Fin 64) :
    k3_pay2 (F := Ideal) xb aggb w1 b1 w2 b2 (ix2 r j) = Cert.Spec.layerRow xb aggb w1 b1 w2 b2 r j := by
  unfold k3_pay2
  simp only [shapeCast_self]
  rw [maximumf_apply, addf_apply, mm_apply, broadcastTo_1b_ab_apply, broadcast_apply]
  unfold Cert.Spec.layerRow Cert.Spec.hiddenRow
  have hz : (Scalar.ofBits (F := Ideal) .f32 0x00000000#32 : EReal) = 0 := Ideal.ofBits_zero_f32
  rw [hz]
  congr 2
  refine Finset.sum_congr rfl fun k _ => ?_
  rw [truncf_apply, truncf_apply, maximumf_apply, addf_apply, mm_apply, broadcastTo_1b_ab_apply, broadcast_apply]
  rfl

theorem pay3_8 (xres : Vec Ideal S5000x64 .f32) : k3_pay1 (F := Ideal) xres = xres := by
  unfold k3_pay1
  exact shapeCast_self _ _

end Cert.KernelIdeal.Hand
-- ==== Proof.KernelIdeal.Val3.lean ====
import proofs.«101247_j38388417692531_1_alg».proof.Proof.KernelIdeal.Pay3
import proofs.«101247_j38388417692531_1_alg».proof.Proof.KernelIdeal.Reg3
import Idealize.ShloMosaic.Lib.Pipeline.Value
import proofs.«101247_j38388417692531_1_alg».proof.Proof.KernelIdeal.Blocks

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)
open Idealize.ShloMosaic.Pipeline.Window (rect_emb_val)
open Idealize.ShloMosaic.ValueIdx

variable (V : (c : Dev nD) → (b : Ref sig .tc) → Buf (Elt Ideal) ((c : Thread nD τ).loc b))
variable (q : Fin cfg3.W → PosShare TreeShare)

/-- At point t the row tiles are at block (t, 0), the weights and biases at block (0, 0). -/
theorem idx3_facts (t : Fin grid3.N) :
    (cfg3.win 0).index t = ![t.val, 0] ∧ (cfg3.win 1).index t = ![t.val, 0] ∧ (cfg3.win 2).index t = ![t.val, 0]
    ∧ (cfg3.win 3).index t = ![0, 0] ∧ (cfg3.win 4).index t = ![0, 0] ∧ (cfg3.win 5).index t = ![0, 0]
    ∧ (cfg3.win 6).index t = ![0, 0] ∧ (cfg3.win 7).index t = ![t.val, 0] ∧ (cfg3.win 8).index t = ![t.val, 0]
    ∧ (cfg3.win 7).flush t = true ∧ (cfg3.win 8).flush t = true := by
  revert t; decide +kernel

theorem out3_7_apply (x agg : Vec Ideal S5000x64 .f32) (wa : Vec Ideal S64x64 .f32) (ba : Vec Ideal S1x64 .f32)
    (wb : Vec Ideal S64x64 .f32) (bb : Vec Ideal S1x64 .f32) (r : Fin 5000) (j : Fin 64) :
    out3_7 (F := Ideal) x agg wa ba wb bb (ix2 r j) = Cert.Spec.layerRow x agg wa ba wb bb r j := by
  unfold out3_7
  rw [View.canon_unit_zero blk_hz]
  simp only [View.ld_unit_zero (S := S5000x64) blk_hz, View.ld_unit_zero (S := S64x64) blk_hz,
    View.ld_unit_zero (S := S1x64) blk_hz]
  exact pay3_7 x agg wa ba wb bb r j

theorem out3_8_apply (xres : Vec Ideal S5000x64 .f32) : out3_8 (F := Ideal) xres = xres := by
  unfold out3_8
  rw [View.canon_unit_zero blk_hz]
  simp only [View.ld_unit_zero (S := S5000x64) blk_hz]
  exact pay3_8 xres

/-- A row of the layer reads the same row of the features only, so tile t of the layer is the layer's formula on the tiles. -/
theorem final3_7 (c : Dev nD) :
    (dat3 (F := Ideal) V q c).arrAt 7 cfg3.N
      = Cert.Spec.layerA (V c (Pipeline.arrRef spec3 0)) (V c (Pipeline.arrRef spec3 1)) (V c (Pipeline.arrRef spec3 3))
          (V c (Pipeline.arrRef spec3 4)) (V c (Pipeline.arrRef spec3 5)) (V c (Pipeline.arrRef spec3 6)) := by
  have h7 (t : Fin cfg3.N) := blk_emb (e := ((cfg3.win 7).blk t).view.emb) (rect_emb_val (cfg3.win 7) t) (idx3_facts t).2.2.2.2.2.2.2.1
  refine (dat3 (F := Ideal) V q c).arrAt_eq_of_cover 7 _ (fun t _ => ?_) fun i => ?_
  · obtain ⟨ea, eb, -, ec, ed, ee, ef, -⟩ := idx3_facts t
    show (cfg3.win 7).cut (cfg3.grid.coords t) ((dat3 (F := Ideal) V q c).after 7 t) = _
    rw [after3_7, show iblk3 V c 3 t = V c (Pipeline.arrRef spec3 3) from
        funext fun y => congrArg (V c _) (blk_whole (rect_emb_val (cfg3.win 3) t) ec y),
      show iblk3 V c 4 t = V c (Pipeline.arrRef spec3 4) from
        funext fun y => congrArg (V c _) (blk_whole (rect_emb_val (cfg3.win 4) t) ed y),
      show iblk3 V c 5 t = V c (Pipeline.arrRef spec3 5) from
        funext fun y => congrArg (V c _) (blk_whole (rect_emb_val (cfg3.win 5) t) ee y),
      show iblk3 V c 6 t = V c (Pipeline.arrRef spec3 6) from
        funext fun y => congrArg (V c _) (blk_whole (rect_emb_val (cfg3.win 6) t) ef y)]
    exact rows_tile (by have := lt_of_lt_of_eq t.isLt N_3; omega) (h7 t) (Cert.Spec.layerA _ _ _ _ _ _) fun r j R hR =>
      (out3_7_apply _ _ _ _ _ _ r j).trans (Cert.Spec.layerRow_congr _ _ _ _ _ _ _ _ r R
        (fun l => congrArg (V c _) (blk_emb (rect_emb_val (cfg3.win 0) t) ea r l R hR))
        (fun l => congrArg (V c _) (blk_emb (rect_emb_val (cfg3.win 1) t) eb r l R hR)) j)
  · obtain ⟨t, y, rfl⟩ := rows_cover (by rw [show cfg3.N = 20 from N_3]) h7 i
    exact ⟨t, (idx3_facts t).2.2.2.2.2.2.2.2.2.1, View.emb_mem_set _ _⟩

/-- The second result is the residual array, tile by tile. -/
theorem final3_8 (c : Dev nD) :
    (dat3 (F := Ideal) V q c).arrAt 8 cfg3.N = V c (Pipeline.arrRef spec3 2) := by
  have h8 (t : Fin cfg3.N) := blk_emb (e := ((cfg3.win 8).blk t).view.emb) (rect_emb_val (cfg3.win 8) t) (idx3_facts t).2.2.2.2.2.2.2.2.1
  refine (dat3 (F := Ideal) V q c).arrAt_eq_of_cover 8 _ (fun t _ => ?_) fun i => ?_
  · show (cfg3.win 8).cut (cfg3.grid.coords t) ((dat3 (F := Ideal) V q c).after 8 t) = _
    rw [after3_8, out3_8_apply]
    exact rows_tile (by have := lt_of_lt_of_eq t.isLt N_3; omega) (h8 t) (V c (Pipeline.arrRef spec3 2)) fun r j R hR =>
      congrArg (V c _) (blk_emb (rect_emb_val (cfg3.win 2) t) (idx3_facts t).2.2.1 r j R hR)
  · obtain ⟨t, y, rfl⟩ := rows_cover (by rw [show cfg3.N = 20 from N_3]) h8 i
    exact ⟨t, (idx3_facts t).2.2.2.2.2.2.2.2.2.2, View.emb_mem_set _ _⟩

end Cert.KernelIdeal.Hand
-- ==== Proof.KernelIdeal.Pay4.lean ====
import proofs.«101247_j38388417692531_1_alg».proof.Proof.KernelIdeal.SpecLayerB
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open Cert.Spec.LayerB
open scoped BigOperators

theorem pay4_8 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k4_pay1 (F := Ideal) xb aggb w1 b1 w2 b2 xresb (ix2 r j) = Cert.Spec.layerBresAt xb aggb w1 b1 w2 b2 xresb r j := by
  unfold k4_pay1
  simp only [shapeCast_self]
  unfold Cert.Spec.layerBresAt
  simp only [addf_apply, matmul]
  rw [matmul_plain_apply dot_S5000x64_S64x64_S5000x64_1_0_0_1_n_n rfl rfl rfl rfl rfl rfl, broadcastTo_1b_ab_apply]
  congr 2
  refine Finset.sum_congr rfl fun k _ => ?_
  simp only [truncf_apply, maximumf_apply, addf_apply, broadcast_apply]
  rw [matmul_plain_apply dot_S5000x64_S64x64_S5000x64_1_0_0_1_n_n rfl rfl rfl rfl rfl rfl, broadcastTo_1b_ab_apply]
  simp only [truncf_apply, addf_apply]

theorem pay4_7 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k4_pay2 (F := Ideal) xb aggb w1 b1 w2 b2 xresb (ix2 r j)
      = max (Cert.Spec.layerBresAt xb aggb w1 b1 w2 b2 xresb r j) Cert.Spec.layerBzero := by
  unfold k4_pay2
  simp only [maximumf_apply, broadcast_apply]
  rw [pay4_8]

end Cert.KernelIdeal.Hand
-- ==== Proof.KernelIdeal.Val4.lean ====
import proofs.«101247_j38388417692531_1_alg».proof.Proof.KernelIdeal.Pay4
import proofs.«101247_j38388417692531_1_alg».proof.Proof.KernelIdeal.Reg4
import Idealize.ShloMosaic.Lib.Pipeline.Value
import proofs.«101247_j38388417692531_1_alg».proof.Proof.KernelIdeal.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

variable (V : (c : Dev nD) → (b : Ref sig .tc) → Buf (Elt Ideal) ((c : Thread nD τ).loc b))
variable (q : Fin cfg4.W → PosShare TreeShare)

/-- At point t the row tiles are at block (t, 0), the weights and biases at block (0, 0). -/
theorem idx4_facts (t : Fin grid4.N) :
    (cfg4.win 0).index t = ![t.val, 0] ∧ (cfg4.win 1).index t = ![t.val, 0] ∧ (cfg4.win 2).index t = ![t.val, 0]
    ∧ (cfg4.win 3).index t = ![0, 0] ∧ (cfg4.win 4).index t = ![0, 0] ∧ (cfg4.win 5).index t = ![0, 0]
    ∧ (cfg4.win 6).index t = ![0, 0] ∧ (cfg4.win 7).index t = ![t.val, 0] ∧ (cfg4.win 8).index t = ![t.val, 0]
    ∧ (cfg4.win 7).flush t = true ∧ (cfg4.win 8).flush t = true := by
  revert t; decide +kernel

theorem out4_8_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out4_8 (F := Ideal) xb aggb w1 b1 w2 b2 xresb (ix2 r j) = Cert.Spec.layerBresAt xb aggb w1 b1 w2 b2 xresb r j := by
  unfold out4_8
  rw [View.canon_unit_zero blk_hz]
  simp only [View.ld_unit_zero (S := S5000x64) blk_hz, View.ld_unit_zero (S := S64x64) blk_hz, View.ld_unit_zero (S := S1x64) blk_hz]
  exact pay4_8 xb aggb w1 b1 w2 b2 xresb r j

theorem out4_7_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out4_7 (F := Ideal) xb aggb w1 b1 w2 b2 xresb (ix2 r j)
      = max (Cert.Spec.layerBresAt xb aggb w1 b1 w2 b2 xresb r j) Cert.Spec.layerBzero := by
  unfold out4_7
  rw [View.canon_unit_zero blk_hz]
  simp only [View.ld_unit_zero (S := S5000x64) blk_hz, View.ld_unit_zero (S := S64x64) blk_hz, View.ld_unit_zero (S := S1x64) blk_hz]
  exact pay4_7 xb aggb w1 b1 w2 b2 xresb r j

theorem iblk4_3 (c : Dev nD) (t : Fin cfg4.N) : iblk4 V c 3 t = V c (Pipeline.arrRef spec4 3) :=
  funext fun y => congrArg (V c _) (blk_whole (rect_emb_val (cfg4.win 3) t) (idx4_facts t).2.2.2.1 y)

theorem iblk4_4 (c : Dev nD) (t : Fin cfg4.N) : iblk4 V c 4 t = V c (Pipeline.arrRef spec4 4) :=
  funext fun y => congrArg (V c _) (blk_whole (rect_emb_val (cfg4.win 4) t) (idx4_facts t).2.2.2.2.1 y)

theorem iblk4_5 (c : Dev nD) (t : Fin cfg4.N) : iblk4 V c 5 t = V c (Pipeline.arrRef spec4 5) :=
  funext fun y => congrArg (V c _) (blk_whole (rect_emb_val (cfg4.win 5) t) (idx4_facts t).2.2.2.2.2.1 y)

theorem iblk4_6 (c : Dev nD) (t : Fin cfg4.N) : iblk4 V c 6 t = V c (Pipeline.arrRef spec4 6) :=
  funext fun y => congrArg (V c _) (blk_whole (rect_emb_val (cfg4.win 6) t) (idx4_facts t).2.2.2.2.2.2.1 y)

theorem iblk4_0 (c : Dev nD) (t : Fin cfg4.N) (r : Fin 5000) (R : Fin 100000) (hR : R.val = t.val * 5000 + r.val) (l : Fin 64) :
    iblk4 V c 0 t (ix2 r l) = V c (Pipeline.arrRef spec4 0) (ix2 R l) :=
  congrArg (V c _) (blk_emb (rect_emb_val (cfg4.win 0) t) (idx4_facts t).1 r l R hR)

theorem iblk4_1 (c : Dev nD) (t : Fin cfg4.N) (r : Fin 5000) (R : Fin 100000) (hR : R.val = t.val * 5000 + r.val) (l : Fin 64) :
    iblk4 V c 1 t (ix2 r l) = V c (Pipeline.arrRef spec4 1) (ix2 R l) :=
  congrArg (V c _) (blk_emb (rect_emb_val (cfg4.win 1) t) (idx4_facts t).2.1 r l R hR)

theorem iblk4_2 (c : Dev nD) (t : Fin cfg4.N) (r : Fin 5000) (R : Fin 100000) (hR : R.val = t.val * 5000 + r.val) (l : Fin 64) :
    iblk4 V c 2 t (ix2 r l) = V c (Pipeline.arrRef spec4 2) (ix2 R l) :=
  congrArg (V c _) (blk_emb (rect_emb_val (cfg4.win 2) t) (idx4_facts t).2.2.1 r l R hR)

/-- A row of the layer reads the same row of the row-tiled arrays only: the formula on the tiles at row r is the formula on the arrays at row 5000 t + r. -/
theorem covered4_resAt (c : Dev nD) (t : Fin cfg4.N) (r : Fin 5000) (R : Fin 100000) (hR : R.val = t.val * 5000 + r.val) (j : Fin 64) :
    Cert.Spec.layerBresAt (n := 5000) (iblk4 V c 0 t) (iblk4 V c 1 t) (iblk4 V c 3 t) (iblk4 V c 4 t) (iblk4 V c 5 t) (iblk4 V c 6 t) (iblk4 V c 2 t) r j
      = Cert.Spec.layerBresAt (n := 100000) (V c (Pipeline.arrRef spec4 0)) (V c (Pipeline.arrRef spec4 1)) (V c (Pipeline.arrRef spec4 3))
        (V c (Pipeline.arrRef spec4 4)) (V c (Pipeline.arrRef spec4 5)) (V c (Pipeline.arrRef spec4 6)) (V c (Pipeline.arrRef spec4 2)) R j := by
  rw [iblk4_3, iblk4_4, iblk4_5, iblk4_6]
  unfold Cert.Spec.layerBresAt
  simp only [iblk4_0 V c t r R hR, iblk4_1 V c t r R hR, iblk4_2 V c t r R hR]

theorem final4_8 (c : Dev nD) : (dat4 (F := Ideal) V q c).arrAt 8 cfg4.N
    = Cert.Spec.layerBres (V c (Pipeline.arrRef spec4 0)) (V c (Pipeline.arrRef spec4 1)) (V c (Pipeline.arrRef spec4 3))
        (V c (Pipeline.arrRef spec4 4)) (V c (Pipeline.arrRef spec4 5)) (V c (Pipeline.arrRef spec4 6)) (V c (Pipeline.arrRef spec4 2)) := by
  have h8 (t : Fin cfg4.N) := blk_emb (e := ((cfg4.win 8).blk t).view.emb) (rect_emb_val (cfg4.win 8) t) (idx4_facts t).2.2.2.2.2.2.2.2.1
  refine (dat4 (F := Ideal) V q c).arrAt_eq_of_cover 8 _ (fun t _ => ?_) fun i => ?_
  · show (cfg4.win 8).cut (cfg4.grid.coords t) ((dat4 V q c).after 8 t) = _
    rw [after4_8]
    exact rows_tile (by have := lt_of_lt_of_eq t.isLt N_4; omega) (h8 t) (Cert.Spec.layerBres _ _ _ _ _ _ _) fun r j R hR =>
      (out4_8_apply _ _ _ _ _ _ _ r j).trans (covered4_resAt V c t r R hR j)
  · obtain ⟨t, y, rfl⟩ := rows_cover (by rw [show cfg4.N = 20 from N_4]) h8 i
    exact ⟨t, (idx4_facts t).2.2.2.2.2.2.2.2.2.2, View.emb_mem_set _ _⟩

theorem final4_7 (c : Dev nD) : (dat4 (F := Ideal) V q c).arrAt 7 cfg4.N
    = Cert.Spec.layerBout (V c (Pipeline.arrRef spec4 0)) (V c (Pipeline.arrRef spec4 1)) (V c (Pipeline.arrRef spec4 3))
        (V c (Pipeline.arrRef spec4 4)) (V c (Pipeline.arrRef spec4 5)) (V c (Pipeline.arrRef spec4 6)) (V c (Pipeline.arrRef spec4 2)) := by
  have h7 (t : Fin cfg4.N) := blk_emb (e := ((cfg4.win 7).blk t).view.emb) (rect_emb_val (cfg4.win 7) t) (idx4_facts t).2.2.2.2.2.2.2.1
  refine (dat4 (F := Ideal) V q c).arrAt_eq_of_cover 7 _ (fun t _ => ?_) fun i => ?_
  · show (cfg4.win 7).cut (cfg4.grid.coords t) ((dat4 V q c).after 7 t) = _
    rw [after4_7]
    exact rows_tile (by have := lt_of_lt_of_eq t.isLt N_4; omega) (h7 t) (Cert.Spec.layerBout _ _ _ _ _ _ _) fun r j R hR =>
      (out4_7_apply _ _ _ _ _ _ _ r j).trans (congrArg (max · _) (covered4_resAt V c t r R hR j))
  · obtain ⟨t, y, rfl⟩ := rows_cover (by rw [show cfg4.N = 20 from N_4]) h7 i
    exact ⟨t, (idx4_facts t).2.2.2.2.2.2.2.2.2.1, View.emb_mem_set _ _⟩

end Cert.KernelIdeal.Hand
-- ==== Proof.ChainQa.lean ====
import proofs.«101247_j38388417692531_1_alg».proof.Proof.Gen.KernelIdeal.Regions
import proofs.«101247_j38388417692531_1_alg».proof.Proof.KernelIdeal.Data
import proofs.«101247_j38388417692531_1_alg».proof.Proof.KernelIdeal.HostQ
import proofs.«101247_j38388417692531_1_alg».proof.Proof.KernelIdeal.Val2
import proofs.«101247_j38388417692531_1_alg».proof.Proof.KernelIdeal.Val3
import proofs.«101247_j38388417692531_1_alg».proof.Proof.KernelIdeal.Val4
import proofs.«101247_j38388417692531_1_alg».proof.Proof.KernelIdeal.SpecLayerA
import proofs.«101247_j38388417692531_1_alg».proof.Proof.KernelIdeal.SpecLayerB
import proofs.«101247_j38388417692531_1_alg».proof.Proof.RefRunP

set_option maxRecDepth 16384
set_option maxHeartbeats 1000000

noncomputable section

namespace Cert.Proof.ChainQa

open Cert.KernelIdeal Cert.KernelIdeal.Gen Cert.KernelIdeal.Hand
open Cert.ReferenceIdeal.Value
open Idealize.ShloMosaic Idealize.ShloMosaic.TcCoe
open Idealize.SL Idealize.SL.Sem

private theorem aggSecond (x0 : (⟨Cert.ReferenceIdeal.S100000x32, .f32⟩ : BufTy).Contents (Elt Ideal)) (x1 : (⟨Cert.ReferenceIdeal.S2x1600000, .i32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal))
    (x8 : (⟨Cert.ReferenceIdeal.S4x64x64, .f32⟩ : BufTy).Contents (Elt Ideal)) (x9 : (⟨Cert.ReferenceIdeal.S4x64, .f32⟩ : BufTy).Contents (Elt Ideal)) (x10 : (⟨Cert.ReferenceIdeal.S4x64x64, .f32⟩ : BufTy).Contents (Elt Ideal)) (x11 : (⟨Cert.ReferenceIdeal.S4x64, .f32⟩ : BufTy).Contents (Elt Ideal)) :
    (Host.scatterAdd scatter_S100000x64_S1600000x1_S1600000x64_1_0_0_1
        (broadcastInDim S100000x64 ![] bcast_S_S100000x64 (constant (F := Ideal) S_ .f32 0x00000000#32))
        (dstIdx x1)
        (Host.gather gather_S100000x64_S1600000x1_S1600000x64_1_0_n_n_0_1_164 (stage_main_v36 x0 x1 x6 x7 x8 x9 x10 x11) (srcIdx x1)) : Vec Ideal S100000x64 .f32) = stage_main_v46 x0 x1 x6 x7 x8 x9 x10 x11 := by
  unfold stage_main_v46 stage_main_v43 stage_main_v44 stage_main_v45 stage_main_v42 stage_main_cst_3
  rfl

private theorem outSecond (x0 : (⟨Cert.ReferenceIdeal.S100000x32, .f32⟩ : BufTy).Contents (Elt Ideal)) (x1 : (⟨Cert.ReferenceIdeal.S2x1600000, .i32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal))
    (x8 : (⟨Cert.ReferenceIdeal.S4x64x64, .f32⟩ : BufTy).Contents (Elt Ideal)) (x9 : (⟨Cert.ReferenceIdeal.S4x64, .f32⟩ : BufTy).Contents (Elt Ideal)) (x10 : (⟨Cert.ReferenceIdeal.S4x64x64, .f32⟩ : BufTy).Contents (Elt Ideal)) (x11 : (⟨Cert.ReferenceIdeal.S4x64, .f32⟩ : BufTy).Contents (Elt Ideal)) :
    Cert.Spec.layerBout (stage_main_v36 x0 x1 x6 x7 x8 x9 x10 x11) (stage_main_v46 x0 x1 x6 x7 x8 x9 x10 x11) (stage_main_v49 x8)
      (shapeCast S1x64 (stage_main_v52 x9) shapeCasts_S64_S1x64) (stage_main_v58 x10) (shapeCast S1x64 (stage_main_v61 x11) shapeCasts_S64_S1x64)
      (stage_main_v7 x0 x6 x7) = stage_main_v66 x0 x1 x6 x7 x8 x9 x10 x11 := by
  rw [Cert.Spec.layerBout_ops]
  unfold stage_main_v66 stage_main_v65 stage_main_v64 stage_main_v59 stage_main_v56 stage_main_v55 stage_main_v50 stage_main_v47 stage_main_v54 stage_main_v53 stage_main_v63 stage_main_v62 stage_main_call3_v0 stage_main_call3_cst stage_main_call2_v0 stage_main_call2_cst
  rfl

private theorem resSecond (x0 : (⟨Cert.ReferenceIdeal.S100000x32, .f32⟩ : BufTy).Contents (Elt Ideal)) (x1 : (⟨Cert.ReferenceIdeal.S2x1600000, .i32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal))
    (x8 : (⟨Cert.ReferenceIdeal.S4x64x64, .f32⟩ : BufTy).Contents (Elt Ideal)) (x9 : (⟨Cert.ReferenceIdeal.S4x64, .f32⟩ : BufTy).Contents (Elt Ideal)) (x10 : (⟨Cert.ReferenceIdeal.S4x64x64, .f32⟩ : BufTy).Contents (Elt Ideal)) (x11 : (⟨Cert.ReferenceIdeal.S4x64, .f32⟩ : BufTy).Contents (Elt Ideal)) :
    Cert.Spec.layerBres (stage_main_v36 x0 x1 x6 x7 x8 x9 x10 x11) (stage_main_v46 x0 x1 x6 x7 x8 x9 x10 x11) (stage_main_v49 x8)
      (shapeCast S1x64 (stage_main_v52 x9) shapeCasts_S64_S1x64) (stage_main_v58 x10) (shapeCast S1x64 (stage_main_v61 x11) shapeCasts_S64_S1x64)
      (stage_main_v7 x0 x6 x7) = stage_main_v65 x0 x1 x6 x7 x8 x9 x10 x11 := by
  rw [Cert.Spec.layerBres_ops]
  unfold stage_main_v65 stage_main_v64 stage_main_v59 stage_main_v56 stage_main_v55 stage_main_v50 stage_main_v47 stage_main_v54 stage_main_v53 stage_main_v63 stage_main_v62 stage_main_call2_v0 stage_main_call2_cst
  rfl

private theorem aggThird (x0 : (⟨Cert.ReferenceIdeal.S100000x32, .f32⟩ : BufTy).Contents (Elt Ideal)) (x1 : (⟨Cert.ReferenceIdeal.S2x1600000, .i32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal))
    (x8 : (⟨Cert.ReferenceIdeal.S4x64x64, .f32⟩ : BufTy).Contents (Elt Ideal)) (x9 : (⟨Cert.ReferenceIdeal.S4x64, .f32⟩ : BufTy).Contents (Elt Ideal)) (x10 : (⟨Cert.ReferenceIdeal.S4x64x64, .f32⟩ : BufTy).Contents (Elt Ideal)) (x11 : (⟨Cert.ReferenceIdeal.S4x64, .f32⟩ : BufTy).Contents (Elt Ideal)) :
    (Host.scatterAdd scatter_S100000x64_S1600000x1_S1600000x64_1_0_0_1
        (broadcastInDim S100000x64 ![] bcast_S_S100000x64 (constant (F := Ideal) S_ .f32 0x00000000#32))
        (dstIdx x1)
        (Host.gather gather_S100000x64_S1600000x1_S1600000x64_1_0_n_n_0_1_164 (stage_main_v66 x0 x1 x6 x7 x8 x9 x10 x11) (srcIdx x1)) : Vec Ideal S100000x64 .f32) = stage_main_v76 x0 x1 x6 x7 x8 x9 x10 x11 := by
  unfold stage_main_v76 stage_main_v73 stage_main_v74 stage_main_v75 stage_main_v72 stage_main_cst_6
  rfl

private theorem outThird (x0 : (⟨Cert.ReferenceIdeal.S100000x32, .f32⟩ : BufTy).Contents (Elt Ideal)) (x1 : (⟨Cert.ReferenceIdeal.S2x1600000, .i32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal))
    (x8 : (⟨Cert.ReferenceIdeal.S4x64x64, .f32⟩ : BufTy).Contents (Elt Ideal)) (x9 : (⟨Cert.ReferenceIdeal.S4x64, .f32⟩ : BufTy).Contents (Elt Ideal)) (x10 : (⟨Cert.ReferenceIdeal.S4x64x64, .f32⟩ : BufTy).Contents (Elt Ideal)) (x11 : (⟨Cert.ReferenceIdeal.S4x64, .f32⟩ : BufTy).Contents (Elt Ideal)) :
    Cert.Spec.layerA (stage_main_v66 x0 x1 x6 x7 x8 x9 x10 x11) (stage_main_v76 x0 x1 x6 x7 x8 x9 x10 x11) (stage_main_v79 x8)
      (shapeCast S1x64 (stage_main_v82 x9) shapeCasts_S64_S1x64) (stage_main_v88 x10) (shapeCast S1x64 (stage_main_v91 x11) shapeCasts_S64_S1x64) = stage_main_v95 x0 x1 x6 x7 x8 x9 x10 x11 := by
  rw [Cert.Spec.layerA_ops]
  unfold stage_main_v95 stage_main_v94 stage_main_v89 stage_main_v86 stage_main_v85 stage_main_v80 stage_main_v77 stage_main_v84 stage_main_v83 stage_main_v93 stage_main_v92 stage_main_call5_v0 stage_main_call5_cst stage_main_call4_v0 stage_main_call4_cst
  rfl

private theorem aggFourth (x0 : (⟨Cert.ReferenceIdeal.S100000x32, .f32⟩ : BufTy).Contents (Elt Ideal)) (x1 : (⟨Cert.ReferenceIdeal.S2x1600000, .i32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal))
    (x8 : (⟨Cert.ReferenceIdeal.S4x64x64, .f32⟩ : BufTy).Contents (Elt Ideal)) (x9 : (⟨Cert.ReferenceIdeal.S4x64, .f32⟩ : BufTy).Contents (Elt Ideal)) (x10 : (⟨Cert.ReferenceIdeal.S4x64x64, .f32⟩ : BufTy).Contents (Elt Ideal)) (x11 : (⟨Cert.ReferenceIdeal.S4x64, .f32⟩ : BufTy).Contents (Elt Ideal)) :
    (Host.scatterAdd scatter_S100000x64_S1600000x1_S1600000x64_1_0_0_1
        (broadcastInDim S100000x64 ![] bcast_S_S100000x64 (constant (F := Ideal) S_ .f32 0x00000000#32))
        (dstIdx x1)
        (Host.gather gather_S100000x64_S1600000x1_S1600000x64_1_0_n_n_0_1_164 (stage_main_v95 x0 x1 x6 x7 x8 x9 x10 x11) (srcIdx x1)) : Vec Ideal S100000x64 .f32) = stage_main_v105 x0 x1 x6 x7 x8 x9 x10 x11 := by
  unfold stage_main_v105 stage_main_v102 stage_main_v103 stage_main_v104 stage_main_v101 stage_main_cst_9
  rfl

private theorem outFourth (x0 : (⟨Cert.ReferenceIdeal.S100000x32, .f32⟩ : BufTy).Contents (Elt Ideal)) (x1 : (⟨Cert.ReferenceIdeal.S2x1600000, .i32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal))
    (x8 : (⟨Cert.ReferenceIdeal.S4x64x64, .f32⟩ : BufTy).Contents (Elt Ideal)) (x9 : (⟨Cert.ReferenceIdeal.S4x64, .f32⟩ : BufTy).Contents (Elt Ideal)) (x10 : (⟨Cert.ReferenceIdeal.S4x64x64, .f32⟩ : BufTy).Contents (Elt Ideal)) (x11 : (⟨Cert.ReferenceIdeal.S4x64, .f32⟩ : BufTy).Contents (Elt Ideal)) :
    Cert.Spec.layerBout (stage_main_v95 x0 x1 x6 x7 x8 x9 x10 x11) (stage_main_v105 x0 x1 x6 x7 x8 x9 x10 x11) (stage_main_v108 x8)
      (shapeCast S1x64 (stage_main_v111 x9) shapeCasts_S64_S1x64) (stage_main_v117 x10) (shapeCast S1x64 (stage_main_v120 x11) shapeCasts_S64_S1x64)
      (stage_main_v65 x0 x1 x6 x7 x8 x9 x10 x11) = stage_main_v125 x0 x1 x6 x7 x8 x9 x10 x11 := by
  rw [Cert.Spec.layerBout_ops]
  unfold stage_main_v125 stage_main_v124 stage_main_v123 stage_main_v118 stage_main_v115 stage_main_v114 stage_main_v109 stage_main_v106 stage_main_v113 stage_main_v112 stage_main_v122 stage_main_v121 stage_main_call7_v0 stage_main_call7_cst stage_main_call6_v0 stage_main_call6_cst
  rfl

variable (m : (ℓ : Loc nD τ sig) → Buf (Elt Ideal) ℓ) (outs : Outs (F := Ideal)) (hO : OutsOk m outs) (c : Dev nD)

set_option quotPrecheck false in
local notation "a0" => m ((c : Thread nD τ).loc main_arg0)
set_option quotPrecheck false in
local notation "a1" => m ((c : Thread nD τ).loc main_arg1)
set_option quotPrecheck false in
local notation "a6" => m ((c : Thread nD τ).loc main_arg6)
set_option quotPrecheck false in
local notation "a7" => m ((c : Thread nD τ).loc main_arg7)
set_option quotPrecheck false in
local notation "a8" => m ((c : Thread nD τ).loc main_arg8)
set_option quotPrecheck false in
local notation "a9" => m ((c : Thread nD τ).loc main_arg9)
set_option quotPrecheck false in
local notation "a10" => m ((c : Thread nD τ).loc main_arg10)
set_option quotPrecheck false in
local notation "a11" => m ((c : Thread nD τ).loc main_arg11)

private theorem valSecondOut (hx : V4 m outs c main_v26_0 = stage_main_v36 a0 a1 a6 a7 a8 a9 a10 a11) (hr : V4 m outs c main_v26_1 = stage_main_v7 a0 a6 a7) :
    Cert.Spec.layerBout (V5 m outs c main_v26_0) (V5 m outs c main_v36) (V5 m outs c main_v38) (V5 m outs c main_v45) (V5 m outs c main_v42) (V5 m outs c main_v46) (V5 m outs c main_v26_1) = stage_main_v66 a0 a1 a6 a7 a8 a9 a10 a11 := by
  rw [rd2_0 m outs c, rd2_1 m outs c, rd2_2 m outs c, rd2_3 m outs c, rd2_4 m outs c, rd2_5 m outs c, rd2_6 m outs c, hx, hr, aggSecond]
  exact outSecond a0 a1 a6 a7 a8 a9 a10 a11

private theorem valSecondRes (hx : V4 m outs c main_v26_0 = stage_main_v36 a0 a1 a6 a7 a8 a9 a10 a11) (hr : V4 m outs c main_v26_1 = stage_main_v7 a0 a6 a7) :
    Cert.Spec.layerBres (V5 m outs c main_v26_0) (V5 m outs c main_v36) (V5 m outs c main_v38) (V5 m outs c main_v45) (V5 m outs c main_v42) (V5 m outs c main_v46) (V5 m outs c main_v26_1) = stage_main_v65 a0 a1 a6 a7 a8 a9 a10 a11 := by
  rw [rd2_0 m outs c, rd2_1 m outs c, rd2_2 m outs c, rd2_3 m outs c, rd2_4 m outs c, rd2_5 m outs c, rd2_6 m outs c, hx, hr, aggSecond]
  exact resSecond a0 a1 a6 a7 a8 a9 a10 a11

private theorem valThirdOut (hx : V6 m outs c main_v47_0 = stage_main_v66 a0 a1 a6 a7 a8 a9 a10 a11) :
    Cert.Spec.layerA (V7 m outs c main_v47_0) (V7 m outs c main_v57) (V7 m outs c main_v59) (V7 m outs c main_v66) (V7 m outs c main_v63) (V7 m outs c main_v67) = stage_main_v95 a0 a1 a6 a7 a8 a9 a10 a11 := by
  rw [rd3_0 m outs c, rd3_1 m outs c, rd3_3 m outs c, rd3_4 m outs c, rd3_5 m outs c, rd3_6 m outs c, hx, aggThird]
  exact outThird a0 a1 a6 a7 a8 a9 a10 a11

private theorem valFourthOut (hx : V8 m outs c main_v68_0 = stage_main_v95 a0 a1 a6 a7 a8 a9 a10 a11) (hr : V8 m outs c main_v68_1 = stage_main_v65 a0 a1 a6 a7 a8 a9 a10 a11) :
    Cert.Spec.layerBout (V9 m outs c main_v68_0) (V9 m outs c main_v78) (V9 m outs c main_v80) (V9 m outs c main_v87) (V9 m outs c main_v84) (V9 m outs c main_v88) (V9 m outs c main_v68_1) = stage_main_v125 a0 a1 a6 a7 a8 a9 a10 a11 := by
  rw [rd4_0 m outs c, rd4_1 m outs c, rd4_2 m outs c, rd4_3 m outs c, rd4_4 m outs c, rd4_5 m outs c, rd4_6 m outs c, hx, hr, aggFourth]
  exact outFourth a0 a1 a6 a7 a8 a9 a10 a11

include hO

private theorem arrSecondOut :
    V6 m outs c main_v47_0 = Cert.Spec.layerBout (V5 m outs c main_v26_0) (V5 m outs c main_v36) (V5 m outs c main_v38) (V5 m outs c main_v45) (V5 m outs c main_v42) (V5 m outs c main_v46) (V5 m outs c main_v26_1) := by
  have e : V6 m outs c main_v47_0 = outs 6 main_v47_0 c := by
    show Function.update (Function.update (V5 m outs c) main_v47_0 (outs 6 main_v47_0 c)) main_v47_1 (outs 6 main_v47_1 c) main_v47_0 = _
    rw [Function.update_of_ne (StableHlo.devRef_ne_of_ne (by decide)), Function.update_self]
  rw [e, hO.o_main_v47_0 c]
  exact final2_7 (En5 m outs) qfull c

private theorem arrSecondRes :
    V6 m outs c main_v47_1 = Cert.Spec.layerBres (V5 m outs c main_v26_0) (V5 m outs c main_v36) (V5 m outs c main_v38) (V5 m outs c main_v45) (V5 m outs c main_v42) (V5 m outs c main_v46) (V5 m outs c main_v26_1) := by
  have e : V6 m outs c main_v47_1 = outs 6 main_v47_1 c := by
    show Function.update (Function.update (V5 m outs c) main_v47_0 (outs 6 main_v47_0 c)) main_v47_1 (outs 6 main_v47_1 c) main_v47_1 = _
    rw [Function.update_self]
  rw [e, hO.o_main_v47_1 c]
  exact final2_8 (En5 m outs) qfull c

private theorem arrThirdOut :
    V8 m outs c main_v68_0 = Cert.Spec.layerA (V7 m outs c main_v47_0) (V7 m outs c main_v57) (V7 m outs c main_v59) (V7 m outs c main_v66) (V7 m outs c main_v63) (V7 m outs c main_v67) := by
  have e : V8 m outs c main_v68_0 = outs 8 main_v68_0 c := by
    show Function.update (Function.update (V7 m outs c) main_v68_0 (outs 8 main_v68_0 c)) main_v68_1 (outs 8 main_v68_1 c) main_v68_0 = _
    rw [Function.update_of_ne (StableHlo.devRef_ne_of_ne (by decide)), Function.update_self]
  rw [e, hO.o_main_v68_0 c]
  exact final3_7 (En7 m outs) qfull c

private theorem arrThirdRes : V8 m outs c main_v68_1 = V7 m outs c main_v47_1 := by
  have e : V8 m outs c main_v68_1 = outs 8 main_v68_1 c := by
    show Function.update (Function.update (V7 m outs c) main_v68_0 (outs 8 main_v68_0 c)) main_v68_1 (outs 8 main_v68_1 c) main_v68_1 = _
    rw [Function.update_self]
  rw [e, hO.o_main_v68_1 c]
  exact final3_8 (En7 m outs) qfull c

private theorem arrFourthOut :
    V10 m outs c main_v89_0 = Cert.Spec.layerBout (V9 m outs c main_v68_0) (V9 m outs c main_v78) (V9 m outs c main_v80) (V9 m outs c main_v87) (V9 m outs c main_v84) (V9 m outs c main_v88) (V9 m outs c main_v68_1) := by
  have e : V10 m outs c main_v89_0 = outs 10 main_v89_0 c := by
    show Function.update (Function.update (V9 m outs c) main_v89_0 (outs 10 main_v89_0 c)) main_v89_1 (outs 10 main_v89_1 c) main_v89_0 = _
    rw [Function.update_of_ne (StableHlo.devRef_ne_of_ne (by decide)), Function.update_self]
  rw [e, hO.o_main_v89_0 c]
  exact final4_7 (En9 m outs) qfull c

theorem cq2 (h1 : V4 m outs c main_v26_0 = stage_main_v36 a0 a1 a6 a7 a8 a9 a10 a11 ∧ V4 m outs c main_v26_1 = stage_main_v7 a0 a6 a7) :
    V6 m outs c main_v47_0 = stage_main_v66 a0 a1 a6 a7 a8 a9 a10 a11 ∧ V6 m outs c main_v47_1 = stage_main_v65 a0 a1 a6 a7 a8 a9 a10 a11 :=
  ⟨(arrSecondOut m outs hO c).trans (valSecondOut m outs c h1.1 h1.2), (arrSecondRes m outs hO c).trans (valSecondRes m outs c h1.1 h1.2)⟩

theorem cq3 (h2 : V6 m outs c main_v47_0 = stage_main_v66 a0 a1 a6 a7 a8 a9 a10 a11 ∧ V6 m outs c main_v47_1 = stage_main_v65 a0 a1 a6 a7 a8 a9 a10 a11) :
    V8 m outs c main_v68_0 = stage_main_v95 a0 a1 a6 a7 a8 a9 a10 a11 ∧ V8 m outs c main_v68_1 = stage_main_v65 a0 a1 a6 a7 a8 a9 a10 a11 :=
  ⟨(arrThirdOut m outs hO c).trans (valThirdOut m outs c h2.1), (arrThirdRes m outs hO c).trans ((rd3_2 m outs c).trans h2.2)⟩

theorem cq4 (h3 : V8 m outs c main_v68_0 = stage_main_v95 a0 a1 a6 a7 a8 a9 a10 a11 ∧ V8 m outs c main_v68_1 = stage_main_v65 a0 a1 a6 a7 a8 a9 a10 a11) :
    V10 m outs c main_v89_0 = stage_main_v125 a0 a1 a6 a7 a8 a9 a10 a11 :=
  (arrFourthOut m outs hO c).trans (valFourthOut m outs c h3.1 h3.2)

end Cert.Proof.ChainQa

end
-- ==== Proof.KernelIdeal.SpecPost.lean ====
import Idealize.ShloMosaic.Lib.ValueIdx
import Idealize.ShloMosaic.Lib.Pipeline.Value
import Idealize.ShloMosaic.Lib.ValueLayout
import Idealize.ShloMosaic.PureOps.Ideal.Laws
import proofs.«101247_j38388417692531_1_alg».proof.KernelIdeal
import proofs.«101247_j38388417692531_1_alg».proof.ReferenceIdeal

noncomputable section

open scoped BigOperators

namespace Cert.Spec

open Idealize.ShloMosaic Idealize.ShloMosaic.ValueIdx

def post (g : FVec Ideal Cert.KernelIdeal.S128x320 .f32) (w1 : FVec Ideal Cert.KernelIdeal.S320x64 .f32)
    (b1 : FVec Ideal Cert.KernelIdeal.S1x64 .f32) (w2 : FVec Ideal Cert.KernelIdeal.S64x32 .f32)
    (b2 : FVec Ideal Cert.KernelIdeal.S1x32 .f32) : FVec Ideal Cert.KernelIdeal.S128x32 .f32 :=
  fun i =>
    (∑ k : Fin 64,
        max ((∑ l : Fin 320, g (ix2 (i 0 : Fin 128) l) * w1 (ix2 l k)) + b1 (ix2 (0 : Fin 1) k)) 0
          * w2 (ix2 k (i 1 : Fin 32)))
      + b2 (ix2 (0 : Fin 1) (i 1 : Fin 32))

theorem post_apply (g : FVec Ideal Cert.KernelIdeal.S128x320 .f32) (w1 : FVec Ideal Cert.KernelIdeal.S320x64 .f32)
    (b1 : FVec Ideal Cert.KernelIdeal.S1x64 .f32) (w2 : FVec Ideal Cert.KernelIdeal.S64x32 .f32)
    (b2 : FVec Ideal Cert.KernelIdeal.S1x32 .f32) (r : Fin 128) (j : Fin 32) :
    post g w1 b1 w2 b2 (ix2 r j)
      = (∑ k : Fin 64, max ((∑ l : Fin 320, g (ix2 r l) * w1 (ix2 l k)) + b1 (ix2 (0 : Fin 1) k)) 0 * w2 (ix2 k j))
        + b2 (ix2 (0 : Fin 1) j) := rfl

section Dots
variable [Cert.ReferenceIdeal.Facts₀]
open Cert.ReferenceIdeal

theorem post_dot1_lhs0 (i : S128x64.Idx) (q : dot_S128x320_S320x64_S128x64_1_0_0_1_n_n.contr.Idx) :
    (dot_S128x320_S320x64_S128x64_1_0_0_1_n_n.lhsIdx i q 0).val = (i 0).val := by
  unfold DotDims.lhsIdx
  rw [dif_neg (show ¬(0 : Fin S128x320.rank) ∈ dot_S128x320_S320x64_S128x64_1_0_0_1_n_n.lhsBatch from List.not_mem_nil),
    dif_pos (show (0 : Fin S128x320.rank) ∈ dot_S128x320_S320x64_S128x64_1_0_0_1_n_n.lhsNonContracting from List.mem_singleton.2 rfl)]
  rfl
theorem post_dot1_lhs1 (i : S128x64.Idx) (q : dot_S128x320_S320x64_S128x64_1_0_0_1_n_n.contr.Idx) :
    (dot_S128x320_S320x64_S128x64_1_0_0_1_n_n.lhsIdx i q 1).val = (q ⟨0, Nat.one_pos⟩).val :=
  dot_S128x320_S320x64_S128x64_1_0_0_1_n_n.lhsIdx_val_of_single rfl i q
theorem post_dot1_rhs0 (i : S128x64.Idx) (q : dot_S128x320_S320x64_S128x64_1_0_0_1_n_n.contr.Idx) :
    (dot_S128x320_S320x64_S128x64_1_0_0_1_n_n.rhsIdx i q 0).val = (q ⟨0, Nat.one_pos⟩).val :=
  dot_S128x320_S320x64_S128x64_1_0_0_1_n_n.rhsIdx_val_of_single rfl i q
theorem post_dot1_rhs1 (i : S128x64.Idx) (q : dot_S128x320_S320x64_S128x64_1_0_0_1_n_n.contr.Idx) :
    (dot_S128x320_S320x64_S128x64_1_0_0_1_n_n.rhsIdx i q 1).val = (i 1).val := by
  unfold DotDims.rhsIdx
  rw [dif_neg (show ¬(1 : Fin S320x64.rank) ∈ dot_S128x320_S320x64_S128x64_1_0_0_1_n_n.rhsBatch from List.not_mem_nil),
    dif_pos (show (1 : Fin S320x64.rank) ∈ dot_S128x320_S320x64_S128x64_1_0_0_1_n_n.rhsNonContracting from List.mem_singleton.2 rfl)]
  rfl

theorem post_dot1_apply (g : FVec Ideal S128x320 .f32) (w1 : FVec Ideal S320x64 .f32) (r : Fin 128) (c : Fin 64) :
    Host.dotGeneral dot_S128x320_S320x64_S128x64_1_0_0_1_n_n none g w1 (ix2 r c)
      = ∑ l : Fin 320, g (ix2 r l) * w1 (ix2 l c) := by
  simp only [Host.dotGeneral]
  rw [Ideal.dotGeneral_apply,
    ← Equiv.sum_comp (ValueIdx.contrEquiv1 dot_S128x320_S320x64_S128x64_1_0_0_1_n_n 320 rfl rfl).symm]
  refine Finset.sum_congr rfl fun k _ => ?_
  have hk := ValueIdx.contrEquiv1_symm_val dot_S128x320_S320x64_S128x64_1_0_0_1_n_n 320 rfl rfl k
  have el : dot_S128x320_S320x64_S128x64_1_0_0_1_n_n.lhsIdx (ix2 r c)
      ((ValueIdx.contrEquiv1 dot_S128x320_S320x64_S128x64_1_0_0_1_n_n 320 rfl rfl).symm k) = ix2 r k :=
    funext fun a => Fin.ext (by
      match a with
      | ⟨0, _⟩ => exact post_dot1_lhs0 _ _
      | ⟨1, _⟩ => exact (post_dot1_lhs1 _ _).trans hk)
  have er : dot_S128x320_S320x64_S128x64_1_0_0_1_n_n.rhsIdx (ix2 r c)
      ((ValueIdx.contrEquiv1 dot_S128x320_S320x64_S128x64_1_0_0_1_n_n 320 rfl rfl).symm k) = ix2 k c :=
    funext fun a => Fin.ext (by
      match a with
      | ⟨0, _⟩ => exact (post_dot1_rhs0 _ _).trans hk
      | ⟨1, _⟩ => exact post_dot1_rhs1 _ _)
  rw [el, er]

theorem post_dot2_lhs0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch from List.not_mem_nil),
    dif_pos (show (0 : Fin S128x64.rank) ∈ dot_S128x64_S64x32_S128x32_1_0_0_1_n_n.lhsNonContracting from List.mem_singleton.2 rfl)]
  rfl
theorem post_dot2_lhs1 (i : S128x32.Idx) (q : dot_S128x64_S64x32_S128x32_1_0_0_1_n_n.contr.Idx) :
    (dot_S128x64_S64x32_S128x32_1_0_0_1_n_n.lhsIdx i q 1).val = (q ⟨0, Nat.one_pos⟩).val :=
  dot_S128x64_S64x32_S128x32_1_0_0_1_n_n.lhsIdx_val_of_single rfl i q
theorem post_dot2_rhs0 (i : S128x32.Idx) (q : dot_S128x64_S64x32_S128x32_1_0_0_1_n_n.contr.Idx) :
    (dot_S128x64_S64x32_S128x32_1_0_0_1_n_n.rhsIdx i q 0).val = (q ⟨0, Nat.one_pos⟩).val :=
  dot_S128x64_S64x32_S128x32_1_0_0_1_n_n.rhsIdx_val_of_single rfl i q
theorem post_dot2_rhs1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch from List.not_mem_nil),
    dif_pos (show (1 : Fin S64x32.rank) ∈ dot_S128x64_S64x32_S128x32_1_0_0_1_n_n.rhsNonContracting from List.mem_singleton.2 rfl)]
  rfl

theorem post_dot2_apply (h : FVec Ideal S128x64 .f32) (w2 : FVec Ideal S64x32 .f32) (r : Fin 128) (c : Fin 32) :
    Host.dotGeneral dot_S128x64_S64x32_S128x32_1_0_0_1_n_n none h w2 (ix2 r c)
      = ∑ k : Fin 64, h (ix2 r k) * w2 (ix2 k c) := by
  simp only [Host.dotGeneral]
  rw [Ideal.dotGeneral_apply,
    ← Equiv.sum_comp (ValueIdx.contrEquiv1 dot_S128x64_S64x32_S128x32_1_0_0_1_n_n 64 rfl rfl).symm]
  refine Finset.sum_congr rfl fun k _ => ?_
  have hk := ValueIdx.contrEquiv1_symm_val dot_S128x64_S64x32_S128x32_1_0_0_1_n_n 64 rfl rfl k
  have el : dot_S128x64_S64x32_S128x32_1_0_0_1_n_n.lhsIdx (ix2 r c)
      ((ValueIdx.contrEquiv1 dot_S128x64_S64x32_S128x32_1_0_0_1_n_n 64 rfl rfl).symm k) = ix2 r k :=
    funext fun a => Fin.ext (by
      match a with
      | ⟨0, _⟩ => exact post_dot2_lhs0 _ _
      | ⟨1, _⟩ => exact (post_dot2_lhs1 _ _).trans hk)
  have er : dot_S128x64_S64x32_S128x32_1_0_0_1_n_n.rhsIdx (ix2 r c)
      ((ValueIdx.contrEquiv1 dot_S128x64_S64x32_S128x32_1_0_0_1_n_n 64 rfl rfl).symm k) = ix2 k c :=
    funext fun a => Fin.ext (by
      match a with
      | ⟨0, _⟩ => exact (post_dot2_rhs0 _ _).trans hk
      | ⟨1, _⟩ => exact post_dot2_rhs1 _ _)
  rw [el, er]

theorem post_bcast64_apply (b1 : FVec Ideal S64 .f32) (r : Fin 128) (c : Fin 64) :
    broadcastInDim S128x64 ![0, 1] Facts₀.bcast_S1x64_S128x64_0_1
        (broadcastInDim S1x64 ![1] Facts₀.bcast_S64_S1x64_1 b1) (ix2 r c) = b1 (ix1 c) := by
  refine (broadcastInDim_apply _ Facts₀.bcast_S1x64_S128x64_0_1 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans ?_
  exact broadcastInDim_apply _ Facts₀.bcast_S64_S1x64_1 b1 (ix2 (0 : Fin 1) c) (ix1 c) (fun a => match a with
    | ⟨0, _⟩ => by show c.val = if (64 : Nat) = 1 then 0 else c.val; rw [if_neg (by decide)])

theorem post_bcast32_apply (b2 : FVec Ideal S32 .f32) (r : Fin 128) (c : Fin 32) :
    broadcastInDim S128x32 ![0, 1] Facts₀.bcast_S1x32_S128x32_0_1
        (broadcastInDim S1x32 ![1] Facts₀.bcast_S32_S1x32_1 b2) (ix2 r c) = b2 (ix1 c) := by
  refine (broadcastInDim_apply _ Facts₀.bcast_S1x32_S128x32_0_1 _ (ix2 r c) (ix2 (0 : Fin 1) c) (fun a => match a with
    | ⟨0, _⟩ => by show 0 = if (1 : Nat) = 1 then 0 else r.val; rw [if_pos rfl]
    | ⟨1, _⟩ => by show c.val = if (32 : Nat) = 1 then 0 else c.val; rw [if_neg (by decide)])).trans ?_
  exact broadcastInDim_apply _ Facts₀.bcast_S32_S1x32_1 b2 (ix2 (0 : Fin 1) c) (ix1 c) (fun a => match a with
    | ⟨0, _⟩ => by show c.val = if (32 : Nat) = 1 then 0 else c.val; rw [if_neg (by decide)])

theorem post_zero_apply (i : S128x64.Idx) :
    broadcastInDim S128x64 ![] Facts₀.bcast_S_S128x64 (constant (F := Ideal) S_ .f32 0x00000000#32) i = 0 := by
  refine (broadcastInDim_apply _ Facts₀.bcast_S_S128x64 _ i (fun a => a.elim0) (fun a => a.elim0)).trans ?_
  exact Ideal.ofBits_zero_f32

end Dots

section Rows
variable [Cert.KernelIdeal.Facts₀]
open Cert.KernelIdeal

theorem post_row64_apply (b1 : FVec Ideal S64 .f32) (c : Fin 64) :
    shapeCast S1x64 b1 Facts₀.shapeCasts_S64_S1x64 (ix2 (0 : Fin 1) c) = b1 (ix1 c) :=
  shapeCast_apply b1 Facts₀.shapeCasts_S64_S1x64 (ix2 (0 : Fin 1) c) (ix1 c)
    (by rw [Shape.rowMajor_val_two, Shape.rowMajor_val_one]; show c.val = 0 * 64 + c.val; omega)

theorem post_row32_apply (b2 : FVec Ideal S32 .f32) (c : Fin 32) :
    shapeCast S1x32 b2 Facts₀.shapeCasts_S32_S1x32 (ix2 (0 : Fin 1) c) = b2 (ix1 c) :=
  shapeCast_apply b2 Facts₀.shapeCasts_S32_S1x32 (ix2 (0 : Fin 1) c) (ix1 c)
    (by rw [Shape.rowMajor_val_two, Shape.rowMajor_val_one]; show c.val = 0 * 32 + c.val; omega)

end Rows

section Ops
variable [Cert.KernelIdeal.Facts₀] [Cert.ReferenceIdeal.Facts₀]

theorem post_ops (g : FVec Ideal Cert.KernelIdeal.S128x320 .f32) (w1 : FVec Ideal Cert.KernelIdeal.S320x64 .f32)
    (b1 : FVec Ideal Cert.KernelIdeal.S64 .f32) (w2 : FVec Ideal Cert.KernelIdeal.S64x32 .f32)
    (b2 : FVec Ideal Cert.KernelIdeal.S32 .f32) :
    post g w1 (shapeCast Cert.KernelIdeal.S1x64 b1 Cert.KernelIdeal.Facts₀.shapeCasts_S64_S1x64) w2
        (shapeCast Cert.KernelIdeal.S1x32 b2 Cert.KernelIdeal.Facts₀.shapeCasts_S32_S1x32)
      = addf
          (Host.dotGeneral Cert.ReferenceIdeal.dot_S128x64_S64x32_S128x32_1_0_0_1_n_n none
            (maximumf
              (addf (Host.dotGeneral Cert.ReferenceIdeal.dot_S128x320_S320x64_S128x64_1_0_0_1_n_n none g w1)
                (broadcastInDim Cert.ReferenceIdeal.S128x64 ![0, 1] Cert.ReferenceIdeal.Facts₀.bcast_S1x64_S128x64_0_1
                  (broadcastInDim Cert.ReferenceIdeal.S1x64 ![1] Cert.ReferenceIdeal.Facts₀.bcast_S64_S1x64_1 b1)))
              (broadcastInDim Cert.ReferenceIdeal.S128x64 ![] Cert.ReferenceIdeal.Facts₀.bcast_S_S128x64
                (constant (F := Ideal) Cert.ReferenceIdeal.S_ .f32 0x00000000#32)))
            w2)
          (broadcastInDim Cert.ReferenceIdeal.S128x32 ![0, 1] Cert.ReferenceIdeal.Facts₀.bcast_S1x32_S128x32_0_1
            (broadcastInDim Cert.ReferenceIdeal.S1x32 ![1] Cert.ReferenceIdeal.Facts₀.bcast_S32_S1x32_1 b2)) := by
  funext i
  obtain ⟨r, j, rfl⟩ : ∃ (r : Fin 128) (j : Fin 32), i = ix2 r j := ⟨i 0, i 1, eq_ix2 i⟩
  rw [post_apply, addf_apply, post_dot2_apply, post_bcast32_apply, post_row32_apply]
  refine congrArg (· + b2 (ix1 j)) (Finset.sum_congr rfl fun k _ => ?_)
  rw [maximumf_apply, addf_apply, post_dot1_apply, post_bcast64_apply, post_zero_apply, post_row64_apply]

end Ops

end Cert.Spec

end
-- ==== Proof.KernelIdeal.Pay5.lean ====
import proofs.«101247_j38388417692531_1_alg».proof.Proof.KernelIdeal.SpecPost
import proofs.«101247_j38388417692531_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

theorem pay5_mmA_lhs0 (i : S128x64.Idx) (q : dot_S128x320_S320x64_S128x64_1_0_0_1_n_n.contr.Idx) :
    (dot_S128x320_S320x64_S128x64_1_0_0_1_n_n.lhsIdx i q 0).val = (i 0).val := by
  unfold DotDims.lhsIdx
  rw [dif_neg (show ¬(0 : Fin S128x320.rank) ∈ dot_S128x320_S320x64_S128x64_1_0_0_1_n_n.lhsBatch from List.not_mem_nil),
    dif_pos (show (0 : Fin S128x320.rank) ∈ dot_S128x320_S320x64_S128x64_1_0_0_1_n_n.lhsNonContracting from List.mem_singleton.2 rfl)]
  rfl
theorem pay5_mmA_lhs1 (i : S128x64.Idx) (q : dot_S128x320_S320x64_S128x64_1_0_0_1_n_n.contr.Idx) :
    (dot_S128x320_S320x64_S128x64_1_0_0_1_n_n.lhsIdx i q 1).val = (q ⟨0, Nat.one_pos⟩).val :=
  dot_S128x320_S320x64_S128x64_1_0_0_1_n_n.lhsIdx_val_of_single rfl i q
theorem pay5_mmA_rhs0 (i : S128x64.Idx) (q : dot_S128x320_S320x64_S128x64_1_0_0_1_n_n.contr.Idx) :
    (dot_S128x320_S320x64_S128x64_1_0_0_1_n_n.rhsIdx i q 0).val = (q ⟨0, Nat.one_pos⟩).val :=
  dot_S128x320_S320x64_S128x64_1_0_0_1_n_n.rhsIdx_val_of_single rfl i q
theorem pay5_mmA_rhs1 (i : S128x64.Idx) (q : dot_S128x320_S320x64_S128x64_1_0_0_1_n_n.contr.Idx) :
    (dot_S128x320_S320x64_S128x64_1_0_0_1_n_n.rhsIdx i q 1).val = (i 1).val := by
  unfold DotDims.rhsIdx
  rw [dif_neg (show ¬(1 : Fin S320x64.rank) ∈ dot_S128x320_S320x64_S128x64_1_0_0_1_n_n.rhsBatch from List.not_mem_nil),
    dif_pos (show (1 : Fin S320x64.rank) ∈ dot_S128x320_S320x64_S128x64_1_0_0_1_n_n.rhsNonContracting from List.mem_singleton.2 rfl)]
  rfl

theorem pay5_mmA_apply {φ₁ φ₂ : FTy} (a : FVec Ideal S128x320 φ₁) (b : FVec Ideal S320x64 φ₂) (r : Fin 128) (c : Fin 64) :
    matmul dot_S128x320_S320x64_S128x64_1_0_0_1_n_n none a b (constant S128x64 .f32 0x00000000#32) (ix2 r c)
      = ∑ l : Fin 320, a (ix2 r l) * b (ix2 l c) := by
  simp only [matmul]
  rw [Ideal.matmul_constant_zero_apply,
    ← Equiv.sum_comp (ValueIdx.contrEquiv1 dot_S128x320_S320x64_S128x64_1_0_0_1_n_n 320 rfl rfl).symm]
  refine Finset.sum_congr rfl fun k _ => ?_
  have hk := ValueIdx.contrEquiv1_symm_val dot_S128x320_S320x64_S128x64_1_0_0_1_n_n 320 rfl rfl k
  have el : dot_S128x320_S320x64_S128x64_1_0_0_1_n_n.lhsIdx (ix2 r c)
      ((ValueIdx.contrEquiv1 dot_S128x320_S320x64_S128x64_1_0_0_1_n_n 320 rfl rfl).symm k) = ix2 r k :=
    funext fun a => Fin.ext (by
      match a with
      | ⟨0, _⟩ => exact pay5_mmA_lhs0 _ _
      | ⟨1, _⟩ => exact (pay5_mmA_lhs1 _ _).trans hk)
  have er : dot_S128x320_S320x64_S128x64_1_0_0_1_n_n.rhsIdx (ix2 r c)
      ((ValueIdx.contrEquiv1 dot_S128x320_S320x64_S128x64_1_0_0_1_n_n 320 rfl rfl).symm k) = ix2 k c :=
    funext fun a => Fin.ext (by
      match a with
      | ⟨0, _⟩ => exact (pay5_mmA_rhs0 _ _).trans hk
      | ⟨1, _⟩ => exact pay5_mmA_rhs1 _ _)
  rw [el, er]

theorem pay5_mmB_lhs0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch from List.not_mem_nil),
    dif_pos (show (0 : Fin S128x64.rank) ∈ dot_S128x64_S64x32_S128x32_1_0_0_1_n_n.lhsNonContracting from List.mem_singleton.2 rfl)]
  rfl
theorem pay5_mmB_lhs1 (i : S128x32.Idx) (q : dot_S128x64_S64x32_S128x32_1_0_0_1_n_n.contr.Idx) :
    (dot_S128x64_S64x32_S128x32_1_0_0_1_n_n.lhsIdx i q 1).val = (q ⟨0, Nat.one_pos⟩).val :=
  dot_S128x64_S64x32_S128x32_1_0_0_1_n_n.lhsIdx_val_of_single rfl i q
theorem pay5_mmB_rhs0 (i : S128x32.Idx) (q : dot_S128x64_S64x32_S128x32_1_0_0_1_n_n.contr.Idx) :
    (dot_S128x64_S64x32_S128x32_1_0_0_1_n_n.rhsIdx i q 0).val = (q ⟨0, Nat.one_pos⟩).val :=
  dot_S128x64_S64x32_S128x32_1_0_0_1_n_n.rhsIdx_val_of_single rfl i q
theorem pay5_mmB_rhs1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch from List.not_mem_nil),
    dif_pos (show (1 : Fin S64x32.rank) ∈ dot_S128x64_S64x32_S128x32_1_0_0_1_n_n.rhsNonContracting from List.mem_singleton.2 rfl)]
  rfl

theorem pay5_mmB_apply {φ₁ φ₂ : FTy} (a : FVec Ideal S128x64 φ₁) (b : FVec Ideal S64x32 φ₂) (r : Fin 128) (c : Fin 32) :
    matmul dot_S128x64_S64x32_S128x32_1_0_0_1_n_n none a b (constant S128x32 .f32 0x00000000#32) (ix2 r c)
      = ∑ k : Fin 64, a (ix2 r k) * b (ix2 k c) := by
  simp only [matmul]
  rw [Ideal.matmul_constant_zero_apply,
    ← Equiv.sum_comp (ValueIdx.contrEquiv1 dot_S128x64_S64x32_S128x32_1_0_0_1_n_n 64 rfl rfl).symm]
  refine Finset.sum_congr rfl fun k _ => ?_
  have hk := ValueIdx.contrEquiv1_symm_val dot_S128x64_S64x32_S128x32_1_0_0_1_n_n 64 rfl rfl k
  have el : dot_S128x64_S64x32_S128x32_1_0_0_1_n_n.lhsIdx (ix2 r c)
      ((ValueIdx.contrEquiv1 dot_S128x64_S64x32_S128x32_1_0_0_1_n_n 64 rfl rfl).symm k) = ix2 r k :=
    funext fun a => Fin.ext (by
      match a with
      | ⟨0, _⟩ => exact pay5_mmB_lhs0 _ _
      | ⟨1, _⟩ => exact (pay5_mmB_lhs1 _ _).trans hk)
  have er : dot_S128x64_S64x32_S128x32_1_0_0_1_n_n.rhsIdx (ix2 r c)
      ((ValueIdx.contrEquiv1 dot_S128x64_S64x32_S128x32_1_0_0_1_n_n 64 rfl rfl).symm k) = ix2 k c :=
    funext fun a => Fin.ext (by
      match a with
      | ⟨0, _⟩ => exact (pay5_mmB_rhs0 _ _).trans hk
      | ⟨1, _⟩ => exact pay5_mmB_rhs1 _ _)
  rw [el, er]

theorem pay5_rowA_apply {α : Type} (x : S1x64.Idx → α) (h : S1x64.Broadcasts S128x64) (r : Fin 128) (c : Fin 64) :
    broadcastTo S128x64 x h (ix2 r c) = x (ix2 (0 : Fin 1) c) :=
  broadcastTo_apply x h (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])

theorem pay5_rowB_apply {α : Type} (x : S1x32.Idx → α) (h : S1x32.Broadcasts S128x32) (r : Fin 128) (c : Fin 32) :
    broadcastTo S128x32 x h (ix2 r c) = x (ix2 (0 : Fin 1) c) :=
  broadcastTo_apply x h (ix2 r c) (ix2 (0 : Fin 1) c) (fun a => match a with
    | ⟨0, _⟩ => by show 0 = if (1 : Nat) = 1 then 0 else r.val; rw [if_pos rfl]
    | ⟨1, _⟩ => by show c.val = if (32 : Nat) = 1 then 0 else c.val; rw [if_neg (by decide)])

theorem pay5_zero : (Scalar.ofBits (F := Ideal) .f32 0x00000000#32 : Ideal .f32) = 0 := Ideal.ofBits_zero_f32

theorem pay5_5 (g : Vec Ideal S128x320 .f32) (w1 : Vec Ideal S320x64 .f32) (b1 : Vec Ideal S1x64 .f32)
    (w2 : Vec Ideal S64x32 .f32) (b2 : Vec Ideal S1x32 .f32) (r : Fin 128) (j : Fin 32) :
    k5_pay1 (F := Ideal) g w1 b1 w2 b2 (ix2 r j)
      = (∑ k : Fin 64, max ((∑ l : Fin 320, g (ix2 r l) * w1 (ix2 l k)) + b1 (ix2 (0 : Fin 1) k)) 0 * w2 (ix2 k j))
        + b2 (ix2 (0 : Fin 1) j) := by
  unfold k5_pay1
  simp only [shapeCast_self]
  rw [addf_apply, pay5_mmB_apply, pay5_rowB_apply]
  refine congrArg (· + b2 (ix2 (0 : Fin 1) j)) (Finset.sum_congr rfl fun k _ => ?_)
  rw [truncf_apply, truncf_apply, maximumf_apply, addf_apply, pay5_mmA_apply, pay5_rowA_apply, broadcast_apply, pay5_zero]
  rfl

theorem pay5_5_post (g : Vec Ideal S128x320 .f32) (w1 : Vec Ideal S320x64 .f32) (b1 : Vec Ideal S1x64 .f32)
    (w2 : Vec Ideal S64x32 .f32) (b2 : Vec Ideal S1x32 .f32) :
    k5_pay1 (F := Ideal) g w1 b1 w2 b2 = Cert.Spec.post g w1 b1 w2 b2 := by
  funext i
  obtain ⟨r, j, rfl⟩ : ∃ (r : Fin 128) (j : Fin 32), i = ix2 r j := ⟨i 0, i 1, eq_ix2 i⟩
  rw [pay5_5, Cert.Spec.post_apply]

end Cert.KernelIdeal.Hand

end
-- ==== Proof.KernelIdeal.Val5.lean ====
import proofs.«101247_j38388417692531_1_alg».proof.Proof.KernelIdeal.Pay5
import proofs.«101247_j38388417692531_1_alg».proof.Proof.KernelIdeal.Reg5
import Idealize.ShloMosaic.Lib.Pipeline.Value
import proofs.«101247_j38388417692531_1_alg».proof.Proof.KernelIdeal.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

/-- At the one point every block is at block index (0, 0). -/
theorem idx5_facts (t : Fin grid5.N) :
    (cfg5.win 0).index t = ![0, 0] ∧ (cfg5.win 1).index t = ![0, 0] ∧ (cfg5.win 2).index t = ![0, 0]
    ∧ (cfg5.win 3).index t = ![0, 0] ∧ (cfg5.win 4).index t = ![0, 0] ∧ (cfg5.win 5).index t = ![0, 0]
    ∧ (cfg5.win 5).flush t = true := by
  revert t; decide +kernel

theorem out5_5_post (g : Vec Ideal S128x320 .f32) (w1 : Vec Ideal S320x64 .f32) (b1 : Vec Ideal S1x64 .f32)
    (w2 : Vec Ideal S64x32 .f32) (b2 : Vec Ideal S1x32 .f32) :
    out5_5 (F := Ideal) g w1 b1 w2 b2 = Cert.Spec.post g w1 b1 w2 b2 := by
  unfold out5_5
  rw [View.canon_unit_zero blk_hz]
  simp only [View.ld_unit_zero (S := S128x320) blk_hz, View.ld_unit_zero (S := S320x64) blk_hz,
    View.ld_unit_zero (S := S1x64) blk_hz, View.ld_unit_zero (S := S64x32) blk_hz,
    View.ld_unit_zero (S := S1x32) blk_hz]
  exact pay5_5_post g w1 b1 w2 b2

variable (V : (c : Dev nD) → (b : Ref sig .tc) → Buf (Elt Ideal) ((c : Thread nD τ).loc b))
variable (q : Fin cfg5.W → PosShare TreeShare)

theorem iblk5_0 (c : Dev nD) (t : Fin cfg5.N) : iblk5 V c 0 t = V c (Pipeline.arrRef spec5 0) :=
  funext fun y => congrArg (V c _) (blk_whole (rect_emb_val (cfg5.win 0) t) (idx5_facts t).1 y)

theorem iblk5_1 (c : Dev nD) (t : Fin cfg5.N) : iblk5 V c 1 t = V c (Pipeline.arrRef spec5 1) :=
  funext fun y => congrArg (V c _) (blk_whole (rect_emb_val (cfg5.win 1) t) (idx5_facts t).2.1 y)

theorem iblk5_2 (c : Dev nD) (t : Fin cfg5.N) : iblk5 V c 2 t = V c (Pipeline.arrRef spec5 2) :=
  funext fun y => congrArg (V c _) (blk_whole (rect_emb_val (cfg5.win 2) t) (idx5_facts t).2.2.1 y)

theorem iblk5_3 (c : Dev nD) (t : Fin cfg5.N) : iblk5 V c 3 t = V c (Pipeline.arrRef spec5 3) :=
  funext fun y => congrArg (V c _) (blk_whole (rect_emb_val (cfg5.win 3) t) (idx5_facts t).2.2.2.1 y)

theorem iblk5_4 (c : Dev nD) (t : Fin cfg5.N) : iblk5 V c 4 t = V c (Pipeline.arrRef spec5 4) :=
  funext fun y => congrArg (V c _) (blk_whole (rect_emb_val (cfg5.win 4) t) (idx5_facts t).2.2.2.2.1 y)

theorem idx5_emb_5 (t : Fin cfg5.N) (y : S128x32.Idx) : ((cfg5.win 5).blk t).view.emb y = y :=
  blk_whole (rect_emb_val (cfg5.win 5) t) (idx5_facts t).2.2.2.2.2.1 y

/-- The one point's blocks are the whole arrays, so what it leaves is the perceptron of the arrays. -/
theorem flushed5_eq (c : Dev nD) (t : Fin cfg5.N) :
    (dat5 (F := Ideal) V q c).flushed 5 t
      = ((cfg5.win 5).blk t).view.read (Elt Ideal)
          (Cert.Spec.post (V c (Pipeline.arrRef spec5 0)) (V c (Pipeline.arrRef spec5 1)) (V c (Pipeline.arrRef spec5 2))
            (V c (Pipeline.arrRef spec5 3)) (V c (Pipeline.arrRef spec5 4))) := by
  show (cfg5.win 5).cut (cfg5.grid.coords t) ((dat5 V q c).after 5 t) = _
  rw [after5_5, iblk5_0, iblk5_1, iblk5_2, iblk5_3, iblk5_4, out5_5_post]
  funext y
  show _ = Cert.Spec.post _ _ _ _ _ (((cfg5.win 5).blk t).view.emb y)
  rw [idx5_emb_5]

theorem cover5_arr (i : S128x32.Idx) :
    ∃ t : Fin cfg5.N, (cfg5.win 5).flush t = true ∧ i ∈ ((cfg5.win 5).blk t).view.set := by
  have hN : 0 < cfg5.N := by show 0 < grid5.N; rw [N_5]; exact Nat.one_pos
  refine ⟨⟨0, hN⟩, (idx5_facts _).2.2.2.2.2.2, ?_⟩
  have h := ((cfg5.win 5).blk ⟨0, hN⟩).view.emb_mem_set i
  rwa [idx5_emb_5] at h

theorem final5_5 (c : Dev nD) :
    (dat5 (F := Ideal) V q c).arrAt 5 cfg5.N
      = Cert.Spec.post (V c (Pipeline.arrRef spec5 0)) (V c (Pipeline.arrRef spec5 1)) (V c (Pipeline.arrRef spec5 2))
          (V c (Pipeline.arrRef spec5 3)) (V c (Pipeline.arrRef spec5 4)) :=
  (dat5 (F := Ideal) V q c).arrAt_eq_of_cover 5 _ (fun t _ => flushed5_eq V q c t) cover5_arr

end Cert.KernelIdeal.Hand

end
-- ==== Proof.ChainQb.lean ====
import proofs.«101247_j38388417692531_1_alg».proof.Proof.Gen.KernelIdeal.Regions
import proofs.«101247_j38388417692531_1_alg».proof.Proof.Gen.ReferenceIdeal
import proofs.«101247_j38388417692531_1_alg».proof.Proof.KernelIdeal.Data
import proofs.«101247_j38388417692531_1_alg».proof.Proof.KernelIdeal.HostQ
import proofs.«101247_j38388417692531_1_alg».proof.Proof.KernelIdeal.SpecPost
import proofs.«101247_j38388417692531_1_alg».proof.Proof.KernelIdeal.Val5
import proofs.«101247_j38388417692531_1_alg».proof.Proof.RefRunP

set_option maxRecDepth 16384

set_option maxHeartbeats 1000000

noncomputable section

namespace Cert.Proof.ChainQb

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (outs : Outs (F := Ideal)) (hO : OutsOk m outs) (c : Dev nD)
include hO

theorem cq5
    (h0 : V2 m outs c main_v5 = Cert.ReferenceIdeal.Value.stage_main_v7 (m ((c : Thread nD τ).loc main_arg0)) (m ((c : Thread nD τ).loc main_arg6)) (m ((c : Thread nD τ).loc main_arg7)))
    (h1 : V4 m outs c main_v26_0 = Cert.ReferenceIdeal.Value.stage_main_v36 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (h2 : V6 m outs c main_v47_0 = Cert.ReferenceIdeal.Value.stage_main_v66 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (h3 : V8 m outs c main_v68_0 = Cert.ReferenceIdeal.Value.stage_main_v95 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (h4 : V10 m outs c main_v89_0 = Cert.ReferenceIdeal.Value.stage_main_v125 (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    V12 m outs c main_v96 = Cert.ReferenceIdeal.Value.stage_main_v138 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := final5_5 (En11 m outs) qfull c
  change _ = Cert.Spec.post (V11 m outs c main_v93) (V11 m outs c main_arg12) (V11 m outs c main_v94) (V11 m outs c main_arg14) (V11 m outs c main_v95) at h
  rw [rd5_0, rd5_1, rd5_2, rd5_3, rd5_4, h0, h1, h2, h3, h4, Cert.Spec.post_ops] at h
  refine (Function.update_self _ _ _).trans (((hO.o_main_v96 c).trans h).trans ?_)
  unfold Cert.ReferenceIdeal.Value.stage_main_v138 Cert.ReferenceIdeal.Value.stage_main_v135 Cert.ReferenceIdeal.Value.stage_main_v137 Cert.ReferenceIdeal.Value.stage_main_v136 Cert.ReferenceIdeal.Value.stage_main_v134 Cert.ReferenceIdeal.Value.stage_main_v133 Cert.ReferenceIdeal.Value.stage_main_v130 Cert.ReferenceIdeal.Value.stage_main_v132 Cert.ReferenceIdeal.Value.stage_main_v131 Cert.ReferenceIdeal.Value.stage_main_call8_v0 Cert.ReferenceIdeal.Value.stage_main_call8_cst Cert.ReferenceIdeal.Value.stage_main_v129 Cert.ReferenceIdeal.Value.stage_main_v127 Cert.ReferenceIdeal.Value.stage_main_v128 Cert.ReferenceIdeal.Value.stage_main_v126 Cert.ReferenceIdeal.Value.stage_main_cst_10
  rfl

end Cert.Proof.ChainQb

end
-- ==== Proof.KernelIdeal.Pay6.lean ====
import proofs.«101247_j38388417692531_1_alg».proof.Proof.KernelIdeal.SpecProj
import proofs.«101247_j38388417692531_1_alg».proof.Proof.Gen.KernelIdeal.Skeleton

noncomputable section

open scoped BigOperators

namespace Cert.KernelIdeal.Hand

open Cert.KernelIdeal Cert.KernelIdeal.Gen Idealize.ShloMosaic Idealize.ShloMosaic.ValueIdx

theorem pay6_3 (xb : Vec Ideal S5000x32 .f32) (w : Vec Ideal S32x64 .f32) (b : Vec Ideal S1x64 .f32) (r : Fin 5000) (j : Fin 64) :
    k6_pay1 (F := Ideal) xb w b (ix2 r j) = (∑ k : Fin 32, xb (ix2 r k) * w (ix2 k j)) + b (ix2 (0 : Fin 1) j) := by
  unfold k6_pay1
  rw [addf_apply]
  congr 1
  ·
    simp only [matmul]
    rw [Ideal.matmul_constant_zero_apply]
    exact Cert.Spec.sum_contr_plain dot_S5000x32_S32x64_S5000x64_1_0_0_1_n_n rfl rfl rfl rfl rfl rfl _ _ (ix2 r j)
  ·
    rw [shapeCast_self]
    exact broadcastTo_apply b _ (ix2 r j) (ix2 (0 : Fin 1) j) (fun a => match a with
      | ⟨0, _⟩ => by show 0 = if (1 : Nat) = 1 then 0 else (r : Nat); rw [if_pos rfl]
      | ⟨1, _⟩ => by show (j : Nat) = if (64 : Nat) = 1 then 0 else (j : Nat); rw [if_neg (by decide)])

end Cert.KernelIdeal.Hand
-- ==== Proof.KernelIdeal.Val6.lean ====
import proofs.«101247_j38388417692531_1_alg».proof.Proof.KernelIdeal.Pay6
import proofs.«101247_j38388417692531_1_alg».proof.Proof.KernelIdeal.Reg6
import Idealize.ShloMosaic.Lib.Pipeline.Value
import proofs.«101247_j38388417692531_1_alg».proof.Proof.KernelIdeal.Blocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

variable (V : (c : Dev nD) → (b : Ref sig .tc) → Buf (Elt Ideal) ((c : Thread nD τ).loc b))
variable (q : Fin cfg6.W → PosShare TreeShare)

/-- At point t the row tiles are at block (t, 0), the weights and the bias row at block (0, 0). -/
theorem idx6_facts (t : Fin grid6.N) :
    (cfg6.win 0).index t = ![t.val, 0] ∧ (cfg6.win 1).index t = ![0, 0] ∧ (cfg6.win 2).index t = ![0, 0]
    ∧ (cfg6.win 3).index t = ![t.val, 0] ∧ (cfg6.win 3).flush t = true := by
  revert t; decide +kernel

theorem out6_3_apply (xb : Vec Ideal S5000x32 .f32) (w : Vec Ideal S32x64 .f32) (b : Vec Ideal S1x64 .f32) (r : Fin 5000) (j : Fin 64) :
    out6_3 (F := Ideal) xb w b (ix2 r j) = (∑ k : Fin 32, xb (ix2 r k) * w (ix2 k j)) + b (ix2 (0 : Fin 1) j) := by
  unfold out6_3
  rw [View.canon_unit_zero blk_hz]
  simp only [View.ld_unit_zero (S := S5000x32) blk_hz, View.ld_unit_zero (S := S32x64) blk_hz, View.ld_unit_zero (S := S1x64) blk_hz]
  exact pay6_3 xb w b r j

theorem iblk6_1 (c : Dev nD) (t : Fin cfg6.N) : iblk6 V c 1 t = V c (Pipeline.arrRef spec6 1) :=
  funext fun y => congrArg (V c _) (blk_whole (rect_emb_val (cfg6.win 1) t) (idx6_facts t).2.1 y)

theorem iblk6_2 (c : Dev nD) (t : Fin cfg6.N) : iblk6 V c 2 t = V c (Pipeline.arrRef spec6 2) :=
  funext fun y => congrArg (V c _) (blk_whole (rect_emb_val (cfg6.win 2) t) (idx6_facts t).2.2.1 y)

/-- A row of the projection reads the same row of the features only, so tile t of the projection is the projection of the tiles. -/
theorem final6_3 (c : Dev nD) :
    (dat6 V q c).arrAt 3 cfg6.N
      = Cert.Spec.proj (V c (Pipeline.arrRef spec6 0)) (V c (Pipeline.arrRef spec6 1)) (V c (Pipeline.arrRef spec6 2)) := by
  have h3 (t : Fin cfg6.N) := blk_emb (e := ((cfg6.win 3).blk t).view.emb) (rect_emb_val (cfg6.win 3) t) (idx6_facts t).2.2.2.1
  refine (dat6 V q c).arrAt_eq_of_cover 3 _ (fun t _ => ?_) fun i => ?_
  · show (cfg6.win 3).cut (cfg6.grid.coords t) ((dat6 V q c).after 3 t) = _
    rw [after6_3, iblk6_1, iblk6_2]
    exact rows_tile (by have := lt_of_lt_of_eq t.isLt N_6; omega) (h3 t) (Cert.Spec.proj _ _ _) fun r j R hR =>
      (out6_3_apply _ _ _ r j).trans (congrArg (· + _) (Finset.sum_congr rfl fun k _ =>
        congrArg (· * _) (congrArg (V c _) (blk_emb (rect_emb_val (cfg6.win 0) t) (idx6_facts t).1 r k R hR))))
  · obtain ⟨t, y, rfl⟩ := rows_cover (by rw [show cfg6.N = 20 from N_6]) h3 i
    exact ⟨t, (idx6_facts t).2.2.2.2, View.emb_mem_set _ _⟩

end Cert.KernelIdeal.Hand
-- ==== Proof.KernelIdeal.Pay7.lean ====
import proofs.«101247_j38388417692531_1_alg».proof.Proof.KernelIdeal.SpecLayerA
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open scoped BigOperators

section Product
variable [Cert.KernelIdeal.Facts₀]

private theorem mm_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch from List.not_mem_nil),
    dif_pos (show (0 : Fin S5000x64.rank) ∈ dot_S5000x64_S64x64_S5000x64_1_0_0_1_n_n.lhsNonContracting from List.mem_singleton.mpr rfl)]
  rfl

private theorem mm_lhs_col (i : S5000x64.Idx) (q : dot_S5000x64_S64x64_S5000x64_1_0_0_1_n_n.contr.Idx) :
    (dot_S5000x64_S64x64_S5000x64_1_0_0_1_n_n.lhsIdx i q 1).val = (q ⟨0, Nat.one_pos⟩).val :=
  dot_S5000x64_S64x64_S5000x64_1_0_0_1_n_n.lhsIdx_val_of_single rfl i q

private theorem mm_rhs_row (i : S5000x64.Idx) (q : dot_S5000x64_S64x64_S5000x64_1_0_0_1_n_n.contr.Idx) :
    (dot_S5000x64_S64x64_S5000x64_1_0_0_1_n_n.rhsIdx i q 0).val = (q ⟨0, Nat.one_pos⟩).val :=
  dot_S5000x64_S64x64_S5000x64_1_0_0_1_n_n.rhsIdx_val_of_single rfl i q

private theorem mm_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch from List.not_mem_nil),
    dif_pos (show (1 : Fin S64x64.rank) ∈ dot_S5000x64_S64x64_S5000x64_1_0_0_1_n_n.rhsNonContracting from List.mem_singleton.mpr rfl)]
  rfl

private theorem mm_apply {φ₁ φ₂ : FTy} (a : FVec Ideal S5000x64 φ₁) (w : FVec Ideal S64x64 φ₂) (r : Fin 5000) (j : Fin 64) :
    matmul dot_S5000x64_S64x64_S5000x64_1_0_0_1_n_n none a w (constant S5000x64 .f32 0x00000000#32) (ix2 r j)
      = ∑ k : Fin 64, a (ix2 r k) * w (ix2 k j) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j)
      ((contrEquiv1 dot_S5000x64_S64x64_S5000x64_1_0_0_1_n_n 64 rfl rfl).symm k) = ix2 r k := funext fun a => Fin.ext (by
    match a with
    | ⟨0, _⟩ => exact mm_lhs_row _ _
    | ⟨1, _⟩ => exact (mm_lhs_col _ _).trans hk)
  have er : dot_S5000x64_S64x64_S5000x64_1_0_0_1_n_n.rhsIdx (ix2 r j)
      ((contrEquiv1 dot_S5000x64_S64x64_S5000x64_1_0_0_1_n_n 64 rfl rfl).symm k) = ix2 k j := funext fun a => Fin.ext (by
    match a with
    | ⟨0, _⟩ => exact (mm_rhs_row _ _).trans hk
    | ⟨1, _⟩ => exact mm_rhs_col _ _)
  rw [el, er]

end Product

theorem pay7_7 (xb aggb : Vec Ideal S5000x64 .f32) (w1 : Vec Ideal S64x64 .f32) (b1 : Vec Ideal S1x64 .f32)
    (w2 : Vec Ideal S64x64 .f32) (b2 : Vec Ideal S1x64 .f32) (r : Fin 5000) (j : Fin 64) :
    k7_pay2 (F := Ideal) xb aggb w1 b1 w2 b2 (ix2 r j) = Cert.Spec.layerRow xb aggb w1 b1 w2 b2 r j := by
  unfold k7_pay2
  simp only [shapeCast_self]
  rw [maximumf_apply, addf_apply, mm_apply, broadcastTo_1b_ab_apply, broadcast_apply]
  unfold Cert.Spec.layerRow Cert.Spec.hiddenRow
  have hz : (Scalar.ofBits (F := Ideal) .f32 0x00000000#32 : EReal) = 0 := Ideal.ofBits_zero_f32
  rw [hz]
  congr 2
  refine Finset.sum_congr rfl fun k _ => ?_
  rw [truncf_apply, truncf_apply, maximumf_apply, addf_apply, mm_apply, broadcastTo_1b_ab_apply, broadcast_apply]
  rfl

theorem pay7_8 (xres : Vec Ideal S5000x64 .f32) : k7_pay1 (F := Ideal) xres = xres := by
  unfold k7_pay1
  exact shapeCast_self _ _

end Cert.KernelIdeal.Hand
-- ==== Proof.KernelIdeal.Val7.lean ====
import proofs.«101247_j38388417692531_1_alg».proof.Proof.KernelIdeal.Pay7
import proofs.«101247_j38388417692531_1_alg».proof.Proof.KernelIdeal.Reg7
import Idealize.ShloMosaic.Lib.Pipeline.Value
import proofs.«101247_j38388417692531_1_alg».proof.Proof.KernelIdeal.Blocks

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)
open Idealize.ShloMosaic.Pipeline.Window (rect_emb_val)
open Idealize.ShloMosaic.ValueIdx

variable (V : (c : Dev nD) → (b : Ref sig .tc) → Buf (Elt Ideal) ((c : Thread nD τ).loc b))
variable (q : Fin cfg7.W → PosShare TreeShare)

/-- At point t the row tiles are at block (t, 0), the weights and biases at block (0, 0). -/
theorem idx7_facts (t : Fin grid7.N) :
    (cfg7.win 0).index t = ![t.val, 0] ∧ (cfg7.win 1).index t = ![t.val, 0] ∧ (cfg7.win 2).index t = ![t.val, 0]
    ∧ (cfg7.win 3).index t = ![0, 0] ∧ (cfg7.win 4).index t = ![0, 0] ∧ (cfg7.win 5).index t = ![0, 0]
    ∧ (cfg7.win 6).index t = ![0, 0] ∧ (cfg7.win 7).index t = ![t.val, 0] ∧ (cfg7.win 8).index t = ![t.val, 0]
    ∧ (cfg7.win 7).flush t = true ∧ (cfg7.win 8).flush t = true := by
  revert t; decide +kernel

theorem out7_7_apply (x agg : Vec Ideal S5000x64 .f32) (wa : Vec Ideal S64x64 .f32) (ba : Vec Ideal S1x64 .f32)
    (wb : Vec Ideal S64x64 .f32) (bb : Vec Ideal S1x64 .f32) (r : Fin 5000) (j : Fin 64) :
    out7_7 (F := Ideal) x agg wa ba wb bb (ix2 r j) = Cert.Spec.layerRow x agg wa ba wb bb r j := by
  unfold out7_7
  rw [View.canon_unit_zero blk_hz]
  simp only [View.ld_unit_zero (S := S5000x64) blk_hz, View.ld_unit_zero (S := S64x64) blk_hz,
    View.ld_unit_zero (S := S1x64) blk_hz]
  exact pay7_7 x agg wa ba wb bb r j

theorem out7_8_apply (xres : Vec Ideal S5000x64 .f32) : out7_8 (F := Ideal) xres = xres := by
  unfold out7_8
  rw [View.canon_unit_zero blk_hz]
  simp only [View.ld_unit_zero (S := S5000x64) blk_hz]
  exact pay7_8 xres

/-- A row of the layer reads the same row of the features only, so tile t of the layer is the layer's formula on the tiles. -/
theorem final7_7 (c : Dev nD) :
    (dat7 (F := Ideal) V q c).arrAt 7 cfg7.N
      = Cert.Spec.layerA (V c (Pipeline.arrRef spec7 0)) (V c (Pipeline.arrRef spec7 1)) (V c (Pipeline.arrRef spec7 3))
          (V c (Pipeline.arrRef spec7 4)) (V c (Pipeline.arrRef spec7 5)) (V c (Pipeline.arrRef spec7 6)) := by
  have h7 (t : Fin cfg7.N) := blk_emb (e := ((cfg7.win 7).blk t).view.emb) (rect_emb_val (cfg7.win 7) t) (idx7_facts t).2.2.2.2.2.2.2.1
  refine (dat7 (F := Ideal) V q c).arrAt_eq_of_cover 7 _ (fun t _ => ?_) fun i => ?_
  · obtain ⟨ea, eb, -, ec, ed, ee, ef, -⟩ := idx7_facts t
    show (cfg7.win 7).cut (cfg7.grid.coords t) ((dat7 (F := Ideal) V q c).after 7 t) = _
    rw [after7_7, show iblk7 V c 3 t = V c (Pipeline.arrRef spec7 3) from
        funext fun y => congrArg (V c _) (blk_whole (rect_emb_val (cfg7.win 3) t) ec y),
      show iblk7 V c 4 t = V c (Pipeline.arrRef spec7 4) from
        funext fun y => congrArg (V c _) (blk_whole (rect_emb_val (cfg7.win 4) t) ed y),
      show iblk7 V c 5 t = V c (Pipeline.arrRef spec7 5) from
        funext fun y => congrArg (V c _) (blk_whole (rect_emb_val (cfg7.win 5) t) ee y),
      show iblk7 V c 6 t = V c (Pipeline.arrRef spec7 6) from
        funext fun y => congrArg (V c _) (blk_whole (rect_emb_val (cfg7.win 6) t) ef y)]
    exact rows_tile (by have := lt_of_lt_of_eq t.isLt N_7; omega) (h7 t) (Cert.Spec.layerA _ _ _ _ _ _) fun r j R hR =>
      (out7_7_apply _ _ _ _ _ _ r j).trans (Cert.Spec.layerRow_congr _ _ _ _ _ _ _ _ r R
        (fun l => congrArg (V c _) (blk_emb (rect_emb_val (cfg7.win 0) t) ea r l R hR))
        (fun l => congrArg (V c _) (blk_emb (rect_emb_val (cfg7.win 1) t) eb r l R hR)) j)
  · obtain ⟨t, y, rfl⟩ := rows_cover (by rw [show cfg7.N = 20 from N_7]) h7 i
    exact ⟨t, (idx7_facts t).2.2.2.2.2.2.2.2.2.1, View.emb_mem_set _ _⟩

/-- The second result is the residual array, tile by tile. -/
theorem final7_8 (c : Dev nD) :
    (dat7 (F := Ideal) V q c).arrAt 8 cfg7.N = V c (Pipeline.arrRef spec7 2) := by
  have h8 (t : Fin cfg7.N) := blk_emb (e := ((cfg7.win 8).blk t).view.emb) (rect_emb_val (cfg7.win 8) t) (idx7_facts t).2.2.2.2.2.2.2.2.1
  refine (dat7 (F := Ideal) V q c).arrAt_eq_of_cover 8 _ (fun t _ => ?_) fun i => ?_
  · show (cfg7.win 8).cut (cfg7.grid.coords t) ((dat7 (F := Ideal) V q c).after 8 t) = _
    rw [after7_8, out7_8_apply]
    exact rows_tile (by have := lt_of_lt_of_eq t.isLt N_7; omega) (h8 t) (V c (Pipeline.arrRef spec7 2)) fun r j R hR =>
      congrArg (V c _) (blk_emb (rect_emb_val (cfg7.win 2) t) (idx7_facts t).2.2.1 r j R hR)
  · obtain ⟨t, y, rfl⟩ := rows_cover (by rw [show cfg7.N = 20 from N_7]) h8 i
    exact ⟨t, (idx7_facts t).2.2.2.2.2.2.2.2.2.2, View.emb_mem_set _ _⟩

end Cert.KernelIdeal.Hand
-- ==== Proof.KernelIdeal.Pay8.lean ====
import proofs.«101247_j38388417692531_1_alg».proof.Proof.KernelIdeal.SpecLayerB
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open Cert.Spec.LayerB
open scoped BigOperators

theorem pay8_8 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k8_pay1 (F := Ideal) xb aggb w1 b1 w2 b2 xresb (ix2 r j) = Cert.Spec.layerBresAt xb aggb w1 b1 w2 b2 xresb r j := by
  unfold k8_pay1
  simp only [shapeCast_self]
  unfold Cert.Spec.layerBresAt
  simp only [addf_apply, matmul]
  rw [matmul_plain_apply dot_S5000x64_S64x64_S5000x64_1_0_0_1_n_n rfl rfl rfl rfl rfl rfl, broadcastTo_1b_ab_apply]
  congr 2
  refine Finset.sum_congr rfl fun k _ => ?_
  simp only [truncf_apply, maximumf_apply, addf_apply, broadcast_apply]
  rw [matmul_plain_apply dot_S5000x64_S64x64_S5000x64_1_0_0_1_n_n rfl rfl rfl rfl rfl rfl, broadcastTo_1b_ab_apply]
  simp only [truncf_apply, addf_apply]

theorem pay8_7 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k8_pay2 (F := Ideal) xb aggb w1 b1 w2 b2 xresb (ix2 r j)
      = max (Cert.Spec.layerBresAt xb aggb w1 b1 w2 b2 xresb r j) Cert.Spec.layerBzero := by
  unfold k8_pay2
  simp only [maximumf_apply, broadcast_apply]
  rw [pay8_8]

end Cert.KernelIdeal.Hand
-- ==== Proof.KernelIdeal.Val8.lean ====
import proofs.«101247_j38388417692531_1_alg».proof.Proof.KernelIdeal.Pay8
import proofs.«101247_j38388417692531_1_alg».proof.Proof.KernelIdeal.Reg8
import Idealize.ShloMosaic.Lib.Pipeline.Value
import proofs.«101247_j38388417692531_1_alg».proof.Proof.KernelIdeal.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

variable (V : (c : Dev nD) → (b : Ref sig .tc) → Buf (Elt Ideal) ((c : Thread nD τ).loc b))
variable (q : Fin cfg8.W → PosShare TreeShare)

/-- At point t the row tiles are at block (t, 0), the weights and biases at block (0, 0). -/
theorem idx8_facts (t : Fin grid8.N) :
    (cfg8.win 0).index t = ![t.val, 0] ∧ (cfg8.win 1).index t = ![t.val, 0] ∧ (cfg8.win 2).index t = ![t.val, 0]
    ∧ (cfg8.win 3).index t = ![0, 0] ∧ (cfg8.win 4).index t = ![0, 0] ∧ (cfg8.win 5).index t = ![0, 0]
    ∧ (cfg8.win 6).index t = ![0, 0] ∧ (cfg8.win 7).index t = ![t.val, 0] ∧ (cfg8.win 8).index t = ![t.val, 0]
    ∧ (cfg8.win 7).flush t = true ∧ (cfg8.win 8).flush t = true := by
  revert t; decide +kernel

theorem out8_8_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out8_8 (F := Ideal) xb aggb w1 b1 w2 b2 xresb (ix2 r j) = Cert.Spec.layerBresAt xb aggb w1 b1 w2 b2 xresb r j := by
  unfold out8_8
  rw [View.canon_unit_zero blk_hz]
  simp only [View.ld_unit_zero (S := S5000x64) blk_hz, View.ld_unit_zero (S := S64x64) blk_hz, View.ld_unit_zero (S := S1x64) blk_hz]
  exact pay8_8 xb aggb w1 b1 w2 b2 xresb r j

theorem out8_7_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out8_7 (F := Ideal) xb aggb w1 b1 w2 b2 xresb (ix2 r j)
      = max (Cert.Spec.layerBresAt xb aggb w1 b1 w2 b2 xresb r j) Cert.Spec.layerBzero := by
  unfold out8_7
  rw [View.canon_unit_zero blk_hz]
  simp only [View.ld_unit_zero (S := S5000x64) blk_hz, View.ld_unit_zero (S := S64x64) blk_hz, View.ld_unit_zero (S := S1x64) blk_hz]
  exact pay8_7 xb aggb w1 b1 w2 b2 xresb r j

theorem iblk8_3 (c : Dev nD) (t : Fin cfg8.N) : iblk8 V c 3 t = V c (Pipeline.arrRef spec8 3) :=
  funext fun y => congrArg (V c _) (blk_whole (rect_emb_val (cfg8.win 3) t) (idx8_facts t).2.2.2.1 y)

theorem iblk8_4 (c : Dev nD) (t : Fin cfg8.N) : iblk8 V c 4 t = V c (Pipeline.arrRef spec8 4) :=
  funext fun y => congrArg (V c _) (blk_whole (rect_emb_val (cfg8.win 4) t) (idx8_facts t).2.2.2.2.1 y)

theorem iblk8_5 (c : Dev nD) (t : Fin cfg8.N) : iblk8 V c 5 t = V c (Pipeline.arrRef spec8 5) :=
  funext fun y => congrArg (V c _) (blk_whole (rect_emb_val (cfg8.win 5) t) (idx8_facts t).2.2.2.2.2.1 y)

theorem iblk8_6 (c : Dev nD) (t : Fin cfg8.N) : iblk8 V c 6 t = V c (Pipeline.arrRef spec8 6) :=
  funext fun y => congrArg (V c _) (blk_whole (rect_emb_val (cfg8.win 6) t) (idx8_facts t).2.2.2.2.2.2.1 y)

theorem iblk8_0 (c : Dev nD) (t : Fin cfg8.N) (r : Fin 5000) (R : Fin 100000) (hR : R.val = t.val * 5000 + r.val) (l : Fin 64) :
    iblk8 V c 0 t (ix2 r l) = V c (Pipeline.arrRef spec8 0) (ix2 R l) :=
  congrArg (V c _) (blk_emb (rect_emb_val (cfg8.win 0) t) (idx8_facts t).1 r l R hR)

theorem iblk8_1 (c : Dev nD) (t : Fin cfg8.N) (r : Fin 5000) (R : Fin 100000) (hR : R.val = t.val * 5000 + r.val) (l : Fin 64) :
    iblk8 V c 1 t (ix2 r l) = V c (Pipeline.arrRef spec8 1) (ix2 R l) :=
  congrArg (V c _) (blk_emb (rect_emb_val (cfg8.win 1) t) (idx8_facts t).2.1 r l R hR)

theorem iblk8_2 (c : Dev nD) (t : Fin cfg8.N) (r : Fin 5000) (R : Fin 100000) (hR : R.val = t.val * 5000 + r.val) (l : Fin 64) :
    iblk8 V c 2 t (ix2 r l) = V c (Pipeline.arrRef spec8 2) (ix2 R l) :=
  congrArg (V c _) (blk_emb (rect_emb_val (cfg8.win 2) t) (idx8_facts t).2.2.1 r l R hR)

/-- A row of the layer reads the same row of the row-tiled arrays only: the formula on the tiles at row r is the formula on the arrays at row 5000 t + r. -/
theorem covered8_resAt (c : Dev nD) (t : Fin cfg8.N) (r : Fin 5000) (R : Fin 100000) (hR : R.val = t.val * 5000 + r.val) (j : Fin 64) :
    Cert.Spec.layerBresAt (n := 5000) (iblk8 V c 0 t) (iblk8 V c 1 t) (iblk8 V c 3 t) (iblk8 V c 4 t) (iblk8 V c 5 t) (iblk8 V c 6 t) (iblk8 V c 2 t) r j
      = Cert.Spec.layerBresAt (n := 100000) (V c (Pipeline.arrRef spec8 0)) (V c (Pipeline.arrRef spec8 1)) (V c (Pipeline.arrRef spec8 3))
        (V c (Pipeline.arrRef spec8 4)) (V c (Pipeline.arrRef spec8 5)) (V c (Pipeline.arrRef spec8 6)) (V c (Pipeline.arrRef spec8 2)) R j := by
  rw [iblk8_3, iblk8_4, iblk8_5, iblk8_6]
  unfold Cert.Spec.layerBresAt
  simp only [iblk8_0 V c t r R hR, iblk8_1 V c t r R hR, iblk8_2 V c t r R hR]

theorem final8_8 (c : Dev nD) : (dat8 (F := Ideal) V q c).arrAt 8 cfg8.N
    = Cert.Spec.layerBres (V c (Pipeline.arrRef spec8 0)) (V c (Pipeline.arrRef spec8 1)) (V c (Pipeline.arrRef spec8 3))
        (V c (Pipeline.arrRef spec8 4)) (V c (Pipeline.arrRef spec8 5)) (V c (Pipeline.arrRef spec8 6)) (V c (Pipeline.arrRef spec8 2)) := by
  have h8 (t : Fin cfg8.N) := blk_emb (e := ((cfg8.win 8).blk t).view.emb) (rect_emb_val (cfg8.win 8) t) (idx8_facts t).2.2.2.2.2.2.2.2.1
  refine (dat8 (F := Ideal) V q c).arrAt_eq_of_cover 8 _ (fun t _ => ?_) fun i => ?_
  · show (cfg8.win 8).cut (cfg8.grid.coords t) ((dat8 V q c).after 8 t) = _
    rw [after8_8]
    exact rows_tile (by have := lt_of_lt_of_eq t.isLt N_8; omega) (h8 t) (Cert.Spec.layerBres _ _ _ _ _ _ _) fun r j R hR =>
      (out8_8_apply _ _ _ _ _ _ _ r j).trans (covered8_resAt V c t r R hR j)
  · obtain ⟨t, y, rfl⟩ := rows_cover (by rw [show cfg8.N = 20 from N_8]) h8 i
    exact ⟨t, (idx8_facts t).2.2.2.2.2.2.2.2.2.2, View.emb_mem_set _ _⟩

theorem final8_7 (c : Dev nD) : (dat8 (F := Ideal) V q c).arrAt 7 cfg8.N
    = Cert.Spec.layerBout (V c (Pipeline.arrRef spec8 0)) (V c (Pipeline.arrRef spec8 1)) (V c (Pipeline.arrRef spec8 3))
        (V c (Pipeline.arrRef spec8 4)) (V c (Pipeline.arrRef spec8 5)) (V c (Pipeline.arrRef spec8 6)) (V c (Pipeline.arrRef spec8 2)) := by
  have h7 (t : Fin cfg8.N) := blk_emb (e := ((cfg8.win 7).blk t).view.emb) (rect_emb_val (cfg8.win 7) t) (idx8_facts t).2.2.2.2.2.2.2.1
  refine (dat8 (F := Ideal) V q c).arrAt_eq_of_cover 7 _ (fun t _ => ?_) fun i => ?_
  · show (cfg8.win 7).cut (cfg8.grid.coords t) ((dat8 V q c).after 7 t) = _
    rw [after8_7]
    exact rows_tile (by have := lt_of_lt_of_eq t.isLt N_8; omega) (h7 t) (Cert.Spec.layerBout _ _ _ _ _ _ _) fun r j R hR =>
      (out8_7_apply _ _ _ _ _ _ _ r j).trans (congrArg (max · _) (covered8_resAt V c t r R hR j))
  · obtain ⟨t, y, rfl⟩ := rows_cover (by rw [show cfg8.N = 20 from N_8]) h7 i
    exact ⟨t, (idx8_facts t).2.2.2.2.2.2.2.2.2.1, View.emb_mem_set _ _⟩

end Cert.KernelIdeal.Hand
-- ==== Proof.ChainC.lean ====
import proofs.«101247_j38388417692531_1_alg».proof.Proof.Gen.KernelIdeal.Regions
import proofs.«101247_j38388417692531_1_alg».proof.Proof.Gen.ReferenceIdeal
import proofs.«101247_j38388417692531_1_alg».proof.Proof.KernelIdeal.Data
import proofs.«101247_j38388417692531_1_alg».proof.Proof.KernelIdeal.HostC
import proofs.«101247_j38388417692531_1_alg».proof.Proof.KernelIdeal.SpecProj
import proofs.«101247_j38388417692531_1_alg».proof.Proof.KernelIdeal.SpecLayerA
import proofs.«101247_j38388417692531_1_alg».proof.Proof.KernelIdeal.SpecLayerB
import proofs.«101247_j38388417692531_1_alg».proof.Proof.KernelIdeal.Val6
import proofs.«101247_j38388417692531_1_alg».proof.Proof.KernelIdeal.Val7
import proofs.«101247_j38388417692531_1_alg».proof.Proof.KernelIdeal.Val8
import proofs.«101247_j38388417692531_1_alg».proof.Proof.RefRunP
import Idealize.ShloMosaic.PureOps.Ideal.Laws

set_option maxRecDepth 16384

set_option maxHeartbeats 1000000

noncomputable section

namespace Cert.Proof.ChainC

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (outs : Outs (F := Ideal)) (hO : OutsOk m outs) (c : Dev nD)
include hO

theorem cc0 : V14 m outs c main_v102 = Cert.ReferenceIdeal.Value.stage_main_v146 (m ((c : Thread nD τ).loc main_arg3)) (m ((c : Thread nD τ).loc main_arg6)) (m ((c : Thread nD τ).loc main_arg7)) := by
  have h := final6_3 (En13 m outs) qfull c
  change _ = Cert.Spec.proj (V13 m outs c main_arg3) (V13 m outs c main_arg6) (V13 m outs c main_v101) at h
  rw [rd6_0, rd6_1, rd6_2, Cert.Spec.proj_ops] at h
  refine (Function.update_self _ _ _).trans (((hO.o_main_v102 c).trans h).trans ?_)
  unfold Cert.ReferenceIdeal.Value.stage_main_v146 Cert.ReferenceIdeal.Value.stage_main_v143 Cert.ReferenceIdeal.Value.stage_main_v145 Cert.ReferenceIdeal.Value.stage_main_v144
  rfl

theorem cc1 (h0 : V14 m outs c main_v102 = Cert.ReferenceIdeal.Value.stage_main_v146 (m ((c : Thread nD τ).loc main_arg3)) (m ((c : Thread nD τ).loc main_arg6)) (m ((c : Thread nD τ).loc main_arg7))) :
    V16 m outs c main_v123_0 = Cert.ReferenceIdeal.Value.stage_main_v175 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ∧ V16 m outs c main_v123_1 = Cert.ReferenceIdeal.Value.stage_main_v146 (m ((c : Thread nD τ).loc main_arg3)) (m ((c : Thread nD τ).loc main_arg6)) (m ((c : Thread nD τ).loc main_arg7)) := by
  constructor
  · have h := final7_7 (En15 m outs) q7 c
    change _ = Cert.Spec.layerA (V15 m outs c main_v102) (V15 m outs c main_v112) (V15 m outs c main_v114) (V15 m outs c main_v121) (V15 m outs c main_v118) (V15 m outs c main_v122) at h
    rw [rd7_0, rd7_1, rd7_3, rd7_4, rd7_5, rd7_6, h0, Cert.Spec.layerA_ops] at h
    refine ((Function.update_of_ne (StableHlo.devRef_ne_of_ne (by decide)) _ _).trans (Function.update_self _ _ _)).trans (((hO.o_main_v123_0 c).trans h).trans ?_)
    unfold Cert.ReferenceIdeal.Value.stage_main_v175 Cert.ReferenceIdeal.Value.stage_main_v174 Cert.ReferenceIdeal.Value.stage_main_call10_v0 Cert.ReferenceIdeal.Value.stage_main_call10_cst Cert.ReferenceIdeal.Value.stage_main_v169 Cert.ReferenceIdeal.Value.stage_main_v173 Cert.ReferenceIdeal.Value.stage_main_v172 Cert.ReferenceIdeal.Value.stage_main_v171 Cert.ReferenceIdeal.Value.stage_main_v170 Cert.ReferenceIdeal.Value.stage_main_v166 Cert.ReferenceIdeal.Value.stage_main_call9_v0 Cert.ReferenceIdeal.Value.stage_main_call9_cst Cert.ReferenceIdeal.Value.stage_main_v168 Cert.ReferenceIdeal.Value.stage_main_v167 Cert.ReferenceIdeal.Value.stage_main_v165 Cert.ReferenceIdeal.Value.stage_main_v160 Cert.ReferenceIdeal.Value.stage_main_v164 Cert.ReferenceIdeal.Value.stage_main_v163 Cert.ReferenceIdeal.Value.stage_main_v162 Cert.ReferenceIdeal.Value.stage_main_v161 Cert.ReferenceIdeal.Value.stage_main_v159 Cert.ReferenceIdeal.Value.stage_main_v158 Cert.ReferenceIdeal.Value.stage_main_v157 Cert.ReferenceIdeal.Value.stage_main_v156 Cert.ReferenceIdeal.Value.stage_main_v154 Cert.ReferenceIdeal.Value.stage_main_cst_13 Cert.ReferenceIdeal.Value.stage_main_v155 Cert.ReferenceIdeal.Value.stage_main_v142 Cert.ReferenceIdeal.Value.stage_main_v141 Cert.ReferenceIdeal.Value.stage_main_v153 Cert.ReferenceIdeal.Value.stage_main_v152 Cert.ReferenceIdeal.Value.stage_main_v151 Cert.ReferenceIdeal.Value.stage_main_v148 Cert.ReferenceIdeal.Value.stage_main_v150 Cert.ReferenceIdeal.Value.stage_main_v140 Cert.ReferenceIdeal.Value.stage_main_v139 Cert.ReferenceIdeal.Value.stage_main_v147 Cert.ReferenceIdeal.Value.stage_main_c_11 Cert.ReferenceIdeal.Value.stage_main_v149 Cert.ReferenceIdeal.Value.stage_main_c_12
    rfl
  · have h := final7_8 (En15 m outs) q7 c
    change _ = V15 m outs c main_v102 at h
    rw [rd7_2, h0] at h
    exact (Function.update_self _ _ _).trans (((hO.o_main_v123_1 c).trans h))

theorem cc2
    (h1 : V16 m outs c main_v123_0 = Cert.ReferenceIdeal.Value.stage_main_v175 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ V16 m outs c main_v123_1 = Cert.ReferenceIdeal.Value.stage_main_v146 (m ((c : Thread nD τ).loc main_arg3)) (m ((c : Thread nD τ).loc main_arg6)) (m ((c : Thread nD τ).loc main_arg7))) :
    V18 m outs c main_v144_0 = Cert.ReferenceIdeal.Value.stage_main_v205 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ∧ V18 m outs c main_v144_1 = Cert.ReferenceIdeal.Value.stage_main_v204 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨hx, hres⟩ := h1
  have hr := final8_8 (En17 m outs) qfull c
  change _ = Cert.Spec.layerBres (V17 m outs c main_v123_0) (V17 m outs c main_v133) (V17 m outs c main_v135) (V17 m outs c main_v142) (V17 m outs c main_v139) (V17 m outs c main_v143) (V17 m outs c main_v123_1) at hr
  rw [rd8_0, rd8_1, rd8_3, rd8_4, rd8_5, rd8_6, rd8_2, hx, hres, Cert.Spec.layerBres_ops] at hr
  have ho := final8_7 (En17 m outs) qfull c
  change _ = Cert.Spec.layerBout (V17 m outs c main_v123_0) (V17 m outs c main_v133) (V17 m outs c main_v135) (V17 m outs c main_v142) (V17 m outs c main_v139) (V17 m outs c main_v143) (V17 m outs c main_v123_1) at ho
  rw [rd8_0, rd8_1, rd8_3, rd8_4, rd8_5, rd8_6, rd8_2, hx, hres, Cert.Spec.layerBout_ops] at ho
  constructor
  · have h := ho
    refine ((Function.update_of_ne (StableHlo.devRef_ne_of_ne (by decide)) _ _).trans (Function.update_self _ _ _)).trans (((hO.o_main_v144_0 c).trans h).trans ?_)
    unfold Cert.ReferenceIdeal.Value.stage_main_v205 Cert.ReferenceIdeal.Value.stage_main_call12_v0 Cert.ReferenceIdeal.Value.stage_main_call12_cst Cert.ReferenceIdeal.Value.stage_main_v204 Cert.ReferenceIdeal.Value.stage_main_v203 Cert.ReferenceIdeal.Value.stage_main_v198 Cert.ReferenceIdeal.Value.stage_main_v202 Cert.ReferenceIdeal.Value.stage_main_v201 Cert.ReferenceIdeal.Value.stage_main_v200 Cert.ReferenceIdeal.Value.stage_main_v199 Cert.ReferenceIdeal.Value.stage_main_v195 Cert.ReferenceIdeal.Value.stage_main_call11_v0 Cert.ReferenceIdeal.Value.stage_main_call11_cst Cert.ReferenceIdeal.Value.stage_main_v197 Cert.ReferenceIdeal.Value.stage_main_v196 Cert.ReferenceIdeal.Value.stage_main_v194 Cert.ReferenceIdeal.Value.stage_main_v189 Cert.ReferenceIdeal.Value.stage_main_v193 Cert.ReferenceIdeal.Value.stage_main_v192 Cert.ReferenceIdeal.Value.stage_main_v191 Cert.ReferenceIdeal.Value.stage_main_v190 Cert.ReferenceIdeal.Value.stage_main_v188 Cert.ReferenceIdeal.Value.stage_main_v187 Cert.ReferenceIdeal.Value.stage_main_v186 Cert.ReferenceIdeal.Value.stage_main_v185 Cert.ReferenceIdeal.Value.stage_main_v183 Cert.ReferenceIdeal.Value.stage_main_cst_16 Cert.ReferenceIdeal.Value.stage_main_v184 Cert.ReferenceIdeal.Value.stage_main_v142 Cert.ReferenceIdeal.Value.stage_main_v141 Cert.ReferenceIdeal.Value.stage_main_v182 Cert.ReferenceIdeal.Value.stage_main_v181 Cert.ReferenceIdeal.Value.stage_main_v180 Cert.ReferenceIdeal.Value.stage_main_v177 Cert.ReferenceIdeal.Value.stage_main_v179 Cert.ReferenceIdeal.Value.stage_main_v140 Cert.ReferenceIdeal.Value.stage_main_v139 Cert.ReferenceIdeal.Value.stage_main_v176 Cert.ReferenceIdeal.Value.stage_main_c_14 Cert.ReferenceIdeal.Value.stage_main_v178 Cert.ReferenceIdeal.Value.stage_main_c_15
    rfl
  · have h := hr
    refine (Function.update_self _ _ _).trans (((hO.o_main_v144_1 c).trans h).trans ?_)
    unfold Cert.ReferenceIdeal.Value.stage_main_v204 Cert.ReferenceIdeal.Value.stage_main_v203 Cert.ReferenceIdeal.Value.stage_main_v198 Cert.ReferenceIdeal.Value.stage_main_v202 Cert.ReferenceIdeal.Value.stage_main_v201 Cert.ReferenceIdeal.Value.stage_main_v200 Cert.ReferenceIdeal.Value.stage_main_v199 Cert.ReferenceIdeal.Value.stage_main_v195 Cert.ReferenceIdeal.Value.stage_main_call11_v0 Cert.ReferenceIdeal.Value.stage_main_call11_cst Cert.ReferenceIdeal.Value.stage_main_v197 Cert.ReferenceIdeal.Value.stage_main_v196 Cert.ReferenceIdeal.Value.stage_main_v194 Cert.ReferenceIdeal.Value.stage_main_v189 Cert.ReferenceIdeal.Value.stage_main_v193 Cert.ReferenceIdeal.Value.stage_main_v192 Cert.ReferenceIdeal.Value.stage_main_v191 Cert.ReferenceIdeal.Value.stage_main_v190 Cert.ReferenceIdeal.Value.stage_main_v188 Cert.ReferenceIdeal.Value.stage_main_v187 Cert.ReferenceIdeal.Value.stage_main_v186 Cert.ReferenceIdeal.Value.stage_main_v185 Cert.ReferenceIdeal.Value.stage_main_v183 Cert.ReferenceIdeal.Value.stage_main_cst_16 Cert.ReferenceIdeal.Value.stage_main_v184 Cert.ReferenceIdeal.Value.stage_main_v142 Cert.ReferenceIdeal.Value.stage_main_v141 Cert.ReferenceIdeal.Value.stage_main_v182 Cert.ReferenceIdeal.Value.stage_main_v181 Cert.ReferenceIdeal.Value.stage_main_v180 Cert.ReferenceIdeal.Value.stage_main_v177 Cert.ReferenceIdeal.Value.stage_main_v179 Cert.ReferenceIdeal.Value.stage_main_v140 Cert.ReferenceIdeal.Value.stage_main_v139 Cert.ReferenceIdeal.Value.stage_main_v176 Cert.ReferenceIdeal.Value.stage_main_c_14 Cert.ReferenceIdeal.Value.stage_main_v178 Cert.ReferenceIdeal.Value.stage_main_c_15
    rfl

end Cert.Proof.ChainC

end
-- ==== Proof.KernelIdeal.Pay9.lean ====
import proofs.«101247_j38388417692531_1_alg».proof.Proof.KernelIdeal.SpecLayerA
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open scoped BigOperators

section Product
variable [Cert.KernelIdeal.Facts₀]

private theorem mm_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch from List.not_mem_nil),
    dif_pos (show (0 : Fin S5000x64.rank) ∈ dot_S5000x64_S64x64_S5000x64_1_0_0_1_n_n.lhsNonContracting from List.mem_singleton.mpr rfl)]
  rfl

private theorem mm_lhs_col (i : S5000x64.Idx) (q : dot_S5000x64_S64x64_S5000x64_1_0_0_1_n_n.contr.Idx) :
    (dot_S5000x64_S64x64_S5000x64_1_0_0_1_n_n.lhsIdx i q 1).val = (q ⟨0, Nat.one_pos⟩).val :=
  dot_S5000x64_S64x64_S5000x64_1_0_0_1_n_n.lhsIdx_val_of_single rfl i q

private theorem mm_rhs_row (i : S5000x64.Idx) (q : dot_S5000x64_S64x64_S5000x64_1_0_0_1_n_n.contr.Idx) :
    (dot_S5000x64_S64x64_S5000x64_1_0_0_1_n_n.rhsIdx i q 0).val = (q ⟨0, Nat.one_pos⟩).val :=
  dot_S5000x64_S64x64_S5000x64_1_0_0_1_n_n.rhsIdx_val_of_single rfl i q

private theorem mm_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch from List.not_mem_nil),
    dif_pos (show (1 : Fin S64x64.rank) ∈ dot_S5000x64_S64x64_S5000x64_1_0_0_1_n_n.rhsNonContracting from List.mem_singleton.mpr rfl)]
  rfl

private theorem mm_apply {φ₁ φ₂ : FTy} (a : FVec Ideal S5000x64 φ₁) (w : FVec Ideal S64x64 φ₂) (r : Fin 5000) (j : Fin 64) :
    matmul dot_S5000x64_S64x64_S5000x64_1_0_0_1_n_n none a w (constant S5000x64 .f32 0x00000000#32) (ix2 r j)
      = ∑ k : Fin 64, a (ix2 r k) * w (ix2 k j) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j)
      ((contrEquiv1 dot_S5000x64_S64x64_S5000x64_1_0_0_1_n_n 64 rfl rfl).symm k) = ix2 r k := funext fun a => Fin.ext (by
    match a with
    | ⟨0, _⟩ => exact mm_lhs_row _ _
    | ⟨1, _⟩ => exact (mm_lhs_col _ _).trans hk)
  have er : dot_S5000x64_S64x64_S5000x64_1_0_0_1_n_n.rhsIdx (ix2 r j)
      ((contrEquiv1 dot_S5000x64_S64x64_S5000x64_1_0_0_1_n_n 64 rfl rfl).symm k) = ix2 k j := funext fun a => Fin.ext (by
    match a with
    | ⟨0, _⟩ => exact (mm_rhs_row _ _).trans hk
    | ⟨1, _⟩ => exact mm_rhs_col _ _)
  rw [el, er]

end Product

theorem pay9_7 (xb aggb : Vec Ideal S5000x64 .f32) (w1 : Vec Ideal S64x64 .f32) (b1 : Vec Ideal S1x64 .f32)
    (w2 : Vec Ideal S64x64 .f32) (b2 : Vec Ideal S1x64 .f32) (r : Fin 5000) (j : Fin 64) :
    k9_pay2 (F := Ideal) xb aggb w1 b1 w2 b2 (ix2 r j) = Cert.Spec.layerRow xb aggb w1 b1 w2 b2 r j := by
  unfold k9_pay2
  simp only [shapeCast_self]
  rw [maximumf_apply, addf_apply, mm_apply, broadcastTo_1b_ab_apply, broadcast_apply]
  unfold Cert.Spec.layerRow Cert.Spec.hiddenRow
  have hz : (Scalar.ofBits (F := Ideal) .f32 0x00000000#32 : EReal) = 0 := Ideal.ofBits_zero_f32
  rw [hz]
  congr 2
  refine Finset.sum_congr rfl fun k _ => ?_
  rw [truncf_apply, truncf_apply, maximumf_apply, addf_apply, mm_apply, broadcastTo_1b_ab_apply, broadcast_apply]
  rfl

theorem pay9_8 (xres : Vec Ideal S5000x64 .f32) : k9_pay1 (F := Ideal) xres = xres := by
  unfold k9_pay1
  exact shapeCast_self _ _

end Cert.KernelIdeal.Hand
-- ==== Proof.KernelIdeal.Val9.lean ====
import proofs.«101247_j38388417692531_1_alg».proof.Proof.KernelIdeal.Pay9
import proofs.«101247_j38388417692531_1_alg».proof.Proof.KernelIdeal.Reg9
import Idealize.ShloMosaic.Lib.Pipeline.Value
import proofs.«101247_j38388417692531_1_alg».proof.Proof.KernelIdeal.Blocks

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem
open Idealize.SL Idealize.SL.RA
open Idealize.ShloMosaic.Pipeline (Dat)
open Idealize.ShloMosaic.Pipeline.Window (rect_emb_val)
open Idealize.ShloMosaic.ValueIdx

variable (V : (c : Dev nD) → (b : Ref sig .tc) → Buf (Elt Ideal) ((c : Thread nD τ).loc b))
variable (q : Fin cfg9.W → PosShare TreeShare)

/-- At point t the row tiles are at block (t, 0), the weights and biases at block (0, 0). -/
theorem idx9_facts (t : Fin grid9.N) :
    (cfg9.win 0).index t = ![t.val, 0] ∧ (cfg9.win 1).index t = ![t.val, 0] ∧ (cfg9.win 2).index t = ![t.val, 0]
    ∧ (cfg9.win 3).index t = ![0, 0] ∧ (cfg9.win 4).index t = ![0, 0] ∧ (cfg9.win 5).index t = ![0, 0]
    ∧ (cfg9.win 6).index t = ![0, 0] ∧ (cfg9.win 7).index t = ![t.val, 0] ∧ (cfg9.win 8).index t = ![t.val, 0]
    ∧ (cfg9.win 7).flush t = true ∧ (cfg9.win 8).flush t = true := by
  revert t; decide +kernel

theorem out9_7_apply (x agg : Vec Ideal S5000x64 .f32) (wa : Vec Ideal S64x64 .f32) (ba : Vec Ideal S1x64 .f32)
    (wb : Vec Ideal S64x64 .f32) (bb : Vec Ideal S1x64 .f32) (r : Fin 5000) (j : Fin 64) :
    out9_7 (F := Ideal) x agg wa ba wb bb (ix2 r j) = Cert.Spec.layerRow x agg wa ba wb bb r j := by
  unfold out9_7
  rw [View.canon_unit_zero blk_hz]
  simp only [View.ld_unit_zero (S := S5000x64) blk_hz, View.ld_unit_zero (S := S64x64) blk_hz,
    View.ld_unit_zero (S := S1x64) blk_hz]
  exact pay9_7 x agg wa ba wb bb r j

theorem out9_8_apply (xres : Vec Ideal S5000x64 .f32) : out9_8 (F := Ideal) xres = xres := by
  unfold out9_8
  rw [View.canon_unit_zero blk_hz]
  simp only [View.ld_unit_zero (S := S5000x64) blk_hz]
  exact pay9_8 xres

/-- A row of the layer reads the same row of the features only, so tile t of the layer is the layer's formula on the tiles. -/
theorem final9_7 (c : Dev nD) :
    (dat9 (F := Ideal) V q c).arrAt 7 cfg9.N
      = Cert.Spec.layerA (V c (Pipeline.arrRef spec9 0)) (V c (Pipeline.arrRef spec9 1)) (V c (Pipeline.arrRef spec9 3))
          (V c (Pipeline.arrRef spec9 4)) (V c (Pipeline.arrRef spec9 5)) (V c (Pipeline.arrRef spec9 6)) := by
  have h7 (t : Fin cfg9.N) := blk_emb (e := ((cfg9.win 7).blk t).view.emb) (rect_emb_val (cfg9.win 7) t) (idx9_facts t).2.2.2.2.2.2.2.1
  refine (dat9 (F := Ideal) V q c).arrAt_eq_of_cover 7 _ (fun t _ => ?_) fun i => ?_
  · obtain ⟨ea, eb, -, ec, ed, ee, ef, -⟩ := idx9_facts t
    show (cfg9.win 7).cut (cfg9.grid.coords t) ((dat9 (F := Ideal) V q c).after 7 t) = _
    rw [after9_7, show iblk9 V c 3 t = V c (Pipeline.arrRef spec9 3) from
        funext fun y => congrArg (V c _) (blk_whole (rect_emb_val (cfg9.win 3) t) ec y),
      show iblk9 V c 4 t = V c (Pipeline.arrRef spec9 4) from
        funext fun y => congrArg (V c _) (blk_whole (rect_emb_val (cfg9.win 4) t) ed y),
      show iblk9 V c 5 t = V c (Pipeline.arrRef spec9 5) from
        funext fun y => congrArg (V c _) (blk_whole (rect_emb_val (cfg9.win 5) t) ee y),
      show iblk9 V c 6 t = V c (Pipeline.arrRef spec9 6) from
        funext fun y => congrArg (V c _) (blk_whole (rect_emb_val (cfg9.win 6) t) ef y)]
    exact rows_tile (by have := lt_of_lt_of_eq t.isLt N_9; omega) (h7 t) (Cert.Spec.layerA _ _ _ _ _ _) fun r j R hR =>
      (out9_7_apply _ _ _ _ _ _ r j).trans (Cert.Spec.layerRow_congr _ _ _ _ _ _ _ _ r R
        (fun l => congrArg (V c _) (blk_emb (rect_emb_val (cfg9.win 0) t) ea r l R hR))
        (fun l => congrArg (V c _) (blk_emb (rect_emb_val (cfg9.win 1) t) eb r l R hR)) j)
  · obtain ⟨t, y, rfl⟩ := rows_cover (by rw [show cfg9.N = 20 from N_9]) h7 i
    exact ⟨t, (idx9_facts t).2.2.2.2.2.2.2.2.2.1, View.emb_mem_set _ _⟩

/-- The second result is the residual array, tile by tile. -/
theorem final9_8 (c : Dev nD) :
    (dat9 (F := Ideal) V q c).arrAt 8 cfg9.N = V c (Pipeline.arrRef spec9 2) := by
  have h8 (t : Fin cfg9.N) := blk_emb (e := ((cfg9.win 8).blk t).view.emb) (rect_emb_val (cfg9.win 8) t) (idx9_facts t).2.2.2.2.2.2.2.2.1
  refine (dat9 (F := Ideal) V q c).arrAt_eq_of_cover 8 _ (fun t _ => ?_) fun i => ?_
  · show (cfg9.win 8).cut (cfg9.grid.coords t) ((dat9 (F := Ideal) V q c).after 8 t) = _
    rw [after9_8, out9_8_apply]
    exact rows_tile (by have := lt_of_lt_of_eq t.isLt N_9; omega) (h8 t) (V c (Pipeline.arrRef spec9 2)) fun r j R hR =>
      congrArg (V c _) (blk_emb (rect_emb_val (cfg9.win 2) t) (idx9_facts t).2.2.1 r j R hR)
  · obtain ⟨t, y, rfl⟩ := rows_cover (by rw [show cfg9.N = 20 from N_9]) h8 i
    exact ⟨t, (idx9_facts t).2.2.2.2.2.2.2.2.2.2, View.emb_mem_set _ _⟩

end Cert.KernelIdeal.Hand
-- ==== Proof.KernelIdeal.Pay10.lean ====
import proofs.«101247_j38388417692531_1_alg».proof.Proof.KernelIdeal.SpecLayerB
import proofs.«101247_j38388417692531_1_alg».proof.Proof.Gen.KernelIdeal.Skeleton

noncomputable section

namespace Cert.KernelIdeal.Hand

open Cert.KernelIdeal Cert.KernelIdeal.Gen
open Idealize.ShloMosaic Idealize.ShloMosaic.ValueIdx
open Cert.Spec.LayerB
open scoped BigOperators

theorem pay10_8 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k10_pay1 (F := Ideal) xb aggb w1 b1 w2 b2 xresb (ix2 r j) = Cert.Spec.layerBresAt xb aggb w1 b1 w2 b2 xresb r j := by
  unfold k10_pay1
  simp only [shapeCast_self]
  unfold Cert.Spec.layerBresAt
  simp only [addf_apply, matmul]
  rw [matmul_plain_apply dot_S5000x64_S64x64_S5000x64_1_0_0_1_n_n rfl rfl rfl rfl rfl rfl, broadcastTo_1b_ab_apply]
  congr 2
  refine Finset.sum_congr rfl fun k _ => ?_
  simp only [truncf_apply, maximumf_apply, addf_apply, broadcast_apply]
  rw [matmul_plain_apply dot_S5000x64_S64x64_S5000x64_1_0_0_1_n_n rfl rfl rfl rfl rfl rfl, broadcastTo_1b_ab_apply]
  simp only [truncf_apply, addf_apply]

theorem pay10_7 (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    k10_pay2 (F := Ideal) xb aggb w1 b1 w2 b2 xresb (ix2 r j)
      = max (Cert.Spec.layerBresAt xb aggb w1 b1 w2 b2 xresb r j) Cert.Spec.layerBzero := by
  unfold k10_pay2
  simp only [maximumf_apply, broadcast_apply]
  rw [pay10_8]

end Cert.KernelIdeal.Hand
-- ==== Proof.KernelIdeal.Val10.lean ====
import proofs.«101247_j38388417692531_1_alg».proof.Proof.KernelIdeal.Pay10
import proofs.«101247_j38388417692531_1_alg».proof.Proof.KernelIdeal.Reg10
import Idealize.ShloMosaic.Lib.Pipeline.Value
import proofs.«101247_j38388417692531_1_alg».proof.Proof.KernelIdeal.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

variable (V : (c : Dev nD) → (b : Ref sig .tc) → Buf (Elt Ideal) ((c : Thread nD τ).loc b))
variable (q : Fin cfg10.W → PosShare TreeShare)

/-- At point t the row tiles are at block (t, 0), the weights and biases at block (0, 0). -/
theorem idx10_facts (t : Fin grid10.N) :
    (cfg10.win 0).index t = ![t.val, 0] ∧ (cfg10.win 1).index t = ![t.val, 0] ∧ (cfg10.win 2).index t = ![t.val, 0]
    ∧ (cfg10.win 3).index t = ![0, 0] ∧ (cfg10.win 4).index t = ![0, 0] ∧ (cfg10.win 5).index t = ![0, 0]
    ∧ (cfg10.win 6).index t = ![0, 0] ∧ (cfg10.win 7).index t = ![t.val, 0] ∧ (cfg10.win 8).index t = ![t.val, 0]
    ∧ (cfg10.win 7).flush t = true ∧ (cfg10.win 8).flush t = true := by
  revert t; decide +kernel

theorem out10_8_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out10_8 (F := Ideal) xb aggb w1 b1 w2 b2 xresb (ix2 r j) = Cert.Spec.layerBresAt xb aggb w1 b1 w2 b2 xresb r j := by
  unfold out10_8
  rw [View.canon_unit_zero blk_hz]
  simp only [View.ld_unit_zero (S := S5000x64) blk_hz, View.ld_unit_zero (S := S64x64) blk_hz, View.ld_unit_zero (S := S1x64) blk_hz]
  exact pay10_8 xb aggb w1 b1 w2 b2 xresb r j

theorem out10_7_apply (xb aggb : Vec Ideal S5000x64 .f32) (w1 : Vec Ideal S64x64 .f32) (b1 : Vec Ideal S1x64 .f32)
    (w2 : Vec Ideal S64x64 .f32) (b2 : Vec Ideal S1x64 .f32) (xresb : Vec Ideal S5000x64 .f32) (r : Fin 5000) (j : Fin 64) :
    out10_7 (F := Ideal) xb aggb w1 b1 w2 b2 xresb (ix2 r j)
      = max (Cert.Spec.layerBresAt xb aggb w1 b1 w2 b2 xresb r j) Cert.Spec.layerBzero := by
  unfold out10_7
  rw [View.canon_unit_zero blk_hz]
  simp only [View.ld_unit_zero (S := S5000x64) blk_hz, View.ld_unit_zero (S := S64x64) blk_hz, View.ld_unit_zero (S := S1x64) blk_hz]
  exact pay10_7 xb aggb w1 b1 w2 b2 xresb r j

theorem iblk10_3 (c : Dev nD) (t : Fin cfg10.N) : iblk10 V c 3 t = V c (Pipeline.arrRef spec10 3) :=
  funext fun y => congrArg (V c _) (blk_whole (rect_emb_val (cfg10.win 3) t) (idx10_facts t).2.2.2.1 y)

theorem iblk10_4 (c : Dev nD) (t : Fin cfg10.N) : iblk10 V c 4 t = V c (Pipeline.arrRef spec10 4) :=
  funext fun y => congrArg (V c _) (blk_whole (rect_emb_val (cfg10.win 4) t) (idx10_facts t).2.2.2.2.1 y)

theorem iblk10_5 (c : Dev nD) (t : Fin cfg10.N) : iblk10 V c 5 t = V c (Pipeline.arrRef spec10 5) :=
  funext fun y => congrArg (V c _) (blk_whole (rect_emb_val (cfg10.win 5) t) (idx10_facts t).2.2.2.2.2.1 y)

theorem iblk10_6 (c : Dev nD) (t : Fin cfg10.N) : iblk10 V c 6 t = V c (Pipeline.arrRef spec10 6) :=
  funext fun y => congrArg (V c _) (blk_whole (rect_emb_val (cfg10.win 6) t) (idx10_facts t).2.2.2.2.2.2.1 y)

theorem iblk10_0 (c : Dev nD) (t : Fin cfg10.N) (r : Fin 5000) (R : Fin 100000) (hR : R.val = t.val * 5000 + r.val) (l : Fin 64) :
    iblk10 V c 0 t (ix2 r l) = V c (Pipeline.arrRef spec10 0) (ix2 R l) :=
  congrArg (V c _) (blk_emb (rect_emb_val (cfg10.win 0) t) (idx10_facts t).1 r l R hR)

theorem iblk10_1 (c : Dev nD) (t : Fin cfg10.N) (r : Fin 5000) (R : Fin 100000) (hR : R.val = t.val * 5000 + r.val) (l : Fin 64) :
    iblk10 V c 1 t (ix2 r l) = V c (Pipeline.arrRef spec10 1) (ix2 R l) :=
  congrArg (V c _) (blk_emb (rect_emb_val (cfg10.win 1) t) (idx10_facts t).2.1 r l R hR)

theorem iblk10_2 (c : Dev nD) (t : Fin cfg10.N) (r : Fin 5000) (R : Fin 100000) (hR : R.val = t.val * 5000 + r.val) (l : Fin 64) :
    iblk10 V c 2 t (ix2 r l) = V c (Pipeline.arrRef spec10 2) (ix2 R l) :=
  congrArg (V c _) (blk_emb (rect_emb_val (cfg10.win 2) t) (idx10_facts t).2.2.1 r l R hR)

/-- A row of the layer reads the same row of the row-tiled arrays only: the formula on the tiles at row r is the formula on the arrays at row 5000 t + r. -/
theorem covered10_resAt (c : Dev nD) (t : Fin cfg10.N) (r : Fin 5000) (R : Fin 100000) (hR : R.val = t.val * 5000 + r.val) (j : Fin 64) :
    Cert.Spec.layerBresAt (n := 5000) (iblk10 V c 0 t) (iblk10 V c 1 t) (iblk10 V c 3 t) (iblk10 V c 4 t) (iblk10 V c 5 t) (iblk10 V c 6 t) (iblk10 V c 2 t) r j
      = Cert.Spec.layerBresAt (n := 100000) (V c (Pipeline.arrRef spec10 0)) (V c (Pipeline.arrRef spec10 1)) (V c (Pipeline.arrRef spec10 3))
        (V c (Pipeline.arrRef spec10 4)) (V c (Pipeline.arrRef spec10 5)) (V c (Pipeline.arrRef spec10 6)) (V c (Pipeline.arrRef spec10 2)) R j := by
  rw [iblk10_3, iblk10_4, iblk10_5, iblk10_6]
  unfold Cert.Spec.layerBresAt
  simp only [iblk10_0 V c t r R hR, iblk10_1 V c t r R hR, iblk10_2 V c t r R hR]

theorem final10_8 (c : Dev nD) : (dat10 (F := Ideal) V q c).arrAt 8 cfg10.N
    = Cert.Spec.layerBres (V c (Pipeline.arrRef spec10 0)) (V c (Pipeline.arrRef spec10 1)) (V c (Pipeline.arrRef spec10 3))
        (V c (Pipeline.arrRef spec10 4)) (V c (Pipeline.arrRef spec10 5)) (V c (Pipeline.arrRef spec10 6)) (V c (Pipeline.arrRef spec10 2)) := by
  have h8 (t : Fin cfg10.N) := blk_emb (e := ((cfg10.win 8).blk t).view.emb) (rect_emb_val (cfg10.win 8) t) (idx10_facts t).2.2.2.2.2.2.2.2.1
  refine (dat10 (F := Ideal) V q c).arrAt_eq_of_cover 8 _ (fun t _ => ?_) fun i => ?_
  · show (cfg10.win 8).cut (cfg10.grid.coords t) ((dat10 V q c).after 8 t) = _
    rw [after10_8]
    exact rows_tile (by have := lt_of_lt_of_eq t.isLt N_10; omega) (h8 t) (Cert.Spec.layerBres _ _ _ _ _ _ _) fun r j R hR =>
      (out10_8_apply _ _ _ _ _ _ _ r j).trans (covered10_resAt V c t r R hR j)
  · obtain ⟨t, y, rfl⟩ := rows_cover (by rw [show cfg10.N = 20 from N_10]) h8 i
    exact ⟨t, (idx10_facts t).2.2.2.2.2.2.2.2.2.2, View.emb_mem_set _ _⟩

theorem final10_7 (c : Dev nD) : (dat10 (F := Ideal) V q c).arrAt 7 cfg10.N
    = Cert.Spec.layerBout (V c (Pipeline.arrRef spec10 0)) (V c (Pipeline.arrRef spec10 1)) (V c (Pipeline.arrRef spec10 3))
        (V c (Pipeline.arrRef spec10 4)) (V c (Pipeline.arrRef spec10 5)) (V c (Pipeline.arrRef spec10 6)) (V c (Pipeline.arrRef spec10 2)) := by
  have h7 (t : Fin cfg10.N) := blk_emb (e := ((cfg10.win 7).blk t).view.emb) (rect_emb_val (cfg10.win 7) t) (idx10_facts t).2.2.2.2.2.2.2.1
  refine (dat10 (F := Ideal) V q c).arrAt_eq_of_cover 7 _ (fun t _ => ?_) fun i => ?_
  · show (cfg10.win 7).cut (cfg10.grid.coords t) ((dat10 V q c).after 7 t) = _
    rw [after10_7]
    exact rows_tile (by have := lt_of_lt_of_eq t.isLt N_10; omega) (h7 t) (Cert.Spec.layerBout _ _ _ _ _ _ _) fun r j R hR =>
      (out10_7_apply _ _ _ _ _ _ _ r j).trans (congrArg (max · _) (covered10_resAt V c t r R hR j))
  · obtain ⟨t, y, rfl⟩ := rows_cover (by rw [show cfg10.N = 20 from N_10]) h7 i
    exact ⟨t, (idx10_facts t).2.2.2.2.2.2.2.2.2.1, View.emb_mem_set _ _⟩

end Cert.KernelIdeal.Hand
-- ==== Proof.KernelIdeal.Pay11.lean ====
import proofs.«101247_j38388417692531_1_alg».proof.Proof.KernelIdeal.SpecPost
import proofs.«101247_j38388417692531_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

theorem pay11_mmA_lhs0 (i : S128x64.Idx) (q : dot_S128x320_S320x64_S128x64_1_0_0_1_n_n.contr.Idx) :
    (dot_S128x320_S320x64_S128x64_1_0_0_1_n_n.lhsIdx i q 0).val = (i 0).val := by
  unfold DotDims.lhsIdx
  rw [dif_neg (show ¬(0 : Fin S128x320.rank) ∈ dot_S128x320_S320x64_S128x64_1_0_0_1_n_n.lhsBatch from List.not_mem_nil),
    dif_pos (show (0 : Fin S128x320.rank) ∈ dot_S128x320_S320x64_S128x64_1_0_0_1_n_n.lhsNonContracting from List.mem_singleton.2 rfl)]
  rfl
theorem pay11_mmA_lhs1 (i : S128x64.Idx) (q : dot_S128x320_S320x64_S128x64_1_0_0_1_n_n.contr.Idx) :
    (dot_S128x320_S320x64_S128x64_1_0_0_1_n_n.lhsIdx i q 1).val = (q ⟨0, Nat.one_pos⟩).val :=
  dot_S128x320_S320x64_S128x64_1_0_0_1_n_n.lhsIdx_val_of_single rfl i q
theorem pay11_mmA_rhs0 (i : S128x64.Idx) (q : dot_S128x320_S320x64_S128x64_1_0_0_1_n_n.contr.Idx) :
    (dot_S128x320_S320x64_S128x64_1_0_0_1_n_n.rhsIdx i q 0).val = (q ⟨0, Nat.one_pos⟩).val :=
  dot_S128x320_S320x64_S128x64_1_0_0_1_n_n.rhsIdx_val_of_single rfl i q
theorem pay11_mmA_rhs1 (i : S128x64.Idx) (q : dot_S128x320_S320x64_S128x64_1_0_0_1_n_n.contr.Idx) :
    (dot_S128x320_S320x64_S128x64_1_0_0_1_n_n.rhsIdx i q 1).val = (i 1).val := by
  unfold DotDims.rhsIdx
  rw [dif_neg (show ¬(1 : Fin S320x64.rank) ∈ dot_S128x320_S320x64_S128x64_1_0_0_1_n_n.rhsBatch from List.not_mem_nil),
    dif_pos (show (1 : Fin S320x64.rank) ∈ dot_S128x320_S320x64_S128x64_1_0_0_1_n_n.rhsNonContracting from List.mem_singleton.2 rfl)]
  rfl

theorem pay11_mmA_apply {φ₁ φ₂ : FTy} (a : FVec Ideal S128x320 φ₁) (b : FVec Ideal S320x64 φ₂) (r : Fin 128) (c : Fin 64) :
    matmul dot_S128x320_S320x64_S128x64_1_0_0_1_n_n none a b (constant S128x64 .f32 0x00000000#32) (ix2 r c)
      = ∑ l : Fin 320, a (ix2 r l) * b (ix2 l c) := by
  simp only [matmul]
  rw [Ideal.matmul_constant_zero_apply,
    ← Equiv.sum_comp (ValueIdx.contrEquiv1 dot_S128x320_S320x64_S128x64_1_0_0_1_n_n 320 rfl rfl).symm]
  refine Finset.sum_congr rfl fun k _ => ?_
  have hk := ValueIdx.contrEquiv1_symm_val dot_S128x320_S320x64_S128x64_1_0_0_1_n_n 320 rfl rfl k
  have el : dot_S128x320_S320x64_S128x64_1_0_0_1_n_n.lhsIdx (ix2 r c)
      ((ValueIdx.contrEquiv1 dot_S128x320_S320x64_S128x64_1_0_0_1_n_n 320 rfl rfl).symm k) = ix2 r k :=
    funext fun a => Fin.ext (by
      match a with
      | ⟨0, _⟩ => exact pay11_mmA_lhs0 _ _
      | ⟨1, _⟩ => exact (pay11_mmA_lhs1 _ _).trans hk)
  have er : dot_S128x320_S320x64_S128x64_1_0_0_1_n_n.rhsIdx (ix2 r c)
      ((ValueIdx.contrEquiv1 dot_S128x320_S320x64_S128x64_1_0_0_1_n_n 320 rfl rfl).symm k) = ix2 k c :=
    funext fun a => Fin.ext (by
      match a with
      | ⟨0, _⟩ => exact (pay11_mmA_rhs0 _ _).trans hk
      | ⟨1, _⟩ => exact pay11_mmA_rhs1 _ _)
  rw [el, er]

theorem pay11_mmB_lhs0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch from List.not_mem_nil),
    dif_pos (show (0 : Fin S128x64.rank) ∈ dot_S128x64_S64x32_S128x32_1_0_0_1_n_n.lhsNonContracting from List.mem_singleton.2 rfl)]
  rfl
theorem pay11_mmB_lhs1 (i : S128x32.Idx) (q : dot_S128x64_S64x32_S128x32_1_0_0_1_n_n.contr.Idx) :
    (dot_S128x64_S64x32_S128x32_1_0_0_1_n_n.lhsIdx i q 1).val = (q ⟨0, Nat.one_pos⟩).val :=
  dot_S128x64_S64x32_S128x32_1_0_0_1_n_n.lhsIdx_val_of_single rfl i q
theorem pay11_mmB_rhs0 (i : S128x32.Idx) (q : dot_S128x64_S64x32_S128x32_1_0_0_1_n_n.contr.Idx) :
    (dot_S128x64_S64x32_S128x32_1_0_0_1_n_n.rhsIdx i q 0).val = (q ⟨0, Nat.one_pos⟩).val :=
  dot_S128x64_S64x32_S128x32_1_0_0_1_n_n.rhsIdx_val_of_single rfl i q
theorem pay11_mmB_rhs1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch from List.not_mem_nil),
    dif_pos (show (1 : Fin S64x32.rank) ∈ dot_S128x64_S64x32_S128x32_1_0_0_1_n_n.rhsNonContracting from List.mem_singleton.2 rfl)]
  rfl

theorem pay11_mmB_apply {φ₁ φ₂ : FTy} (a : FVec Ideal S128x64 φ₁) (b : FVec Ideal S64x32 φ₂) (r : Fin 128) (c : Fin 32) :
    matmul dot_S128x64_S64x32_S128x32_1_0_0_1_n_n none a b (constant S128x32 .f32 0x00000000#32) (ix2 r c)
      = ∑ k : Fin 64, a (ix2 r k) * b (ix2 k c) := by
  simp only [matmul]
  rw [Ideal.matmul_constant_zero_apply,
    ← Equiv.sum_comp (ValueIdx.contrEquiv1 dot_S128x64_S64x32_S128x32_1_0_0_1_n_n 64 rfl rfl).symm]
  refine Finset.sum_congr rfl fun k _ => ?_
  have hk := ValueIdx.contrEquiv1_symm_val dot_S128x64_S64x32_S128x32_1_0_0_1_n_n 64 rfl rfl k
  have el : dot_S128x64_S64x32_S128x32_1_0_0_1_n_n.lhsIdx (ix2 r c)
      ((ValueIdx.contrEquiv1 dot_S128x64_S64x32_S128x32_1_0_0_1_n_n 64 rfl rfl).symm k) = ix2 r k :=
    funext fun a => Fin.ext (by
      match a with
      | ⟨0, _⟩ => exact pay11_mmB_lhs0 _ _
      | ⟨1, _⟩ => exact (pay11_mmB_lhs1 _ _).trans hk)
  have er : dot_S128x64_S64x32_S128x32_1_0_0_1_n_n.rhsIdx (ix2 r c)
      ((ValueIdx.contrEquiv1 dot_S128x64_S64x32_S128x32_1_0_0_1_n_n 64 rfl rfl).symm k) = ix2 k c :=
    funext fun a => Fin.ext (by
      match a with
      | ⟨0, _⟩ => exact (pay11_mmB_rhs0 _ _).trans hk
      | ⟨1, _⟩ => exact pay11_mmB_rhs1 _ _)
  rw [el, er]

theorem pay11_rowA_apply {α : Type} (x : S1x64.Idx → α) (h : S1x64.Broadcasts S128x64) (r : Fin 128) (c : Fin 64) :
    broadcastTo S128x64 x h (ix2 r c) = x (ix2 (0 : Fin 1) c) :=
  broadcastTo_apply x h (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])

theorem pay11_rowB_apply {α : Type} (x : S1x32.Idx → α) (h : S1x32.Broadcasts S128x32) (r : Fin 128) (c : Fin 32) :
    broadcastTo S128x32 x h (ix2 r c) = x (ix2 (0 : Fin 1) c) :=
  broadcastTo_apply x h (ix2 r c) (ix2 (0 : Fin 1) c) (fun a => match a with
    | ⟨0, _⟩ => by show 0 = if (1 : Nat) = 1 then 0 else r.val; rw [if_pos rfl]
    | ⟨1, _⟩ => by show c.val = if (32 : Nat) = 1 then 0 else c.val; rw [if_neg (by decide)])

theorem pay11_zero : (Scalar.ofBits (F := Ideal) .f32 0x00000000#32 : Ideal .f32) = 0 := Ideal.ofBits_zero_f32

theorem pay11_5 (g : Vec Ideal S128x320 .f32) (w1 : Vec Ideal S320x64 .f32) (b1 : Vec Ideal S1x64 .f32)
    (w2 : Vec Ideal S64x32 .f32) (b2 : Vec Ideal S1x32 .f32) (r : Fin 128) (j : Fin 32) :
    k11_pay1 (F := Ideal) g w1 b1 w2 b2 (ix2 r j)
      = (∑ k : Fin 64, max ((∑ l : Fin 320, g (ix2 r l) * w1 (ix2 l k)) + b1 (ix2 (0 : Fin 1) k)) 0 * w2 (ix2 k j))
        + b2 (ix2 (0 : Fin 1) j) := by
  unfold k11_pay1
  simp only [shapeCast_self]
  rw [addf_apply, pay11_mmB_apply, pay11_rowB_apply]
  refine congrArg (· + b2 (ix2 (0 : Fin 1) j)) (Finset.sum_congr rfl fun k _ => ?_)
  rw [truncf_apply, truncf_apply, maximumf_apply, addf_apply, pay11_mmA_apply, pay11_rowA_apply, broadcast_apply, pay11_zero]
  rfl

theorem pay11_5_post (g : Vec Ideal S128x320 .f32) (w1 : Vec Ideal S320x64 .f32) (b1 : Vec Ideal S1x64 .f32)
    (w2 : Vec Ideal S64x32 .f32) (b2 : Vec Ideal S1x32 .f32) :
    k11_pay1 (F := Ideal) g w1 b1 w2 b2 = Cert.Spec.post g w1 b1 w2 b2 := by
  funext i
  obtain ⟨r, j, rfl⟩ : ∃ (r : Fin 128) (j : Fin 32), i = ix2 r j := ⟨i 0, i 1, eq_ix2 i⟩
  rw [pay11_5, Cert.Spec.post_apply]

end Cert.KernelIdeal.Hand

end
-- ==== Proof.KernelIdeal.Val11.lean ====
import proofs.«101247_j38388417692531_1_alg».proof.Proof.KernelIdeal.Pay11
import proofs.«101247_j38388417692531_1_alg».proof.Proof.KernelIdeal.Reg11
import Idealize.ShloMosaic.Lib.Pipeline.Value
import proofs.«101247_j38388417692531_1_alg».proof.Proof.KernelIdeal.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open Idealize.ShloMosaic.Pipeline.Window (rect_emb_val)

/-- At the one point every block is at block index (0, 0). -/
theorem idx11_facts (t : Fin grid11.N) :
    (cfg11.win 0).index t = ![0, 0] ∧ (cfg11.win 1).index t = ![0, 0] ∧ (cfg11.win 2).index t = ![0, 0]
    ∧ (cfg11.win 3).index t = ![0, 0] ∧ (cfg11.win 4).index t = ![0, 0] ∧ (cfg11.win 5).index t = ![0, 0]
    ∧ (cfg11.win 5).flush t = true := by
  revert t; decide +kernel

theorem out11_5_post (g : Vec Ideal S128x320 .f32) (w1 : Vec Ideal S320x64 .f32) (b1 : Vec Ideal S1x64 .f32)
    (w2 : Vec Ideal S64x32 .f32) (b2 : Vec Ideal S1x32 .f32) :
    out11_5 (F := Ideal) g w1 b1 w2 b2 = Cert.Spec.post g w1 b1 w2 b2 := by
  unfold out11_5
  rw [View.canon_unit_zero blk_hz]
  simp only [View.ld_unit_zero (S := S128x320) blk_hz, View.ld_unit_zero (S := S320x64) blk_hz,
    View.ld_unit_zero (S := S1x64) blk_hz, View.ld_unit_zero (S := S64x32) blk_hz,
    View.ld_unit_zero (S := S1x32) blk_hz]
  exact pay11_5_post g w1 b1 w2 b2

variable (V : (c : Dev nD) → (b : Ref sig .tc) → Buf (Elt Ideal) ((c : Thread nD τ).loc b))
variable (q : Fin cfg11.W → PosShare TreeShare)

theorem iblk11_0 (c : Dev nD) (t : Fin cfg11.N) : iblk11 V c 0 t = V c (Pipeline.arrRef spec11 0) :=
  funext fun y => congrArg (V c _) (blk_whole (rect_emb_val (cfg11.win 0) t) (idx11_facts t).1 y)

theorem iblk11_1 (c : Dev nD) (t : Fin cfg11.N) : iblk11 V c 1 t = V c (Pipeline.arrRef spec11 1) :=
  funext fun y => congrArg (V c _) (blk_whole (rect_emb_val (cfg11.win 1) t) (idx11_facts t).2.1 y)

theorem iblk11_2 (c : Dev nD) (t : Fin cfg11.N) : iblk11 V c 2 t = V c (Pipeline.arrRef spec11 2) :=
  funext fun y => congrArg (V c _) (blk_whole (rect_emb_val (cfg11.win 2) t) (idx11_facts t).2.2.1 y)

theorem iblk11_3 (c : Dev nD) (t : Fin cfg11.N) : iblk11 V c 3 t = V c (Pipeline.arrRef spec11 3) :=
  funext fun y => congrArg (V c _) (blk_whole (rect_emb_val (cfg11.win 3) t) (idx11_facts t).2.2.2.1 y)

theorem iblk11_4 (c : Dev nD) (t : Fin cfg11.N) : iblk11 V c 4 t = V c (Pipeline.arrRef spec11 4) :=
  funext fun y => congrArg (V c _) (blk_whole (rect_emb_val (cfg11.win 4) t) (idx11_facts t).2.2.2.2.1 y)

theorem idx11_emb_5 (t : Fin cfg11.N) (y : S128x32.Idx) : ((cfg11.win 5).blk t).view.emb y = y :=
  blk_whole (rect_emb_val (cfg11.win 5) t) (idx11_facts t).2.2.2.2.2.1 y

/-- The one point's blocks are the whole arrays, so what it leaves is the perceptron of the arrays. -/
theorem flushed11_eq (c : Dev nD) (t : Fin cfg11.N) :
    (dat11 (F := Ideal) V q c).flushed 5 t
      = ((cfg11.win 5).blk t).view.read (Elt Ideal)
          (Cert.Spec.post (V c (Pipeline.arrRef spec11 0)) (V c (Pipeline.arrRef spec11 1)) (V c (Pipeline.arrRef spec11 2))
            (V c (Pipeline.arrRef spec11 3)) (V c (Pipeline.arrRef spec11 4))) := by
  show (cfg11.win 5).cut (cfg11.grid.coords t) ((dat11 V q c).after 5 t) = _
  rw [after11_5, iblk11_0, iblk11_1, iblk11_2, iblk11_3, iblk11_4, out11_5_post]
  funext y
  show _ = Cert.Spec.post _ _ _ _ _ (((cfg11.win 5).blk t).view.emb y)
  rw [idx11_emb_5]

theorem cover11_arr (i : S128x32.Idx) :
    ∃ t : Fin cfg11.N, (cfg11.win 5).flush t = true ∧ i ∈ ((cfg11.win 5).blk t).view.set := by
  have hN : 0 < cfg11.N := by show 0 < grid11.N; rw [N_11]; exact Nat.one_pos
  refine ⟨⟨0, hN⟩, (idx11_facts _).2.2.2.2.2.2, ?_⟩
  have h := ((cfg11.win 5).blk ⟨0, hN⟩).view.emb_mem_set i
  rwa [idx11_emb_5] at h

theorem final11_5 (c : Dev nD) :
    (dat11 (F := Ideal) V q c).arrAt 5 cfg11.N
      = Cert.Spec.post (V c (Pipeline.arrRef spec11 0)) (V c (Pipeline.arrRef spec11 1)) (V c (Pipeline.arrRef spec11 2))
          (V c (Pipeline.arrRef spec11 3)) (V c (Pipeline.arrRef spec11 4)) :=
  (dat11 (F := Ideal) V q c).arrAt_eq_of_cover 5 _ (fun t _ => flushed11_eq V q c t) cover11_arr

end Cert.KernelIdeal.Hand

end
-- ==== Proof.ChainCa.lean ====
import proofs.«101247_j38388417692531_1_alg».proof.Proof.Gen.KernelIdeal.Regions
import proofs.«101247_j38388417692531_1_alg».proof.Proof.Gen.ReferenceIdeal
import proofs.«101247_j38388417692531_1_alg».proof.Proof.KernelIdeal.Data
import proofs.«101247_j38388417692531_1_alg».proof.Proof.KernelIdeal.HostC
import proofs.«101247_j38388417692531_1_alg».proof.Proof.KernelIdeal.SpecLayerA
import proofs.«101247_j38388417692531_1_alg».proof.Proof.KernelIdeal.SpecLayerB
import proofs.«101247_j38388417692531_1_alg».proof.Proof.KernelIdeal.SpecPost
import proofs.«101247_j38388417692531_1_alg».proof.Proof.KernelIdeal.Val9
import proofs.«101247_j38388417692531_1_alg».proof.Proof.KernelIdeal.Val10
import proofs.«101247_j38388417692531_1_alg».proof.Proof.KernelIdeal.Val11
import proofs.«101247_j38388417692531_1_alg».proof.Proof.RefRunP

set_option maxRecDepth 16384

set_option maxHeartbeats 1000000

noncomputable section

namespace Cert.Proof.ChainCa

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (outs : Outs (F := Ideal)) (hO : OutsOk m outs) (c : Dev nD)
include hO

theorem cc3
    (h2 : V18 m outs c main_v144_0 = Cert.ReferenceIdeal.Value.stage_main_v205 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ V18 m outs c main_v144_1 = Cert.ReferenceIdeal.Value.stage_main_v204 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    V20 m outs c main_v165_0 = Cert.ReferenceIdeal.Value.stage_main_v234 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ∧ V20 m outs c main_v165_1 = Cert.ReferenceIdeal.Value.stage_main_v204 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨hx, hres⟩ := h2
  constructor
  · have h := final9_7 (En19 m outs) qfull c
    change _ = Cert.Spec.layerA (V19 m outs c main_v144_0) (V19 m outs c main_v154) (V19 m outs c main_v156)
      (V19 m outs c main_v163) (V19 m outs c main_v160) (V19 m outs c main_v164) at h
    rw [rd9_0, rd9_1, rd9_3, rd9_4, rd9_5, rd9_6, hx, Cert.Spec.layerA_ops] at h
    refine (Function.update_of_ne (StableHlo.devRef_ne_of_ne (by decide)) _ _).trans
      ((Function.update_self _ _ _).trans (((hO.o_main_v165_0 c).trans h).trans ?_))
    unfold Cert.ReferenceIdeal.Value.stage_main_v234 Cert.ReferenceIdeal.Value.stage_main_v233 Cert.ReferenceIdeal.Value.stage_main_v228 Cert.ReferenceIdeal.Value.stage_main_v232 Cert.ReferenceIdeal.Value.stage_main_v231 Cert.ReferenceIdeal.Value.stage_main_v230 Cert.ReferenceIdeal.Value.stage_main_v229 Cert.ReferenceIdeal.Value.stage_main_v227 Cert.ReferenceIdeal.Value.stage_main_v226 Cert.ReferenceIdeal.Value.stage_main_v225 Cert.ReferenceIdeal.Value.stage_main_v224 Cert.ReferenceIdeal.Value.stage_main_v219 Cert.ReferenceIdeal.Value.stage_main_v223 Cert.ReferenceIdeal.Value.stage_main_v222 Cert.ReferenceIdeal.Value.stage_main_v221 Cert.ReferenceIdeal.Value.stage_main_v220 Cert.ReferenceIdeal.Value.stage_main_v218 Cert.ReferenceIdeal.Value.stage_main_v217 Cert.ReferenceIdeal.Value.stage_main_v216 Cert.ReferenceIdeal.Value.stage_main_v215 Cert.ReferenceIdeal.Value.stage_main_v213 Cert.ReferenceIdeal.Value.stage_main_v214 Cert.ReferenceIdeal.Value.stage_main_v212 Cert.ReferenceIdeal.Value.stage_main_v211 Cert.ReferenceIdeal.Value.stage_main_v210 Cert.ReferenceIdeal.Value.stage_main_v209 Cert.ReferenceIdeal.Value.stage_main_v208 Cert.ReferenceIdeal.Value.stage_main_v207 Cert.ReferenceIdeal.Value.stage_main_v206 Cert.ReferenceIdeal.Value.stage_main_c_17 Cert.ReferenceIdeal.Value.stage_main_c_18 Cert.ReferenceIdeal.Value.stage_main_cst_19 Cert.ReferenceIdeal.Value.stage_main_call13_v0 Cert.ReferenceIdeal.Value.stage_main_call13_cst Cert.ReferenceIdeal.Value.stage_main_call14_v0 Cert.ReferenceIdeal.Value.stage_main_call14_cst Cert.ReferenceIdeal.Value.stage_main_v140 Cert.ReferenceIdeal.Value.stage_main_v139 Cert.ReferenceIdeal.Value.stage_main_v142 Cert.ReferenceIdeal.Value.stage_main_v141
    unfold srcIdx dstIdx edgeSrc edgeDst
    rfl
  · have h := final9_8 (En19 m outs) qfull c
    change _ = V19 m outs c main_v144_1 at h
    rw [rd9_2, hres] at h
    exact (Function.update_self _ _ _).trans ((hO.o_main_v165_1 c).trans h)

theorem cc4
    (h3 : V20 m outs c main_v165_0 = Cert.ReferenceIdeal.Value.stage_main_v234 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ V20 m outs c main_v165_1 = Cert.ReferenceIdeal.Value.stage_main_v204 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    V22 m outs c main_v186_0 = Cert.ReferenceIdeal.Value.stage_main_v264 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨hx, hres⟩ := h3
  have h := final10_7 (En21 m outs) qfull c
  change _ = Cert.Spec.layerBout (V21 m outs c main_v165_0) (V21 m outs c main_v175) (V21 m outs c main_v177)
    (V21 m outs c main_v184) (V21 m outs c main_v181) (V21 m outs c main_v185) (V21 m outs c main_v165_1) at h
  rw [rd10_0, rd10_1, rd10_2, rd10_3, rd10_4, rd10_5, rd10_6, hx, hres, Cert.Spec.layerBout_ops] at h
  refine (Function.update_of_ne (StableHlo.devRef_ne_of_ne (by decide)) _ _).trans
    ((Function.update_self _ _ _).trans (((hO.o_main_v186_0 c).trans h).trans ?_))
  unfold Cert.ReferenceIdeal.Value.stage_main_v264 Cert.ReferenceIdeal.Value.stage_main_v263 Cert.ReferenceIdeal.Value.stage_main_v262 Cert.ReferenceIdeal.Value.stage_main_v257 Cert.ReferenceIdeal.Value.stage_main_v261 Cert.ReferenceIdeal.Value.stage_main_v260 Cert.ReferenceIdeal.Value.stage_main_v259 Cert.ReferenceIdeal.Value.stage_main_v258 Cert.ReferenceIdeal.Value.stage_main_v256 Cert.ReferenceIdeal.Value.stage_main_v255 Cert.ReferenceIdeal.Value.stage_main_v254 Cert.ReferenceIdeal.Value.stage_main_v253 Cert.ReferenceIdeal.Value.stage_main_v248 Cert.ReferenceIdeal.Value.stage_main_v252 Cert.ReferenceIdeal.Value.stage_main_v251 Cert.ReferenceIdeal.Value.stage_main_v250 Cert.ReferenceIdeal.Value.stage_main_v249 Cert.ReferenceIdeal.Value.stage_main_v247 Cert.ReferenceIdeal.Value.stage_main_v246 Cert.ReferenceIdeal.Value.stage_main_v245 Cert.ReferenceIdeal.Value.stage_main_v244 Cert.ReferenceIdeal.Value.stage_main_v242 Cert.ReferenceIdeal.Value.stage_main_v243 Cert.ReferenceIdeal.Value.stage_main_v241 Cert.ReferenceIdeal.Value.stage_main_v240 Cert.ReferenceIdeal.Value.stage_main_v239 Cert.ReferenceIdeal.Value.stage_main_v238 Cert.ReferenceIdeal.Value.stage_main_v237 Cert.ReferenceIdeal.Value.stage_main_v236 Cert.ReferenceIdeal.Value.stage_main_v235 Cert.ReferenceIdeal.Value.stage_main_c_20 Cert.ReferenceIdeal.Value.stage_main_c_21 Cert.ReferenceIdeal.Value.stage_main_cst_22 Cert.ReferenceIdeal.Value.stage_main_call15_v0 Cert.ReferenceIdeal.Value.stage_main_call15_cst Cert.ReferenceIdeal.Value.stage_main_call16_v0 Cert.ReferenceIdeal.Value.stage_main_call16_cst Cert.ReferenceIdeal.Value.stage_main_v140 Cert.ReferenceIdeal.Value.stage_main_v139 Cert.ReferenceIdeal.Value.stage_main_v142 Cert.ReferenceIdeal.Value.stage_main_v141
  unfold srcIdx dstIdx edgeSrc edgeDst
  rfl

theorem cc5
    (h0 : V14 m outs c main_v102 = Cert.ReferenceIdeal.Value.stage_main_v146 (m ((c : Thread nD τ).loc main_arg3)) (m ((c : Thread nD τ).loc main_arg6)) (m ((c : Thread nD τ).loc main_arg7)))
    (h1 : V16 m outs c main_v123_0 = Cert.ReferenceIdeal.Value.stage_main_v175 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (h2 : V18 m outs c main_v144_0 = Cert.ReferenceIdeal.Value.stage_main_v205 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (h3 : V20 m outs c main_v165_0 = Cert.ReferenceIdeal.Value.stage_main_v234 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (h4 : V22 m outs c main_v186_0 = Cert.ReferenceIdeal.Value.stage_main_v264 (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    V24 m outs c main_v193 = Cert.ReferenceIdeal.Value.stage_main_v277 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := final11_5 (En23 m outs) qfull c
  change _ = Cert.Spec.post (V23 m outs c main_v190) (V23 m outs c main_arg12) (V23 m outs c main_v191)
    (V23 m outs c main_arg14) (V23 m outs c main_v192) at h
  rw [rd11_0, rd11_1, rd11_2, rd11_3, rd11_4, h0, h1, h2, h3, h4, Cert.Spec.post_ops] at h
  refine (Function.update_self _ _ _).trans (((hO.o_main_v193 c).trans h).trans ?_)
  unfold Cert.ReferenceIdeal.Value.stage_main_v277 Cert.ReferenceIdeal.Value.stage_main_v274 Cert.ReferenceIdeal.Value.stage_main_v276 Cert.ReferenceIdeal.Value.stage_main_v275 Cert.ReferenceIdeal.Value.stage_main_v273 Cert.ReferenceIdeal.Value.stage_main_v272 Cert.ReferenceIdeal.Value.stage_main_v269 Cert.ReferenceIdeal.Value.stage_main_v271 Cert.ReferenceIdeal.Value.stage_main_v270 Cert.ReferenceIdeal.Value.stage_main_call17_v0 Cert.ReferenceIdeal.Value.stage_main_call17_cst Cert.ReferenceIdeal.Value.stage_main_v268 Cert.ReferenceIdeal.Value.stage_main_v266 Cert.ReferenceIdeal.Value.stage_main_v267 Cert.ReferenceIdeal.Value.stage_main_v265 Cert.ReferenceIdeal.Value.stage_main_cst_23
  rfl

end Cert.Proof.ChainCa

end
-- ==== Proof.ChainAll.lean ====
import proofs.«101247_j38388417692531_1_alg».proof.Proof.KernelIdeal.Outs
import proofs.«101247_j38388417692531_1_alg».proof.Proof.ChainQ
import proofs.«101247_j38388417692531_1_alg».proof.Proof.ChainQa
import proofs.«101247_j38388417692531_1_alg».proof.Proof.ChainQb
import proofs.«101247_j38388417692531_1_alg».proof.Proof.ChainC
import proofs.«101247_j38388417692531_1_alg».proof.Proof.ChainCa
import proofs.«101247_j38388417692531_1_alg».proof.Proof.ChainT

set_option maxRecDepth 16384

set_option maxHeartbeats 1000000

noncomputable section

namespace Cert.Proof.ChainAll

open Cert.KernelIdeal Cert.KernelIdeal.Gen Cert.KernelIdeal.Hand
open Idealize.ShloMosaic Idealize.ShloMosaic.TcCoe
open Idealize.SL Idealize.SL.Sem

variable (m : (ℓ : Loc nD τ sig) → Buf (Elt Ideal) ℓ) (c : Dev nD)

theorem steps :
    V12 m (theOuts m) c main_v96 = Cert.ReferenceIdeal.Value.stage_main_v138 (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
    ∧ V24 m (theOuts m) c main_v193 = Cert.ReferenceIdeal.Value.stage_main_v277 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hO := theOuts_ok m

  have q0 := Cert.Proof.ChainQ.cq0 m (theOuts m) hO c
  have q1 := Cert.Proof.ChainQ.cq1 m (theOuts m) hO c
  have q2 := Cert.Proof.ChainQa.cq2 m (theOuts m) hO c q1
  have q3 := Cert.Proof.ChainQa.cq3 m (theOuts m) hO c q2
  have q4 := Cert.Proof.ChainQa.cq4 m (theOuts m) hO c q3
  have q5 := Cert.Proof.ChainQb.cq5 m (theOuts m) hO c q0 q1.1 q2.1 q3.1 q4

  have r0 := Cert.Proof.ChainC.cc0 m (theOuts m) hO c
  have r1 := Cert.Proof.ChainC.cc1 m (theOuts m) hO c r0
  have r2 := Cert.Proof.ChainC.cc2 m (theOuts m) hO c r1
  have r3 := Cert.Proof.ChainCa.cc3 m (theOuts m) hO c r2
  have r4 := Cert.Proof.ChainCa.cc4 m (theOuts m) hO c r3
  have r5 := Cert.Proof.ChainCa.cc5 m (theOuts m) hO c r0 r1.1 r2.1 r3.1 r4
  exact ⟨q5, r5⟩

theorem result_all :
    V29 m (theOuts m) c main_v204 = Cert.ReferenceIdeal.Value.stage_main_v288 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  Cert.Proof.ChainT.result_eq m (theOuts m) c (steps m c).1 (steps m c).2

theorem result_res_all (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    V29 m (theOuts m) c main_v204 = Cert.ReferenceIdeal.Value.res_main_v288 m' c :=
  Cert.Proof.ChainT.result_res m (theOuts m) m' c hagree (steps m c).1 (steps m c).2

end Cert.Proof.ChainAll

end
-- ==== Proof.lean ====
import proofs.«101247_j38388417692531_1_alg».proof.Defs
import proofs.«101247_j38388417692531_1_alg».proof.Proof.Gen.Kernel
import proofs.«101247_j38388417692531_1_alg».proof.Proof.Gen.KernelIdeal
import proofs.«101247_j38388417692531_1_alg».proof.Proof.Gen.ReferenceIdeal
import proofs.«101247_j38388417692531_1_alg».proof.Proof.Gen.Pre_finite_inputs
import proofs.«101247_j38388417692531_1_alg».proof.Proof.Kernel.Whole
import proofs.«101247_j38388417692531_1_alg».proof.Proof.Kernel.Outs
import proofs.«101247_j38388417692531_1_alg».proof.Proof.KernelIdeal.Whole
import proofs.«101247_j38388417692531_1_alg».proof.Proof.KernelIdeal.Outs
import proofs.«101247_j38388417692531_1_alg».proof.Proof.ChainT
import proofs.«101247_j38388417692531_1_alg».proof.Proof.ChainAll
import proofs.«101247_j38388417692531_1_alg».proof.Proof.RefRunP
import Idealize.ShloMosaic.Adequacy
import Idealize.ShloMosaic.Init

noncomputable section

namespace Cert.Proof

open Idealize.ShloMosaic Idealize.ShloMosaic.TcCoe Idealize.SL.Sem

-- The run through the twelve regions, the contents after each region taken to be what its pipeline leaves.
theorem frame_k : Cert.frame_Kernel := fun m ρ _ =>
  Cert.Kernel.Hand.frame_of m ρ (Cert.Kernel.Hand.theOuts m) (Cert.Kernel.Hand.theOuts_ok m)

theorem frame_ki : Cert.frame_KernelIdeal := fun m ρ _ =>
  Cert.KernelIdeal.Hand.frame_of m ρ (Cert.KernelIdeal.Hand.theOuts m) (Cert.KernelIdeal.Hand.theOuts_ok m)

-- The reference's run names its result and keeps its arguments; the frame is the second half.
theorem frame_ri : Cert.frame_ReferenceIdeal := fun m ρ _ =>
  (θ_run Cert.ReferenceIdeal.defs _ _).mono (fun _ h c => (h c).2) (Cert.ReferenceIdeal.Value.run (F := Ideal) m ρ)

-- No operation was rewritten: the idealized program is the same text.
theorem preserves : Cert.preserves_Kernel_KernelIdeal := trivial

-- The kernel program's result buffer is the reference's last stage of arguments that agree.
theorem algebraic : Cert.algebraic_KernelIdeal_ReferenceIdeal := by
  intro m ρ m' ρ' _ hagree
  refine ⟨fun c => Cert.KernelIdeal.Gen.V29 m (Cert.KernelIdeal.Hand.theOuts m) c Cert.KernelIdeal.main_v204,
    Cert.KernelIdeal.Hand.value_of m ρ (Cert.KernelIdeal.Hand.theOuts m) (Cert.KernelIdeal.Hand.theOuts_ok m), ?_⟩
  refine (θ_run Cert.ReferenceIdeal.defs _ _).mono (fun _ h c => ⟨(h c).1.trans ?_, (h c).2⟩)
    (Cert.ReferenceIdeal.Value.run (F := Ideal) m' ρ')
  exact (Cert.Proof.ChainAll.result_res_all m c m' (hagree c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
